-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4096x1024 : Shape := ⟨2, ![4096, 1024]⟩
abbrev S1024 : Shape := ⟨1, ![1024]⟩
abbrev S8x512x1024 : Shape := ⟨3, ![8, 512, 1024]⟩
abbrev S4x32x128 : Shape := ⟨3, ![4, 32, 128]⟩
abbrev S8 : Shape := ⟨1, ![8]⟩
abbrev S3x8 : Shape := ⟨2, ![3, 8]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S4x128x1024 : Shape := ⟨3, ![4, 128, 1024]⟩
abbrev S4x128 : Shape := ⟨2, ![4, 128]⟩
abbrev S1x4x128 : Shape := ⟨3, ![1, 4, 128]⟩
abbrev S1x1 : Shape := ⟨2, ![1, 1]⟩
abbrev S4x128x1 : Shape := ⟨3, ![4, 128, 1]⟩
abbrev S1x1x1024 : Shape := ⟨3, ![1, 1, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .bf16⟩
  | .local _ .vmem, ⟨0, _⟩ => ⟨S1024, .f32⟩
  | .local _ .vmem, ⟨1, _⟩ => ⟨S8x512x1024, .f32⟩
  | .local _ .vmem, ⟨2, _⟩ => ⟨S8x512x1024, .bf16⟩
  | .local _ .vmem, ⟨3, _⟩ => ⟨S4x32x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v44 : BitVec 32 := Scalar.addi v2 c1_i32_35
  let c4_i32_36 : BitVec 32 := 4#32
  let c0_i32_37 : BitVec 32 := 0#32
  let v45 : BitVec 1 := Scalar.cmpi .eq c4_i32_36 c0_i32_37
  let c1_i32_38 : BitVec 32 := 1#32
  let v46 : BitVec 32 := Scalar.select v45 c1_i32_38 c4_i32_36
  let v47 : BitVec 32 := Scalar.remsi v44 v46
  let c0_i32_40 : BitVec 32 := 0#32
  let v49 : BitVec 1 := Scalar.cmpi .slt v47 c0_i32_40
  let c0_i32_41 : BitVec 32 := 0#32
  let v50 : BitVec 1 := Scalar.cmpi .slt v46 c0_i32_41
  let v51 : BitVec 1 := Scalar.xori v49 v50
  let c0_i32_39 : BitVec 32 := 0#32
  let v48 : BitVec 1 := Scalar.cmpi .ne v47 c0_i32_39
  let v52 : BitVec 1 := Scalar.andi v51 v48
  let v53 : BitVec 32 := Scalar.addi v47 v46
  let v54 : BitVec 32 := Scalar.select v52 v53 v47
  let c1_i32_43 : BitVec 32 := 1#32
  let v55 : BitVec 32 := Scalar.muli v54 c1_i32_43
  let v56 : BitVec 32 := Scalar.addi c0_i32_44 v55
  v56.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v57 : BitVec 32 := Scalar.addi v2 c2_i32_45
  let c4_i32_46 : BitVec 32 := 4#32
  let c0_i32_47 : BitVec 32 := 0#32
  let v58 : BitVec 1 := Scalar.cmpi .eq c4_i32_46 c0_i32_47
  let c1_i32_48 : BitVec 32 := 1#32
  let v59 : BitVec 32 := Scalar.select v58 c1_i32_48 c4_i32_46
  let v60 : BitVec 32 := Scalar.remsi v57 v59
  let c0_i32_50 : BitVec 32 := 0#32
  let v62 : BitVec 1 := Scalar.cmpi .slt v60 c0_i32_50
  let c0_i32_51 : BitVec 32 := 0#32
  let v63 : BitVec 1 := Scalar.cmpi .slt v59 c0_i32_51
  let v64 : BitVec 1 := Scalar.xori v62 v63
  let c0_i32_49 : BitVec 32 := 0#32
  let v61 : BitVec 1 := Scalar.cmpi .ne v60 c0_i32_49
  let v65 : BitVec 1 := Scalar.andi v64 v61
  let v66 : BitVec 32 := Scalar.addi v60 v59
  let v67 : BitVec 32 := Scalar.select v65 v66 v60
  let c1_i32_53 : BitVec 32 := 1#32
  let v68 : BitVec 32 := Scalar.muli v67 c1_i32_53
  let v69 : BitVec 32 := Scalar.addi c0_i32_54 v68
  v69.toNat
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_55 : BitVec 32 := 3#32
  let v70 : BitVec 32 := Scalar.addi v2 c3_i32_55
  let c4_i32_56 : BitVec 32 := 4#32
  let c0_i32_57 : BitVec 32 := 0#32
  let v71 : BitVec 1 := Scalar.cmpi .eq c4_i32_56 c0_i32_57
  let c1_i32_58 : BitVec 32 := 1#32
  let v72 : BitVec 32 := Scalar.select v71 c1_i32_58 c4_i32_56
  let v73 : BitVec 32 := Scalar.remsi v70 v72
  let c0_i32_60 : BitVec 32 := 0#32
  let v75 : BitVec 1 := Scalar.cmpi .slt v73 c0_i32_60
  let c0_i32_61 : BitVec 32 := 0#32
  let v76 : BitVec 1 := Scalar.cmpi .slt v72 c0_i32_61
  let v77 : BitVec 1 := Scalar.xori v75 v76
  let c0_i32_59 : BitVec 32 := 0#32
  let v74 : BitVec 1 := Scalar.cmpi .ne v73 c0_i32_59
  let v78 : BitVec 1 := Scalar.andi v77 v74
  let v79 : BitVec 32 := Scalar.addi v73 v72
  let v80 : BitVec 32 := Scalar.select v78 v79 v73
  let c1_i32_63 : BitVec 32 := 1#32
  let v81 : BitVec 32 := Scalar.muli v80 c1_i32_63
  let v82 : BitVec 32 := Scalar.addi c0_i32_64 v81
  v82.toNat
def k0_dev4 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_76 : BitVec 32 := 1#32
  let v96 : BitVec 32 := Scalar.addi v2 c1_i32_76
  let c4_i32_77 : BitVec 32 := 4#32
  let c0_i32_78 : BitVec 32 := 0#32
  let v97 : BitVec 1 := Scalar.cmpi .eq c4_i32_77 c0_i32_78
  let c1_i32_79 : BitVec 32 := 1#32
  let v98 : BitVec 32 := Scalar.select v97 c1_i32_79 c4_i32_77
  let v99 : BitVec 32 := Scalar.remsi v96 v98
  let c0_i32_81 : BitVec 32 := 0#32
  let v101 : BitVec 1 := Scalar.cmpi .slt v99 c0_i32_81
  let c0_i32_82 : BitVec 32 := 0#32
  let v102 : BitVec 1 := Scalar.cmpi .slt v98 c0_i32_82
  let v103 : BitVec 1 := Scalar.xori v101 v102
  let c0_i32_80 : BitVec 32 := 0#32
  let v100 : BitVec 1 := Scalar.cmpi .ne v99 c0_i32_80
  let v104 : BitVec 1 := Scalar.andi v103 v100
  let v105 : BitVec 32 := Scalar.addi v99 v98
  let v106 : BitVec 32 := Scalar.select v104 v105 v99
  let c1_i32_89 : BitVec 32 := 1#32
  let v107 : BitVec 32 := Scalar.muli v106 c1_i32_89
  let v108 : BitVec 32 := Scalar.addi c0_i32_90 v107
  v108.toNat
def k0_dev5 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v117 : BitVec 32 := Scalar.addi v2 c2_i32_95
  let c4_i32_96 : BitVec 32 := 4#32
  let c0_i32_97 : BitVec 32 := 0#32
  let v118 : BitVec 1 := Scalar.cmpi .eq c4_i32_96 c0_i32_97
  let c1_i32_98 : BitVec 32 := 1#32
  let v119 : BitVec 32 := Scalar.select v118 c1_i32_98 c4_i32_96
  let v120 : BitVec 32 := Scalar.remsi v117 v119
  let c0_i32_100 : BitVec 32 := 0#32
  let v122 : BitVec 1 := Scalar.cmpi .slt v120 c0_i32_100
  let c0_i32_101 : BitVec 32 := 0#32
  let v123 : BitVec 1 := Scalar.cmpi .slt v119 c0_i32_101
  let v124 : BitVec 1 := Scalar.xori v122 v123
  let c0_i32_99 : BitVec 32 := 0#32
  let v121 : BitVec 1 := Scalar.cmpi .ne v120 c0_i32_99
  let v125 : BitVec 1 := Scalar.andi v124 v121
  let v126 : BitVec 32 := Scalar.addi v120 v119
  let v127 : BitVec 32 := Scalar.select v125 v126 v120
  let c1_i32_108 : BitVec 32 := 1#32
  let v128 : BitVec 32 := Scalar.muli v127 c1_i32_108
  let v129 : BitVec 32 := Scalar.addi c0_i32_109 v128
  v129.toNat
def k0_dev6 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_114 : BitVec 32 := 3#32
  let v138 : BitVec 32 := Scalar.addi v2 c3_i32_114
  let c4_i32_115 : BitVec 32 := 4#32
  let c0_i32_116 : BitVec 32 := 0#32
  let v139 : BitVec 1 := Scalar.cmpi .eq c4_i32_115 c0_i32_116
  let c1_i32_117 : BitVec 32 := 1#32
  let v140 : BitVec 32 := Scalar.select v139 c1_i32_117 c4_i32_115
  let v141 : BitVec 32 := Scalar.remsi v138 v140
  let c0_i32_119 : BitVec 32 := 0#32
  let v143 : BitVec 1 := Scalar.cmpi .slt v141 c0_i32_119
  let c0_i32_120 : BitVec 32 := 0#32
  let v144 : BitVec 1 := Scalar.cmpi .slt v140 c0_i32_120
  let v145 : BitVec 1 := Scalar.xori v143 v144
  let c0_i32_118 : BitVec 32 := 0#32
  let v142 : BitVec 1 := Scalar.cmpi .ne v141 c0_i32_118
  let v146 : BitVec 1 := Scalar.andi v145 v142
  let v147 : BitVec 32 := Scalar.addi v141 v140
  let v148 : BitVec 32 := Scalar.select v146 v147 v141
  let c1_i32_127 : BitVec 32 := 1#32
  let v149 : BitVec 32 := Scalar.muli v148 c1_i32_127
  let v150 : BitVec 32 := Scalar.addi c0_i32_128 v149
  v150.toNat
def k0_dev7 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_144 : BitVec 32 := 1#32
  let v172 : BitVec 32 := Scalar.addi v2 c1_i32_144
  let c4_i32_145 : BitVec 32 := 4#32
  let c0_i32_146 : BitVec 32 := 0#32
  let v173 : BitVec 1 := Scalar.cmpi .eq c4_i32_145 c0_i32_146
  let c1_i32_147 : BitVec 32 := 1#32
  let v174 : BitVec 32 := Scalar.select v173 c1_i32_147 c4_i32_145
  let v175 : BitVec 32 := Scalar.remsi v172 v174
  let c0_i32_149 : BitVec 32 := 0#32
  let v177 : BitVec 1 := Scalar.cmpi .slt v175 c0_i32_149
  let c0_i32_150 : BitVec 32 := 0#32
  let v178 : BitVec 1 := Scalar.cmpi .slt v174 c0_i32_150
  let v179 : BitVec 1 := Scalar.xori v177 v178
  let c0_i32_148 : BitVec 32 := 0#32
  let v176 : BitVec 1 := Scalar.cmpi .ne v175 c0_i32_148
  let v180 : BitVec 1 := Scalar.andi v179 v176
  let v181 : BitVec 32 := Scalar.addi v175 v174
  let v182 : BitVec 32 := Scalar.select v180 v181 v175
  let c1_i32_157 : BitVec 32 := 1#32
  let v183 : BitVec 32 := Scalar.muli v182 c1_i32_157
  let v184 : BitVec 32 := Scalar.addi c0_i32_158 v183
  v184.toNat
def k0_dev8 (d0 : Dev nD) : Nat :=
  let c0_i32_177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_163 : BitVec 32 := 2#32
  let v193 : BitVec 32 := Scalar.addi v2 c2_i32_163
  let c4_i32_164 : BitVec 32 := 4#32
  let c0_i32_165 : BitVec 32 := 0#32
  let v194 : BitVec 1 := Scalar.cmpi .eq c4_i32_164 c0_i32_165
  let c1_i32_166 : BitVec 32 := 1#32
  let v195 : BitVec 32 := Scalar.select v194 c1_i32_166 c4_i32_164
  let v196 : BitVec 32 := Scalar.remsi v193 v195
  let c0_i32_168 : BitVec 32 := 0#32
  let v198 : BitVec 1 := Scalar.cmpi .slt v196 c0_i32_168
  let c0_i32_169 : BitVec 32 := 0#32
  let v199 : BitVec 1 := Scalar.cmpi .slt v195 c0_i32_169
  let v200 : BitVec 1 := Scalar.xori v198 v199
  let c0_i32_167 : BitVec 32 := 0#32
  let v197 : BitVec 1 := Scalar.cmpi .ne v196 c0_i32_167
  let v201 : BitVec 1 := Scalar.andi v200 v197
  let v202 : BitVec 32 := Scalar.addi v196 v195
  let v203 : BitVec 32 := Scalar.select v201 v202 v196
  let c1_i32_176 : BitVec 32 := 1#32
  let v204 : BitVec 32 := Scalar.muli v203 c1_i32_176
  let v205 : BitVec 32 := Scalar.addi c0_i32_177 v204
  v205.toNat
def k0_dev9 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_182 : BitVec 32 := 3#32
  let v214 : BitVec 32 := Scalar.addi v2 c3_i32_182
  let c4_i32_183 : BitVec 32 := 4#32
  let c0_i32_184 : BitVec 32 := 0#32
  let v215 : BitVec 1 := Scalar.cmpi .eq c4_i32_183 c0_i32_184
  let c1_i32_185 : BitVec 32 := 1#32
  let v216 : BitVec 32 := Scalar.select v215 c1_i32_185 c4_i32_183
  let v217 : BitVec 32 := Scalar.remsi v214 v216
  let c0_i32_187 : BitVec 32 := 0#32
  let v219 : BitVec 1 := Scalar.cmpi .slt v217 c0_i32_187
  let c0_i32_188 : BitVec 32 := 0#32
  let v220 : BitVec 1 := Scalar.cmpi .slt v216 c0_i32_188
  let v221 : BitVec 1 := Scalar.xori v219 v220
  let c0_i32_186 : BitVec 32 := 0#32
  let v218 : BitVec 1 := Scalar.cmpi .ne v217 c0_i32_186
  let v222 : BitVec 1 := Scalar.andi v221 v218
  let v223 : BitVec 32 := Scalar.addi v217 v216
  let v224 : BitVec 32 := Scalar.select v222 v223 v217
  let c1_i32_195 : BitVec 32 := 1#32
  let v225 : BitVec 32 := Scalar.muli v224 c1_i32_195
  let v226 : BitVec 32 := Scalar.addi c0_i32_196 v225
  v226.toNat
def k0_dev10 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_212 : BitVec 32 := 1#32
  let v248 : BitVec 32 := Scalar.addi v2 c1_i32_212
  let c4_i32_213 : BitVec 32 := 4#32
  let c0_i32_214 : BitVec 32 := 0#32
  let v249 : BitVec 1 := Scalar.cmpi .eq c4_i32_213 c0_i32_214
  let c1_i32_215 : BitVec 32 := 1#32
  let v250 : BitVec 32 := Scalar.select v249 c1_i32_215 c4_i32_213
  let v251 : BitVec 32 := Scalar.remsi v248 v250
  let c0_i32_217 : BitVec 32 := 0#32
  let v253 : BitVec 1 := Scalar.cmpi .slt v251 c0_i32_217
  let c0_i32_218 : BitVec 32 := 0#32
  let v254 : BitVec 1 := Scalar.cmpi .slt v250 c0_i32_218
  let v255 : BitVec 1 := Scalar.xori v253 v254
  let c0_i32_216 : BitVec 32 := 0#32
  let v252 : BitVec 1 := Scalar.cmpi .ne v251 c0_i32_216
  let v256 : BitVec 1 := Scalar.andi v255 v252
  let v257 : BitVec 32 := Scalar.addi v251 v250
  let v258 : BitVec 32 := Scalar.select v256 v257 v251
  let c1_i32_225 : BitVec 32 := 1#32
  let v259 : BitVec 32 := Scalar.muli v258 c1_i32_225
  let v260 : BitVec 32 := Scalar.addi c0_i32_226 v259
  v260.toNat
def k0_dev11 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_230 : BitVec 32 := 2#32
  let v269 : BitVec 32 := Scalar.addi v2 c2_i32_230
  let c4_i32_231 : BitVec 32 := 4#32
  let c0_i32_232 : BitVec 32 := 0#32
  let v270 : BitVec 1 := Scalar.cmpi .eq c4_i32_231 c0_i32_232
  let c1_i32_233 : BitVec 32 := 1#32
  let v271 : BitVec 32 := Scalar.select v270 c1_i32_233 c4_i32_231
  let v272 : BitVec 32 := Scalar.remsi v269 v271
  let c0_i32_235 : BitVec 32 := 0#32
  let v274 : BitVec 1 := Scalar.cmpi .slt v272 c0_i32_235
  let c0_i32_236 : BitVec 32 := 0#32
  let v275 : BitVec 1 := Scalar.cmpi .slt v271 c0_i32_236
  let v276 : BitVec 1 := Scalar.xori v274 v275
  let c0_i32_234 : BitVec 32 := 0#32
  let v273 : BitVec 1 := Scalar.cmpi .ne v272 c0_i32_234
  let v277 : BitVec 1 := Scalar.andi v276 v273
  let v278 : BitVec 32 := Scalar.addi v272 v271
  let v279 : BitVec 32 := Scalar.select v277 v278 v272
  let c1_i32_243 : BitVec 32 := 1#32
  let v280 : BitVec 32 := Scalar.muli v279 c1_i32_243
  let v281 : BitVec 32 := Scalar.addi c0_i32_244 v280
  v281.toNat
def k0_dev12 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_249 : BitVec 32 := 3#32
  let v290 : BitVec 32 := Scalar.addi v2 c3_i32_249
  let c4_i32_250 : BitVec 32 := 4#32
  let c0_i32_251 : BitVec 32 := 0#32
  let v291 : BitVec 1 := Scalar.cmpi .eq c4_i32_250 c0_i32_251
  let c1_i32_252 : BitVec 32 := 1#32
  let v292 : BitVec 32 := Scalar.select v291 c1_i32_252 c4_i32_250
  let v293 : BitVec 32 := Scalar.remsi v290 v292
  let c0_i32_254 : BitVec 32 := 0#32
  let v295 : BitVec 1 := Scalar.cmpi .slt v293 c0_i32_254
  let c0_i32_255 : BitVec 32 := 0#32
  let v296 : BitVec 1 := Scalar.cmpi .slt v292 c0_i32_255
  let v297 : BitVec 1 := Scalar.xori v295 v296
  let c0_i32_253 : BitVec 32 := 0#32
  let v294 : BitVec 1 := Scalar.cmpi .ne v293 c0_i32_253
  let v298 : BitVec 1 := Scalar.andi v297 v294
  let v299 : BitVec 32 := Scalar.addi v293 v292
  let v300 : BitVec 32 := Scalar.select v298 v299 v293
  let c1_i32_262 : BitVec 32 := 1#32
  let v301 : BitVec 32 := Scalar.muli v300 c1_i32_262
  let v302 : BitVec 32 := Scalar.addi c0_i32_263 v301
  v302.toNat
def k0_dev13 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_280 : BitVec 32 := 1#32
  let v324 : BitVec 32 := Scalar.addi v2 c1_i32_280
  let c4_i32_281 : BitVec 32 := 4#32
  let c0_i32_282 : BitVec 32 := 0#32
  let v325 : BitVec 1 := Scalar.cmpi .eq c4_i32_281 c0_i32_282
  let c1_i32_283 : BitVec 32 := 1#32
  let v326 : BitVec 32 := Scalar.select v325 c1_i32_283 c4_i32_281
  let v327 : BitVec 32 := Scalar.remsi v324 v326
  let c0_i32_285 : BitVec 32 := 0#32
  let v329 : BitVec 1 := Scalar.cmpi .slt v327 c0_i32_285
  let c0_i32_286 : BitVec 32 := 0#32
  let v330 : BitVec 1 := Scalar.cmpi .slt v326 c0_i32_286
  let v331 : BitVec 1 := Scalar.xori v329 v330
  let c0_i32_284 : BitVec 32 := 0#32
  let v328 : BitVec 1 := Scalar.cmpi .ne v327 c0_i32_284
  let v332 : BitVec 1 := Scalar.andi v331 v328
  let v333 : BitVec 32 := Scalar.addi v327 v326
  let v334 : BitVec 32 := Scalar.select v332 v333 v327
  let c1_i32_293 : BitVec 32 := 1#32
  let v335 : BitVec 32 := Scalar.muli v334 c1_i32_293
  let v336 : BitVec 32 := Scalar.addi c0_i32_294 v335
  v336.toNat
def k0_dev14 (d0 : Dev nD) : Nat :=
  let c0_i32_312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_298 : BitVec 32 := 2#32
  let v345 : BitVec 32 := Scalar.addi v2 c2_i32_298
  let c4_i32_299 : BitVec 32 := 4#32
  let c0_i32_300 : BitVec 32 := 0#32
  let v346 : BitVec 1 := Scalar.cmpi .eq c4_i32_299 c0_i32_300
  let c1_i32_301 : BitVec 32 := 1#32
  let v347 : BitVec 32 := Scalar.select v346 c1_i32_301 c4_i32_299
  let v348 : BitVec 32 := Scalar.remsi v345 v347
  let c0_i32_303 : BitVec 32 := 0#32
  let v350 : BitVec 1 := Scalar.cmpi .slt v348 c0_i32_303
  let c0_i32_304 : BitVec 32 := 0#32
  let v351 : BitVec 1 := Scalar.cmpi .slt v347 c0_i32_304
  let v352 : BitVec 1 := Scalar.xori v350 v351
  let c0_i32_302 : BitVec 32 := 0#32
  let v349 : BitVec 1 := Scalar.cmpi .ne v348 c0_i32_302
  let v353 : BitVec 1 := Scalar.andi v352 v349
  let v354 : BitVec 32 := Scalar.addi v348 v347
  let v355 : BitVec 32 := Scalar.select v353 v354 v348
  let c1_i32_311 : BitVec 32 := 1#32
  let v356 : BitVec 32 := Scalar.muli v355 c1_i32_311
  let v357 : BitVec 32 := Scalar.addi c0_i32_312 v356
  v357.toNat
def k0_dev15 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_317 : BitVec 32 := 3#32
  let v366 : BitVec 32 := Scalar.addi v2 c3_i32_317
  let c4_i32_318 : BitVec 32 := 4#32
  let c0_i32_319 : BitVec 32 := 0#32
  let v367 : BitVec 1 := Scalar.cmpi .eq c4_i32_318 c0_i32_319
  let c1_i32_320 : BitVec 32 := 1#32
  let v368 : BitVec 32 := Scalar.select v367 c1_i32_320 c4_i32_318
  let v369 : BitVec 32 := Scalar.remsi v366 v368
  let c0_i32_322 : BitVec 32 := 0#32
  let v371 : BitVec 1 := Scalar.cmpi .slt v369 c0_i32_322
  let c0_i32_323 : BitVec 32 := 0#32
  let v372 : BitVec 1 := Scalar.cmpi .slt v368 c0_i32_323
  let v373 : BitVec 1 := Scalar.xori v371 v372
  let c0_i32_321 : BitVec 32 := 0#32
  let v370 : BitVec 1 := Scalar.cmpi .ne v369 c0_i32_321
  let v374 : BitVec 1 := Scalar.andi v373 v370
  let v375 : BitVec 32 := Scalar.addi v369 v368
  let v376 : BitVec 32 := Scalar.select v374 v375 v369
  let c1_i32_330 : BitVec 32 := 1#32
  let v377 : BitVec 32 := Scalar.muli v376 c1_i32_330
  let v378 : BitVec 32 := Scalar.addi c0_i32_331 v377
  v378.toNat
def k0_dev16 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_348 : BitVec 32 := 1#32
  let v400 : BitVec 32 := Scalar.addi v2 c1_i32_348
  let c4_i32_349 : BitVec 32 := 4#32
  let c0_i32_350 : BitVec 32 := 0#32
  let v401 : BitVec 1 := Scalar.cmpi .eq c4_i32_349 c0_i32_350
  let c1_i32_351 : BitVec 32 := 1#32
  let v402 : BitVec 32 := Scalar.select v401 c1_i32_351 c4_i32_349
  let v403 : BitVec 32 := Scalar.remsi v400 v402
  let c0_i32_353 : BitVec 32 := 0#32
  let v405 : BitVec 1 := Scalar.cmpi .slt v403 c0_i32_353
  let c0_i32_354 : BitVec 32 := 0#32
  let v406 : BitVec 1 := Scalar.cmpi .slt v402 c0_i32_354
  let v407 : BitVec 1 := Scalar.xori v405 v406
  let c0_i32_352 : BitVec 32 := 0#32
  let v404 : BitVec 1 := Scalar.cmpi .ne v403 c0_i32_352
  let v408 : BitVec 1 := Scalar.andi v407 v404
  let v409 : BitVec 32 := Scalar.addi v403 v402
  let v410 : BitVec 32 := Scalar.select v408 v409 v403
  let c1_i32_361 : BitVec 32 := 1#32
  let v411 : BitVec 32 := Scalar.muli v410 c1_i32_361
  let v412 : BitVec 32 := Scalar.addi c0_i32_362 v411
  v412.toNat
def k0_dev17 (d0 : Dev nD) : Nat :=
  let c0_i32_380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_366 : BitVec 32 := 2#32
  let v421 : BitVec 32 := Scalar.addi v2 c2_i32_366
  let c4_i32_367 : BitVec 32 := 4#32
  let c0_i32_368 : BitVec 32 := 0#32
  let v422 : BitVec 1 := Scalar.cmpi .eq c4_i32_367 c0_i32_368
  let c1_i32_369 : BitVec 32 := 1#32
  let v423 : BitVec 32 := Scalar.select v422 c1_i32_369 c4_i32_367
  let v424 : BitVec 32 := Scalar.remsi v421 v423
  let c0_i32_371 : BitVec 32 := 0#32
  let v426 : BitVec 1 := Scalar.cmpi .slt v424 c0_i32_371
  let c0_i32_372 : BitVec 32 := 0#32
  let v427 : BitVec 1 := Scalar.cmpi .slt v423 c0_i32_372
  let v428 : BitVec 1 := Scalar.xori v426 v427
  let c0_i32_370 : BitVec 32 := 0#32
  let v425 : BitVec 1 := Scalar.cmpi .ne v424 c0_i32_370
  let v429 : BitVec 1 := Scalar.andi v428 v425
  let v430 : BitVec 32 := Scalar.addi v424 v423
  let v431 : BitVec 32 := Scalar.select v429 v430 v424
  let c1_i32_379 : BitVec 32 := 1#32
  let v432 : BitVec 32 := Scalar.muli v431 c1_i32_379
  let v433 : BitVec 32 := Scalar.addi c0_i32_380 v432
  v433.toNat
def k0_dev18 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_385 : BitVec 32 := 3#32
  let v442 : BitVec 32 := Scalar.addi v2 c3_i32_385
  let c4_i32_386 : BitVec 32 := 4#32
  let c0_i32_387 : BitVec 32 := 0#32
  let v443 : BitVec 1 := Scalar.cmpi .eq c4_i32_386 c0_i32_387
  let c1_i32_388 : BitVec 32 := 1#32
  let v444 : BitVec 32 := Scalar.select v443 c1_i32_388 c4_i32_386
  let v445 : BitVec 32 := Scalar.remsi v442 v444
  let c0_i32_390 : BitVec 32 := 0#32
  let v447 : BitVec 1 := Scalar.cmpi .slt v445 c0_i32_390
  let c0_i32_391 : BitVec 32 := 0#32
  let v448 : BitVec 1 := Scalar.cmpi .slt v444 c0_i32_391
  let v449 : BitVec 1 := Scalar.xori v447 v448
  let c0_i32_389 : BitVec 32 := 0#32
  let v446 : BitVec 1 := Scalar.cmpi .ne v445 c0_i32_389
  let v450 : BitVec 1 := Scalar.andi v449 v446
  let v451 : BitVec 32 := Scalar.addi v445 v444
  let v452 : BitVec 32 := Scalar.select v450 v451 v445
  let c1_i32_398 : BitVec 32 := 1#32
  let v453 : BitVec 32 := Scalar.muli v452 c1_i32_398
  let v454 : BitVec 32 := Scalar.addi c0_i32_399 v453
  v454.toNat
def k0_dev19 (d0 : Dev nD) : Nat :=
  let c0_i32_429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_415 : BitVec 32 := 1#32
  let v476 : BitVec 32 := Scalar.addi v2 c1_i32_415
  let c4_i32_416 : BitVec 32 := 4#32
  let c0_i32_417 : BitVec 32 := 0#32
  let v477 : BitVec 1 := Scalar.cmpi .eq c4_i32_416 c0_i32_417
  let c1_i32_418 : BitVec 32 := 1#32
  let v478 : BitVec 32 := Scalar.select v477 c1_i32_418 c4_i32_416
  let v479 : BitVec 32 := Scalar.remsi v476 v478
  let c0_i32_420 : BitVec 32 := 0#32
  let v481 : BitVec 1 := Scalar.cmpi .slt v479 c0_i32_420
  let c0_i32_421 : BitVec 32 := 0#32
  let v482 : BitVec 1 := Scalar.cmpi .slt v478 c0_i32_421
  let v483 : BitVec 1 := Scalar.xori v481 v482
  let c0_i32_419 : BitVec 32 := 0#32
  let v480 : BitVec 1 := Scalar.cmpi .ne v479 c0_i32_419
  let v484 : BitVec 1 := Scalar.andi v483 v480
  let v485 : BitVec 32 := Scalar.addi v479 v478
  let v486 : BitVec 32 := Scalar.select v484 v485 v479
  let c1_i32_428 : BitVec 32 := 1#32
  let v487 : BitVec 32 := Scalar.muli v486 c1_i32_428
  let v488 : BitVec 32 := Scalar.addi c0_i32_429 v487
  v488.toNat
def k0_dev20 (d0 : Dev nD) : Nat :=
  let c0_i32_447 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_433 : BitVec 32 := 2#32
  let v497 : BitVec 32 := Scalar.addi v2 c2_i32_433
  let c4_i32_434 : BitVec 32 := 4#32
  let c0_i32_435 : BitVec 32 := 0#32
  let v498 : BitVec 1 := Scalar.cmpi .eq c4_i32_434 c0_i32_435
  let c1_i32_436 : BitVec 32 := 1#32
  let v499 : BitVec 32 := Scalar.select v498 c1_i32_436 c4_i32_434
  let v500 : BitVec 32 := Scalar.remsi v497 v499
  let c0_i32_438 : BitVec 32 := 0#32
  let v502 : BitVec 1 := Scalar.cmpi .slt v500 c0_i32_438
  let c0_i32_439 : BitVec 32 := 0#32
  let v503 : BitVec 1 := Scalar.cmpi .slt v499 c0_i32_439
  let v504 : BitVec 1 := Scalar.xori v502 v503
  let c0_i32_437 : BitVec 32 := 0#32
  let v501 : BitVec 1 := Scalar.cmpi .ne v500 c0_i32_437
  let v505 : BitVec 1 := Scalar.andi v504 v501
  let v506 : BitVec 32 := Scalar.addi v500 v499
  let v507 : BitVec 32 := Scalar.select v505 v506 v500
  let c1_i32_446 : BitVec 32 := 1#32
  let v508 : BitVec 32 := Scalar.muli v507 c1_i32_446
  let v509 : BitVec 32 := Scalar.addi c0_i32_447 v508
  v509.toNat
def k0_dev21 (d0 : Dev nD) : Nat :=
  let c0_i32_466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_452 : BitVec 32 := 3#32
  let v518 : BitVec 32 := Scalar.addi v2 c3_i32_452
  let c4_i32_453 : BitVec 32 := 4#32
  let c0_i32_454 : BitVec 32 := 0#32
  let v519 : BitVec 1 := Scalar.cmpi .eq c4_i32_453 c0_i32_454
  let c1_i32_455 : BitVec 32 := 1#32
  let v520 : BitVec 32 := Scalar.select v519 c1_i32_455 c4_i32_453
  let v521 : BitVec 32 := Scalar.remsi v518 v520
  let c0_i32_457 : BitVec 32 := 0#32
  let v523 : BitVec 1 := Scalar.cmpi .slt v521 c0_i32_457
  let c0_i32_458 : BitVec 32 := 0#32
  let v524 : BitVec 1 := Scalar.cmpi .slt v520 c0_i32_458
  let v525 : BitVec 1 := Scalar.xori v523 v524
  let c0_i32_456 : BitVec 32 := 0#32
  let v522 : BitVec 1 := Scalar.cmpi .ne v521 c0_i32_456
  let v526 : BitVec 1 := Scalar.andi v525 v522
  let v527 : BitVec 32 := Scalar.addi v521 v520
  let v528 : BitVec 32 := Scalar.select v526 v527 v521
  let c1_i32_465 : BitVec 32 := 1#32
  let v529 : BitVec 32 := Scalar.muli v528 c1_i32_465
  let v530 : BitVec 32 := Scalar.addi c0_i32_466 v529
  v530.toNat
def k0_dev22 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_482 : BitVec 32 := 1#32
  let v552 : BitVec 32 := Scalar.addi v2 c1_i32_482
  let c4_i32_483 : BitVec 32 := 4#32
  let c0_i32_484 : BitVec 32 := 0#32
  let v553 : BitVec 1 := Scalar.cmpi .eq c4_i32_483 c0_i32_484
  let c1_i32_485 : BitVec 32 := 1#32
  let v554 : BitVec 32 := Scalar.select v553 c1_i32_485 c4_i32_483
  let v555 : BitVec 32 := Scalar.remsi v552 v554
  let c0_i32_487 : BitVec 32 := 0#32
  let v557 : BitVec 1 := Scalar.cmpi .slt v555 c0_i32_487
  let c0_i32_488 : BitVec 32 := 0#32
  let v558 : BitVec 1 := Scalar.cmpi .slt v554 c0_i32_488
  let v559 : BitVec 1 := Scalar.xori v557 v558
  let c0_i32_486 : BitVec 32 := 0#32
  let v556 : BitVec 1 := Scalar.cmpi .ne v555 c0_i32_486
  let v560 : BitVec 1 := Scalar.andi v559 v556
  let v561 : BitVec 32 := Scalar.addi v555 v554
  let v562 : BitVec 32 := Scalar.select v560 v561 v555
  let c1_i32_495 : BitVec 32 := 1#32
  let v563 : BitVec 32 := Scalar.muli v562 c1_i32_495
  let v564 : BitVec 32 := Scalar.addi c0_i32_496 v563
  v564.toNat
def k0_dev23 (d0 : Dev nD) : Nat :=
  let c0_i32_514 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_500 : BitVec 32 := 2#32
  let v573 : BitVec 32 := Scalar.addi v2 c2_i32_500
  let c4_i32_501 : BitVec 32 := 4#32
  let c0_i32_502 : BitVec 32 := 0#32
  let v574 : BitVec 1 := Scalar.cmpi .eq c4_i32_501 c0_i32_502
  let c1_i32_503 : BitVec 32 := 1#32
  let v575 : BitVec 32 := Scalar.select v574 c1_i32_503 c4_i32_501
  let v576 : BitVec 32 := Scalar.remsi v573 v575
  let c0_i32_505 : BitVec 32 := 0#32
  let v578 : BitVec 1 := Scalar.cmpi .slt v576 c0_i32_505
  let c0_i32_506 : BitVec 32 := 0#32
  let v579 : BitVec 1 := Scalar.cmpi .slt v575 c0_i32_506
  let v580 : BitVec 1 := Scalar.xori v578 v579
  let c0_i32_504 : BitVec 32 := 0#32
  let v577 : BitVec 1 := Scalar.cmpi .ne v576 c0_i32_504
  let v581 : BitVec 1 := Scalar.andi v580 v577
  let v582 : BitVec 32 := Scalar.addi v576 v575
  let v583 : BitVec 32 := Scalar.select v581 v582 v576
  let c1_i32_513 : BitVec 32 := 1#32
  let v584 : BitVec 32 := Scalar.muli v583 c1_i32_513
  let v585 : BitVec 32 := Scalar.addi c0_i32_514 v584
  v585.toNat
def k0_dev24 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_519 : BitVec 32 := 3#32
  let v594 : BitVec 32 := Scalar.addi v2 c3_i32_519
  let c4_i32_520 : BitVec 32 := 4#32
  let c0_i32_521 : BitVec 32 := 0#32
  let v595 : BitVec 1 := Scalar.cmpi .eq c4_i32_520 c0_i32_521
  let c1_i32_522 : BitVec 32 := 1#32
  let v596 : BitVec 32 := Scalar.select v595 c1_i32_522 c4_i32_520
  let v597 : BitVec 32 := Scalar.remsi v594 v596
  let c0_i32_524 : BitVec 32 := 0#32
  let v599 : BitVec 1 := Scalar.cmpi .slt v597 c0_i32_524
  let c0_i32_525 : BitVec 32 := 0#32
  let v600 : BitVec 1 := Scalar.cmpi .slt v596 c0_i32_525
  let v601 : BitVec 1 := Scalar.xori v599 v600
  let c0_i32_523 : BitVec 32 := 0#32
  let v598 : BitVec 1 := Scalar.cmpi .ne v597 c0_i32_523
  let v602 : BitVec 1 := Scalar.andi v601 v598
  let v603 : BitVec 32 := Scalar.addi v597 v596
  let v604 : BitVec 32 := Scalar.select v602 v603 v597
  let c1_i32_532 : BitVec 32 := 1#32
  let v605 : BitVec 32 := Scalar.muli v604 c1_i32_532
  let v606 : BitVec 32 := Scalar.addi c0_i32_533 v605
  v606.toNat
def k0_dev25 (d0 : Dev nD) : Nat :=
  let c0_i32_563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_549 : BitVec 32 := 1#32
  let v628 : BitVec 32 := Scalar.addi v2 c1_i32_549
  let c4_i32_550 : BitVec 32 := 4#32
  let c0_i32_551 : BitVec 32 := 0#32
  let v629 : BitVec 1 := Scalar.cmpi .eq c4_i32_550 c0_i32_551
  let c1_i32_552 : BitVec 32 := 1#32
  let v630 : BitVec 32 := Scalar.select v629 c1_i32_552 c4_i32_550
  let v631 : BitVec 32 := Scalar.remsi v628 v630
  let c0_i32_554 : BitVec 32 := 0#32
  let v633 : BitVec 1 := Scalar.cmpi .slt v631 c0_i32_554
  let c0_i32_555 : BitVec 32 := 0#32
  let v634 : BitVec 1 := Scalar.cmpi .slt v630 c0_i32_555
  let v635 : BitVec 1 := Scalar.xori v633 v634
  let c0_i32_553 : BitVec 32 := 0#32
  let v632 : BitVec 1 := Scalar.cmpi .ne v631 c0_i32_553
  let v636 : BitVec 1 := Scalar.andi v635 v632
  let v637 : BitVec 32 := Scalar.addi v631 v630
  let v638 : BitVec 32 := Scalar.select v636 v637 v631
  let c1_i32_562 : BitVec 32 := 1#32
  let v639 : BitVec 32 := Scalar.muli v638 c1_i32_562
  let v640 : BitVec 32 := Scalar.addi c0_i32_563 v639
  v640.toNat
def k0_dev26 (d0 : Dev nD) : Nat :=
  let c0_i32_581 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_567 : BitVec 32 := 2#32
  let v649 : BitVec 32 := Scalar.addi v2 c2_i32_567
  let c4_i32_568 : BitVec 32 := 4#32
  let c0_i32_569 : BitVec 32 := 0#32
  let v650 : BitVec 1 := Scalar.cmpi .eq c4_i32_568 c0_i32_569
  let c1_i32_570 : BitVec 32 := 1#32
  let v651 : BitVec 32 := Scalar.select v650 c1_i32_570 c4_i32_568
  let v652 : BitVec 32 := Scalar.remsi v649 v651
  let c0_i32_572 : BitVec 32 := 0#32
  let v654 : BitVec 1 := Scalar.cmpi .slt v652 c0_i32_572
  let c0_i32_573 : BitVec 32 := 0#32
  let v655 : BitVec 1 := Scalar.cmpi .slt v651 c0_i32_573
  let v656 : BitVec 1 := Scalar.xori v654 v655
  let c0_i32_571 : BitVec 32 := 0#32
  let v653 : BitVec 1 := Scalar.cmpi .ne v652 c0_i32_571
  let v657 : BitVec 1 := Scalar.andi v656 v653
  let v658 : BitVec 32 := Scalar.addi v652 v651
  let v659 : BitVec 32 := Scalar.select v657 v658 v652
  let c1_i32_580 : BitVec 32 := 1#32
  let v660 : BitVec 32 := Scalar.muli v659 c1_i32_580
  let v661 : BitVec 32 := Scalar.addi c0_i32_581 v660
  v661.toNat
def k0_dev27 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_586 : BitVec 32 := 3#32
  let v670 : BitVec 32 := Scalar.addi v2 c3_i32_586
  let c4_i32_587 : BitVec 32 := 4#32
  let c0_i32_588 : BitVec 32 := 0#32
  let v671 : BitVec 1 := Scalar.cmpi .eq c4_i32_587 c0_i32_588
  let c1_i32_589 : BitVec 32 := 1#32
  let v672 : BitVec 32 := Scalar.select v671 c1_i32_589 c4_i32_587
  let v673 : BitVec 32 := Scalar.remsi v670 v672
  let c0_i32_591 : BitVec 32 := 0#32
  let v675 : BitVec 1 := Scalar.cmpi .slt v673 c0_i32_591
  let c0_i32_592 : BitVec 32 := 0#32
  let v676 : BitVec 1 := Scalar.cmpi .slt v672 c0_i32_592
  let v677 : BitVec 1 := Scalar.xori v675 v676
  let c0_i32_590 : BitVec 32 := 0#32
  let v674 : BitVec 1 := Scalar.cmpi .ne v673 c0_i32_590
  let v678 : BitVec 1 := Scalar.andi v677 v674
  let v679 : BitVec 32 := Scalar.addi v673 v672
  let v680 : BitVec 32 := Scalar.select v678 v679 v673
  let c1_i32_599 : BitVec 32 := 1#32
  let v681 : BitVec 32 := Scalar.muli v680 c1_i32_599
  let v682 : BitVec 32 := Scalar.addi c0_i32_600 v681
  v682.toNat
abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S8_S1_0 : ∀ a, (![0] : Fin 1 → Nat) a + S1.size a ≤ S8.size a
  squeezes_S1_S_ : S1.Squeezes S_
  inb_S8x512x1024_S1x512x1024_0_0_0 : ∀ a, (![0, 0, 0] : Fin 3 → Nat) a + S1x512x1024.size a ≤ S8x512x1024.size a
  squeezes_S1x512x1024_S512x1024 : S1x512x1024.Squeezes S512x1024
  inb_S4096x1024_S512x1024_0_0 : ∀ a, (![0, 0] : Fin 2 → Nat) a + S512x1024.size a ≤ S4096x1024.size a
  inb_S8_S1_1 : ∀ a, (![1] : Fin 1 → Nat) a + S1.size a ≤ S8.size a
  inb_S8x512x1024_S1x512x1024_1_0_0 : ∀ a, (![1, 0, 0] : Fin 3 → Nat) a + S1x512x1024.size a ≤ S8x512x1024.size a
  inb_S4096x1024_S512x1024_512_0 : ∀ a, (![512, 0] : Fin 2 → Nat) a + S512x1024.size a ≤ S4096x1024.size a
  inb_S8_S1_2 : ∀ a, (![2] : Fin 1 → Nat) a + S1.size a ≤ S8.size a
  inb_S8x512x1024_S1x512x1024_2_0_0 : ∀ a, (![2, 0, 0] : Fin 3 → Nat) a + S1x512x1024.size a ≤ S8x512x1024.size a
  inb_S4096x1024_S512x1024_1024_0 : ∀ a, (![1024, 0] : Fin 2 → Nat) a + S512x1024.size a ≤ S4096x1024.size a
  inb_S8_S1_3 : ∀ a, (![3] : Fin 1 → Nat) a + S1.size a ≤ S8.size a
  inb_S8x512x1024_S1x512x1024_3_0_0 : ∀ a, (![3, 0, 0] : Fin 3 → Nat) a + S1x512x1024.size a ≤ S8x512x1024.size a
  inb_S4096x1024_S512x1024_1536_0 : ∀ a, (![1536, 0] : Fin 2 → Nat) a + S512x1024.size a ≤ S4096x1024.size a
  inb_S8_S1_4 : ∀ a, (![4] : Fin 1 → Nat) a + S1.size a ≤ S8.size a
  inb_S8x512x1024_S1x512x1024_4_0_0 : ∀ a, (![4, 0, 0] : Fin 3 → Nat) a + S1x512x1024.size a ≤ S8x512x1024.size a
  inb_S4096x1024_S512x1024_2048_0 : ∀ a, (![2048, 0] : Fin 2 → Nat) a + S512x1024.size a ≤ S4096x1024.size a
  inb_S8_S1_5 : ∀ a, (![5] : Fin 1 → Nat) a + S1.size a ≤ S8.size a
  inb_S8x512x1024_S1x512x1024_5_0_0 : ∀ a, (![5, 0, 0] : Fin 3 → Nat) a + S1x512x1024.size a ≤ S8x512x1024.size a
  inb_S4096x1024_S512x1024_2560_0 : ∀ a, (![2560, 0] : Fin 2 → Nat) a + S512x1024.size a ≤ S4096x1024.size a
  inb_S8_S1_6 : ∀ a, (![6] : Fin 1 → Nat) a + S1.size a ≤ S8.size a
  inb_S8x512x1024_S1x512x1024_6_0_0 : ∀ a, (![6, 0, 0] : Fin 3 → Nat) a + S1x512x1024.size a ≤ S8x512x1024.size a
  inb_S4096x1024_S512x1024_3072_0 : ∀ a, (![3072, 0] : Fin 2 → Nat) a + S512x1024.size a ≤ S4096x1024.size a
  inb_S8_S1_7 : ∀ a, (![7] : Fin 1 → Nat) a + S1.size a ≤ S8.size a
  inb_S8x512x1024_S1x512x1024_7_0_0 : ∀ a, (![7, 0, 0] : Fin 3 → Nat) a + S1x512x1024.size a ≤ S8x512x1024.size a
  inb_S4096x1024_S512x1024_3584_0 : ∀ a, (![3584, 0] : Fin 2 → Nat) a + S512x1024.size a ≤ S4096x1024.size a
  hamt_1 : (1#32 : BitVec 32).msb = false
  hamt_3 : (3#32 : BitVec 32).msb = false
  h_S1x512x1024 : 0 < S1x512x1024.numel
  shapeCasts_S1x512x1024_S512x1024 : S1x512x1024.ShapeCasts S512x1024
  shapeCasts_S512x1024_S4x128x1024 : S512x1024.ShapeCasts S4x128x1024
  reduces_S4x128x1024_S4x128 : S4x128x1024.Reduces [2] S4x128
  inb_S4x32x128_S1x4x128_3_0_0 : ∀ a, (![3, 0, 0] : Fin 3 → Nat) a + S1x4x128.size a ≤ S4x32x128.size a
  h_S1x4x128 : 0 < S1x4x128.numel
  shapeCasts_S1x4x128_S4x128 : S1x4x128.ShapeCasts S4x128
  shapeCasts_S4x128_S1x4x128 : S4x128.ShapeCasts S1x4x128
  inb_S3x8_S1x1_0_0 : ∀ a, (![0, 0] : Fin 2 → Nat) a + S1x1.size a ≤ S3x8.size a
  squeezes_S1x1_S_ : S1x1.Squeezes S_
  inb_S3x8_S1x1_2_0 : ∀ a, (![2, 0] : Fin 2 → Nat) a + S1x1.size a ≤ S3x8.size a
  inb_S4x32x128_S1x4x128_2_0_0 : ∀ a, (![2, 0, 0] : Fin 3 → Nat) a + S1x4x128.size a ≤ S4x32x128.size a
  squeezes_S1x4x128_S4x128 : S1x4x128.Squeezes S4x128
  inb_S3x8_S1x1_1_0 : ∀ a, (![1, 0] : Fin 2 → Nat) a + S1x1.size a ≤ S3x8.size a
  inb_S4x32x128_S1x4x128_1_0_0 : ∀ a, (![1, 0, 0] : Fin 3 → Nat) a + S1x4x128.size a ≤ S4x32x128.size a
  inb_S4x32x128_S1x4x128_0_0_0 : ∀ a, (![0, 0, 0] : Fin 3 → Nat) a + S1x4x128.size a ≤ S4x32x128.size a
  inb_S4x32x128_S1x4x128_3_4_0 : ∀ a, (![3, 4, 0] : Fin 3 → Nat) a + S1x4x128.size a ≤ S4x32x128.size a
  inb_S3x8_S1x1_0_1 : ∀ a, (![0, 1] : Fin 2 → Nat) a + S1x1.size a ≤ S3x8.size a
  inb_S3x8_S1x1_2_1 : ∀ a, (![2, 1] : Fin 2 → Nat) a + S1x1.size a ≤ S3x8.size a
  inb_S4x32x128_S1x4x128_2_4_0 : ∀ a, (![2, 4, 0] : Fin 3 → Nat) a + S1x4x128.size a ≤ S4x32x128.size a
  inb_S3x8_S1x1_1_1 : ∀ a, (![1, 1] : Fin 2 → Nat) a + S1x1.size a ≤ S3x8.size a
  inb_S4x32x128_S1x4x128_1_4_0 : ∀ a, (![1, 4, 0] : Fin 3 → Nat) a + S1x4x128.size a ≤ S4x32x128.size a
  inb_S4x32x128_S1x4x128_0_4_0 : ∀ a, (![0, 4, 0] : Fin 3 → Nat) a + S1x4x128.size a ≤ S4x32x128.size a
  inb_S4x32x128_S1x4x128_3_8_0 : ∀ a, (![3, 8, 0] : Fin 3 → Nat) a + S1x4x128.size a ≤ S4x32x128.size a
  inb_S3x8_S1x1_0_2 : ∀ a, (![0, 2] : Fin 2 → Nat) a + S1x1.size a ≤ S3x8.size a
  inb_S3x8_S1x1_2_2 : ∀ a, (![2, 2] : Fin 2 → Nat) a + S1x1.size a ≤ S3x8.size a
  inb_S4x32x128_S1x4x128_2_8_0 : ∀ a, (![2, 8, 0] : Fin 3 → Nat) a + S1x4x128.size a ≤ S4x32x128.size a
  inb_S3x8_S1x1_1_2 : ∀ a, (![1, 2] : Fin 2 → Nat) a + S1x1.size a ≤ S3x8.size a
  inb_S4x32x128_S1x4x128_1_8_0 : ∀ a, (![1, 8, 0] : Fin 3 → Nat) a + S1x4x128.size a ≤ S4x32x128.size a
  inb_S4x32x128_S1x4x128_0_8_0 : ∀ a, (![0, 8, 0] : Fin 3 → Nat) a + S1x4x128.size a ≤ S4x32x128.size a
  inb_S4x32x128_S1x4x128_3_12_0 : ∀ a, (![3, 12, 0] : Fin 3 → Nat) a + S1x4x128.size a ≤ S4x32x128.size a
  inb_S3x8_S1x1_0_3 : ∀ a, (![0, 3] : Fin 2 → Nat) a + S1x1.size a ≤ S3x8.size a
  inb_S3x8_S1x1_2_3 : ∀ a, (![2, 3] : Fin 2 → Nat) a + S1x1.size a ≤ S3x8.size a
  inb_S4x32x128_S1x4x128_2_12_0 : ∀ a, (![2, 12, 0] : Fin 3 → Nat) a + S1x4x128.size a ≤ S4x32x128.size a
  inb_S3x8_S1x1_1_3 : ∀ a, (![1, 3] : Fin 2 → Nat) a + S1x1.size a ≤ S3x8.size a
  inb_S4x32x128_S1x4x128_1_12_0 : ∀ a, (![1, 12, 0] : Fin 3 → Nat) a + S1x4x128.size a ≤ S4x32x128.size a
  inb_S4x32x128_S1x4x128_0_12_0 : ∀ a, (![0, 12, 0] : Fin 3 → Nat) a + S1x4x128.size a ≤ S4x32x128.size a
  inb_S4x32x128_S1x4x128_3_16_0 : ∀ a, (![3, 16, 0] : Fin 3 → Nat) a + S1x4x128.size a ≤ S4x32x128.size a
  inb_S3x8_S1x1_0_4 : ∀ a, (![0, 4] : Fin 2 → Nat) a + S1x1.size a ≤ S3x8.size a
  inb_S3x8_S1x1_2_4 : ∀ a, (![2, 4] : Fin 2 → Nat) a + S1x1.size a ≤ S3x8.size a
  inb_S4x32x128_S1x4x128_2_16_0 : ∀ a, (![2, 16, 0] : Fin 3 → Nat) a + S1x4x128.size a ≤ S4x32x128.size a
  inb_S3x8_S1x1_1_4 : ∀ a, (![1, 4] : Fin 2 → Nat) a + S1x1.size a ≤ S3x8.size a
  inb_S4x32x128_S1x4x128_1_16_0 : ∀ a, (![1, 16, 0] : Fin 3 → Nat) a + S1x4x128.size a ≤ S4x32x128.size a
  inb_S4x32x128_S1x4x128_0_16_0 : ∀ a, (![0, 16, 0] : Fin 3 → Nat) a + S1x4x128.size a ≤ S4x32x128.size a
  inb_S4x32x128_S1x4x128_3_20_0 : ∀ a, (![3, 20, 0] : Fin 3 → Nat) a + S1x4x128.size a ≤ S4x32x128.size a
  inb_S3x8_S1x1_0_5 : ∀ a, (![0, 5] : Fin 2 → Nat) a + S1x1.size a ≤ S3x8.size a
  inb_S3x8_S1x1_2_5 : ∀ a, (![2, 5] : Fin 2 → Nat) a + S1x1.size a ≤ S3x8.size a
  inb_S4x32x128_S1x4x128_2_20_0 : ∀ a, (![2, 20, 0] : Fin 3 → Nat) a + S1x4x128.size a ≤ S4x32x128.size a
  inb_S3x8_S1x1_1_5 : ∀ a, (![1, 5] : Fin 2 → Nat) a + S1x1.size a ≤ S3x8.size a
  inb_S4x32x128_S1x4x128_1_20_0 : ∀ a, (![1, 20, 0] : Fin 3 → Nat) a + S1x4x128.size a ≤ S4x32x128.size a
  inb_S4x32x128_S1x4x128_0_20_0 : ∀ a, (![0, 20, 0] : Fin 3 → Nat) a + S1x4x128.size a ≤ S4x32x128.size a
  inb_S4x32x128_S1x4x128_3_24_0 : ∀ a, (![3, 24, 0] : Fin 3 → Nat) a + S1x4x128.size a ≤ S4x32x128.size a
  inb_S3x8_S1x1_0_6 : ∀ a, (![0, 6] : Fin 2 → Nat) a + S1x1.size a ≤ S3x8.size a
  inb_S3x8_S1x1_2_6 : ∀ a, (![2, 6] : Fin 2 → Nat) a + S1x1.size a ≤ S3x8.size a
  inb_S4x32x128_S1x4x128_2_24_0 : ∀ a, (![2, 24, 0] : Fin 3 → Nat) a + S1x4x128.size a ≤ S4x32x128.size a
  inb_S3x8_S1x1_1_6 : ∀ a, (![1, 6] : Fin 2 → Nat) a + S1x1.size a ≤ S3x8.size a
  inb_S4x32x128_S1x4x128_1_24_0 : ∀ a, (![1, 24, 0] : Fin 3 → Nat) a + S1x4x128.size a ≤ S4x32x128.size a
  inb_S4x32x128_S1x4x128_0_24_0 : ∀ a, (![0, 24, 0] : Fin 3 → Nat) a + S1x4x128.size a ≤ S4x32x128.size a
  inb_S4x32x128_S1x4x128_3_28_0 : ∀ a, (![3, 28, 0] : Fin 3 → Nat) a + S1x4x128.size a ≤ S4x32x128.size a
  inb_S3x8_S1x1_0_7 : ∀ a, (![0, 7] : Fin 2 → Nat) a + S1x1.size a ≤ S3x8.size a
  inb_S3x8_S1x1_2_7 : ∀ a, (![2, 7] : Fin 2 → Nat) a + S1x1.size a ≤ S3x8.size a
  inb_S4x32x128_S1x4x128_2_28_0 : ∀ a, (![2, 28, 0] : Fin 3 → Nat) a + S1x4x128.size a ≤ S4x32x128.size a
  inb_S3x8_S1x1_1_7 : ∀ a, (![1, 7] : Fin 2 → Nat) a + S1x1.size a ≤ S3x8.size a
  inb_S4x32x128_S1x4x128_1_28_0 : ∀ a, (![1, 28, 0] : Fin 3 → Nat) a + S1x4x128.size a ≤ S4x32x128.size a
  inb_S4x32x128_S1x4x128_0_28_0 : ∀ a, (![0, 28, 0] : Fin 3 → Nat) a + S1x4x128.size a ≤ S4x32x128.size a
  inb_S1024_S1024_0 : ∀ a, (![0] : Fin 1 → Nat) a + S1024.size a ≤ S1024.size a
  h_S1024 : 0 < S1024.numel
  shapeCasts_S1024_S1024 : S1024.ShapeCasts S1024
  shapeCasts_S4x128_S4x128x1 : S4x128.ShapeCasts S4x128x1
  broadcasts_S4x128x1_S4x128x1024 : S4x128x1.Broadcasts S4x128x1024
  shapeCasts_S1024_S1x1x1024 : S1024.ShapeCasts S1x1x1024
  broadcasts_S1x1x1024_S4x128x1024 : S1x1x1024.Broadcasts S4x128x1024
  shapeCasts_S4x128x1024_S512x1024 : S4x128x1024.ShapeCasts S512x1024
  bitsLt_bf16_f32 : FTy.bits .bf16 < FTy.bits .f32
  shapeCasts_S512x1024_S1x512x1024 : S512x1024.ShapeCasts S1x512x1024
  packedbf16_S8x512x1024_S1x512x1024_0_0_0 : (Rect.unit (s := S8x512x1024) ![0, 0, 0] S1x512x1024.size inb_S8x512x1024_S1x512x1024_0_0_0).PackedRows (EltTy.packing .bf16)
  wordsbf16_S8x512x1024_S1x512x1024_0_0_0 : (Rect.unit (s := S8x512x1024) ![0, 0, 0] S1x512x1024.size inb_S8x512x1024_S1x512x1024_0_0_0).WholeWords (EltTy.packing .bf16)
  wordsbf16_S4096x1024_S512x1024_0_0 : (Rect.unit (s := S4096x1024) ![0, 0] S512x1024.size inb_S4096x1024_S512x1024_0_0).WholeWords (EltTy.packing .bf16)
  packedbf16_S8x512x1024_S1x512x1024_1_0_0 : (Rect.unit (s := S8x512x1024) ![1, 0, 0] S1x512x1024.size inb_S8x512x1024_S1x512x1024_1_0_0).PackedRows (EltTy.packing .bf16)
  wordsbf16_S8x512x1024_S1x512x1024_1_0_0 : (Rect.unit (s := S8x512x1024) ![1, 0, 0] S1x512x1024.size inb_S8x512x1024_S1x512x1024_1_0_0).WholeWords (EltTy.packing .bf16)
  wordsbf16_S4096x1024_S512x1024_512_0 : (Rect.unit (s := S4096x1024) ![512, 0] S512x1024.size inb_S4096x1024_S512x1024_512_0).WholeWords (EltTy.packing .bf16)
  packedbf16_S8x512x1024_S1x512x1024_2_0_0 : (Rect.unit (s := S8x512x1024) ![2, 0, 0] S1x512x1024.size inb_S8x512x1024_S1x512x1024_2_0_0).PackedRows (EltTy.packing .bf16)
  wordsbf16_S8x512x1024_S1x512x1024_2_0_0 : (Rect.unit (s := S8x512x1024) ![2, 0, 0] S1x512x1024.size inb_S8x512x1024_S1x512x1024_2_0_0).WholeWords (EltTy.packing .bf16)
  wordsbf16_S4096x1024_S512x1024_1024_0 : (Rect.unit (s := S4096x1024) ![1024, 0] S512x1024.size inb_S4096x1024_S512x1024_1024_0).WholeWords (EltTy.packing .bf16)
  packedbf16_S8x512x1024_S1x512x1024_3_0_0 : (Rect.unit (s := S8x512x1024) ![3, 0, 0] S1x512x1024.size inb_S8x512x1024_S1x512x1024_3_0_0).PackedRows (EltTy.packing .bf16)
  wordsbf16_S8x512x1024_S1x512x1024_3_0_0 : (Rect.unit (s := S8x512x1024) ![3, 0, 0] S1x512x1024.size inb_S8x512x1024_S1x512x1024_3_0_0).WholeWords (EltTy.packing .bf16)
  wordsbf16_S4096x1024_S512x1024_1536_0 : (Rect.unit (s := S4096x1024) ![1536, 0] S512x1024.size inb_S4096x1024_S512x1024_1536_0).WholeWords (EltTy.packing .bf16)
  packedbf16_S8x512x1024_S1x512x1024_4_0_0 : (Rect.unit (s := S8x512x1024) ![4, 0, 0] S1x512x1024.size inb_S8x512x1024_S1x512x1024_4_0_0).PackedRows (EltTy.packing .bf16)
  wordsbf16_S8x512x1024_S1x512x1024_4_0_0 : (Rect.unit (s := S8x512x1024) ![4, 0, 0] S1x512x1024.size inb_S8x512x1024_S1x512x1024_4_0_0).WholeWords (EltTy.packing .bf16)
  wordsbf16_S4096x1024_S512x1024_2048_0 : (Rect.unit (s := S4096x1024) ![2048, 0] S512x1024.size inb_S4096x1024_S512x1024_2048_0).WholeWords (EltTy.packing .bf16)
  packedbf16_S8x512x1024_S1x512x1024_5_0_0 : (Rect.unit (s := S8x512x1024) ![5, 0, 0] S1x512x1024.size inb_S8x512x1024_S1x512x1024_5_0_0).PackedRows (EltTy.packing .bf16)
  wordsbf16_S8x512x1024_S1x512x1024_5_0_0 : (Rect.unit (s := S8x512x1024) ![5, 0, 0] S1x512x1024.size inb_S8x512x1024_S1x512x1024_5_0_0).WholeWords (EltTy.packing .bf16)
  wordsbf16_S4096x1024_S512x1024_2560_0 : (Rect.unit (s := S4096x1024) ![2560, 0] S512x1024.size inb_S4096x1024_S512x1024_2560_0).WholeWords (EltTy.packing .bf16)
  packedbf16_S8x512x1024_S1x512x1024_6_0_0 : (Rect.unit (s := S8x512x1024) ![6, 0, 0] S1x512x1024.size inb_S8x512x1024_S1x512x1024_6_0_0).PackedRows (EltTy.packing .bf16)
  wordsbf16_S8x512x1024_S1x512x1024_6_0_0 : (Rect.unit (s := S8x512x1024) ![6, 0, 0] S1x512x1024.size inb_S8x512x1024_S1x512x1024_6_0_0).WholeWords (EltTy.packing .bf16)
  wordsbf16_S4096x1024_S512x1024_3072_0 : (Rect.unit (s := S4096x1024) ![3072, 0] S512x1024.size inb_S4096x1024_S512x1024_3072_0).WholeWords (EltTy.packing .bf16)
  packedbf16_S8x512x1024_S1x512x1024_7_0_0 : (Rect.unit (s := S8x512x1024) ![7, 0, 0] S1x512x1024.size inb_S8x512x1024_S1x512x1024_7_0_0).PackedRows (EltTy.packing .bf16)
  wordsbf16_S8x512x1024_S1x512x1024_7_0_0 : (Rect.unit (s := S8x512x1024) ![7, 0, 0] S1x512x1024.size inb_S8x512x1024_S1x512x1024_7_0_0).WholeWords (EltTy.packing .bf16)
  wordsbf16_S4096x1024_S512x1024_3584_0 : (Rect.unit (s := S4096x1024) ![3584, 0] S512x1024.size inb_S4096x1024_S512x1024_3584_0).WholeWords (EltTy.packing .bf16)
  hcc0_scratch3 : 1 + S8.numel ≤ 65
  hcc0_scratch4 : 9 + S8.numel ≤ 65
  hcc0_scratch5 : 17 + S3x8.numel ≤ 65
  hcc0_scratch6 : 41 + S3x8.numel ≤ 65
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  hstage0_0 : ∀ j, (stage0_0 j).IsWhole

variable [Facts₀]

abbrev cc0_scratch3 : DmaSems sig S8 := SemArray.consecutive 1 S8 hcc0_scratch3
abbrev cc0_scratch4 : DmaSems sig S8 := SemArray.consecutive 9 S8 hcc0_scratch4
abbrev cc0_scratch5 : DmaSems sig S3x8 := SemArray.consecutive 17 S3x8 hcc0_scratch5
abbrev cc0_scratch6 : DmaSems sig S3x8 := SemArray.consecutive 41 S3x8 hcc0_scratch6

abbrev win0_0 : Pipeline.Window sig grid0 :=
  Pipeline.Window.whole (Memref.whole main_arg1) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bitsLt_bf16_f32 : FTy.bits .bf16 < FTy.bits .f32

variable [Facts₀]

class Facts : Prop extends Facts₀ where

variable [Facts]
-- ==== Proof.Spec.lean ====
import proofs.«901004_g7700000000001005_dist_rmsnorm_colshard_i_m4096_n1024_v7x_i4_bf16_1_alg».proof.Proof.Gen.KernelIdeal.Skeleton
import Idealize.ShloMosaic.Lib.ValueIdx

noncomputable section

namespace Cert.KernelIdeal.Spec

open Idealize.ShloMosaic Idealize.ShloMosaic.ValueIdx Idealize.SL.Sem
open Cert.KernelIdeal Cert.KernelIdeal.Gen

variable {F : FTy → Type} [FloatOps F]

def xch (X : Vec F S4096x1024 .f32) (j : Fin 8) : Vec F S1x512x1024 .f32 :=
  fun i => X (ix2 (n0 := 4096) (n1 := 1024) ⟨512 * j.val + (i 1).val, by
    have h1 : (i 1).val < 512 := (i 1).isLt
    have h2 := j.isLt
    omega⟩ ⟨(i 2).val, (i 2).isLt⟩)

def part (xc : Vec F S1x512x1024 .f32) : FVec F S1x4x128 .f32 := k0_pay1 xc

def outc (g : FVec F S1024 .f32) (s0 s1 s2 s3 : Vec F S1x4x128 .f32) (xc : Vec F S1x512x1024 .f32) : FVec F S1x512x1024 .bf16 :=
  k0_pay12 (k0_pay11 g s0 s1 s2 s3 xc)

def srcDev (c : Dev nD) (k : Fin 4) : Dev nD := ⟨(c.val + k.val + 1) % 4, Nat.mod_lt _ (by decide)⟩

theorem srcDev_three (c : Dev nD) : srcDev c 3 = c := by revert c; decide

def slot (X : Dev nD → Vec F S4096x1024 .f32) (c : Dev nD) (k : Fin 4) (j : Fin 8) : FVec F S1x4x128 .f32 :=
  part (xch (X (srcDev c k)) j)

def outChunk (X : Dev nD → Vec F S4096x1024 .f32) (Gm : Dev nD → Vec F S1024 .f32) (c : Dev nD) (j : Fin 8) : FVec F S1x512x1024 .bf16 :=
  outc (k0_pay10 (Gm c)) (slot X c 0 j) (slot X c 1 j) (slot X c 2 j) (slot X c 3 j) (xch (X c) j)

def outArr (X : Dev nD → Vec F S4096x1024 .f32) (Gm : Dev nD → Vec F S1024 .f32) (c : Dev nD) : Vec F S4096x1024 .bf16 :=
  fun i => outChunk X Gm c ⟨(i 0).val / 512, by
      have h : (i 0).val < 4096 := (i 0).isLt
      omega⟩
    (ix3 (n0 := 1) (n1 := 512) (n2 := 1024) 0 ⟨(i 0).val % 512, Nat.mod_lt _ (by decide)⟩ ⟨(i 1).val, (i 1).isLt⟩)

abbrev Xof (m : (ℓ : Loc nD τ sig) → Buf (Elt F) ℓ) (d : Dev nD) : Vec F S4096x1024 .f32 := m ((d.tc : Thread nD τ).loc main_arg0)
abbrev Gof (m : (ℓ : Loc nD τ sig) → Buf (Elt F) ℓ) (d : Dev nD) : Vec F S1024 .f32 := m ((d.tc : Thread nD τ).loc main_arg1)

end Cert.KernelIdeal.Spec

end
-- ==== Proof.Proto.lean ====
import proofs.«901004_g7700000000001005_dist_rmsnorm_colshard_i_m4096_n1024_v7x_i4_bf16_1_alg».proof.Proof.Spec
import proofs.«901004_g7700000000001005_dist_rmsnorm_colshard_i_m4096_n1024_v7x_i4_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER embR; infer_instance

abbrev 𝒱₀ : Variants := Variants.none

variable (m : (ℓ : Loc nD τ sig) → Buf (Elt F) ℓ) (ρ : Dev nD → PrngReg)

def pd (c : Dev nD) (d : Fin 3) : Dev nD := ⟨(c.val + d.val + 1) % 4, Nat.mod_lt _ (by decide)⟩
def ps (c : Dev nD) (d : Fin 3) : Dev nD := ⟨(c.val + 3 - d.val) % 4, Nat.mod_lt _ (by decide)⟩
def opp (d : Fin 3) : Fin 3 := ⟨2 - d.val, by omega⟩

theorem ps_pd : ∀ (c : Dev nD) (d : Fin 3), ps (pd c d) d = c := by decide
theorem pd_ps : ∀ (c : Dev nD) (d : Fin 3), pd (ps c d) d = c := by decide
theorem opp_opp : ∀ d : Fin 3, opp (opp d) = d := by decide
theorem pd_opp : ∀ (c : Dev nD) (e : Fin 3), pd c (opp e) = ps c e := by decide

abbrev barS : Sem sig := (SemArray.scalar (sig.barrier 0 rfl) : Sems sig S_).sem
abbrev sendS (d : Fin 3) (h : Fin 8) : DmaSem sig := ⟨17 + 8 * d.val + h.val, by have := d.isLt; have := h.isLt; show _ < 65; omega⟩
abbrev recvS (k : Fin 3) (h : Fin 8) : DmaSem sig := ⟨41 + 8 * k.val + h.val, by have := k.isLt; have := h.isLt; show _ < 65; omega⟩

abbrev barCell (c : Dev nD) : GSem nD τ sig := ((c : Thread nD τ), .reg barS)
abbrev sendCell (c : Dev nD) (d : Fin 3) (h : Fin 8) : GSem nD τ sig := ((c : Thread nD τ), .dma (sendS d h))
abbrev recvCell (c : Dev nD) (k : Fin 3) (h : Fin 8) : GSem nD τ sig := ((c : Thread nD τ), .dma (recvS k h))

inductive CK where
  | bar
  | send (d : Fin 3) (h : Fin 8)
  | recv (k : Fin 3) (h : Fin 8)
deriving DecidableEq

def decode : SemLoc sig → Option CK
  | .reg s => if s = barS then some .bar else none
  | .dma s =>
    if h1 : 17 ≤ s.val ∧ s.val < 41 then some (.send ⟨(s.val - 17) / 8, by omega⟩ ⟨(s.val - 17) % 8, Nat.mod_lt _ (by decide)⟩)
    else if h2 : 41 ≤ s.val ∧ s.val < 65 then some (.recv ⟨(s.val - 41) / 8, by omega⟩ ⟨(s.val - 41) % 8, Nat.mod_lt _ (by decide)⟩)
    else none

theorem decode_bar : decode (.reg barS) = some .bar := by decide
theorem decode_send : ∀ (d : Fin 3) (h : Fin 8), decode (.dma (sendS d h)) = some (.send d h) := by decide
theorem decode_recv : ∀ (k : Fin 3) (h : Fin 8), decode (.dma (recvS k h)) = some (.recv k h) := by decide

abbrev commM : Memref sig .tc .vmem S4x32x128 .f32 := Memref.whole cc0_scratch2

theorem piece_inb : ∀ (k : Fin 4) (h : Fin 8) (a : Fin 3), (![k.val, 4 * h.val, 0] : Fin 3 → Nat) a + S1x4x128.size a ≤ S4x32x128.size a := by decide

abbrev pieceM (k : Fin 4) (h : Fin 8) : Memref sig .tc .vmem S4x128 .f32 :=
  (commM.slice (Rect.unit (s := S4x32x128) ![k.val, 4 * h.val, 0] S1x4x128.size (piece_inb k h)) (fun _ => rfl)).squeeze S4x128 squeezes_S1x4x128_S4x128

abbrev N : ℕ := (pieceM 0 0).view.dmaCredit
theorem N_pos : 0 < N := View.dmaCredit_pos _ (by decide)

def commFinal (p : Dev nD) : Buf (Elt F) ((p : Thread nD τ).loc cc0_scratch2) :=
  fun i => Spec.slot (Spec.Xof m) p ⟨(i 0).val, (i 0).isLt⟩ ⟨(i 1).val / 4, by have h : (i 1).val < 32 := (i 1).isLt; omega⟩
    (ix3 (n0 := 1) (n1 := 4) (n2 := 128) 0 ⟨(i 1).val % 4, Nat.mod_lt _ (by decide)⟩ ⟨(i 2).val, (i 2).isLt⟩)

def qS : Fin 3 → PosShare TreeShare
  | 0 => fullShare.left.left
  | 1 => fullShare.left.right
  | 2 => fullShare.right.left
abbrev qK : PosShare TreeShare := fullShare.right.right

abbrev up (k : Fin 3) : Fin 4 := ⟨k.val, by omega⟩

abbrev piecePt (p : Dev nD) (k : Fin 4) (h : Fin 8) (q : PosShare TreeShare) (f : Buf (Elt F) ((pieceM k h).view.loc (p : Thread nD τ))) : sProp 𝕄 :=
  (pieceM k h).view.loc (p : Thread nD τ) ↦[(pieceM k h).view.set]{q} f

def slotGift (q : Dev nD) (e : Fin 3) : sProp 𝕄 :=
  iprop((∃ f, piecePt q (up e) 0 fullShare f) ∗ (∃ f, piecePt q (up e) 1 fullShare f) ∗ (∃ f, piecePt q (up e) 2 fullShare f) ∗ (∃ f, piecePt q (up e) 3 fullShare f) ∗ (∃ f, piecePt q (up e) 4 fullShare f) ∗ (∃ f, piecePt q (up e) 5 fullShare f) ∗ (∃ f, piecePt q (up e) 6 fullShare f) ∗ (∃ f, piecePt q (up e) 7 fullShare f)
    ∗ reached ER (recvCell q e 0) 0 ∗ reached ER (recvCell q e 1) 0 ∗ reached ER (recvCell q e 2) 0 ∗ reached ER (recvCell q e 3) 0 ∗ reached ER (recvCell q e 4) 0 ∗ reached ER (recvCell q e 5) 0 ∗ reached ER (recvCell q e 6) 0 ∗ reached ER (recvCell q e 7) 0)

def recvPay (p : Dev nD) (k : Fin 3) (h : Fin 8) : sProp 𝕄 := piecePt p (up k) h fullShare (commFinal m p)
def sendPay (c : Dev nD) (d : Fin 3) (h : Fin 8) : sProp 𝕄 := piecePt c 3 h (qS d) (commFinal m c)

def Rd : Rounds.Schedule (GSem nD τ sig) (Fin 3) 𝕄 where
  duties g r :=
    if r = 0 ∧ g.1.2 = .tc then
      match decode g.2 with
      | some .bar => Finset.univ
      | some _ => {0}
      | none => ∅
    else ∅
  amount g _ _ := match decode g.2 with
    | some .bar => 1
    | _ => N
  payload g _ e := match decode g.2 with
    | some .bar => slotGift (ps g.1.1 e) e
    | some (.send d h) => sendPay m g.1.1 d h
    | some (.recv k h) => recvPay m g.1.1 k h
    | none => iprop(emp)
  amount_pos g _ _ _ := by
    split
    · exact Nat.one_pos
    · exact N_pos

set_option synthInstance.maxHeartbeats 2000000 in
set_option synthInstance.maxSize 4096 in
instance slotGift_storable (q : Dev nD) (e : Fin 3) : BI.Storable (upEmb : UEmb _ 𝕄) (slotGift (F := F) q e) := by
  unfold slotGift; infer_instance
instance recvPay_storable (p : Dev nD) (k : Fin 3) (h : Fin 8) : BI.Storable (upEmb : UEmb _ 𝕄) (recvPay (F := F) m p k h) := by
  unfold recvPay; infer_instance
instance sendPay_storable (c : Dev nD) (d : Fin 3) (h : Fin 8) : BI.Storable (upEmb : UEmb _ 𝕄) (sendPay (F := F) m c d h) := by
  unfold sendPay; infer_instance

instance Rd_payload_storable (g : GSem nD τ sig) (r : ℕ) (e : Fin 3) : BI.Storable (upEmb : UEmb _ 𝕄) ((Rd (F := F) m).payload g r e) := by
  show BI.Storable upEmb (match decode g.2 with
    | some .bar => slotGift (ps g.1.1 e) e
    | some (.send d h) => sendPay m g.1.1 d h
    | some (.recv k h) => recvPay m g.1.1 k h
    | none => iprop(emp))
  split <;> infer_instance

section Tables
variable (c : Dev nD) (d k e : Fin 3) (h : Fin 8)

theorem duties_bar : (Rd (F := F) m).duties (barCell c) 0 = Finset.univ := by
  dsimp only [Rd]; rw [if_pos ⟨rfl, rfl⟩, decode_bar]
theorem duties_send : (Rd (F := F) m).duties (sendCell c d h) 0 = {0} := by
  dsimp only [Rd]; rw [if_pos ⟨rfl, rfl⟩, decode_send]
theorem duties_recv : (Rd (F := F) m).duties (recvCell c k h) 0 = {0} := by
  dsimp only [Rd]; rw [if_pos ⟨rfl, rfl⟩, decode_recv]
theorem duties_later (g : GSem nD τ sig) : ∀ r, 1 ≤ r → (Rd (F := F) m).duties g r = ∅ :=
  fun r hr => by dsimp only [Rd]; rw [if_neg fun h => by omega]

theorem amount_bar : (Rd (F := F) m).amount (barCell c) 0 e = 1 := by dsimp only [Rd]; rw [decode_bar]
theorem amount_send (e' : Fin 3) : (Rd (F := F) m).amount (sendCell c d h) 0 e' = N := by dsimp only [Rd]; rw [decode_send]
theorem amount_recv (e' : Fin 3) : (Rd (F := F) m).amount (recvCell c k h) 0 e' = N := by dsimp only [Rd]; rw [decode_recv]

theorem expect_bar : (Rd (F := F) m).expect (barCell c) 0 = 3 := by
  unfold Schedule.expect Schedule.amountOf
  rw [duties_bar, Finset.sum_congr rfl fun e _ => amount_bar m c e, Finset.sum_const, Finset.card_univ, Fintype.card_fin, smul_eq_mul]
theorem expect_send : (Rd (F := F) m).expect (sendCell c d h) 0 = N := by
  unfold Schedule.expect Schedule.amountOf; rw [duties_send, Finset.sum_singleton, amount_send]
theorem expect_recv : (Rd (F := F) m).expect (recvCell c k h) 0 = N := by
  unfold Schedule.expect Schedule.amountOf; rw [duties_recv, Finset.sum_singleton, amount_recv]

theorem payload_bar : (Rd (F := F) m).payload (barCell c) 0 e = slotGift (ps c e) e := by dsimp only [Rd]; rw [decode_bar]
theorem payload_bar_pd : (Rd (F := F) m).payload (barCell (pd c e)) 0 e = slotGift c e := by rw [payload_bar, ps_pd]
theorem payload_send (e' : Fin 3) : (Rd (F := F) m).payload (sendCell c d h) 0 e' = sendPay m c d h := by dsimp only [Rd]; rw [decode_send]
theorem payload_recv (e' : Fin 3) : (Rd (F := F) m).payload (recvCell c k h) 0 e' = recvPay m c k h := by dsimp only [Rd]; rw [decode_recv]

end Tables

theorem recvPay_eq (p : Dev nD) (k : Fin 3) (h : Fin 8) : recvPay (F := F) m p k h = ((pieceM (up k) h).view.loc ((p : Dev nD) : Thread nD τ) ↦[(pieceM (up k) h).view.set]{fullShare} commFinal m p) := rfl
theorem sendPay_eq (c : Dev nD) (d : Fin 3) (h : Fin 8) : sendPay (F := F) m c d h = ((pieceM 3 h).view.loc ((c : Dev nD) : Thread nD τ) ↦[(pieceM 3 h).view.set]{(qS d)} commFinal m c) := rfl

def Obar (c : Dev nD) : CellTallies nD τ sig Unit :=
  tallyAt (barCell (pd c 0)) () 1 + tallyAt (barCell (pd c 1)) () 1 + tallyAt (barCell (pd c 2)) () 1
def Orecv (c : Dev nD) (h : Fin 8) : CellTallies nD τ sig Unit :=
  tallyAt (recvCell (pd c 0) 2 h) () N + tallyAt (recvCell (pd c 1) 1 h) () N + tallyAt (recvCell (pd c 2) 0 h) () N
def O₀ (c : Dev nD) : CellTallies nD τ sig Unit :=
  Obar c + (Orecv c 0 + (Orecv c 1 + (Orecv c 2 + (Orecv c 3 + (Orecv c 4 + (Orecv c 5 + (Orecv c 6 + Orecv c 7)))))))

def L (g : GSem nD τ sig) : Finset Unit := if g.1.2 = .tc then {()} else ∅
def lv (g : GSem nD τ sig) (_ : Unit) : ℕ := match decode g.2 with
  | some .bar => 1
  | some (.recv _ _) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [decode_bar]
theorem lv_recv (c : Dev nD) (k : Fin 3) (h : Fin 8) : lv (recvCell c k h) () = 2 := by dsimp only [lv]; rw [decode_recv]

def Above (b : ℕ) (O : CellTallies nD τ sig Unit) : Prop := ∀ (g : GSem nD τ sig) (u : Unit), 0 < O g u → g.1.2 = .tc ∧ b < lv g u

theorem Above.zero (b : ℕ) : Above b (0 : CellTallies nD τ sig Unit) := fun g u h => absurd h (Nat.lt_irrefl 0)
theorem Above.add {b : ℕ} {A B : CellTallies nD τ sig Unit} (hA : Above b A) (hB : Above b B) : Above b (A + B) := fun g u h => by
  rw [Pi.add_apply, Finsupp.add_apply] at h
  rcases Nat.eq_zero_or_pos (A g u) with h0 | h0
  · rw [h0, Nat.zero_add] at h; exact hB g u h
  · exact hA g u h0
theorem Above.tally {b : ℕ} (g₀ : GSem nD τ sig) (n : ℕ) (htc : g₀.1.2 = .tc) (hb : b < lv g₀ ()) : Above b (tallyAt g₀ () n) := fun g u h => by
  rw [tallyAt_apply] at h
  by_cases hg : g = g₀ ∧ u = ()
  · rw [hg.1]; cases u; exact ⟨htc, hb⟩
  · rw [if_neg hg] at h; exact absurd h (Nat.lt_irrefl 0)
theorem Above.bar (c : Dev nD) (n : ℕ) : Above 0 (tallyAt (barCell c) () n) := Above.tally _ n rfl (by rw [lv_bar]; decide)
theorem Above.recv (b : ℕ) (hb : b < 2) (c : Dev nD) (k : Fin 3) (h : Fin 8) (n : ℕ) : Above b (tallyAt (recvCell c k h) () n) :=
  Above.tally _ n rfl (by rw [lv_recv]; exact hb)

theorem mayWait_of (c : Dev nD) (sm : SemLoc sig) (b : ℕ) (hsm : lv ((c : Thread nD τ), sm) () ≤ b) (O : CellTallies nD τ sig Unit) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hsm)
    (fun g u hg => (hO g u hg).2)

end Cert.KernelIdeal.Proto

end
-- ==== Proof.DevTable.lean ====
import proofs.«901004_g7700000000001005_dist_rmsnorm_colshard_i_m4096_n1024_v7x_i4_bf16_1_alg».proof.Proof.Proto

namespace Cert.KernelIdeal.Proto

open Cert.KernelIdeal Cert.KernelIdeal.Gen Idealize.ShloMosaic Idealize.ShloMosaic.Tactic

/-! The device each printed `device_id` chain names, decided over the mesh of four: chain N addresses the device (N - 1) % 3 + 1 places ahead. -/

theorem k0_dev1_val : ∀ c : Dev nD, k0_dev1 c = (pd c 0).val := by decide +kernel
@[sl_canon] theorem dev1_eq (c : Dev nD) : (⟨k0_dev1 c, k0_dev1_lt c⟩ : Dev nD) = pd c 0 := Fin.ext (k0_dev1_val c)
theorem k0_dev2_val : ∀ c : Dev nD, k0_dev2 c = (pd c 1).val := by decide +kernel
@[sl_canon] theorem dev2_eq (c : Dev nD) : (⟨k0_dev2 c, k0_dev2_lt c⟩ : Dev nD) = pd c 1 := Fin.ext (k0_dev2_val c)
theorem k0_dev3_val : ∀ c : Dev nD, k0_dev3 c = (pd c 2).val := by decide +kernel
@[sl_canon] theorem dev3_eq (c : Dev nD) : (⟨k0_dev3 c, k0_dev3_lt c⟩ : Dev nD) = pd c 2 := Fin.ext (k0_dev3_val c)
theorem k0_dev4_val : ∀ c : Dev nD, k0_dev4 c = (pd c 0).val := by decide +kernel
@[sl_canon] theorem dev4_eq (c : Dev nD) : (⟨k0_dev4 c, k0_dev4_lt c⟩ : Dev nD) = pd c 0 := Fin.ext (k0_dev4_val c)
theorem k0_dev5_val : ∀ c : Dev nD, k0_dev5 c = (pd c 1).val := by decide +kernel
@[sl_canon] theorem dev5_eq (c : Dev nD) : (⟨k0_dev5 c, k0_dev5_lt c⟩ : Dev nD) = pd c 1 := Fin.ext (k0_dev5_val c)
theorem k0_dev6_val : ∀ c : Dev nD, k0_dev6 c = (pd c 2).val := by decide +kernel
@[sl_canon] theorem dev6_eq (c : Dev nD) : (⟨k0_dev6 c, k0_dev6_lt c⟩ : Dev nD) = pd c 2 := Fin.ext (k0_dev6_val c)
theorem k0_dev7_val : ∀ c : Dev nD, k0_dev7 c = (pd c 0).val := by decide +kernel
@[sl_canon] theorem dev7_eq (c : Dev nD) : (⟨k0_dev7 c, k0_dev7_lt c⟩ : Dev nD) = pd c 0 := Fin.ext (k0_dev7_val c)
theorem k0_dev8_val : ∀ c : Dev nD, k0_dev8 c = (pd c 1).val := by decide +kernel
@[sl_canon] theorem dev8_eq (c : Dev nD) : (⟨k0_dev8 c, k0_dev8_lt c⟩ : Dev nD) = pd c 1 := Fin.ext (k0_dev8_val c)
theorem k0_dev9_val : ∀ c : Dev nD, k0_dev9 c = (pd c 2).val := by decide +kernel
@[sl_canon] theorem dev9_eq (c : Dev nD) : (⟨k0_dev9 c, k0_dev9_lt c⟩ : Dev nD) = pd c 2 := Fin.ext (k0_dev9_val c)
theorem k0_dev10_val : ∀ c : Dev nD, k0_dev10 c = (pd c 0).val := by decide +kernel
@[sl_canon] theorem dev10_eq (c : Dev nD) : (⟨k0_dev10 c, k0_dev10_lt c⟩ : Dev nD) = pd c 0 := Fin.ext (k0_dev10_val c)
theorem k0_dev11_val : ∀ c : Dev nD, k0_dev11 c = (pd c 1).val := by decide +kernel
@[sl_canon] theorem dev11_eq (c : Dev nD) : (⟨k0_dev11 c, k0_dev11_lt c⟩ : Dev nD) = pd c 1 := Fin.ext (k0_dev11_val c)
theorem k0_dev12_val : ∀ c : Dev nD, k0_dev12 c = (pd c 2).val := by decide +kernel
@[sl_canon] theorem dev12_eq (c : Dev nD) : (⟨k0_dev12 c, k0_dev12_lt c⟩ : Dev nD) = pd c 2 := Fin.ext (k0_dev12_val c)
theorem k0_dev13_val : ∀ c : Dev nD, k0_dev13 c = (pd c 0).val := by decide +kernel
@[sl_canon] theorem dev13_eq (c : Dev nD) : (⟨k0_dev13 c, k0_dev13_lt c⟩ : Dev nD) = pd c 0 := Fin.ext (k0_dev13_val c)
theorem k0_dev14_val : ∀ c : Dev nD, k0_dev14 c = (pd c 1).val := by decide +kernel
@[sl_canon] theorem dev14_eq (c : Dev nD) : (⟨k0_dev14 c, k0_dev14_lt c⟩ : Dev nD) = pd c 1 := Fin.ext (k0_dev14_val c)
theorem k0_dev15_val : ∀ c : Dev nD, k0_dev15 c = (pd c 2).val := by decide +kernel
@[sl_canon] theorem dev15_eq (c : Dev nD) : (⟨k0_dev15 c, k0_dev15_lt c⟩ : Dev nD) = pd c 2 := Fin.ext (k0_dev15_val c)
theorem k0_dev16_val : ∀ c : Dev nD, k0_dev16 c = (pd c 0).val := by decide +kernel
@[sl_canon] theorem dev16_eq (c : Dev nD) : (⟨k0_dev16 c, k0_dev16_lt c⟩ : Dev nD) = pd c 0 := Fin.ext (k0_dev16_val c)
theorem k0_dev17_val : ∀ c : Dev nD, k0_dev17 c = (pd c 1).val := by decide +kernel
@[sl_canon] theorem dev17_eq (c : Dev nD) : (⟨k0_dev17 c, k0_dev17_lt c⟩ : Dev nD) = pd c 1 := Fin.ext (k0_dev17_val c)
theorem k0_dev18_val : ∀ c : Dev nD, k0_dev18 c = (pd c 2).val := by decide +kernel
@[sl_canon] theorem dev18_eq (c : Dev nD) : (⟨k0_dev18 c, k0_dev18_lt c⟩ : Dev nD) = pd c 2 := Fin.ext (k0_dev18_val c)
theorem k0_dev19_val : ∀ c : Dev nD, k0_dev19 c = (pd c 0).val := by decide +kernel
@[sl_canon] theorem dev19_eq (c : Dev nD) : (⟨k0_dev19 c, k0_dev19_lt c⟩ : Dev nD) = pd c 0 := Fin.ext (k0_dev19_val c)
theorem k0_dev20_val : ∀ c : Dev nD, k0_dev20 c = (pd c 1).val := by decide +kernel
@[sl_canon] theorem dev20_eq (c : Dev nD) : (⟨k0_dev20 c, k0_dev20_lt c⟩ : Dev nD) = pd c 1 := Fin.ext (k0_dev20_val c)
theorem k0_dev21_val : ∀ c : Dev nD, k0_dev21 c = (pd c 2).val := by decide +kernel
@[sl_canon] theorem dev21_eq (c : Dev nD) : (⟨k0_dev21 c, k0_dev21_lt c⟩ : Dev nD) = pd c 2 := Fin.ext (k0_dev21_val c)
theorem k0_dev22_val : ∀ c : Dev nD, k0_dev22 c = (pd c 0).val := by decide +kernel
@[sl_canon] theorem dev22_eq (c : Dev nD) : (⟨k0_dev22 c, k0_dev22_lt c⟩ : Dev nD) = pd c 0 := Fin.ext (k0_dev22_val c)
theorem k0_dev23_val : ∀ c : Dev nD, k0_dev23 c = (pd c 1).val := by decide +kernel
@[sl_canon] theorem dev23_eq (c : Dev nD) : (⟨k0_dev23 c, k0_dev23_lt c⟩ : Dev nD) = pd c 1 := Fin.ext (k0_dev23_val c)
theorem k0_dev24_val : ∀ c : Dev nD, k0_dev24 c = (pd c 2).val := by decide +kernel
@[sl_canon] theorem dev24_eq (c : Dev nD) : (⟨k0_dev24 c, k0_dev24_lt c⟩ : Dev nD) = pd c 2 := Fin.ext (k0_dev24_val c)
theorem k0_dev25_val : ∀ c : Dev nD, k0_dev25 c = (pd c 0).val := by decide +kernel
@[sl_canon] theorem dev25_eq (c : Dev nD) : (⟨k0_dev25 c, k0_dev25_lt c⟩ : Dev nD) = pd c 0 := Fin.ext (k0_dev25_val c)
theorem k0_dev26_val : ∀ c : Dev nD, k0_dev26 c = (pd c 1).val := by decide +kernel
@[sl_canon] theorem dev26_eq (c : Dev nD) : (⟨k0_dev26 c, k0_dev26_lt c⟩ : Dev nD) = pd c 1 := Fin.ext (k0_dev26_val c)
theorem k0_dev27_val : ∀ c : Dev nD, k0_dev27 c = (pd c 2).val := by decide +kernel
@[sl_canon] theorem dev27_eq (c : Dev nD) : (⟨k0_dev27 c, k0_dev27_lt c⟩ : Dev nD) = pd c 2 := Fin.ext (k0_dev27_val c)

end Cert.KernelIdeal.Proto
-- ==== Proof.Iface.lean ====
import proofs.«901004_g7700000000001005_dist_rmsnorm_colshard_i_m4096_n1024_v7x_i4_bf16_1_alg».proof.Proof.DevTable

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev locS (i : Fin 16) : DmaSem sig := ⟨1 + i.val, by have := i.isLt; show _ < 65; omega⟩
abbrev osem : Fin 64 → SemLoc sig := fun i => .dma ⟨1 + i.val, by have := i.isLt; show _ < 65; omega⟩

def gstg (c : Dev nD) : (cc0_stg0_0 : Ref sig .tc).ty.Contents (Elt F) :=
  (win0_0.blk (0 : Fin 1)).view.read (Elt F) (m ((c : Thread nD τ).loc main_arg1))

def invs (K : GSem nD τ sig → ℕ) (c : Dev nD) : sProp 𝕄 :=
  iprop(cellInv ER (Rd m) (K (barCell c)) (barCell c)
    ∗ (bigSep Finset.univ fun d : Fin 3 => cellInv ER (Rd m) (K (barCell (pd c d))) (barCell (pd c d)))
    ∗ (bigSep Finset.univ fun dh : Fin 3 × Fin 8 => cellInv ER (Rd m) (K (sendCell c dh.1 dh.2)) (sendCell c dh.1 dh.2))
    ∗ (bigSep Finset.univ fun kh : Fin 3 × Fin 8 => cellInv ER (Rd m) (K (recvCell c kh.1 kh.2)) (recvCell c kh.1 kh.2))
    ∗ (bigSep Finset.univ fun dh : Fin 3 × Fin 8 => cellInv ER (Rd m) (K (recvCell (pd c dh.1) (opp dh.1) dh.2)) (recvCell (pd c dh.1) (opp dh.1) dh.2))
    ∗ levAts L lv
    ∗ (bigSep Finset.univ fun d : Fin 3 => reached ER (barCell (pd c d)) 0)
    ∗ (bigSep Finset.univ fun kh : Fin 3 × Fin 8 => reached ER (recvCell c kh.1 kh.2) 0)
    ∗ (bigSep Finset.univ fun dh : Fin 3 × Fin 8 => reached ER (sendCell c dh.1 dh.2) 0))

instance invs_persistent (K : GSem nD τ sig → ℕ) (c : Dev nD) : BI.Persistent (invs m K c) := by unfold invs; infer_instance

def lins (c : Dev nD) : sProp 𝕄 :=
  iprop(atPos ER (barCell c) 0 ∅ 0
    ∗ (bigSep Finset.univ fun dh : Fin 3 × Fin 8 => atPos ER (sendCell c dh.1 dh.2) 0 ∅ 0)
    ∗ (bigSep Finset.univ fun kh : Fin 3 × Fin 8 => atPos ER (recvCell c kh.1 kh.2) 0 ∅ 0)
    ∗ (bigSep Finset.univ fun d : Fin 3 => dutyTok ER (barCell (pd c d)) 0 d)
    ∗ (bigSep Finset.univ fun dh : Fin 3 × Fin 8 => dutyTok ER (sendCell c dh.1 dh.2) 0 0)
    ∗ (bigSep Finset.univ fun dh : Fin 3 × Fin 8 => dutyTok ER (recvCell (pd c dh.1) (opp dh.1) dh.2) 0 0)
    ∗ cred (tallyAt (barCell c) () 3)
    ∗ (bigSep Finset.univ fun kh : Fin 3 × Fin 8 => cred (tallyAt (recvCell c kh.1 kh.2) () N))
    ∗ (bigSep Finset.univ fun i : Fin 16 => semVal ((c : Thread nD τ), SemLoc.dma (locS i)) 0))

def ghost (c : Dev nD) : sProp 𝕄 := iprop(∃ K, invs m K c ∗ lins c)

def hbm₀ (c : Dev nD) : sProp 𝕄 :=
  iprop((((c : Thread nD τ).loc main_arg0) ↦{fullShare} m ((c : Thread nD τ).loc main_arg0))
    ∗ (((c : Thread nD τ).loc main_v1) ↦{fullShare} m ((c : Thread nD τ).loc main_v1)))
def hbm₁ (c : Dev nD) : sProp 𝕄 :=
  iprop((((c : Thread nD τ).loc main_arg0) ↦{fullShare} m ((c : Thread nD τ).loc main_arg0))
    ∗ (((c : Thread nD τ).loc main_v1) ↦{fullShare} (Spec.outArr (Spec.Xof m) (Spec.Gof m) c : Buf (Elt F) ((c : Thread nD τ).loc main_v1))))
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def start (c : Dev nD) : sProp 𝕄 := iprop(ghost m c ∗ hbm₀ m c)
def Φ₀ (c : Dev nD) : sProp 𝕄 := iprop(start m c ∗ scratch c)
def Φ₁ (c : Dev nD) : sProp 𝕄 := iprop(hbm₁ m c ∗ scratch c ∗ Pipeline.ownSems0 osem c)

def dats (_ : Fin 1) (c : Dev nD) : Dat τ (Elt F) Unit ℕ UU ℕ cfg0 c where
  A w := m ((cfg0.win w).arr.view.loc (c : Thread nD τ))
  after w _ := match w with
    | ⟨0, _⟩ => gstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Proto

end
-- ==== Proof.Steps.lean ====
import proofs.«901004_g7700000000001005_dist_rmsnorm_colshard_i_m4096_n1024_v7x_i4_bf16_1_alg».proof.Proof.Iface

import Idealize.ShloMosaic.Lib.Pipeline.Value

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem wp_sig (c : Dev nD) (d : Fin 3) (n : Dev nD) (hn : n = pd c d) (κ : ℕ) (O : CellTallies nD τ sig Unit) (W : Waits sig Unit)
    {α : Type} {Q : α → sProp 𝕄} {k : PUnit → Prog (TpuEff nD τ sig (Elt F) Λ₀ .tc) α} :
    iprop(cellInv ER (Rd m) κ (barCell (pd c d)) ∗ owes (c : Thread nD τ) (O + tallyAt (barCell (pd c d)) () 1) W
        ∗ dutyTok ER (barCell (pd c d)) 0 d ∗ slotGift c d ∗ reached ER (barCell (pd c d)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n, Proc.tc) : Thread nD τ) barS (1#32).toNat) k) Q) := by
  subst hn
  have h := Rounds.wp_signal (defs := defs₀ (F := F)) (Γ := .empty) 𝒱₀ ER (Rd m) (c : Thread nD τ) none (dst := (pd c d : Thread nD τ)) (sem := barS)
    (r := 0) (d := d) (κ := κ) (k := k) (Q := Q) (Es := Set.univ) (W := W)
    (by rw [duties_bar]; exact Finset.mem_univ _) (amount_bar m (pd c d) d) () O rfl
  rw [payload_bar_pd] at h
  exact h

theorem bar_payloads (c : Dev nD) :
    bigSep (Finset.univ : Finset (Fin 3)) (fun e => (Rd (F := F) m).payload (barCell c) 0 e)
      = iprop(slotGift (ps c 0) 0 ∗ slotGift (ps c 1) 1 ∗ slotGift (ps c 2) 2) := by
  rw [bigSep_univ_eq_bigSepL [0, 1, 2] (by decide) (by decide)]
  show iprop((Rd (F := F) m).payload (barCell c) 0 0 ∗ (Rd (F := F) m).payload (barCell c) 0 1 ∗ (Rd (F := F) m).payload (barCell c) 0 2) = _
  rw [payload_bar, payload_bar, payload_bar]

theorem wp_barwait (c : Dev nD) (κ : ℕ) (O : CellTallies nD τ sig Unit) (hO : Above 1 O) (W : Waits sig Unit)
    {α : Type} {Q : α → sProp 𝕄} {k : PUnit → Prog (TpuEff nD τ sig (Elt F) Λ₀ .tc) α} :
    iprop(cellInv ER (Rd m) κ (barCell c) ∗ cred (tallyAt (barCell c) () 3) ∗ owes (c : Thread nD τ) O W ∗ levAts L lv
        ∗ atPos ER (barCell c) 0 ∅ 0)
      ⊢ iprop((iprop(owes (c : Thread nD τ) O (insert (SemLoc.reg barS, ()) W) ∗ atPos ER (barCell c) 1 ∅ 0
              ∗ slotGift (ps c 0) 0 ∗ slotGift (ps c 1) 1 ∗ slotGift (ps c 2) 2)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (3#32).toNat) k) Q) := by
  have hr := Rounds.wp_wait_rest_token (defs := defs₀ (F := F)) (Γ := .empty) 𝒱₀ ER (Rd m) (c : Thread nD τ) none
    (w := .semWait barS (3#32).toNat) (sm := .reg barS) (k' := 3) (Es := Set.univ) (κ := κ) (k := k) (Q := Q)
    (wpE_semWait_eq 𝒱₀ (c : Thread nD τ) none Set.univ) (Set.mem_univ _) () (O := O) (W := W) (R := 0) (m := 0) (T := ∅)
    (by rw [expect_bar])
  rw [Finset.sdiff_empty, duties_bar, bar_payloads] at hr
  iintro ⟨Hg, Hc, HL, Hlev, Hat⟩ Hk
  iapply hr $$ [Hg Hc HL Hlev Hat]
  · isplitl [Hg]; · iexact Hg
    isplitl [Hc]; · iexact Hc
    isplitl [HL]; · iexact HL
    isplitl [Hlev]
    · iapply (mayWait_of c (.reg barS) 1 (le_of_eq (lv_bar c)) O hO); iexact Hlev
    · iexact Hat
  iintro ⟨HL, Hat, -, H0, H1, H2⟩
  iapply Hk
  isplitl [HL]; · iexact HL
  isplitl [Hat]; · iexact Hat
  isplitl [H0]; · iexact H0
  isplitl [H1]; · iexact H1
  iexact H2

abbrev zz (y : S4x128.Idx) : S1x4x128.Idx := Shape.reshapeEquiv squeezes_S1x4x128_S4x128.numel_eq y

theorem piece_emb0 (k : Fin 4) (h : Fin 8) (y : S4x128.Idx) :
    ((((pieceM k h).view.emb y : S4x32x128.Idx) 0 : Fin 4) : Nat) = k.val + 1 * ((zz y 0 : Fin 1) : Nat) := rfl
theorem piece_emb1 (k : Fin 4) (h : Fin 8) (y : S4x128.Idx) :
    ((((pieceM k h).view.emb y : S4x32x128.Idx) 1 : Fin 32) : Nat) = 4 * h.val + 1 * ((zz y 1 : Fin 4) : Nat) := rfl
theorem piece_emb2 (k : Fin 4) (h : Fin 8) (y : S4x128.Idx) :
    ((((pieceM k h).view.emb y : S4x32x128.Idx) 2 : Fin 128) : Nat) = 0 + 1 * ((zz y 2 : Fin 128) : Nat) := rfl

def cf (X : Dev nD → Vec F S4096x1024 .f32) (p : Dev nD) (a b l : ℕ) (ha : a < 4) (hb : b < 32) (hl : l < 128) : Elt F .f32 :=
  Spec.slot X p ⟨a, ha⟩ ⟨b / 4, by omega⟩ (ix3 (n0 := 1) (n1 := 4) (n2 := 128) 0 ⟨b % 4, Nat.mod_lt _ (by decide)⟩ ⟨l, hl⟩)

theorem cf_congr {X : Dev nD → Vec F S4096x1024 .f32} {p p' : Dev nD} {a a' b b' l l' : ℕ}
    {ha : a < 4} {ha' : a' < 4} {hb : b < 32} {hb' : b' < 32} {hl : l < 128} {hl' : l' < 128}
    (hs : Spec.srcDev p ⟨a, ha⟩ = Spec.srcDev p' ⟨a', ha'⟩) (eb : b = b') (el : l = l') :
    cf X p a b l ha hb hl = cf X p' a' b' l' ha' hb' hl' := by
  subst eb el
  unfold cf Spec.slot
  rw [hs]

theorem srcDev_of_val (p : Dev nD) (a : ℕ) (ha : a < 4) (k : Fin 4) (e : a = k.val) : Spec.srcDev p ⟨a, ha⟩ = Spec.srcDev p k := by
  subst e; rfl

theorem commFinal_congr (p p' : Dev nD) (i i' : S4x32x128.Idx) (k k' : Fin 4)
    (h0 : ((i 0 : Fin 4) : Nat) = k.val) (h0' : ((i' 0 : Fin 4) : Nat) = k'.val) (hs : Spec.srcDev p k = Spec.srcDev p' k')
    (h1 : ((i 1 : Fin 32) : Nat) = ((i' 1 : Fin 32) : Nat)) (h2 : ((i 2 : Fin 128) : Nat) = ((i' 2 : Fin 128) : Nat)) :
    commFinal m p i = commFinal m p' i' := by
  show cf (Spec.Xof m) p ((i 0 : Fin 4) : Nat) ((i 1 : Fin 32) : Nat) ((i 2 : Fin 128) : Nat) (i 0 : Fin 4).isLt (i 1 : Fin 32).isLt (i 2 : Fin 128).isLt
    = cf (Spec.Xof m) p' ((i' 0 : Fin 4) : Nat) ((i' 1 : Fin 32) : Nat) ((i' 2 : Fin 128) : Nat) (i' 0 : Fin 4).isLt (i' 1 : Fin 32).isLt (i' 2 : Fin 128).isLt
  exact cf_congr ((srcDev_of_val p _ _ k h0).trans (hs.trans (srcDev_of_val p' _ _ k' h0').symm)) h1 h2

theorem srcDev_pd : ∀ (c : Dev nD) (d : Fin 3), Spec.srcDev (pd c d) (up (opp d)) = c := by decide

theorem cast_cast_self {α β : Type} (h₁ : α = β) (h₂ : β = α) (a : α) : _root_.cast h₂ (_root_.cast h₁ a) = a := by
  subst h₁; rfl

theorem landed_eq (c : Dev nD) (d : Fin 3) (h : Fin 8)
    (fn : Buf (Elt F) ((pieceM (up (opp d)) h).view.loc ((pd c d : Dev nD) : Thread nD τ))) :
    ∀ i ∈ (pieceM (up (opp d)) h).view.set,
      ((pieceM (up (opp d)) h).view.write (Elt F) fn ((pieceM 3 h).view.read (Elt F) (commFinal m c)) Finset.univ) i
        = commFinal m (pd c d) i := by
  intro i hi
  obtain ⟨y, rfl⟩ := View.exists_emb_of_mem_set _ hi
  rw [View.write_emb_of_mem _ _ (Finset.mem_univ y), View.read_apply]
  refine (cast_cast_self _ _ _).trans ?_
  have z0 : ((zz y 0 : Fin 1) : Nat) < 1 := (zz y 0).isLt
  have e3 : ((((pieceM 3 h).view.emb y : S4x32x128.Idx) 0 : Fin 4) : Nat) = 3 + 1 * ((zz y 0 : Fin 1) : Nat) := piece_emb0 3 h y
  have ed := piece_emb0 (up (opp d)) h y
  exact commFinal_congr m c (pd c d) _ _ 3 (up (opp d)) (show _ = 3 by omega) (by omega)
    ((Spec.srcDev_three c).trans (srcDev_pd c d).symm)
    ((piece_emb1 3 h y).trans (piece_emb1 (up (opp d)) h y).symm)
    ((piece_emb2 3 h y).trans (piece_emb2 (up (opp d)) h y).symm)

theorem piece_credit (k : Fin 4) (h : Fin 8) : (pieceM k h).view.dmaCredit = N := rfl

theorem wp_send_piece (c : Dev nD) (d : Fin 3) (h : Fin 8) (n : Dev nD) (hn : n = pd c d) (κ₁ κ₂ : ℕ)
    (O : CellTallies nD τ sig Unit) (W : Waits sig Unit)
    (fn : Buf (Elt F) ((pieceM (up (opp d)) h).view.loc ((pd c d : Dev nD) : Thread nD τ)))
    {hsc : (pieceM (up (opp d)) h : Memref sig (Dev.tc n : Thread nD τ).2.kind .vmem S4x128 .f32).view.ref.isScScratch = false}
    {hsrc : (pieceM 3 h : Memref sig .tc .vmem S4x128 .f32).view.WordExact} {hdst : (pieceM (up (opp d)) h : Memref sig .tc .vmem S4x128 .f32).view.WordExact}
    {hsem : DmaTarget.Typed .vmem (.dma (recvS (opp d) h)) (.remote (Dev.tc n : Thread nD τ) (pieceM (up (opp d)) h : Memref sig .tc .vmem S4x128 .f32) (.dma (sendS d h)) hsc)}
    {α : Type} {Q : α → sProp 𝕄} {k : PUnit → Prog (TpuEff nD τ sig (Elt F) Λ₀ .tc) α} :
    iprop(cellInv ER (Rd m) κ₁ (sendCell c d h) ∗ cellInv ER (Rd m) κ₂ (recvCell (pd c d) (opp d) h)
        ∗ piecePt c 3 h (qS d) (commFinal m c) ∗ piecePt (pd c d) (up (opp d)) h fullShare fn
        ∗ owes (c : Thread nD τ) (O + tallyAt (recvCell (pd c d) (opp d) h) () N) W
        ∗ dutyTok ER (sendCell c d h) 0 0 ∗ reached ER (sendCell c d h) 0
        ∗ dutyTok ER (recvCell (pd c d) (opp d) h) 0 0 ∗ reached ER (recvCell (pd c d) (opp d) h) 0)
      ⊢ iprop(((cred (tallyAt (sendCell c d h) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pieceM 3 h) (.remote (Dev.tc n : Thread nD τ) (pieceM (up (opp d)) h) (.dma (sendS d h)) hsc) (.dma (recvS (opp d) h)) hsrc hdst hsem) k) Q) := by
  subst hn
  have hpay₁ : ((pieceM 3 h).view.loc (c : Thread nD τ) ↦[(pieceM 3 h).view.set]{qS d} commFinal m c : sProp 𝕄)
      ⊢ (Rd m).payload (sendCell c d h) 0 0 := by
    rw [payload_send, sendPay_eq]
  have hpay₂ : ((pieceM (up (opp d)) h).view.loc ((pd c d : Dev nD) : Thread nD τ) ↦[(pieceM (up (opp d)) h).view.set]{fullShare}
        ((pieceM (up (opp d)) h).view.write (Elt F) fn ((pieceM 3 h).view.read (Elt F) (commFinal m c)) Finset.univ) : sProp 𝕄)
      ⊢ (Rd m).payload (recvCell (pd c d) (opp d) h) 0 0 := by
    rw [payload_recv, recvPay_eq, pointsTo_congr (landed_eq m c d h fn)]
  exact Rounds.wp_send_pointsTo (defs := defs₀ (F := F)) (Γ := .empty) 𝒱₀ ER (Rd m) (c : Thread nD τ) none
    (c' := ((pd c d : Dev nD) : Thread nD τ)) (src := pieceM 3 h) (dst := pieceM (up (opp d)) h)
    (sS := .dma (sendS d h)) (sem := .dma (recvS (opp d) h)) (q := qS d) (fs := commFinal m c) (fd := fn)
    (r₁ := 0) (r₂ := 0) (d₁ := 0) (d₂ := 0) (κ₁ := κ₁) (κ₂ := κ₂) (k := k) (Q := Q) (Es := Set.univ) (W := W)
    (by rw [duties_send]; exact Finset.mem_singleton_self _) (by rw [duties_recv]; exact Finset.mem_singleton_self _)
    () () N (piece_credit _ _) (amount_send m c d h 0) (amount_recv m (pd c d) (opp d) h 0) O rfl hpay₁ hpay₂

/-- The wait on the device's send or receive cell `s`, whose one duty hands back `P`, by a device that owes nothing; then the cell is closed. -/
theorem cellwait_step (c : Dev nD) (s : DmaSem sig) (P : sProp 𝕄)
    (hd : (Rd (F := F) m).duties ((c : Thread nD τ), .dma s) 0 = {0}) (he : (Rd (F := F) m).expect ((c : Thread nD τ), .dma s) 0 = N)
    (hp : (Rd (F := F) m).payload ((c : Thread nD τ), .dma s) 0 0 = P) (κ : ℕ) (W : Waits sig Unit)
    {sp sp' : Space} {s₁ s₂ : Shape} {e e' : EltTy} {src : Memref sig .tc sp' s₂ e'} {dst : Memref sig .tc sp s₁ e}
    {hsrc : src.view.WordExact} {hdst : dst.view.WordExact} (hN : dst.view.dmaCredit = N)
    {α : Type} {Q : α → sProp 𝕄} {kk : PUnit → Prog (TpuEff nD τ sig (Elt F) Λ₀ .tc) α} :
    ⊢ iprop(cellInv ER (Rd m) κ ((c : Thread nD τ), .dma s) -∗ owes (c : Thread nD τ) 0 W
        -∗ iprop(cred (tallyAt ((c : Thread nD τ), SemLoc.dma s) () N) ∗ atPos ER ((c : Thread nD τ), .dma s) 0 ∅ 0)
        -∗ (iprop(owes (c : Thread nD τ) 0 (insert (SemLoc.dma s, ()) W) ∗ P ∗ semVal ((c : Thread nD τ), SemLoc.dma s) 0)
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s src dst hsrc hdst) kk) Q) := by
  have hw : ∀ K : PUnit → sProp 𝕄, wpE' (defs₀ (F := F)) 𝒱₀ (c : Thread nD τ) none .empty Set.univ (.waitDma2 s src dst hsrc hdst) K
      = waitSpec (c : Thread nD τ) Set.univ (.dma s) N K := fun K => by
    rw [← hN]; exact wpE_waitDma2_eq 𝒱₀ (c : Thread nD τ) none Set.univ K
  have hr := Rounds.wp_wait_rest_token (defs := defs₀ (F := F)) (Γ := .empty) 𝒱₀ ER (Rd m) (c : Thread nD τ) none
    (w := .waitDma2 s src dst hsrc hdst) (sm := .dma s) (k' := N) (Es := Set.univ) (κ := κ) (k := kk) (Q := Q)
    hw (Set.mem_univ _) () (O := 0) (W := W) (R := 0) (m := 0) (T := ∅) (by rw [he, Nat.zero_add])
  rw [MayWait_zero, Finset.sdiff_empty, hd, bigSep_singleton, hp] at hr
  iintro #HI HO ⟨Hc, Hat⟩ Hk
  iapply hr $$ [Hc HO Hat]
  · isplitr; · iexact HI
    isplitl [Hc]; · iexact Hc
    isplitl [HO]; · iexact HO
    isplitr; · iempintro
    iexact Hat
  iintro ⟨HO, Hat, -, Hpay⟩
  imod (Rounds.cell_close ER (Rd m) (Set.mem_univ κ) (fun h => h) (R := 0 + 1) (duties_later m _)) $$ [Hat] with Hs
  · isplitr; · iexact HI
    iexact Hat
  iapply Hk
  isplitl [HO]; · iexact HO
  isplitl [Hpay]; · iexact Hpay
  iexact Hs

/-- info: 'Cert.KernelIdeal.Proto.wp_barwait' depends on axioms: [propext, Classical.choice, Quot.sound] -/
#guard_msgs in #print axioms wp_barwait

/-- info: 'Cert.KernelIdeal.Proto.wp_send_piece' depends on axioms: [propext, Classical.choice, Quot.sound] -/
#guard_msgs in #print axioms wp_send_piece

/-- info: 'Cert.KernelIdeal.Proto.cellwait_step' depends on axioms: [propext, Classical.choice, Quot.sound] -/
#guard_msgs in #print axioms cellwait_step

end Cert.KernelIdeal.Proto

end
-- ==== Proof.Geom.lean ====
import proofs.«901004_g7700000000001005_dist_rmsnorm_colshard_i_m4096_n1024_v7x_i4_bf16_1_alg».proof.Proof.Iface
import Idealize.ShloMosaic.Rules.PointsTo
import Idealize.ShloMosaic.Lib.Exec.Geometry

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem piece_set (k : Fin 4) (h : Fin 8) :
    (pieceM k h).view.set = (Rect.unit (s := S4x32x128) ![k.val, 4 * h.val, 0] S1x4x128.size (piece_inb k h)).set := by
  rw [Memref.set_view_squeeze]
  exact View.set_slice_whole _ _

theorem mem_piece {k : Fin 4} {h : Fin 8} {i : S4x32x128.Idx} :
    i ∈ (pieceM k h).view.set ↔ (i 0).val = k.val ∧ (i 1).val / 4 = h.val := by
  rw [piece_set, Rect.mem_set_unit]
  constructor
  · intro H
    have h0 : k.val ≤ (i 0).val ∧ (i 0).val < k.val + 1 := H 0
    have h1 : 4 * h.val ≤ (i 1).val ∧ (i 1).val < 4 * h.val + 4 := H 1
    omega
  · rintro ⟨h0, h1⟩ a
    have h2 : (i 2).val < 128 := (i 2).isLt
    match a with
    | 0 => show k.val ≤ (i 0).val ∧ (i 0).val < k.val + 1; omega
    | 1 => show 4 * h.val ≤ (i 1).val ∧ (i 1).val < 4 * h.val + 4; omega
    | 2 => show 0 ≤ (i 2).val ∧ (i 2).val < 0 + 128; omega

theorem comm_cover : (Finset.univ : Finset S4x32x128.Idx) = Finset.univ.biUnion fun t : Fin 4 × Fin 8 => (pieceM t.1 t.2).view.set := by
  ext i
  simp only [Finset.mem_univ, Finset.mem_biUnion, true_and, true_iff]
  have h0 : (i 0).val < 4 := (i 0).isLt
  have h1 : (i 1).val < 32 := (i 1).isLt
  exact ⟨(⟨(i 0).val, h0⟩, ⟨(i 1).val / 4, by omega⟩), mem_piece.mpr ⟨rfl, rfl⟩⟩

theorem comm_disjoint {t t' : Fin 4 × Fin 8} (hne : t ≠ t') :
    Disjoint (pieceM t.1 t.2).view.set (pieceM t'.1 t'.2).view.set := by
  rw [piece_set, piece_set]
  by_cases hk : t.1 = t'.1
  · have hh : t.2.val ≠ t'.2.val := fun e => hne (Prod.ext hk (Fin.ext e))
    refine Rect.unit_disjoint 1 ?_
    show 4 * t.2.val + 4 ≤ 4 * t'.2.val ∨ 4 * t'.2.val + 4 ≤ 4 * t.2.val
    omega
  · have hk' : t.1.val ≠ t'.1.val := fun e => hk (Fin.ext e)
    refine Rect.unit_disjoint 0 ?_
    show t.1.val + 1 ≤ t'.1.val ∨ t'.1.val + 1 ≤ t.1.val
    omega

theorem comm_split (c : Dev nD) (f : Buf (Elt F) ((c : Thread nD τ).loc cc0_scratch2)) :
    ((((c : Thread nD τ).loc cc0_scratch2) ↦{fullShare} f : sProp 𝕄))
      ⊣⊢ bigSep Finset.univ fun t : Fin 4 × Fin 8 => ((pieceM t.1 t.2).view.loc (c : Thread nD τ) ↦[(pieceM t.1 t.2).view.set]{fullShare} f) := by
  have e : ((((c : Thread nD τ).loc cc0_scratch2) ↦[Finset.univ.biUnion fun t : Fin 4 × Fin 8 => (pieceM t.1 t.2).view.set]{fullShare} f : sProp 𝕄)) = _ :=
    pointsTo_biUnion (q := fullShare) (f := f) (ℓ := (c : Thread nD τ).loc cc0_scratch2) Finset.univ
      (fun t : Fin 4 × Fin 8 => (pieceM t.1 t.2).view.set) (fun t _ t' _ hne => comm_disjoint hne)
  rw [← comm_cover] at e
  exact BiEntails.of_eq e

theorem piece_quarters (p : Dev nD) (k : Fin 4) (h : Fin 8) (f : Buf (Elt F) ((pieceM k h).view.loc (p : Thread nD τ))) :
    (piecePt p k h fullShare f : sProp 𝕄)
      ⊣⊢ iprop(piecePt p k h (qS 0) f ∗ piecePt p k h (qS 1) f ∗ piecePt p k h (qS 2) f ∗ piecePt p k h qK f) := by
  constructor
  · iintro H
    ihave H := (pointsTo_share (PosShare.mem_left_op_right fullShare)).1 $$ H
    icases H with ⟨HL, HR⟩
    ihave HL := (pointsTo_share (PosShare.mem_left_op_right fullShare.left)).1 $$ HL
    ihave HR := (pointsTo_share (PosShare.mem_left_op_right fullShare.right)).1 $$ HR
    icases HL with ⟨H0, H1⟩
    icases HR with ⟨H2, H3⟩
    isplitl [H0]; · iexact H0
    isplitl [H1]; · iexact H1
    isplitl [H2]; · iexact H2
    iexact H3
  · iintro ⟨H0, H1, H2, H3⟩
    ihave HL := (pointsTo_share (PosShare.mem_left_op_right fullShare.left)).2 $$ [H0 H1]
    · isplitl [H0]; · iexact H0
      iexact H1
    ihave HR := (pointsTo_share (PosShare.mem_left_op_right fullShare.right)).2 $$ [H2 H3]
    · isplitl [H2]; · iexact H2
      iexact H3
    iapply (pointsTo_share (PosShare.mem_left_op_right fullShare)).2
    isplitl [HL]; · iexact HL
    iexact HR

theorem out_inb : ∀ (j : Fin 8) (a : Fin 2), (![512 * j.val, 0] : Fin 2 → Nat) a + S512x1024.size a ≤ S4096x1024.size a := by decide

abbrev outM (j : Fin 8) : Memref sig .tc .hbm S512x1024 .bf16 :=
  (Memref.whole main_v1).slice (Rect.unit (s := S4096x1024) ![512 * j.val, 0] S512x1024.size (out_inb j)) (fun _ => rfl)

theorem out_set (j : Fin 8) :
    (outM j).view.set = (Rect.unit (s := S4096x1024) ![512 * j.val, 0] S512x1024.size (out_inb j)).set :=
  View.set_slice_whole _ _

theorem mem_out {j : Fin 8} {i : S4096x1024.Idx} : i ∈ (outM j).view.set ↔ (i 0).val / 512 = j.val := by
  rw [out_set, Rect.mem_set_unit]
  constructor
  · intro H
    have h0 : 512 * j.val ≤ (i 0).val ∧ (i 0).val < 512 * j.val + 512 := H 0
    omega
  · intro h0 a
    have h1 : (i 1).val < 1024 := (i 1).isLt
    match a with
    | 0 => show 512 * j.val ≤ (i 0).val ∧ (i 0).val < 512 * j.val + 512; omega
    | 1 => show 0 ≤ (i 1).val ∧ (i 1).val < 0 + 1024; omega

theorem out_cover : (Finset.univ : Finset S4096x1024.Idx) = Finset.univ.biUnion fun j : Fin 8 => (outM j).view.set := by
  ext i
  simp only [Finset.mem_univ, Finset.mem_biUnion, true_and, true_iff]
  have h0 : (i 0).val < 4096 := (i 0).isLt
  exact ⟨⟨(i 0).val / 512, by omega⟩, mem_out.mpr rfl⟩

theorem out_disjoint {j j' : Fin 8} (hne : j ≠ j') : Disjoint (outM j).view.set (outM j').view.set := by
  rw [out_set, out_set]
  have hj : j.val ≠ j'.val := fun e => hne (Fin.ext e)
  refine Rect.unit_disjoint 0 ?_
  show 512 * j.val + 512 ≤ 512 * j'.val ∨ 512 * j'.val + 512 ≤ 512 * j.val
  omega

theorem out_split (c : Dev nD) (f : Buf (Elt F) ((c : Thread nD τ).loc main_v1)) :
    ((((c : Thread nD τ).loc main_v1) ↦{fullShare} f : sProp 𝕄))
      ⊣⊢ bigSep Finset.univ fun j : Fin 8 => ((outM j).view.loc (c : Thread nD τ) ↦[(outM j).view.set]{fullShare} f) := by
  have e : ((((c : Thread nD τ).loc main_v1) ↦[Finset.univ.biUnion fun j : Fin 8 => (outM j).view.set]{fullShare} f : sProp 𝕄)) = _ :=
    pointsTo_biUnion (q := fullShare) (f := f) (ℓ := (c : Thread nD τ).loc main_v1) Finset.univ
      (fun j : Fin 8 => (outM j).view.set) (fun j _ j' _ hne => out_disjoint hne)
  rw [← out_cover] at e
  exact BiEntails.of_eq e

theorem chunk_inb : ∀ (j : Fin 8) (a : Fin 3), (![j.val, 0, 0] : Fin 3 → Nat) a + S1x512x1024.size a ≤ S8x512x1024.size a := by decide

abbrev chunkR (j : Fin 8) : Rect S8x512x1024 := Rect.unit (s := S8x512x1024) ![j.val, 0, 0] S1x512x1024.size (chunk_inb j)

theorem mem_chunk {j : Fin 8} {i : S8x512x1024.Idx} : i ∈ (chunkR j).set ↔ (i 0).val = j.val := by
  rw [Rect.mem_set_unit]
  constructor
  · intro H
    have h0 : j.val ≤ (i 0).val ∧ (i 0).val < j.val + 1 := H 0
    omega
  · intro h0 a
    have h1 : (i 1).val < 512 := (i 1).isLt
    have h2 : (i 2).val < 1024 := (i 2).isLt
    match a with
    | 0 => show j.val ≤ (i 0).val ∧ (i 0).val < j.val + 1; omega
    | 1 => show 0 ≤ (i 1).val ∧ (i 1).val < 0 + 512; omega
    | 2 => show 0 ≤ (i 2).val ∧ (i 2).val < 0 + 1024; omega

theorem chunk_cover : (Finset.univ : Finset S8x512x1024.Idx) = Finset.univ.biUnion fun j : Fin 8 => (chunkR j).set := by
  ext i
  simp only [Finset.mem_univ, Finset.mem_biUnion, true_and, true_iff]
  have h0 : (i 0).val < 8 := (i 0).isLt
  exact ⟨⟨(i 0).val, h0⟩, mem_chunk.mpr rfl⟩

theorem chunk_disjoint {j j' : Fin 8} (hne : j ≠ j') : Disjoint (chunkR j).set (chunkR j').set := by
  have hj : j.val ≠ j'.val := fun e => hne (Fin.ext e)
  refine Rect.unit_disjoint 0 ?_
  show j.val + 1 ≤ j'.val ∨ j'.val + 1 ≤ j.val
  omega

abbrev xvM (j : Fin 8) : Memref sig .tc .vmem S512x1024 .f32 :=
  ((Memref.whole cc0_scratch0).slice (Rect.unit (s := S8x512x1024) ![j.val, 0, 0] S1x512x1024.size (chunk_inb j)) (fun _ => rfl)).squeeze S512x1024 squeezes_S1x512x1024_S512x1024

theorem xv_set (j : Fin 8) : (xvM j).view.set = (chunkR j).set := by
  rw [Memref.set_view_squeeze]
  exact View.set_slice_whole _ _

theorem xv_cover : (Finset.univ : Finset S8x512x1024.Idx) = Finset.univ.biUnion fun j : Fin 8 => (xvM j).view.set := by
  rw [chunk_cover]; exact Finset.biUnion_congr rfl fun j _ => (xv_set j).symm

theorem xv_disjoint {j j' : Fin 8} (hne : j ≠ j') : Disjoint (xvM j).view.set (xvM j').view.set := by
  rw [xv_set, xv_set]; exact chunk_disjoint hne

theorem xv_split (c : Dev nD) (f : Buf (Elt F) ((c : Thread nD τ).loc cc0_scratch0)) :
    ((((c : Thread nD τ).loc cc0_scratch0) ↦{fullShare} f : sProp 𝕄))
      ⊣⊢ bigSep Finset.univ fun j : Fin 8 => ((xvM j).view.loc (c : Thread nD τ) ↦[(xvM j).view.set]{fullShare} f) := by
  have e : ((((c : Thread nD τ).loc cc0_scratch0) ↦[Finset.univ.biUnion fun j : Fin 8 => (xvM j).view.set]{fullShare} f : sProp 𝕄)) = _ :=
    pointsTo_biUnion (q := fullShare) (f := f) (ℓ := (c : Thread nD τ).loc cc0_scratch0) Finset.univ
      (fun j : Fin 8 => (xvM j).view.set) (fun j _ j' _ hne => xv_disjoint hne)
  rw [← xv_cover] at e
  exact BiEntails.of_eq e

abbrev ovM (j : Fin 8) : Memref sig .tc .vmem S512x1024 .bf16 :=
  ((Memref.whole cc0_scratch1).slice (Rect.unit (s := S8x512x1024) ![j.val, 0, 0] S1x512x1024.size (chunk_inb j)) (fun _ => rfl)).squeeze S512x1024 squeezes_S1x512x1024_S512x1024

theorem ov_set (j : Fin 8) : (ovM j).view.set = (chunkR j).set := by
  rw [Memref.set_view_squeeze]
  exact View.set_slice_whole _ _

theorem ov_cover : (Finset.univ : Finset S8x512x1024.Idx) = Finset.univ.biUnion fun j : Fin 8 => (ovM j).view.set := by
  rw [chunk_cover]; exact Finset.biUnion_congr rfl fun j _ => (ov_set j).symm

theorem ov_disjoint {j j' : Fin 8} (hne : j ≠ j') : Disjoint (ovM j).view.set (ovM j').view.set := by
  rw [ov_set, ov_set]; exact chunk_disjoint hne

theorem ov_split (c : Dev nD) (f : Buf (Elt F) ((c : Thread nD τ).loc cc0_scratch1)) :
    ((((c : Thread nD τ).loc cc0_scratch1) ↦{fullShare} f : sProp 𝕄))
      ⊣⊢ bigSep Finset.univ fun j : Fin 8 => ((ovM j).view.loc (c : Thread nD τ) ↦[(ovM j).view.set]{fullShare} f) := by
  have e : ((((c : Thread nD τ).loc cc0_scratch1) ↦[Finset.univ.biUnion fun j : Fin 8 => (ovM j).view.set]{fullShare} f : sProp 𝕄)) = _ :=
    pointsTo_biUnion (q := fullShare) (f := f) (ℓ := (c : Thread nD τ).loc cc0_scratch1) Finset.univ
      (fun j : Fin 8 => (ovM j).view.set) (fun j _ j' _ hne => ov_disjoint hne)
  rw [← ov_cover] at e
  exact BiEntails.of_eq e

/-- info: 'Cert.KernelIdeal.Proto.comm_split' depends on axioms: [propext, Classical.choice, Quot.sound] -/
#guard_msgs in #print axioms comm_split

/-- info: 'Cert.KernelIdeal.Proto.piece_quarters' depends on axioms: [propext, Classical.choice, Quot.sound] -/
#guard_msgs in #print axioms piece_quarters

/-- info: 'Cert.KernelIdeal.Proto.out_split' depends on axioms: [propext, Classical.choice, Quot.sound] -/
#guard_msgs in #print axioms out_split

/-- info: 'Cert.KernelIdeal.Proto.xv_split' depends on axioms: [propext, Classical.choice, Quot.sound] -/
#guard_msgs in #print axioms xv_split

/-- info: 'Cert.KernelIdeal.Proto.ov_split' depends on axioms: [propext, Classical.choice, Quot.sound] -/
#guard_msgs in #print axioms ov_split

end Cert.KernelIdeal.Proto

end
-- ==== Proof.Res.lean ====
import proofs.«901004_g7700000000001005_dist_rmsnorm_colshard_i_m4096_n1024_v7x_i4_bf16_1_alg».proof.Proof.Steps
import proofs.«901004_g7700000000001005_dist_rmsnorm_colshard_i_m4096_n1024_v7x_i4_bf16_1_alg».proof.Proof.Geom

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def xvFin (c : Dev nD) : Buf (Elt F) ((c : Thread nD τ).loc cc0_scratch0) :=
  fun i => Spec.Xof m c (ix2 (n0 := 4096) (n1 := 1024) ⟨512 * (i 0).val + (i 1).val, by
    have h0 : (i 0).val < 8 := (i 0).isLt
    have h1 : (i 1).val < 512 := (i 1).isLt
    omega⟩ ⟨(i 2).val, (i 2).isLt⟩)

def ovFin (c : Dev nD) : Buf (Elt F) ((c : Thread nD τ).loc cc0_scratch1) :=
  fun i => Spec.outChunk (Spec.Xof m) (Spec.Gof m) c ⟨(i 0).val, (i 0).isLt⟩
    (ix3 (n0 := 1) (n1 := 512) (n2 := 1024) 0 ⟨(i 1).val, (i 1).isLt⟩ ⟨(i 2).val, (i 2).isLt⟩)

theorem xin_inb : ∀ (j : Fin 8) (a : Fin 2), (![512 * j.val, 0] : Fin 2 → Nat) a + S512x1024.size a ≤ S4096x1024.size a := by decide
abbrev xinM (j : Fin 8) : Memref sig .tc .hbm S512x1024 .f32 :=
  (Memref.whole main_arg0).slice (Rect.unit (s := S4096x1024) ![512 * j.val, 0] S512x1024.size (xin_inb j)) (fun _ => rfl)

theorem xin_set (j : Fin 8) :
    (xinM j).view.set = (Rect.unit (s := S4096x1024) ![512 * j.val, 0] S512x1024.size (xin_inb j)).set :=
  View.set_slice_whole _ _

theorem mem_xin {j : Fin 8} {i : S4096x1024.Idx} : i ∈ (xinM j).view.set ↔ (i 0).val / 512 = j.val := by
  rw [xin_set, Rect.mem_set_unit]
  constructor
  · intro H
    have h0 : 512 * j.val ≤ (i 0).val ∧ (i 0).val < 512 * j.val + 512 := H 0
    omega
  · intro h0 a
    have h1 : (i 1).val < 1024 := (i 1).isLt
    match a with
    | 0 => show 512 * j.val ≤ (i 0).val ∧ (i 0).val < 512 * j.val + 512; omega
    | 1 => show 0 ≤ (i 1).val ∧ (i 1).val < 0 + 1024; omega

theorem xin_cover : (Finset.univ : Finset S4096x1024.Idx) = Finset.univ.biUnion fun j : Fin 8 => (xinM j).view.set := by
  ext i
  simp only [Finset.mem_univ, Finset.mem_biUnion, true_and, true_iff]
  have h0 : (i 0).val < 4096 := (i 0).isLt
  exact ⟨⟨(i 0).val / 512, by omega⟩, mem_xin.mpr rfl⟩

theorem xin_disjoint {j j' : Fin 8} (hne : j ≠ j') : Disjoint (xinM j).view.set (xinM j').view.set := by
  rw [xin_set, xin_set]
  have hj : j.val ≠ j'.val := fun e => hne (Fin.ext e)
  refine Rect.unit_disjoint 0 ?_
  show 512 * j.val + 512 ≤ 512 * j'.val ∨ 512 * j'.val + 512 ≤ 512 * j.val
  omega

theorem xin_split (c : Dev nD) (f : Buf (Elt F) ((c : Thread nD τ).loc main_arg0)) :
    ((((c : Thread nD τ).loc main_arg0) ↦{fullShare} f : sProp 𝕄))
      ⊣⊢ bigSep Finset.univ fun j : Fin 8 => ((xinM j).view.loc (c : Thread nD τ) ↦[(xinM j).view.set]{fullShare} f) := by
  have e : ((((c : Thread nD τ).loc main_arg0) ↦[Finset.univ.biUnion fun j : Fin 8 => (xinM j).view.set]{fullShare} f : sProp 𝕄)) = _ :=
    pointsTo_biUnion (q := fullShare) (f := f) (ℓ := (c : Thread nD τ).loc main_arg0) Finset.univ
      (fun j : Fin 8 => (xinM j).view.set) (fun j _ j' _ hne => xin_disjoint hne)
  rw [← xin_cover] at e
  exact BiEntails.of_eq e

theorem chain_fin3 (Φ : Fin 3 → sProp 𝕄) : bigSep Finset.univ Φ = iprop(Φ 0 ∗ Φ 1 ∗ Φ 2) :=
  bigSep_univ_eq_bigSepL [0, 1, 2] (by decide) (by decide) Φ
theorem chain_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem chain_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem chain_3x8 (Φ : Fin 3 × Fin 8 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7)] (by decide) (by decide) Φ
theorem chain_4x8 (Φ : Fin 4 × Fin 8 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7) ∗ Φ (3, 0) ∗ Φ (3, 1) ∗ Φ (3, 2) ∗ Φ (3, 3) ∗ Φ (3, 4) ∗ Φ (3, 5) ∗ Φ (3, 6) ∗ Φ (3, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7)] (by decide) (by decide) Φ

theorem slot_congr {X : Dev nD → Vec F S4096x1024 .f32} {p : Dev nD} {k k' : Fin 4} {h h' : Fin 8} {y y' : S1x4x128.Idx}
    (hk : k = k') (hh : h = h') (hy : y = y') : Spec.slot X p k h y = Spec.slot X p k' h' y' := by
  subst hk hh hy; rfl

section Extract
variable (K : GSem nD τ sig → ℕ) (c : Dev nD)

theorem invs_bar : invs m K c ⊢ cellInv ER (Rd m) (K (barCell c)) (barCell c) := by
  unfold invs; iintro ⟨H, -⟩; iexact H
theorem invs_lev : invs m K c ⊢ (levAts L lv : sProp 𝕄) := by
  unfold invs; iintro ⟨-, -, -, -, -, H, -⟩; iexact H
theorem invs_barP (d : Fin 3) : invs m K c ⊢ cellInv ER (Rd m) (K (barCell (pd c d))) (barCell (pd c d)) := by
  unfold invs; iintro ⟨-, H, -⟩
  iapply (show (bigSep Finset.univ (fun d : Fin 3 => cellInv ER (Rd m) (K (barCell (pd c d))) (barCell (pd c d))) : sProp 𝕄) ⊢ cellInv ER (Rd m) (K (barCell (pd c d))) (barCell (pd c d)) from bigSep_elim (Finset.mem_univ d)) $$ H
theorem invs_send (d : Fin 3) (h : Fin 8) : invs m K c ⊢ cellInv ER (Rd m) (K (sendCell c d h)) (sendCell c d h) := by
  unfold invs; iintro ⟨-, -, H, -⟩
  iapply (show (bigSep Finset.univ (fun dh : Fin 3 × Fin 8 => cellInv ER (Rd m) (K (sendCell c dh.1 dh.2)) (sendCell c dh.1 dh.2)) : sProp 𝕄) ⊢ cellInv ER (Rd m) (K (sendCell c d h)) (sendCell c d h) from bigSep_elim (Finset.mem_univ (d, h))) $$ H
theorem invs_recv (k : Fin 3) (h : Fin 8) : invs m K c ⊢ cellInv ER (Rd m) (K (recvCell c k h)) (recvCell c k h) := by
  unfold invs; iintro ⟨-, -, -, H, -⟩
  iapply (show (bigSep Finset.univ (fun kh : Fin 3 × Fin 8 => cellInv ER (Rd m) (K (recvCell c kh.1 kh.2)) (recvCell c kh.1 kh.2)) : sProp 𝕄) ⊢ cellInv ER (Rd m) (K (recvCell c k h)) (recvCell c k h) from bigSep_elim (Finset.mem_univ (k, h))) $$ H
theorem invs_recvP (d : Fin 3) (h : Fin 8) : invs m K c ⊢ cellInv ER (Rd m) (K (recvCell (pd c d) (opp d) h)) (recvCell (pd c d) (opp d) h) := by
  unfold invs; iintro ⟨-, -, -, -, H, -⟩
  iapply (show (bigSep Finset.univ (fun dh : Fin 3 × Fin 8 => cellInv ER (Rd m) (K (recvCell (pd c dh.1) (opp dh.1) dh.2)) (recvCell (pd c dh.1) (opp dh.1) dh.2)) : sProp 𝕄) ⊢ cellInv ER (Rd m) (K (recvCell (pd c d) (opp d) h)) (recvCell (pd c d) (opp d) h) from bigSep_elim (Finset.mem_univ (d, h))) $$ H
theorem invs_rB (d : Fin 3) : invs m K c ⊢ reached ER (barCell (pd c d)) 0 := by
  unfold invs; iintro ⟨-, -, -, -, -, -, H, -⟩
  iapply (show (bigSep Finset.univ (fun d : Fin 3 => reached ER (barCell (pd c d)) 0) : sProp 𝕄) ⊢ reached ER (barCell (pd c d)) 0 from bigSep_elim (Finset.mem_univ d)) $$ H
theorem invs_rR (k : Fin 3) (h : Fin 8) : invs m K c ⊢ reached ER (recvCell c k h) 0 := by
  unfold invs; iintro ⟨-, -, -, -, -, -, -, H, -⟩
  iapply (show (bigSep Finset.univ (fun kh : Fin 3 × Fin 8 => reached ER (recvCell c kh.1 kh.2) 0) : sProp 𝕄) ⊢ reached ER (recvCell c k h) 0 from bigSep_elim (Finset.mem_univ (k, h))) $$ H
theorem invs_rS (d : Fin 3) (h : Fin 8) : invs m K c ⊢ reached ER (sendCell c d h) 0 := by
  unfold invs; iintro ⟨-, -, -, -, -, -, -, -, H⟩
  iapply (show (bigSep Finset.univ (fun dh : Fin 3 × Fin 8 => reached ER (sendCell c dh.1 dh.2) 0) : sProp 𝕄) ⊢ reached ER (sendCell c d h) 0 from bigSep_elim (Finset.mem_univ (d, h))) $$ H

/-- What the copy of piece (3, h) to the device `d + 1` places ahead takes: the quarter it lends, the addressee's piece, the two cells' tokens. -/
abbrev sendPre (d : Fin 3) (h : Fin 8) : sProp 𝕄 :=
  iprop(piecePt c 3 h (qS d) (commFinal m c) ∗ (∃ fn, piecePt (pd c d) (up (opp d)) h fullShare fn)
    ∗ reached ER (recvCell (pd c d) (opp d) h) 0 ∗ dutyTok ER (sendCell c d h) 0 0 ∗ dutyTok ER (recvCell (pd c d) (opp d) h) 0 0)

/-- Piece (3, h) at its final contents in its four quarters. -/
abbrev quarters (h : Fin 8) : sProp 𝕄 :=
  iprop(piecePt c 3 h (qS 0) (commFinal m c) ∗ piecePt c 3 h (qS 1) (commFinal m c) ∗ piecePt c 3 h (qS 2) (commFinal m c) ∗ piecePt c 3 h qK (commFinal m c))

/-- That copy, paid out of the debt `O'`, by a device that holds its persistent facts. -/
theorem send_piece (d : Fin 3) (h : Fin 8) (n : Dev nD) (hn : n = pd c d)
    (O' O : CellTallies nD τ sig Unit) (hO : O' = O + tallyAt (recvCell (pd c d) (opp d) h) () N) (W : Waits sig Unit)
    {hsc : (pieceM (up (opp d)) h : Memref sig (Dev.tc n : Thread nD τ).2.kind .vmem S4x128 .f32).view.ref.isScScratch = false}
    {hsrc : (pieceM 3 h : Memref sig .tc .vmem S4x128 .f32).view.WordExact} {hdst : (pieceM (up (opp d)) h : Memref sig .tc .vmem S4x128 .f32).view.WordExact}
    {hsem : DmaTarget.Typed .vmem (.dma (recvS (opp d) h)) (.remote (Dev.tc n : Thread nD τ) (pieceM (up (opp d)) h : Memref sig .tc .vmem S4x128 .f32) (.dma (sendS d h)) hsc)}
    {α : Type} {Q : α → sProp 𝕄} {k : PUnit → Prog (TpuEff nD τ sig (Elt F) Λ₀ .tc) α} :
    ⊢ iprop(invs m K c -∗ sendPre m c d h -∗ owes (c : Thread nD τ) O' W
        -∗ ((cred (tallyAt (sendCell c d h) () N) ∗ owes (c : Thread nD τ) O W)
            -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (pieceM 3 h) (.remote (Dev.tc n : Thread nD τ) (pieceM (up (opp d)) h) (.dma (sendS d h)) hsc) (.dma (recvS (opp d) h)) hsrc hdst hsem) k) Q) := by
  subst hO
  iintro #Hinv ⟨Hq, ⟨%fn, Hp⟩, #Rr, Ts, Tr⟩ HO
  iapply (wp_send_piece m c d h n hn (K (sendCell c d h)) (K (recvCell (pd c d) (opp d) h)) O W fn) $$ [HO Hq Hp Ts Tr]
  isplitr; · iapply (invs_send m K c d h); iexact Hinv
  isplitr; · iapply (invs_recvP m K c d h); iexact Hinv
  isplitl [Hq]; · iexact Hq
  isplitl [Hp]; · iexact Hp
  isplitl [HO]; · iexact HO
  isplitl [Ts]; · iexact Ts
  isplitr; · iapply (invs_rS m K c d h); iexact Hinv
  isplitl [Tr]; · iexact Tr
  iexact Rr

end Extract

/-- The `k`-th of the 27 payments: the three barrier units, then per half the three copies' receive credits, addressee 1, 2, 3 places ahead. -/
def pay (c : Dev nD) : ℕ → CellTallies nD τ sig Unit
  | 0 => tallyAt (barCell (pd c 0)) () 1
  | 1 => tallyAt (barCell (pd c 1)) () 1
  | 2 => tallyAt (barCell (pd c 2)) () 1
  | j + 3 => tallyAt (recvCell (pd c ⟨j % 3, Nat.mod_lt _ (by decide)⟩) (opp ⟨j % 3, Nat.mod_lt _ (by decide)⟩) ⟨j / 3 % 8, Nat.mod_lt _ (by decide)⟩) () N

/-- The last `n` payments, the earliest the outermost summand. -/
def lastPays (c : Dev nD) : ℕ → CellTallies nD τ sig Unit
  | 0 => 0
  | n + 1 => lastPays c n + pay c (26 - n)

/-- What device `c` still owes after its first `k` payments. -/
def Oat (c : Dev nD) (k : ℕ) : CellTallies nD τ sig Unit := lastPays c (27 - k)

theorem Oat_last (c : Dev nD) : Oat c 27 = 0 := rfl

theorem above_pay (c : Dev nD) : ∀ k, Above 0 (pay c k)
  | 0 | 1 | 2 => Above.bar _ _
  | _ + 3 => Above.recv 0 (by decide) _ _ _ _

theorem above_Oat (c : Dev nD) (k : ℕ) : Above 0 (Oat c k) := by
  unfold Oat
  induction 27 - k with
  | zero => exact Above.zero 0
  | succ n ih => exact Above.add ih (above_pay c _)

/-- From the fourth payment on the debt is on receive cells only. -/
theorem above1_lastPays (c : Dev nD) : ∀ n, n ≤ 24 → Above 1 (lastPays c n)
  | 0, _ => Above.zero 1
  | n + 1, h => Above.add (above1_lastPays c n (by omega)) (by
      obtain ⟨j, hj⟩ : ∃ j, 26 - n = j + 3 := ⟨23 - n, by omega⟩
      rw [hj]; exact Above.recv 1 (by decide) _ _ _ _)

theorem above_Oat3 (c : Dev nD) : Above 1 (Oat c 3) := above1_lastPays c 24 (le_refl _)

theorem O₀_eq_Oat (c : Dev nD) : O₀ c = Oat c 0 :=
  calc O₀ c = pay c 0 + pay c 1 + pay c 2 + (pay c 3 + pay c 4 + pay c 5 + (pay c 6 + pay c 7 + pay c 8 + (pay c 9 + pay c 10 + pay c 11 + (pay c 12 + pay c 13 + pay c 14 + (pay c 15 + pay c 16 + pay c 17 + (pay c 18 + pay c 19 + pay c 20 + (pay c 21 + pay c 22 + pay c 23 + (pay c 24 + pay c 25 + pay c 26)))))))) := rfl
    _ = Oat c 0 := by
      simp only [Oat, lastPays, Nat.reduceSub, zero_add]
      ac_rfl

section Atoms
variable (c : Dev nD)

abbrev xinPt (j : Fin 8) : sProp 𝕄 :=
  (xinM j).view.loc (c : Thread nD τ) ↦[(xinM j).view.set]{fullShare} (m ((c : Thread nD τ).loc main_arg0))
abbrev xvPt (j : Fin 8) (f : Buf (Elt F) ((c : Thread nD τ).loc cc0_scratch0)) : sProp 𝕄 :=
  (xvM j).view.loc (c : Thread nD τ) ↦[(xvM j).view.set]{fullShare} f
abbrev ovPt (j : Fin 8) (f : Buf (Elt F) ((c : Thread nD τ).loc cc0_scratch1)) : sProp 𝕄 :=
  (ovM j).view.loc (c : Thread nD τ) ↦[(ovM j).view.set]{fullShare} f
abbrev outPt (j : Fin 8) (f : Buf (Elt F) ((c : Thread nD τ).loc main_v1)) : sProp 𝕄 :=
  (outM j).view.loc (c : Thread nD τ) ↦[(outM j).view.set]{fullShare} f

abbrev loadFlight (j : Fin 8) (f0 : Buf (Elt F) ((c : Thread nD τ).loc cc0_scratch0)) : sProp 𝕄 :=
  Transfers.Flight countersEmb (c : Thread nD τ) (SemLoc.dma (locS ⟨j.val, by omega⟩)) default 65536
    iprop(((xvM j).view.loc (c : Thread nD τ) ↦[(xvM j).view.set]{fullShare}
        (xvM j).view.writes (Elt F) f0 [⟨Rect.whole S512x1024, ReadAs.same.apply ((xinM j).view.read (Elt F) (m ((c : Thread nD τ).loc main_arg0)))⟩])
      ∗ xinPt m c j)

abbrev storeFlight (j : Fin 8) (fo : Buf (Elt F) ((c : Thread nD τ).loc main_v1)) : sProp 𝕄 :=
  Transfers.Flight countersEmb (c : Thread nD τ) (SemLoc.dma (locS ⟨8 + j.val, by omega⟩)) default 32768
    iprop(((outM j).view.loc (c : Thread nD τ) ↦[(outM j).view.set]{fullShare}
        (outM j).view.writes (Elt F) fo [⟨Rect.whole S512x1024, ReadAs.same.apply ((ovM j).view.read (Elt F) (ovFin m c))⟩])
      ∗ ovPt c j (ovFin m c))

abbrev sem0 (i : Fin 16) : sProp 𝕄 := semVal ((c : Thread nD τ), SemLoc.dma (locS i)) 0

abbrev owesAny (O : CellTallies nD τ sig Unit) : sProp 𝕄 := iprop(∃ W : Waits sig Unit, owes (c : Thread nD τ) O W)

end Atoms

/-- info: 'Cert.KernelIdeal.Proto.send_piece' depends on axioms: [propext, Classical.choice, Quot.sound] -/
#guard_msgs in #print axioms send_piece

/-- info: 'Cert.KernelIdeal.Proto.O₀_eq_Oat' depends on axioms: [propext, Classical.choice, Quot.sound] -/
#guard_msgs in #print axioms O₀_eq_Oat

end Cert.KernelIdeal.Proto

end
-- ==== Proof.Parts1.lean ====
import proofs.«901004_g7700000000001005_dist_rmsnorm_colshard_i_m4096_n1024_v7x_i4_bf16_1_alg».proof.Proof.Res
import Idealize.ShloMosaic.Lib.ValueLayout

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : GSem nD τ sig → ℕ) (c : Dev nD)
  (harg0 : (Memref.whole main_arg0 : Memref sig .tc .hbm S4096x1024 .f32).IsWhole) (arg1 : Memref sig .tc .vmem S1024 .f32) (harg1 : arg1.IsWhole)
  (harg2 : (Memref.whole main_v1 : Memref sig .tc .hbm S4096x1024 .bf16).IsWhole) (harg3 : (Memref.whole cc0_scratch0 : Memref sig .tc .vmem S8x512x1024 .f32).IsWhole)
  (harg4 : (Memref.whole cc0_scratch1 : Memref sig .tc .vmem S8x512x1024 .bf16).IsWhole) (harg5 : (Memref.whole cc0_scratch2 : Memref sig .tc .vmem S4x32x128 .f32).IsWhole)

theorem lv_loc : ∀ (c : Dev nD) (i : Fin 16), lv ((c : Thread nD τ), SemLoc.dma (locS i)) () = 0 := by decide

theorem xv_landed (c : Dev nD) (j : Fin 8) (g : Buf (Elt F) ((c : Thread nD τ).loc cc0_scratch0)) :
    ∀ i ∈ (xvM j).view.set,
      ((xvM j).view.writes (Elt F) g [⟨Rect.whole S512x1024, ReadAs.same.apply ((xinM j).view.read (Elt F) (m ((c : Thread nD τ).loc main_arg0)))⟩]) i
        = xvFin m c i := by
  intro i hi
  obtain ⟨y, rfl⟩ := View.exists_emb_of_mem_set _ hi
  obtain ⟨r, l, rfl⟩ : ∃ (r : Fin 512) (l : Fin 1024), y = ix2 r l := ⟨y 0, y 1, eq_ix2 y⟩
  have e1 : (xvM j).view.emb (ix2 r l) = ((xvM j).view.slice (Rect.whole S512x1024)).emb (ix2 r l) := by
    show (xvM j).view.emb (ix2 r l) = (xvM j).view.emb ((Rect.whole S512x1024).emb (ix2 r l))
    rw [Rect.emb_whole_apply]
  rw [View.writes_singleton, e1, View.write_emb_of_mem _ _ (Finset.mem_univ _), ← e1]
  show _root_.cast _ ((xinM j).view.read (Elt F) (m ((c : Thread nD τ).loc main_arg0)) (ix2 r l)) = _
  rw [View.read_apply]
  refine (cast_cast_self _ _ _).trans ?_
  have e2 : (xvM j).view.emb (ix2 r l) = (chunkR j).emb (ix3 (⟨0, Nat.one_pos⟩ : Fin 1) r l) := by
    show (chunkR j).emb (Shape.reshapeEquiv squeezes_S1x512x1024_S512x1024.numel_eq (ix2 r l)) = _
    rw [reshapeEquiv_ix2_1ab]
  rw [e2]
  unfold xvFin
  refine congrArg (m ((c : Thread nD τ).loc main_arg0)) (funext fun a => Fin.ext ?_)
  match a with
  | ⟨0, _⟩ => show 512 * j.val + 1 * r.val = 512 * (j.val + 1 * 0) + (0 + 1 * r.val); omega
  | ⟨1, _⟩ => show 0 + 1 * l.val = 0 + 1 * l.val; rfl

theorem chunk_read (c : Dev nD) (h : Fin 8) (G : Buf (Elt F) ((c : Thread nD τ).loc cc0_scratch0))
    (hG : ∀ i ∈ (xvM h).view.set, G i = xvFin m c i) (inb : ∀ a, (![h.val, 0, 0] : Fin 3 → Nat) a + S1x512x1024.size a ≤ S8x512x1024.size a) :
    View.readAt (Elt F) (Memref.whole cc0_scratch0 : Memref sig .tc .vmem S8x512x1024 .f32).view
        (Rect.unit (s := S8x512x1024) ![h.val, 0, 0] S1x512x1024.size inb).toLoadRect G
      = Spec.xch (Spec.Xof m c) h := by
  have e : View.readAt (Elt F) (Memref.whole cc0_scratch0 : Memref sig .tc .vmem S8x512x1024 .f32).view
        (Rect.unit (s := S8x512x1024) ![h.val, 0, 0] S1x512x1024.size inb).toLoadRect G
      = View.readAt (Elt F) (Memref.whole cc0_scratch0 : Memref sig .tc .vmem S8x512x1024 .f32).view
        (Rect.unit (s := S8x512x1024) ![h.val, 0, 0] S1x512x1024.size inb).toLoadRect (xvFin m c) := by
    refine View.readAt_congr fun i hi => ?_
    obtain ⟨x, hx, rfl⟩ := Finset.mem_map.mp hi
    exact hG _ (by rw [xv_set]; exact hx)
  rw [e]
  funext x
  rw [View.readAt_apply, View.read_apply]
  refine (cast_eq _ _).trans ?_
  unfold xvFin Spec.xch
  refine congrArg (Spec.Xof m c) (funext fun a => Fin.ext ?_)
  have x0 : (x 0).val < 1 := (x 0).isLt
  match a with
  | ⟨0, _⟩ => show 512 * (h.val + 1 * (x 0).val) + (0 + 1 * (x 1).val) = 512 * h.val + (x 1).val; omega
  | ⟨1, _⟩ => show 0 + 1 * (x 2).val = (x 2).val; omega

theorem piece_stored (c : Dev nD) (h : Fin 8) (f2 : Buf (Elt F) ((c : Thread nD τ).loc cc0_scratch2)) (v : Vec F S1x4x128 .f32)
    (hv : v = Spec.part (Spec.xch (Spec.Xof m c) h))
    (inb : ∀ a, (![3, 4 * h.val, 0] : Fin 3 → Nat) a + S1x4x128.size a ≤ S4x32x128.size a) :
    ∀ i ∈ (pieceM 3 h).view.set,
      (View.write (Elt F) ((Memref.whole cc0_scratch2 : Memref sig .tc .vmem S4x32x128 .f32).access
          (Rect.unit (s := S4x32x128) ![3, 4 * h.val, 0] S1x4x128.size inb)) f2 v Finset.univ) i = commFinal m c i := by
  intro i hi
  rw [piece_set, ← Rect.map_emb_univ] at hi
  obtain ⟨z, -, rfl⟩ := Finset.mem_map.mp hi
  have e1 : (Rect.unit (s := S4x32x128) ![(3 : Fin 4).val, 4 * h.val, 0] S1x4x128.size (piece_inb 3 h)).emb z
      = ((Memref.whole cc0_scratch2 : Memref sig .tc .vmem S4x32x128 .f32).access
          (Rect.unit (s := S4x32x128) ![3, 4 * h.val, 0] S1x4x128.size inb)).emb z := rfl
  rw [e1, View.write_emb_of_mem _ _ (Finset.mem_univ z), ← e1, hv]
  refine (cast_eq _ _).trans ?_
  have hs : Spec.part (Spec.xch (Spec.Xof m c) h) = Spec.slot (Spec.Xof m) c 3 h := by
    unfold Spec.slot; rw [Spec.srcDev_three]
  rw [hs]
  have z0 : (z 0).val < 1 := (z 0).isLt
  have z1 : (z 1).val < 4 := (z 1).isLt
  have hh : h.val < 8 := h.isLt
  show Spec.slot (Spec.Xof m) c 3 h z = Spec.slot (Spec.Xof m) c ⟨3 + 1 * (z 0).val, _⟩ ⟨(4 * h.val + 1 * (z 1).val) / 4, _⟩
    (ix3 (n0 := 1) (n1 := 4) (n2 := 128) 0 ⟨(4 * h.val + 1 * (z 1).val) % 4, _⟩ ⟨0 + 1 * (z 2).val, _⟩)
  refine slot_congr (Fin.ext (by show 3 = 3 + 1 * (z 0).val; omega)) (Fin.ext (by show h.val = (4 * h.val + 1 * (z 1).val) / 4; omega)) ?_
  funext a
  match a with
  | ⟨0, _⟩ => exact Fin.ext (by show (z 0).val = 0; omega)
  | ⟨1, _⟩ => exact Fin.ext (by show (z 1).val = (4 * h.val + 1 * (z 1).val) % 4; omega)
  | ⟨2, _⟩ => exact Fin.ext (by show (z 2).val = 0 + 1 * (z 2).val; omega)

def part4_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 3) W
    ∗ loadFlight m c 0 f0
    ∗ piecePt c 3 0 fullShare f2)

def part4_post (r : (BitVec 32)) : sProp 𝕄 :=
  iprop(owesAny c (Oat c 3)
    ∗ sem0 c 0
    ∗ xinPt m c 0
    ∗ xvPt c 0 (xvFin m c)
    ∗ quarters m c 0)

set_option maxHeartbeats 3200000 in
theorem part4_spec (W : Waits sig Unit) (f0 : Buf (Elt F) ((c : Thread nD τ).loc cc0_scratch0))
    (f2 : Buf (Elt F) ((c : Thread nD τ).loc cc0_scratch2)) (v2 : BitVec 32) :
    part4_pre m K c W f0 f2
      ⊢ wp frame (wpE (defs₀ (F := F)) 𝒱₀ (c : Thread nD τ) none) Set.univ
          (k0_part4 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v2)
          (fun r => part4_post m c r) := by
  rw [k0_part4_eq_skeleton]
  unfold k0_part4_skel part4_pre
  simp only [Prog.lift, Prog.bind_op, Prog.bind_ret, Prog.pure_eq_ret]
  iintro ⟨#Hinv, HO, Hfl, Hp⟩
  ihave Hlev := (invs_lev m K c) $$ Hinv
  have hmw : (levAts L lv : sProp 𝕄) ⊢ MayWait (c : Thread nD τ) (SemLoc.dma (locS 0)) () (Oat c 3) :=
    mayWait_of c _ 0 (le_of_eq (lv_loc c 0)) _ (above_Oat c 3)
  sl_exec
  rw [wp_ret]; imodintro
  ihave Hxv := (Entails.of_eq (pointsTo_congr (xv_landed m c 0 _))) $$ Hfl_dst
  ihave Hp := (Entails.of_eq (pointsTo_congr (piece_stored m c 0 f2 _ (congrArg _ (chunk_read m c 0 _ (xv_landed m c 0 _) _)) _))) $$ Hp
  ihave Hq := (piece_quarters c 3 0 (commFinal m c)).1 $$ Hp
  icases Hq with ⟨Q0, Q1, Q2, QK⟩
  unfold part4_post
  sl_close

def part5_pre (W : Waits sig Unit) : sProp 𝕄 :=
  iprop(invs m K c
    ∗ owes (c : Thread nD τ) (Oat c 3) W
    ∗ sendPre m c 0 0
    ∗ sendPre m c 1 0)

def part5_post (r : (Σ' (v127 : BitVec 32) (v140 : BitVec 32) (v141 : BitVec 32) (v142 : BitVec 1), BitVec 1)) : sProp 𝕄 :=
  iprop(owesAny c (Oat c 5)
    ∗ cred (tallyAt (sendCell c 0 0) () N)
    ∗ cred (tallyAt (sendCell c 1 0) () N))

set_option maxHeartbeats 3200000 in
theorem part5_spec (W : Waits sig Unit) (v2 : BitVec 32) :
    part5_pre m K c W
      ⊢ wp frame (wpE (defs₀ (F := F)) 𝒱₀ (c : Thread nD τ) none) Set.univ
          (k0_part5 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part5_post c r) := by
  rw [k0_part5_eq_skeleton]
  unfold k0_part5_skel part5_pre
  simp only [Prog.lift, Prog.bind_op, Prog.bind_ret, Prog.pure_eq_ret]
  iintro ⟨#Hinv, HO, Q00, Q01⟩
  iapply (send_piece m K c 0 0 _ (dev4_eq c) (Oat c 3) (Oat c 4) rfl _) $$ Hinv Q00 HO
  iintro ⟨C00, HO⟩
  iapply (send_piece m K c 1 0 _ (dev5_eq c) (Oat c 4) (Oat c 5) rfl _) $$ Hinv Q01 HO
  iintro ⟨C01, HO⟩
  rw [wp_ret]; imodintro
  unfold part5_post
  sl_close

def part6_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 5) W
    ∗ sendPre m c 2 0
    ∗ loadFlight m c 1 f0
    ∗ piecePt c 3 1 fullShare f2)

def part6_post (r : (Σ' (v148 : BitVec 32) (v172 : BitVec 32), BitVec 32)) : sProp 𝕄 :=
  iprop(owesAny c (Oat c 6)
    ∗ cred (tallyAt (sendCell c 2 0) () N)
    ∗ sem0 c 1
    ∗ xinPt m c 1
    ∗ xvPt c 1 (xvFin m c)
    ∗ quarters m c 1)

set_option maxHeartbeats 3200000 in
theorem part6_spec (W : Waits sig Unit) (f0 : Buf (Elt F) ((c : Thread nD τ).loc cc0_scratch0))
    (f2 : Buf (Elt F) ((c : Thread nD τ).loc cc0_scratch2)) (v2 : BitVec 32) (v140 : BitVec 32) (v141 : BitVec 32) (v142 : BitVec 1) (v143 : BitVec 1) :
    part6_pre m K c W f0 f2
      ⊢ wp frame (wpE (defs₀ (F := F)) 𝒱₀ (c : Thread nD τ) none) Set.univ
          (k0_part6 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v140 v141 v142 v143)
          (fun r => part6_post m c r) := by
  rw [k0_part6_eq_skeleton]
  unfold k0_part6_skel part6_pre
  simp only [Prog.lift, Prog.bind_op, Prog.bind_ret, Prog.pure_eq_ret]
  iintro ⟨#Hinv, HO, Q02, Hfl, Hp⟩
  iapply (send_piece m K c 2 0 _ (dev6_eq c) (Oat c 5) (Oat c 6) rfl _) $$ Hinv Q02 HO
  iintro ⟨C02, HO⟩
  ihave Hlev := (invs_lev m K c) $$ Hinv
  have hmw : (levAts L lv : sProp 𝕄) ⊢ MayWait (c : Thread nD τ) (SemLoc.dma (locS 1)) () (Oat c 6) :=
    mayWait_of c _ 0 (le_of_eq (lv_loc c 1)) _ (above_Oat c 6)
  sl_exec
  rw [wp_ret]; imodintro
  ihave Hxv := (Entails.of_eq (pointsTo_congr (xv_landed m c 1 _))) $$ Hfl_dst
  ihave Hp := (Entails.of_eq (pointsTo_congr (piece_stored m c 1 f2 _ (congrArg _ (chunk_read m c 1 _ (xv_landed m c 1 _) _)) _))) $$ Hp
  ihave Hq := (piece_quarters c 3 1 (commFinal m c)).1 $$ Hp
  icases Hq with ⟨Q0, Q1, Q2, QK⟩
  unfold part6_post
  sl_close

def part7_pre (W : Waits sig Unit) : sProp 𝕄 :=
  iprop(invs m K c
    ∗ owes (c : Thread nD τ) (Oat c 6) W
    ∗ sendPre m c 0 1)

def part7_post (r : (Σ' (v182 : BitVec 32), BitVec 32)) : sProp 𝕄 :=
  iprop(owesAny c (Oat c 7)
    ∗ cred (tallyAt (sendCell c 0 1) () N))

set_option maxHeartbeats 3200000 in
theorem part7_spec (W : Waits sig Unit) (v2 : BitVec 32) (v172 : BitVec 32) (c4_i32_145 : BitVec 32) :
    part7_pre m K c W
      ⊢ wp frame (wpE (defs₀ (F := F)) 𝒱₀ (c : Thread nD τ) none) Set.univ
          (k0_part7 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v172 c4_i32_145)
          (fun r => part7_post c r) := by
  rw [k0_part7_eq_skeleton]
  unfold k0_part7_skel part7_pre
  simp only [Prog.lift, Prog.bind_op, Prog.bind_ret, Prog.pure_eq_ret]
  iintro ⟨#Hinv, HO, Q10⟩
  iapply (send_piece m K c 0 1 _ (dev7_eq c) (Oat c 6) (Oat c 7) rfl _) $$ Hinv Q10 HO
  iintro ⟨C10, HO⟩
  rw [wp_ret]; imodintro
  unfold part7_post
  sl_close

def part8_pre (W : Waits sig Unit) : sProp 𝕄 :=
  iprop(invs m K c
    ∗ owes (c : Thread nD τ) (Oat c 7) W
    ∗ sendPre m c 1 1
    ∗ sendPre m c 2 1)

def part8_post (r : (BitVec 32)) : sProp 𝕄 :=
  iprop(owesAny c (Oat c 9)
    ∗ cred (tallyAt (sendCell c 1 1) () N)
    ∗ cred (tallyAt (sendCell c 2 1) () N))

set_option maxHeartbeats 3200000 in
theorem part8_spec (W : Waits sig Unit) (v2 : BitVec 32) (v203 : BitVec 32) :
    part8_pre m K c W
      ⊢ wp frame (wpE (defs₀ (F := F)) 𝒱₀ (c : Thread nD τ) none) Set.univ
          (k0_part8 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v203)
          (fun r => part8_post c r) := by
  rw [k0_part8_eq_skeleton]
  unfold k0_part8_skel part8_pre
  simp only [Prog.lift, Prog.bind_op, Prog.bind_ret, Prog.pure_eq_ret]
  iintro ⟨#Hinv, HO, Q11, Q12⟩
  iapply (send_piece m K c 1 1 _ (dev8_eq c) (Oat c 7) (Oat c 8) rfl _) $$ Hinv Q11 HO
  iintro ⟨C11, HO⟩
  iapply (send_piece m K c 2 1 _ (dev9_eq c) (Oat c 8) (Oat c 9) rfl _) $$ Hinv Q12 HO
  iintro ⟨C12, HO⟩
  rw [wp_ret]; imodintro
  unfold part8_post
  sl_close

def part9_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 9) W
    ∗ loadFlight m c 2 f0
    ∗ piecePt c 3 2 fullShare f2)

def part9_post (r : (BitVec 32)) : sProp 𝕄 :=
  iprop(owesAny c (Oat c 9)
    ∗ sem0 c 2
    ∗ xinPt m c 2
    ∗ xvPt c 2 (xvFin m c)
    ∗ quarters m c 2)

set_option maxHeartbeats 3200000 in
theorem part9_spec (W : Waits sig Unit) (f0 : Buf (Elt F) ((c : Thread nD τ).loc cc0_scratch0))
    (f2 : Buf (Elt F) ((c : Thread nD τ).loc cc0_scratch2)) (v2 : BitVec 32) :
    part9_pre m K c W f0 f2
      ⊢ wp frame (wpE (defs₀ (F := F)) 𝒱₀ (c : Thread nD τ) none) Set.univ
          (k0_part9 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v2)
          (fun r => part9_post m c r) := by
  rw [k0_part9_eq_skeleton]
  unfold k0_part9_skel part9_pre
  simp only [Prog.lift, Prog.bind_op, Prog.bind_ret, Prog.pure_eq_ret]
  iintro ⟨#Hinv, HO, Hfl, Hp⟩
  ihave Hlev := (invs_lev m K c) $$ Hinv
  have hmw : (levAts L lv : sProp 𝕄) ⊢ MayWait (c : Thread nD τ) (SemLoc.dma (locS 2)) () (Oat c 9) :=
    mayWait_of c _ 0 (le_of_eq (lv_loc c 2)) _ (above_Oat c 9)
  sl_exec
  rw [wp_ret]; imodintro
  ihave Hxv := (Entails.of_eq (pointsTo_congr (xv_landed m c 2 _))) $$ Hfl_dst
  ihave Hp := (Entails.of_eq (pointsTo_congr (piece_stored m c 2 f2 _ (congrArg _ (chunk_read m c 2 _ (xv_landed m c 2 _) _)) _))) $$ Hp
  ihave Hq := (piece_quarters c 3 2 (commFinal m c)).1 $$ Hp
  icases Hq with ⟨Q0, Q1, Q2, QK⟩
  unfold part9_post
  sl_close

def part10_pre (W : Waits sig Unit) : sProp 𝕄 :=
  iprop(invs m K c
    ∗ owes (c : Thread nD τ) (Oat c 9) W
    ∗ sendPre m c 0 2
    ∗ sendPre m c 1 2)

def part10_post (r : (Σ' (v279 : BitVec 32) (v292 : BitVec 32) (v293 : BitVec 32), BitVec 1)) : sProp 𝕄 :=
  iprop(owesAny c (Oat c 11)
    ∗ cred (tallyAt (sendCell c 0 2) () N)
    ∗ cred (tallyAt (sendCell c 1 2) () N))

set_option maxHeartbeats 3200000 in
theorem part10_spec (W : Waits sig Unit) (v2 : BitVec 32) :
    part10_pre m K c W
      ⊢ wp frame (wpE (defs₀ (F := F)) 𝒱₀ (c : Thread nD τ) none) Set.univ
          (k0_part10 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part10_post c r) := by
  rw [k0_part10_eq_skeleton]
  unfold k0_part10_skel part10_pre
  simp only [Prog.lift, Prog.bind_op, Prog.bind_ret, Prog.pure_eq_ret]
  iintro ⟨#Hinv, HO, Q20, Q21⟩
  iapply (send_piece m K c 0 2 _ (dev10_eq c) (Oat c 9) (Oat c 10) rfl _) $$ Hinv Q20 HO
  iintro ⟨C20, HO⟩
  iapply (send_piece m K c 1 2 _ (dev11_eq c) (Oat c 10) (Oat c 11) rfl _) $$ Hinv Q21 HO
  iintro ⟨C21, HO⟩
  rw [wp_ret]; imodintro
  unfold part10_post
  sl_close

def part11_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 11) W
    ∗ sendPre m c 2 2
    ∗ loadFlight m c 3 f0
    ∗ piecePt c 3 3 fullShare f2)

def part11_post (r : (Σ' (v300 : BitVec 32), BitVec 32)) : sProp 𝕄 :=
  iprop(owesAny c (Oat c 12)
    ∗ cred (tallyAt (sendCell c 2 2) () N)
    ∗ sem0 c 3
    ∗ xinPt m c 3
    ∗ xvPt c 3 (xvFin m c)
    ∗ quarters m c 3)

set_option maxHeartbeats 3200000 in
theorem part11_spec (W : Waits sig Unit) (f0 : Buf (Elt F) ((c : Thread nD τ).loc cc0_scratch0))
    (f2 : Buf (Elt F) ((c : Thread nD τ).loc cc0_scratch2)) (v292 : BitVec 32) (v293 : BitVec 32) (v294 : BitVec 1) :
    part11_pre m K c W f0 f2
      ⊢ wp frame (wpE (defs₀ (F := F)) 𝒱₀ (c : Thread nD τ) none) Set.univ
          (k0_part11 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v292 v293 v294)
          (fun r => part11_post m c r) := by
  rw [k0_part11_eq_skeleton]
  unfold k0_part11_skel part11_pre
  simp only [Prog.lift, Prog.bind_op, Prog.bind_ret, Prog.pure_eq_ret]
  iintro ⟨#Hinv, HO, Q22, Hfl, Hp⟩
  iapply (send_piece m K c 2 2 _ (dev12_eq c) (Oat c 11) (Oat c 12) rfl _) $$ Hinv Q22 HO
  iintro ⟨C22, HO⟩
  ihave Hlev := (invs_lev m K c) $$ Hinv
  have hmw : (levAts L lv : sProp 𝕄) ⊢ MayWait (c : Thread nD τ) (SemLoc.dma (locS 3)) () (Oat c 12) :=
    mayWait_of c _ 0 (le_of_eq (lv_loc c 3)) _ (above_Oat c 12)
  sl_exec
  rw [wp_ret]; imodintro
  ihave Hxv := (Entails.of_eq (pointsTo_congr (xv_landed m c 3 _))) $$ Hfl_dst
  ihave Hp := (Entails.of_eq (pointsTo_congr (piece_stored m c 3 f2 _ (congrArg _ (chunk_read m c 3 _ (xv_landed m c 3 _) _)) _))) $$ Hp
  ihave Hq := (piece_quarters c 3 3 (commFinal m c)).1 $$ Hp
  icases Hq with ⟨Q0, Q1, Q2, QK⟩
  unfold part11_post
  sl_close

def part12_pre (W : Waits sig Unit) : sProp 𝕄 :=
  iprop(invs m K c
    ∗ owes (c : Thread nD τ) (Oat c 12) W
    ∗ sendPre m c 0 3)

def part12_post (r : (Σ' (v334 : BitVec 32), BitVec 32)) : sProp 𝕄 :=
  iprop(owesAny c (Oat c 13)
    ∗ cred (tallyAt (sendCell c 0 3) () N))

set_option maxHeartbeats 3200000 in
theorem part12_spec (W : Waits sig Unit) (v2 : BitVec 32) (c1_i32_280 : BitVec 32) :
    part12_pre m K c W
      ⊢ wp frame (wpE (defs₀ (F := F)) 𝒱₀ (c : Thread nD τ) none) Set.univ
          (k0_part12 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 c1_i32_280)
          (fun r => part12_post c r) := by
  rw [k0_part12_eq_skeleton]
  unfold k0_part12_skel part12_pre
  simp only [Prog.lift, Prog.bind_op, Prog.bind_ret, Prog.pure_eq_ret]
  iintro ⟨#Hinv, HO, Q30⟩
  iapply (send_piece m K c 0 3 _ (dev13_eq c) (Oat c 12) (Oat c 13) rfl _) $$ Hinv Q30 HO
  iintro ⟨C30, HO⟩
  rw [wp_ret]; imodintro
  unfold part12_post
  sl_close

def part13_pre (W : Waits sig Unit) : sProp 𝕄 :=
  iprop(invs m K c
    ∗ owes (c : Thread nD τ) (Oat c 13) W
    ∗ sendPre m c 1 3)

def part13_post (r : (BitVec 32)) : sProp 𝕄 :=
  iprop(owesAny c (Oat c 14)
    ∗ cred (tallyAt (sendCell c 1 3) () N))

set_option maxHeartbeats 3200000 in
theorem part13_spec (W : Waits sig Unit) (v2 : BitVec 32) (v355 : BitVec 32) :
    part13_pre m K c W
      ⊢ wp frame (wpE (defs₀ (F := F)) 𝒱₀ (c : Thread nD τ) none) Set.univ
          (k0_part13 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v355)
          (fun r => part13_post c r) := by
  rw [k0_part13_eq_skeleton]
  unfold k0_part13_skel part13_pre
  simp only [Prog.lift, Prog.bind_op, Prog.bind_ret, Prog.pure_eq_ret]
  iintro ⟨#Hinv, HO, Q31⟩
  iapply (send_piece m K c 1 3 _ (dev14_eq c) (Oat c 13) (Oat c 14) rfl _) $$ Hinv Q31 HO
  iintro ⟨C31, HO⟩
  rw [wp_ret]; imodintro
  unfold part13_post
  sl_close

def part14_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 14) W
    ∗ sendPre m c 2 3
    ∗ loadFlight m c 4 f0
    ∗ piecePt c 3 4 fullShare f2)

def part14_post (r : (BitVec 32)) : sProp 𝕄 :=
  iprop(owesAny c (Oat c 15)
    ∗ cred (tallyAt (sendCell c 2 3) () N)
    ∗ sem0 c 4
    ∗ xinPt m c 4
    ∗ xvPt c 4 (xvFin m c)
    ∗ quarters m c 4)

set_option maxHeartbeats 3200000 in
theorem part14_spec (W : Waits sig Unit) (f0 : Buf (Elt F) ((c : Thread nD τ).loc cc0_scratch0))
    (f2 : Buf (Elt F) ((c : Thread nD τ).loc cc0_scratch2)) (v2 : BitVec 32) :
    part14_pre m K c W f0 f2
      ⊢ wp frame (wpE (defs₀ (F := F)) 𝒱₀ (c : Thread nD τ) none) Set.univ
          (k0_part14 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part14_post m c r) := by
  rw [k0_part14_eq_skeleton]
  unfold k0_part14_skel part14_pre
  simp only [Prog.lift, Prog.bind_op, Prog.bind_ret, Prog.pure_eq_ret]
  iintro ⟨#Hinv, HO, Q32, Hfl, Hp⟩
  iapply (send_piece m K c 2 3 _ (dev15_eq c) (Oat c 14) (Oat c 15) rfl _) $$ Hinv Q32 HO
  iintro ⟨C32, HO⟩
  ihave Hlev := (invs_lev m K c) $$ Hinv
  have hmw : (levAts L lv : sProp 𝕄) ⊢ MayWait (c : Thread nD τ) (SemLoc.dma (locS 4)) () (Oat c 15) :=
    mayWait_of c _ 0 (le_of_eq (lv_loc c 4)) _ (above_Oat c 15)
  sl_exec
  rw [wp_ret]; imodintro
  ihave Hxv := (Entails.of_eq (pointsTo_congr (xv_landed m c 4 _))) $$ Hfl_dst
  ihave Hp := (Entails.of_eq (pointsTo_congr (piece_stored m c 4 f2 _ (congrArg _ (chunk_read m c 4 _ (xv_landed m c 4 _) _)) _))) $$ Hp
  ihave Hq := (piece_quarters c 3 4 (commFinal m c)).1 $$ Hp
  icases Hq with ⟨Q0, Q1, Q2, QK⟩
  unfold part14_post
  sl_close

def part15_pre (W : Waits sig Unit) : sProp 𝕄 :=
  iprop(invs m K c
    ∗ owes (c : Thread nD τ) (Oat c 15) W
    ∗ sendPre m c 0 4
    ∗ sendPre m c 1 4)

def part15_post (r : (Σ' (v431 : BitVec 32) (v444 : BitVec 32), BitVec 32)) : sProp 𝕄 :=
  iprop(owesAny c (Oat c 17)
    ∗ cred (tallyAt (sendCell c 0 4) () N)
    ∗ cred (tallyAt (sendCell c 1 4) () N))

set_option maxHeartbeats 3200000 in
theorem part15_spec (W : Waits sig Unit) (v2 : BitVec 32) :
    part15_pre m K c W
      ⊢ wp frame (wpE (defs₀ (F := F)) 𝒱₀ (c : Thread nD τ) none) Set.univ
          (k0_part15 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part15_post c r) := by
  rw [k0_part15_eq_skeleton]
  unfold k0_part15_skel part15_pre
  simp only [Prog.lift, Prog.bind_op, Prog.bind_ret, Prog.pure_eq_ret]
  iintro ⟨#Hinv, HO, Q40, Q41⟩
  iapply (send_piece m K c 0 4 _ (dev16_eq c) (Oat c 15) (Oat c 16) rfl _) $$ Hinv Q40 HO
  iintro ⟨C40, HO⟩
  iapply (send_piece m K c 1 4 _ (dev17_eq c) (Oat c 16) (Oat c 17) rfl _) $$ Hinv Q41 HO
  iintro ⟨C41, HO⟩
  rw [wp_ret]; imodintro
  unfold part15_post
  sl_close

def part16_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 17) W
    ∗ sendPre m c 2 4
    ∗ loadFlight m c 5 f0
    ∗ piecePt c 3 5 fullShare f2)

def part16_post (f2 : Buf (Elt F) ((c : Thread nD τ).loc cc0_scratch2)) (r : (Σ' (v452 : BitVec 32), FVec F S1x4x128 .f32)) : sProp 𝕄 :=
  iprop(owesAny c (Oat c 18)
    ∗ cred (tallyAt (sendCell c 2 4) () N)
    ∗ sem0 c 5
    ∗ xinPt m c 5
    ∗ xvPt c 5 (xvFin m c)
    ∗ piecePt c 3 5 fullShare f2
    ∗ ⌜r.2 = Spec.part (Spec.xch (Spec.Xof m c) 5)⌝)

set_option maxHeartbeats 3200000 in
theorem part16_spec (W : Waits sig Unit) (f0 : Buf (Elt F) ((c : Thread nD τ).loc cc0_scratch0))
    (f2 : Buf (Elt F) ((c : Thread nD τ).loc cc0_scratch2)) (v444 : BitVec 32) (v445 : BitVec 32) :
    part16_pre m K c W f0 f2
      ⊢ wp frame (wpE (defs₀ (F := F)) 𝒱₀ (c : Thread nD τ) none) Set.univ
          (k0_part16 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v444 v445)
          (fun r => part16_post m c f2 r) := by
  rw [k0_part16_eq_skeleton]
  unfold k0_part16_skel part16_pre
  simp only [Prog.lift, Prog.bind_op, Prog.bind_ret, Prog.pure_eq_ret]
  iintro ⟨#Hinv, HO, Q42, Hfl, Hp⟩
  iapply (send_piece m K c 2 4 _ (dev18_eq c) (Oat c 17) (Oat c 18) rfl _) $$ Hinv Q42 HO
  iintro ⟨C42, HO⟩
  ihave Hlev := (invs_lev m K c) $$ Hinv
  have hmw : (levAts L lv : sProp 𝕄) ⊢ MayWait (c : Thread nD τ) (SemLoc.dma (locS 5)) () (Oat c 18) :=
    mayWait_of c _ 0 (le_of_eq (lv_loc c 5)) _ (above_Oat c 18)
  sl_exec
  rw [wp_ret]; imodintro
  ihave Hxv := (Entails.of_eq (pointsTo_congr (xv_landed m c 5 _))) $$ Hfl_dst
  unfold part16_post
  isplitl [HO]; · iexists _; iexact HO
  isplitl [C42]; · iexact C42
  isplitl [Hfl]; · iexact Hfl
  isplitl [Hfl_src]; · iexact Hfl_src
  isplitl [Hxv]; · iexact Hxv
  isplitl [Hp]; · iexact Hp
  ipureintro; exact congrArg k0_pay6 (chunk_read m c 5 _ (xv_landed m c 5 _) _)

def part17_pre (W : Waits sig Unit)
    (f2 : Buf (Elt F) ((c : Thread nD τ).loc cc0_scratch2)) : sProp 𝕄 :=
  iprop(invs m K c
    ∗ owes (c : Thread nD τ) (Oat c 18) W
    ∗ piecePt c 3 5 fullShare f2
    ∗ (∃ f, piecePt (pd c 0) (up (opp 0)) 5 fullShare f)
    ∗ reached ER (recvCell (pd c 0) (opp 0) 5) 0
    ∗ dutyTok ER (sendCell c 0 5) 0 0
    ∗ dutyTok ER (recvCell (pd c 0) (opp 0) 5) 0 0)

def part17_post (r : (Σ' (v486 : BitVec 32), BitVec 32)) : sProp 𝕄 :=
  iprop(owesAny c (Oat c 19)
    ∗ cred (tallyAt (sendCell c 0 5) () N)
    ∗ piecePt c 3 5 (qS 1) (commFinal m c)
    ∗ piecePt c 3 5 (qS 2) (commFinal m c)
    ∗ piecePt c 3 5 qK (commFinal m c))

set_option maxHeartbeats 3200000 in
theorem part17_spec (W : Waits sig Unit)
    (f2 : Buf (Elt F) ((c : Thread nD τ).loc cc0_scratch2)) (v2 : BitVec 32) (v475 : FVec F S1x4x128 .f32) (hv : v475 = Spec.part (Spec.xch (Spec.Xof m c) 5)) :
    part17_pre m K c W f2
      ⊢ wp frame (wpE (defs₀ (F := F)) 𝒱₀ (c : Thread nD τ) none) Set.univ
          (k0_part17 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v475)
          (fun r => part17_post m c r) := by
  rw [k0_part17_eq_skeleton]
  unfold k0_part17_skel part17_pre
  simp only [Prog.lift, Prog.bind_op, Prog.bind_ret, Prog.pure_eq_ret]
  iintro ⟨#Hinv, HO, Hp, PE50, #RR50, TS50, TR50⟩
  sl_exec
  ihave Hp := (Entails.of_eq (pointsTo_congr (piece_stored m c 5 f2 _ (by rw [hv]) _))) $$ Hp
  ihave Hq := (piece_quarters c 3 5 (commFinal m c)).1 $$ Hp
  icases Hq with ⟨Q0, Q1, Q2, QK⟩
  iapply (send_piece m K c 0 5 _ (dev19_eq c) (Oat c 18) (Oat c 19) rfl _) $$ Hinv [Q0 PE50 TS50 TR50] HO
  · isplitl [Q0]; · iexact Q0
    isplitl [PE50]; · iexact PE50
    isplitr; · iexact RR50
    isplitl [TS50]; · iexact TS50
    iexact TR50
  iintro ⟨C50, HO⟩
  rw [wp_ret]; imodintro
  unfold part17_post
  sl_close

def part18_pre (W : Waits sig Unit) : sProp 𝕄 :=
  iprop(invs m K c
    ∗ owes (c : Thread nD τ) (Oat c 19) W
    ∗ sendPre m c 1 5)

def part18_post (r : (BitVec 32)) : sProp 𝕄 :=
  iprop(owesAny c (Oat c 20)
    ∗ cred (tallyAt (sendCell c 1 5) () N))

set_option maxHeartbeats 3200000 in
theorem part18_spec (W : Waits sig Unit) (v2 : BitVec 32) (v507 : BitVec 32) :
    part18_pre m K c W
      ⊢ wp frame (wpE (defs₀ (F := F)) 𝒱₀ (c : Thread nD τ) none) Set.univ
          (k0_part18 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v507)
          (fun r => part18_post c r) := by
  rw [k0_part18_eq_skeleton]
  unfold k0_part18_skel part18_pre
  simp only [Prog.lift, Prog.bind_op, Prog.bind_ret, Prog.pure_eq_ret]
  iintro ⟨#Hinv, HO, Q51⟩
  iapply (send_piece m K c 1 5 _ (dev20_eq c) (Oat c 19) (Oat c 20) rfl _) $$ Hinv Q51 HO
  iintro ⟨C51, HO⟩
  rw [wp_ret]; imodintro
  unfold part18_post
  sl_close

def part19_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 20) W
    ∗ sendPre m c 2 5
    ∗ loadFlight m c 6 f0
    ∗ piecePt c 3 6 fullShare f2)

def part19_post (r : (BitVec 32)) : sProp 𝕄 :=
  iprop(owesAny c (Oat c 21)
    ∗ cred (tallyAt (sendCell c 2 5) () N)
    ∗ sem0 c 6
    ∗ xinPt m c 6
    ∗ xvPt c 6 (xvFin m c)
    ∗ quarters m c 6)

set_option maxHeartbeats 3200000 in
theorem part19_spec (W : Waits sig Unit) (f0 : Buf (Elt F) ((c : Thread nD τ).loc cc0_scratch0))
    (f2 : Buf (Elt F) ((c : Thread nD τ).loc cc0_scratch2)) (v2 : BitVec 32) :
    part19_pre m K c W f0 f2
      ⊢ wp frame (wpE (defs₀ (F := F)) 𝒱₀ (c : Thread nD τ) none) Set.univ
          (k0_part19 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part19_post m c r) := by
  rw [k0_part19_eq_skeleton]
  unfold k0_part19_skel part19_pre
  simp only [Prog.lift, Prog.bind_op, Prog.bind_ret, Prog.pure_eq_ret]
  iintro ⟨#Hinv, HO, Q52, Hfl, Hp⟩
  iapply (send_piece m K c 2 5 _ (dev21_eq c) (Oat c 20) (Oat c 21) rfl _) $$ Hinv Q52 HO
  iintro ⟨C52, HO⟩
  ihave Hlev := (invs_lev m K c) $$ Hinv
  have hmw : (levAts L lv : sProp 𝕄) ⊢ MayWait (c : Thread nD τ) (SemLoc.dma (locS 6)) () (Oat c 21) :=
    mayWait_of c _ 0 (le_of_eq (lv_loc c 6)) _ (above_Oat c 21)
  sl_exec
  rw [wp_ret]; imodintro
  ihave Hxv := (Entails.of_eq (pointsTo_congr (xv_landed m c 6 _))) $$ Hfl_dst
  ihave Hp := (Entails.of_eq (pointsTo_congr (piece_stored m c 6 f2 _ (congrArg _ (chunk_read m c 6 _ (xv_landed m c 6 _) _)) _))) $$ Hp
  ihave Hq := (piece_quarters c 3 6 (commFinal m c)).1 $$ Hp
  icases Hq with ⟨Q0, Q1, Q2, QK⟩
  unfold part19_post
  sl_close

def part20_pre (W : Waits sig Unit) : sProp 𝕄 :=
  iprop(invs m K c
    ∗ owes (c : Thread nD τ) (Oat c 21) W
    ∗ sendPre m c 0 6
    ∗ sendPre m c 1 6)

def part20_post (r : (Σ' (v583 : BitVec 32) (v594 : BitVec 32) (c4_i32_520 : BitVec 32) (v595 : BitVec 1), BitVec 32)) : sProp 𝕄 :=
  iprop(owesAny c (Oat c 23)
    ∗ cred (tallyAt (sendCell c 0 6) () N)
    ∗ cred (tallyAt (sendCell c 1 6) () N))

set_option maxHeartbeats 3200000 in
theorem part20_spec (W : Waits sig Unit) (v2 : BitVec 32) :
    part20_pre m K c W
      ⊢ wp frame (wpE (defs₀ (F := F)) 𝒱₀ (c : Thread nD τ) none) Set.univ
          (k0_part20 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part20_post c r) := by
  rw [k0_part20_eq_skeleton]
  unfold k0_part20_skel part20_pre
  simp only [Prog.lift, Prog.bind_op, Prog.bind_ret, Prog.pure_eq_ret]
  iintro ⟨#Hinv, HO, Q60, Q61⟩
  iapply (send_piece m K c 0 6 _ (dev22_eq c) (Oat c 21) (Oat c 22) rfl _) $$ Hinv Q60 HO
  iintro ⟨C60, HO⟩
  iapply (send_piece m K c 1 6 _ (dev23_eq c) (Oat c 22) (Oat c 23) rfl _) $$ Hinv Q61 HO
  iintro ⟨C61, HO⟩
  rw [wp_ret]; imodintro
  unfold part20_post
  sl_close

def part21_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 23) W
    ∗ sendPre m c 2 6
    ∗ loadFlight m c 7 f0
    ∗ piecePt c 3 7 fullShare f2)

def part21_post (f2 : Buf (Elt F) ((c : Thread nD τ).loc cc0_scratch2)) (r : (Σ' (v604 : BitVec 32) (v624 : FVec F S4x128 .f32), Vec F S1x4x128 .f32)) : sProp 𝕄 :=
  iprop(owesAny c (Oat c 24)
    ∗ cred (tallyAt (sendCell c 2 6) () N)
    ∗ sem0 c 7
    ∗ xinPt m c 7
    ∗ xvPt c 7 (xvFin m c)
    ∗ piecePt c 3 7 fullShare f2
    ∗ ⌜r.2.1 = k0_pay8 (Spec.xch (Spec.Xof m c) 7)⌝)

set_option maxHeartbeats 3200000 in
theorem part21_spec (W : Waits sig Unit) (f0 : Buf (Elt F) ((c : Thread nD τ).loc cc0_scratch0))
    (f2 : Buf (Elt F) ((c : Thread nD τ).loc cc0_scratch2)) (v594 : BitVec 32) (c4_i32_520 : BitVec 32) (v595 : BitVec 1) (c1_i32_522 : BitVec 32) :
    part21_pre m K c W f0 f2
      ⊢ wp frame (wpE (defs₀ (F := F)) 𝒱₀ (c : Thread nD τ) none) Set.univ
          (k0_part21 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v594 c4_i32_520 v595 c1_i32_522)
          (fun r => part21_post m c f2 r) := by
  rw [k0_part21_eq_skeleton]
  unfold k0_part21_skel part21_pre
  simp only [Prog.lift, Prog.bind_op, Prog.bind_ret, Prog.pure_eq_ret]
  iintro ⟨#Hinv, HO, Q62, Hfl, Hp⟩
  iapply (send_piece m K c 2 6 _ (dev24_eq c) (Oat c 23) (Oat c 24) rfl _) $$ Hinv Q62 HO
  iintro ⟨C62, HO⟩
  ihave Hlev := (invs_lev m K c) $$ Hinv
  have hmw : (levAts L lv : sProp 𝕄) ⊢ MayWait (c : Thread nD τ) (SemLoc.dma (locS 7)) () (Oat c 24) :=
    mayWait_of c _ 0 (le_of_eq (lv_loc c 7)) _ (above_Oat c 24)
  sl_exec
  rw [wp_ret]; imodintro
  ihave Hxv := (Entails.of_eq (pointsTo_congr (xv_landed m c 7 _))) $$ Hfl_dst
  unfold part21_post
  isplitl [HO]; · iexists _; iexact HO
  isplitl [C62]; · iexact C62
  isplitl [Hfl]; · iexact Hfl
  isplitl [Hfl_src]; · iexact Hfl_src
  isplitl [Hxv]; · iexact Hxv
  isplitl [Hp]; · iexact Hp
  ipureintro; exact congrArg k0_pay8 (chunk_read m c 7 _ (xv_landed m c 7 _) _)

def part22_pre (W : Waits sig Unit)
    (f2 : Buf (Elt F) ((c : Thread nD τ).loc cc0_scratch2)) : sProp 𝕄 :=
  iprop(invs m K c
    ∗ owes (c : Thread nD τ) (Oat c 24) W
    ∗ piecePt c 3 7 fullShare f2
    ∗ (∃ f, piecePt (pd c 0) (up (opp 0)) 7 fullShare f)
    ∗ reached ER (recvCell (pd c 0) (opp 0) 7) 0
    ∗ dutyTok ER (sendCell c 0 7) 0 0
    ∗ dutyTok ER (recvCell (pd c 0) (opp 0) 7) 0 0)

def part22_post (r : (Σ' (v638 : BitVec 32) (v651 : BitVec 32) (v652 : BitVec 32), BitVec 1)) : sProp 𝕄 :=
  iprop(owesAny c (Oat c 25)
    ∗ cred (tallyAt (sendCell c 0 7) () N)
    ∗ piecePt c 3 7 (qS 1) (commFinal m c)
    ∗ piecePt c 3 7 (qS 2) (commFinal m c)
    ∗ piecePt c 3 7 qK (commFinal m c))

set_option maxHeartbeats 3200000 in
theorem part22_spec (W : Waits sig Unit)
    (f2 : Buf (Elt F) ((c : Thread nD τ).loc cc0_scratch2)) (v2 : BitVec 32) (v624 : FVec F S4x128 .f32) (v625 : Vec F S1x4x128 .f32) (hv : v624 = k0_pay8 (Spec.xch (Spec.Xof m c) 7)) :
    part22_pre m K c W f2
      ⊢ wp frame (wpE (defs₀ (F := F)) 𝒱₀ (c : Thread nD τ) none) Set.univ
          (k0_part22 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v624 v625)
          (fun r => part22_post m c r) := by
  rw [k0_part22_eq_skeleton]
  unfold k0_part22_skel part22_pre
  simp only [Prog.lift, Prog.bind_op, Prog.bind_ret, Prog.pure_eq_ret]
  iintro ⟨#Hinv, HO, Hp, PE70, #RR70, TS70, TR70⟩
  sl_exec
  ihave Hp := (Entails.of_eq (pointsTo_congr (piece_stored m c 7 f2 _ (by rw [hv]; rfl) _))) $$ Hp
  ihave Hq := (piece_quarters c 3 7 (commFinal m c)).1 $$ Hp
  icases Hq with ⟨Q0, Q1, Q2, QK⟩
  iapply (send_piece m K c 0 7 _ (dev25_eq c) (Oat c 24) (Oat c 25) rfl _) $$ Hinv [Q0 PE70 TS70 TR70] HO
  · isplitl [Q0]; · iexact Q0
    isplitl [PE70]; · iexact PE70
    isplitr; · iexact RR70
    isplitl [TS70]; · iexact TS70
    iexact TR70
  iintro ⟨C70, HO⟩
  rw [wp_ret]; imodintro
  unfold part22_post
  sl_close

def part23_pre (W : Waits sig Unit) : sProp 𝕄 :=
  iprop(invs m K c
    ∗ owes (c : Thread nD τ) (Oat c 25) W
    ∗ sendPre m c 1 7)

def part23_post (r : (Σ' (v659 : BitVec 32), BitVec 32)) : sProp 𝕄 :=
  iprop(owesAny c (Oat c 26)
    ∗ cred (tallyAt (sendCell c 1 7) () N))

set_option maxHeartbeats 3200000 in
theorem part23_spec (W : Waits sig Unit) (v2 : BitVec 32) (v651 : BitVec 32) (v652 : BitVec 32) (v657 : BitVec 1) :
    part23_pre m K c W
      ⊢ wp frame (wpE (defs₀ (F := F)) 𝒱₀ (c : Thread nD τ) none) Set.univ
          (k0_part23 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v651 v652 v657)
          (fun r => part23_post c r) := by
  rw [k0_part23_eq_skeleton]
  unfold k0_part23_skel part23_pre
  simp only [Prog.lift, Prog.bind_op, Prog.bind_ret, Prog.pure_eq_ret]
  iintro ⟨#Hinv, HO, Q71⟩
  iapply (send_piece m K c 1 7 _ (dev26_eq c) (Oat c 25) (Oat c 26) rfl _) $$ Hinv Q71 HO
  iintro ⟨C71, HO⟩
  rw [wp_ret]; imodintro
  unfold part23_post
  sl_close

/-- info: 'Cert.KernelIdeal.Proto.part4_spec' depends on axioms: [propext, Classical.choice, Quot.sound] -/
#guard_msgs in #print axioms part4_spec

/-- info: 'Cert.KernelIdeal.Proto.part5_spec' depends on axioms: [propext, Classical.choice, Quot.sound] -/
#guard_msgs in #print axioms part5_spec

/-- info: 'Cert.KernelIdeal.Proto.part6_spec' depends on axioms: [propext, Classical.choice, Quot.sound] -/
#guard_msgs in #print axioms part6_spec

/-- info: 'Cert.KernelIdeal.Proto.part7_spec' depends on axioms: [propext, Classical.choice, Quot.sound] -/
#guard_msgs in #print axioms part7_spec

/-- info: 'Cert.KernelIdeal.Proto.part8_spec' depends on axioms: [propext, Classical.choice, Quot.sound] -/
#guard_msgs in #print axioms part8_spec

/-- info: 'Cert.KernelIdeal.Proto.part9_spec' depends on axioms: [propext, Classical.choice, Quot.sound] -/
#guard_msgs in #print axioms part9_spec

/-- info: 'Cert.KernelIdeal.Proto.part10_spec' depends on axioms: [propext, Classical.choice, Quot.sound] -/
#guard_msgs in #print axioms part10_spec

/-- info: 'Cert.KernelIdeal.Proto.part11_spec' depends on axioms: [propext, Classical.choice, Quot.sound] -/
#guard_msgs in #print axioms part11_spec

/-- info: 'Cert.KernelIdeal.Proto.part12_spec' depends on axioms: [propext, Classical.choice, Quot.sound] -/
#guard_msgs in #print axioms part12_spec

/-- info: 'Cert.KernelIdeal.Proto.part13_spec' depends on axioms: [propext, Classical.choice, Quot.sound] -/
#guard_msgs in #print axioms part13_spec

/-- info: 'Cert.KernelIdeal.Proto.part14_spec' depends on axioms: [propext, Classical.choice, Quot.sound] -/
#guard_msgs in #print axioms part14_spec

/-- info: 'Cert.KernelIdeal.Proto.part15_spec' depends on axioms: [propext, Classical.choice, Quot.sound] -/
#guard_msgs in #print axioms part15_spec

/-- info: 'Cert.KernelIdeal.Proto.part16_spec' depends on axioms: [propext, Classical.choice, Quot.sound] -/
#guard_msgs in #print axioms part16_spec

/-- info: 'Cert.KernelIdeal.Proto.part17_spec' depends on axioms: [propext, Classical.choice, Quot.sound] -/
#guard_msgs in #print axioms part17_spec

/-- info: 'Cert.KernelIdeal.Proto.part18_spec' depends on axioms: [propext, Classical.choice, Quot.sound] -/
#guard_msgs in #print axioms part18_spec

/-- info: 'Cert.KernelIdeal.Proto.part19_spec' depends on axioms: [propext, Classical.choice, Quot.sound] -/
#guard_msgs in #print axioms part19_spec

/-- info: 'Cert.KernelIdeal.Proto.part20_spec' depends on axioms: [propext, Classical.choice, Quot.sound] -/
#guard_msgs in #print axioms part20_spec

/-- info: 'Cert.KernelIdeal.Proto.part21_spec' depends on axioms: [propext, Classical.choice, Quot.sound] -/
#guard_msgs in #print axioms part21_spec

/-- info: 'Cert.KernelIdeal.Proto.part22_spec' depends on axioms: [propext, Classical.choice, Quot.sound] -/
#guard_msgs in #print axioms part22_spec

/-- info: 'Cert.KernelIdeal.Proto.part23_spec' depends on axioms: [propext, Classical.choice, Quot.sound] -/
#guard_msgs in #print axioms part23_spec

end Cert.KernelIdeal.Proto

end
-- ==== Proof.Parts2.lean ====
import proofs.«901004_g7700000000001005_dist_rmsnorm_colshard_i_m4096_n1024_v7x_i4_bf16_1_alg».proof.Proof.Res

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev gam (c : Dev nD) : FVec F S1024 .f32 := k0_pay10 (Spec.Gof m c)
abbrev sl (c : Dev nD) (k : Fin 4) (h : Fin 8) : FVec F S1x4x128 .f32 := Spec.slot (Spec.Xof m) c k h
abbrev xc (c : Dev nD) (h : Fin 8) : Vec F S1x512x1024 .f32 := Spec.xch (Spec.Xof m c) h

theorem read_piece (c : Dev nD) (k : Fin 4) (h : Fin 8)
    (hin : ∀ a : Fin 3, (![k.val, 4 * h.val, 0] : Fin 3 → Nat) a + S1x4x128.size a ≤ S4x32x128.size a) :
    View.readAt (Elt F) (Memref.whole cc0_scratch2 : Memref sig .tc .vmem S4x32x128 .f32).view
        (Rect.unit (s := S4x32x128) ![k.val, 4 * h.val, 0] S1x4x128.size hin).toLoadRect (commFinal m c)
      = Spec.slot (Spec.Xof m) c k h := by
  funext x
  obtain ⟨a, b, l, rfl⟩ : ∃ (a : Fin 1) (b : Fin 4) (l : Fin 128), x = ix3 a b l := ⟨x 0, x 1, x 2, eq_ix3 x⟩
  have ha : a.val = 0 := by have := a.isLt; omega
  show commFinal m c ((Rect.unit (s := S4x32x128) ![k.val, 4 * h.val, 0] S1x4x128.size hin).toLoadRect.idx (ix3 a b l)) = _
  unfold commFinal
  refine slot_congr (Fin.ext ?_) (Fin.ext ?_) (funext fun d => ?_)
  · show k.val + 1 * a.val = k.val
    omega
  · show (4 * h.val + 1 * b.val) / 4 = h.val
    have := b.isLt; omega
  · match d with
    | ⟨0, _⟩ => exact Fin.ext (by show 0 = a.val; omega)
    | ⟨1, _⟩ => exact Fin.ext (by show (4 * h.val + 1 * b.val) % 4 = b.val; have := b.isLt; omega)
    | ⟨2, _⟩ => exact Fin.ext (by show 0 + 1 * l.val = l.val; omega)

theorem read_xv (c : Dev nD) (j : Fin 8)
    (hin : ∀ a : Fin 3, (![j.val, 0, 0] : Fin 3 → Nat) a + S1x512x1024.size a ≤ S8x512x1024.size a) :
    View.readAt (Elt F) (Memref.whole cc0_scratch0 : Memref sig .tc .vmem S8x512x1024 .f32).view
        (Rect.unit (s := S8x512x1024) ![j.val, 0, 0] S1x512x1024.size hin).toLoadRect (xvFin m c)
      = Spec.xch (Spec.Xof m c) j := by
  funext x
  show xvFin m c ((Rect.unit (s := S8x512x1024) ![j.val, 0, 0] S1x512x1024.size hin).toLoadRect.idx x) = _
  unfold xvFin Spec.xch
  have h0 : (x 0).val = 0 := by have : (x 0).val < 1 := (x 0).isLt; omega
  refine congrArg (Spec.Xof m c) (funext fun d => ?_)
  match d with
  | ⟨0, _⟩ => exact Fin.ext (by show 512 * (j.val + 1 * (x 0).val) + (0 + 1 * (x 1).val) = 512 * j.val + (x 1).val; omega)
  | ⟨1, _⟩ => exact Fin.ext (by show 0 + 1 * (x 2).val = (x 2).val; omega)

def outHalf (c : Dev nD) (h : Fin 8) : FVec F S512x1024 .bf16 :=
  k0_pay11 (k0_pay10 (Spec.Gof m c)) (Spec.slot (Spec.Xof m) c 0 h) (Spec.slot (Spec.Xof m) c 1 h) (Spec.slot (Spec.Xof m) c 2 h)
    (Spec.slot (Spec.Xof m) c 3 h) (Spec.xch (Spec.Xof m c) h)

theorem outHalf_chunk (c : Dev nD) (h : Fin 8) : k0_pay12 (outHalf m c h) = Spec.outChunk (Spec.Xof m) (Spec.Gof m) c h := rfl

abbrev rwPre (c : Dev nD) (k : Fin 3) (h : Fin 8) : sProp 𝕄 :=
  iprop(cred (tallyAt (recvCell c k h) () N) ∗ atPos ER (recvCell c k h) 0 ∅ 0)
abbrev rwPost (c : Dev nD) (k : Fin 3) (h : Fin 8) : sProp 𝕄 :=
  iprop(piecePt c (up k) h fullShare (commFinal m c) ∗ semVal (recvCell c k h) 0)

theorem recvwait_step (K : GSem nD τ sig → ℕ) (c : Dev nD) (k : Fin 3) (h : Fin 8) (W : Waits sig Unit)
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {Q : α → sProp 𝕄} {kk : PUnit → Prog (TpuEff nD τ sig (Elt F) Λ₀ .tc) α} :
    ⊢ iprop(invs m K c -∗ owes (c : Thread nD τ) 0 W -∗ rwPre c k h
          -∗ (iprop(owes (c : Thread nD τ) 0 (insert (SemLoc.dma (recvS k h), ()) W) ∗ rwPost m c k h)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k h) src dst hsrc hdst) kk) Q) := by
  iintro #Hinv HO Hw Hk
  ihave #HI := (invs_recv m K c k h) $$ Hinv
  iapply (cellwait_step m c (recvS k h) _ (duties_recv m c k h) (expect_recv m c k h) ((payload_recv m c k h 0).trans (recvPay_eq m c k h)) (K (recvCell c k h)) W hN) $$ HI HO Hw Hk

theorem ov_stored (c : Dev nD) (j : Fin 8) (f1 : Buf (Elt F) ((c : Thread nD τ).loc cc0_scratch1))
    (hin : ∀ a : Fin 3, (![j.val, 0, 0] : Fin 3 → Nat) a + S1x512x1024.size a ≤ S8x512x1024.size a)
    (P : FVec F S1x512x1024 .bf16) (hP : P = k0_pay12 (outHalf m c j)) :
    ∀ i ∈ (ovM j).view.set,
      View.write (Elt F) ((Memref.whole cc0_scratch1 : Memref sig .tc .vmem S8x512x1024 .bf16).access
          (Rect.unit (s := S8x512x1024) ![j.val, 0, 0] S1x512x1024.size hin))
        f1 P Finset.univ i = ovFin m c i := by
  subst hP
  intro i hi
  rw [ov_set] at hi
  have hi' : i ∈ ((Memref.whole cc0_scratch1 : Memref sig .tc .vmem S8x512x1024 .bf16).access
      (Rect.unit (s := S8x512x1024) ![j.val, 0, 0] S1x512x1024.size hin) : View sig .tc _ _ _).set := by
    rw [show ((Memref.whole cc0_scratch1 : Memref sig .tc .vmem S8x512x1024 .bf16).access
      (Rect.unit (s := S8x512x1024) ![j.val, 0, 0] S1x512x1024.size hin) : View sig .tc _ _ _).set = (chunkR j).set from View.set_slice_whole _ _]
    exact hi
  obtain ⟨y, rfl⟩ := View.exists_emb_of_mem_set _ hi'
  rw [View.write_emb_of_mem _ _ (Finset.mem_univ y)]
  refine (cast_eq _ _).trans ?_
  rw [outHalf_chunk]
  unfold ovFin
  have h0 : (y 0).val = 0 := by have : (y 0).val < 1 := (y 0).isLt; omega
  refine congr (congrArg (Spec.outChunk (Spec.Xof m) (Spec.Gof m) c) (Fin.ext ?_)) (funext fun d => ?_)
  · show j.val = j.val + 1 * (y 0).val
    omega
  · match d with
    | ⟨0, _⟩ => exact Fin.ext (by show (y 0).val = 0; omega)
    | ⟨1, _⟩ => exact Fin.ext (by show (y 1).val = 0 + 1 * (y 1).val; omega)
    | ⟨2, _⟩ => exact Fin.ext (by show (y 2).val = 0 + 1 * (y 2).val; omega)

def part3_pre (K : GSem nD τ sig → ℕ) (c : Dev nD) (W : Waits sig Unit) (f2 : Buf (Elt F) ((c : Thread nD τ).loc cc0_scratch2)) : sProp 𝕄 :=
  iprop(
    invs m K c ∗ owes (c : Thread nD τ) (Oat c 0) W ∗ dutyTok ER (barCell (pd c 0)) 0 0 ∗ dutyTok ER (barCell (pd c 1)) 0 1
      ∗ dutyTok ER (barCell (pd c 2)) 0 2 ∗ piecePt c (up 0) 0 fullShare f2 ∗ piecePt c (up 0) 1 fullShare f2 ∗ piecePt c (up 0) 2 fullShare f2
      ∗ piecePt c (up 0) 3 fullShare f2 ∗ piecePt c (up 0) 4 fullShare f2 ∗ piecePt c (up 0) 5 fullShare f2 ∗ piecePt c (up 0) 6 fullShare f2
      ∗ piecePt c (up 0) 7 fullShare f2 ∗ piecePt c (up 1) 0 fullShare f2 ∗ piecePt c (up 1) 1 fullShare f2 ∗ piecePt c (up 1) 2 fullShare f2
      ∗ piecePt c (up 1) 3 fullShare f2 ∗ piecePt c (up 1) 4 fullShare f2 ∗ piecePt c (up 1) 5 fullShare f2 ∗ piecePt c (up 1) 6 fullShare f2
      ∗ piecePt c (up 1) 7 fullShare f2 ∗ piecePt c (up 2) 0 fullShare f2 ∗ piecePt c (up 2) 1 fullShare f2 ∗ piecePt c (up 2) 2 fullShare f2
      ∗ piecePt c (up 2) 3 fullShare f2 ∗ piecePt c (up 2) 4 fullShare f2 ∗ piecePt c (up 2) 5 fullShare f2 ∗ piecePt c (up 2) 6 fullShare f2
      ∗ piecePt c (up 2) 7 fullShare f2 ∗ cred (tallyAt (barCell c) () 3) ∗ atPos ER (barCell c) 0 ∅ 0)

def part3_post (c : Dev nD) : sProp 𝕄 :=
  iprop(
    owesAny c (Oat c 3) ∗ atPos ER (barCell c) 1 ∅ 0 ∗ (∃ f, piecePt (pd c 0) (up (opp 0)) 0 fullShare f)
      ∗ reached ER (recvCell (pd c 0) (opp 0) 0) 0 ∗ (∃ f, piecePt (pd c 0) (up (opp 0)) 1 fullShare f) ∗ reached ER (recvCell (pd c 0) (opp 0) 1) 0
      ∗ (∃ f, piecePt (pd c 0) (up (opp 0)) 2 fullShare f) ∗ reached ER (recvCell (pd c 0) (opp 0) 2) 0
      ∗ (∃ f, piecePt (pd c 0) (up (opp 0)) 3 fullShare f) ∗ reached ER (recvCell (pd c 0) (opp 0) 3) 0
      ∗ (∃ f, piecePt (pd c 0) (up (opp 0)) 4 fullShare f) ∗ reached ER (recvCell (pd c 0) (opp 0) 4) 0
      ∗ (∃ f, piecePt (pd c 0) (up (opp 0)) 5 fullShare f) ∗ reached ER (recvCell (pd c 0) (opp 0) 5) 0
      ∗ (∃ f, piecePt (pd c 0) (up (opp 0)) 6 fullShare f) ∗ reached ER (recvCell (pd c 0) (opp 0) 6) 0
      ∗ (∃ f, piecePt (pd c 0) (up (opp 0)) 7 fullShare f) ∗ reached ER (recvCell (pd c 0) (opp 0) 7) 0
      ∗ (∃ f, piecePt (pd c 1) (up (opp 1)) 0 fullShare f) ∗ reached ER (recvCell (pd c 1) (opp 1) 0) 0
      ∗ (∃ f, piecePt (pd c 1) (up (opp 1)) 1 fullShare f) ∗ reached ER (recvCell (pd c 1) (opp 1) 1) 0
      ∗ (∃ f, piecePt (pd c 1) (up (opp 1)) 2 fullShare f) ∗ reached ER (recvCell (pd c 1) (opp 1) 2) 0
      ∗ (∃ f, piecePt (pd c 1) (up (opp 1)) 3 fullShare f) ∗ reached ER (recvCell (pd c 1) (opp 1) 3) 0
      ∗ (∃ f, piecePt (pd c 1) (up (opp 1)) 4 fullShare f) ∗ reached ER (recvCell (pd c 1) (opp 1) 4) 0
      ∗ (∃ f, piecePt (pd c 1) (up (opp 1)) 5 fullShare f) ∗ reached ER (recvCell (pd c 1) (opp 1) 5) 0
      ∗ (∃ f, piecePt (pd c 1) (up (opp 1)) 6 fullShare f) ∗ reached ER (recvCell (pd c 1) (opp 1) 6) 0
      ∗ (∃ f, piecePt (pd c 1) (up (opp 1)) 7 fullShare f) ∗ reached ER (recvCell (pd c 1) (opp 1) 7) 0
      ∗ (∃ f, piecePt (pd c 2) (up (opp 2)) 0 fullShare f) ∗ reached ER (recvCell (pd c 2) (opp 2) 0) 0
      ∗ (∃ f, piecePt (pd c 2) (up (opp 2)) 1 fullShare f) ∗ reached ER (recvCell (pd c 2) (opp 2) 1) 0
      ∗ (∃ f, piecePt (pd c 2) (up (opp 2)) 2 fullShare f) ∗ reached ER (recvCell (pd c 2) (opp 2) 2) 0
      ∗ (∃ f, piecePt (pd c 2) (up (opp 2)) 3 fullShare f) ∗ reached ER (recvCell (pd c 2) (opp 2) 3) 0
      ∗ (∃ f, piecePt (pd c 2) (up (opp 2)) 4 fullShare f) ∗ reached ER (recvCell (pd c 2) (opp 2) 4) 0
      ∗ (∃ f, piecePt (pd c 2) (up (opp 2)) 5 fullShare f) ∗ reached ER (recvCell (pd c 2) (opp 2) 5) 0
      ∗ (∃ f, piecePt (pd c 2) (up (opp 2)) 6 fullShare f) ∗ reached ER (recvCell (pd c 2) (opp 2) 6) 0
      ∗ (∃ f, piecePt (pd c 2) (up (opp 2)) 7 fullShare f) ∗ reached ER (recvCell (pd c 2) (opp 2) 7) 0)

theorem gift_eq (c : Dev nD) (e d : Fin 3) (hd : d = opp e) : slotGift (F := F) (ps c e) e = slotGift (pd c d) (opp d) := by
  subst hd; rw [pd_opp, opp_opp]

/-- The unit signalled `d + 1` places ahead, paid out of the debt `O'`: it hands over the eight pieces of slot `d`. -/
theorem sig_step (K : GSem nD τ sig → ℕ) (c : Dev nD) (d : Fin 3) (n : Dev nD) (hn : n = pd c d)
    (O' O : CellTallies nD τ sig Unit) (hO : O' = O + tallyAt (barCell (pd c d)) () 1) (W : Waits sig Unit)
    (f2 : Buf (Elt F) ((c : Thread nD τ).loc cc0_scratch2))
    {α : Type} {Q : α → sProp 𝕄} {k : PUnit → Prog (TpuEff nD τ sig (Elt F) Λ₀ .tc) α} :
    ⊢ iprop(invs m K c -∗ owes (c : Thread nD τ) O' W -∗ dutyTok ER (barCell (pd c d)) 0 d
        -∗ piecePt c (up d) 0 fullShare f2 -∗ piecePt c (up d) 1 fullShare f2 -∗ piecePt c (up d) 2 fullShare f2 -∗ piecePt c (up d) 3 fullShare f2
        -∗ piecePt c (up d) 4 fullShare f2 -∗ piecePt c (up d) 5 fullShare f2 -∗ piecePt c (up d) 6 fullShare f2 -∗ piecePt c (up d) 7 fullShare f2
        -∗ (owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ
              (.op (.semSignal ((n, Proc.tc) : Thread nD τ) barS (1#32).toNat) k) Q) := by
  subst hO
  iintro #HI HO T P0 P1 P2 P3 P4 P5 P6 P7
  iapply (wp_sig m c d n hn (K (barCell (pd c d))) O W) $$ [HO T P0 P1 P2 P3 P4 P5 P6 P7]
  isplitr; · iapply (invs_barP m K c d); iexact HI
  isplitl [HO]; · iexact HO
  isplitl [T]; · iexact T
  isplitr []
  · unfold slotGift
    isplitl [P0]; · iexists f2; iexact P0
    isplitl [P1]; · iexists f2; iexact P1
    isplitl [P2]; · iexists f2; iexact P2
    isplitl [P3]; · iexists f2; iexact P3
    isplitl [P4]; · iexists f2; iexact P4
    isplitl [P5]; · iexists f2; iexact P5
    isplitl [P6]; · iexists f2; iexact P6
    isplitl [P7]; · iexists f2; iexact P7
    isplitr; · iapply (invs_rR m K c d 0); iexact HI
    isplitr; · iapply (invs_rR m K c d 1); iexact HI
    isplitr; · iapply (invs_rR m K c d 2); iexact HI
    isplitr; · iapply (invs_rR m K c d 3); iexact HI
    isplitr; · iapply (invs_rR m K c d 4); iexact HI
    isplitr; · iapply (invs_rR m K c d 5); iexact HI
    isplitr; · iapply (invs_rR m K c d 6); iexact HI
    iapply (invs_rR m K c d 7); iexact HI
  · iapply (invs_rB m K c d); iexact HI

set_option maxHeartbeats 1600000 in
theorem part3_spec (K : GSem nD τ sig → ℕ) (c : Dev nD) (W : Waits sig Unit) (f2 : Buf (Elt F) ((c : Thread nD τ).loc cc0_scratch2))
    (arg0 : Memref sig .tc .hbm S4096x1024 .f32) (harg0 : arg0.IsWhole) (arg1 : Memref sig .tc .vmem S1024 .f32) (harg1 : arg1.IsWhole)
    (arg2 : Memref sig .tc .hbm S4096x1024 .bf16) (harg2 : arg2.IsWhole) (arg3 : Memref sig .tc .vmem S8x512x1024 .f32) (harg3 : arg3.IsWhole)
    (arg4 : Memref sig .tc .vmem S8x512x1024 .bf16) (harg4 : arg4.IsWhole) (arg5 : Memref sig .tc .vmem S4x32x128 .f32) (harg5 : arg5.IsWhole)
    (arg6 : DmaSems sig S8) (arg7 : DmaSems sig S8) (arg8 : DmaSems sig S3x8) (arg9 : DmaSems sig S3x8)
    (v2 v47 : BitVec 32) (v52 : BitVec 1) (v53 : BitVec 32) :
    part3_pre m K c W f2
      ⊢ wp frame (wpE (defs₀ (F := F)) 𝒱₀ (c : Thread nD τ) none) Set.univ
          (k0_part3 (F := F) arg0 harg0 arg1 harg1 arg2 harg2 arg3 harg3 arg4 harg4 arg5 harg5 arg6 arg7 arg8 arg9 c v2
            (SemArray.scalar (sig.barrier 0 rfl)) v47 v52 v53)
          (fun _ => part3_post (F := F) c) := by
  rw [k0_part3_eq_skeleton]
  unfold k0_part3_skel part3_pre
  simp only [semSignalWord, semWaitWord, Prog.lift, Prog.bind_op, Prog.bind_ret, Prog.pure_eq_ret]
  iintro ⟨#HI, HO, T0, T1, T2, P00, P01, P02, P03, P04, P05, P06, P07, P10, P11, P12, P13, P14, P15, P16, P17, P20, P21, P22, P23, P24, P25, P26, P27, Hc, Hat⟩

  iapply (sig_step m K c 0 _ (dev1_eq c) (Oat c 0) (Oat c 1) rfl W f2) $$ HI HO T0 P00 P01 P02 P03 P04 P05 P06 P07
  iintro HO

  iapply (sig_step m K c 1 _ (dev2_eq c) (Oat c 1) (Oat c 2) rfl W f2) $$ HI HO T1 P10 P11 P12 P13 P14 P15 P16 P17
  iintro HO

  iapply (sig_step m K c 2 _ (dev3_eq c) (Oat c 2) (Oat c 3) rfl W f2) $$ HI HO T2 P20 P21 P22 P23 P24 P25 P26 P27
  iintro HO
  iapply (wp_barwait m c (K (barCell c)) (Oat c 3) (above_Oat3 c) W) $$ [HO Hc Hat]
  · isplitr; · iapply (invs_bar m K c); iexact HI
    isplitl [Hc]; · iexact Hc
    isplitl [HO]; · iexact HO
    isplitr; · iapply (invs_lev m K c); iexact HI
    iexact Hat
  iintro ⟨HO, Hat, G0, G1, G2⟩
  rw [wp_ret]; imodintro
  ihave G0 := (Entails.of_eq (gift_eq (F := F) c 0 2 rfl)) $$ G0
  ihave G1 := (Entails.of_eq (gift_eq (F := F) c 1 1 rfl)) $$ G1
  ihave G2 := (Entails.of_eq (gift_eq (F := F) c 2 0 rfl)) $$ G2
  unfold part3_post slotGift
  icases G0 with ⟨⟨%a20, A20⟩, ⟨%a21, A21⟩, ⟨%a22, A22⟩, ⟨%a23, A23⟩, ⟨%a24, A24⟩, ⟨%a25, A25⟩, ⟨%a26, A26⟩, ⟨%a27, A27⟩, R20, R21, R22, R23, R24, R25, R26, R27⟩
  icases G1 with ⟨⟨%a10, A10⟩, ⟨%a11, A11⟩, ⟨%a12, A12⟩, ⟨%a13, A13⟩, ⟨%a14, A14⟩, ⟨%a15, A15⟩, ⟨%a16, A16⟩, ⟨%a17, A17⟩, R10, R11, R12, R13, R14, R15, R16, R17⟩
  icases G2 with ⟨⟨%a00, A00⟩, ⟨%a01, A01⟩, ⟨%a02, A02⟩, ⟨%a03, A03⟩, ⟨%a04, A04⟩, ⟨%a05, A05⟩, ⟨%a06, A06⟩, ⟨%a07, A07⟩, R00, R01, R02, R03, R04, R05, R06, R07⟩
  sl_close

abbrev gamPt (c : Dev nD) : sProp 𝕄 :=
  (Memref.whole cc0_stg0_0 : Memref sig .tc _ _ _).view.loc (c : Thread nD τ) ↦{fullShare} gstg m c

theorem gstg_eq (c : Dev nD) : gstg m c = Spec.Gof m c := by
  unfold gstg
  exact Memref.read_access_unit_zero (Elt F) main_arg1 (funext fun a => by fin_cases a; rfl) _ _

theorem read_gamma (c : Dev nD) (hin : ∀ a : Fin 1, (![0] : Fin 1 → Nat) a + S1024.size a ≤ S1024.size a) :
    View.readAt (Elt F) (Memref.whole cc0_stg0_0 : Memref sig .tc .vmem S1024 .f32).view (Rect.unit (s := S1024) ![0] S1024.size hin).toLoadRect (gstg m c)
      = Spec.Gof m c :=
  (Memref.readAt_unit_zero (Elt F) cc0_stg0_0 (funext fun a => by fin_cases a; rfl) hin (gstg m c)).trans (gstg_eq m c)

def part24_pre (K : GSem nD τ sig → ℕ) (c : Dev nD) (W : Waits sig Unit)
    (fn : Buf (Elt F) ((pieceM (up (opp 2)) 7).view.loc ((pd c 2 : Dev nD) : Thread nD τ))) : sProp 𝕄 :=
  iprop(invs m K c ∗ owes (c : Thread nD τ) (Oat c 26) W ∗ piecePt c 3 7 (qS 2) (commFinal m c)
    ∗ piecePt (pd c 2) (up (opp 2)) 7 fullShare fn ∗ reached ER (recvCell (pd c 2) (opp 2) 7) 0
    ∗ dutyTok ER (sendCell c 2 7) 0 0 ∗ dutyTok ER (recvCell (pd c 2) (opp 2) 7) 0 0
    ∗ gamPt m c ∗ rwPre c 2 0 ∗ rwPre c 1 0)
def part24_post (c : Dev nD) (r : (_ : FVec F S1024 .f32) ×' (_ : BitVec 32) ×' BitVec 32) : sProp 𝕄 :=
  iprop(⌜r.1 = gam m c⌝ ∗ owesAny c (Oat c 27) ∗ cred (tallyAt (sendCell c 2 7) () N) ∗ gamPt m c ∗ rwPost m c 2 0 ∗ rwPost m c 1 0)

set_option maxHeartbeats 1600000 in
theorem part24_spec (K : GSem nD τ sig → ℕ) (c : Dev nD) (W : Waits sig Unit)
    (fn : Buf (Elt F) ((pieceM (up (opp 2)) 7).view.loc ((pd c 2 : Dev nD) : Thread nD τ)))
    (v106 v127 v148 : BitVec 32) :
    part24_pre m K c W fn
      ⊢ wp frame (wpE (defs₀ (F := F)) 𝒱₀ (c : Thread nD τ) none) Set.univ
          (k0_part24 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v106 v127 v148) (fun r => part24_post m c r) := by
  rw [k0_part24_eq_skeleton]
  unfold k0_part24_skel part24_pre
  simp only [Prog.lift, Prog.bind_op, Prog.bind_ret, Prog.pure_eq_ret]
  iintro ⟨#HI, HO, P3, Pn, #Rn, Ts, Tr, Hg, Hw20, Hw10⟩
  iapply (send_piece m K c 2 7 _ (dev27_eq c) (Oat c 26) (Oat c 27) rfl W) $$ HI [P3 Pn Ts Tr] HO
  · isplitl [P3]; · iexact P3
    isplitl [Pn]; · iexists _; iexact Pn
    isplitr; · iexact Rn
    isplitl [Ts]; · iexact Ts
    iexact Tr
  iintro ⟨Hcs, HO⟩
  sl_exec
  rw [Oat_last]
  iapply (recvwait_step m K c 2 0 _ (piece_credit 2 0)) $$ HI HO Hw20
  iintro ⟨HO, Hp20⟩
  iapply (recvwait_step m K c 1 0 _ (piece_credit 1 0)) $$ HI HO Hw10
  iintro ⟨HO, Hp10⟩
  rw [wp_ret]; imodintro
  unfold part24_post
  isplitr
  · ipureintro
    exact congrArg k0_pay10 (read_gamma m c (by decide))
  isplitl [HO]; · iexists _; rw [Oat_last]; iexact HO
  isplitl [Hcs]; · iexact Hcs
  isplitl [Hg]; · iexact Hg
  isplitl [Hp20]; · iexact Hp20
  iexact Hp10

def part25_pre (K : GSem nD τ sig → ℕ) (c : Dev nD) (W : Waits sig Unit) (f1 : Buf (Elt F) ((c : Thread nD τ).loc cc0_scratch1)) : sProp 𝕄 :=
  iprop(invs m K c ∗ owes (c : Thread nD τ) (Oat c 27) W ∗ rwPre c 0 0
    ∗ piecePt c (up 1) 0 fullShare (commFinal m c) ∗ piecePt c (up 2) 0 fullShare (commFinal m c) ∗ piecePt c 3 0 qK (commFinal m c)
    ∗ xvPt c 0 (xvFin m c) ∗ ovPt c 0 f1)
def part25_post (c : Dev nD) (f1 : Buf (Elt F) ((c : Thread nD τ).loc cc0_scratch1))
    (r : (_ : FVec F S512x1024 .bf16) ×' Vec F S1x512x1024 .bf16) : sProp 𝕄 :=
  iprop(⌜r.1 = outHalf m c 0⌝ ∗ owesAny c (Oat c 27) ∗ rwPost m c 0 0
    ∗ piecePt c (up 1) 0 fullShare (commFinal m c) ∗ piecePt c (up 2) 0 fullShare (commFinal m c) ∗ piecePt c 3 0 qK (commFinal m c)
    ∗ xvPt c 0 (xvFin m c) ∗ ovPt c 0 f1)

set_option maxHeartbeats 1600000 in
theorem part25_spec (K : GSem nD τ sig → ℕ) (c : Dev nD) (W : Waits sig Unit) (f1 : Buf (Elt F) ((c : Thread nD τ).loc cc0_scratch1))
    (v692 : FVec F S1024 .f32) (hg : v692 = gam m c) (v709 c0 : BitVec 32) :
    part25_pre m K c W f1
      ⊢ wp frame (wpE (defs₀ (F := F)) 𝒱₀ (c : Thread nD τ) none) Set.univ
          (k0_part25 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v692 v709 c0) (fun r => part25_post m c f1 r) := by
  rw [k0_part25_eq_skeleton]
  unfold k0_part25_skel part25_pre
  simp only [Prog.lift, Prog.bind_op, Prog.bind_ret, Prog.pure_eq_ret]
  rw [Oat_last]
  subst hg
  iintro ⟨#HI, HO, Hw, P1, P2, P3, Hx, Ho⟩
  iapply (recvwait_step m K c 0 0 W (piece_credit 0 0)) $$ HI HO Hw
  iintro ⟨HO, Hp0⟩
  icases Hp0 with ⟨P0, Hs⟩
  sl_exec
  rw [wp_ret]; imodintro
  unfold part25_post
  isplitr
  · ipureintro
    exact congr (congr (congr (congr (congrArg (k0_pay11 (k0_pay10 (Spec.Gof m c))) (read_piece m c 0 0 (by decide))) (read_piece m c 1 0 (by decide)))
      (read_piece m c 2 0 (by decide))) (read_piece m c 3 0 (by decide))) (read_xv m c 0 (by decide))
  isplitl [HO]; · iexists _; iexact HO
  isplitl [P0 Hs]
  · isplitl [P0] <;> iassumption
  sl_close

def part26_pre (K : GSem nD τ sig → ℕ) (c : Dev nD) (W : Waits sig Unit) (f1 : Buf (Elt F) ((c : Thread nD τ).loc cc0_scratch1))
    (fo : Buf (Elt F) ((c : Thread nD τ).loc main_v1)) : sProp 𝕄 :=
  iprop(invs m K c ∗ owes (c : Thread nD τ) (Oat c 27) W ∗ ovPt c 0 f1 ∗ outPt c 0 fo ∗ sem0 c 8 ∗ rwPre c 2 1 ∗ rwPre c 1 1)
def part26_post (c : Dev nD) (fo : Buf (Elt F) ((c : Thread nD τ).loc main_v1)) : sProp 𝕄 :=
  iprop(owesAny c (Oat c 27) ∗ storeFlight m c 0 fo ∗ rwPost m c 2 1 ∗ rwPost m c 1 1)

set_option maxHeartbeats 1600000 in
theorem part26_spec (K : GSem nD τ sig → ℕ) (c : Dev nD) (W : Waits sig Unit) (f1 : Buf (Elt F) ((c : Thread nD τ).loc cc0_scratch1))
    (fo : Buf (Elt F) ((c : Thread nD τ).loc main_v1))
    (v182 v203 : BitVec 32) (v743 : FVec F S512x1024 .bf16) (hv : v743 = outHalf m c 0) (v744 : Vec F S1x512x1024 .bf16) :
    part26_pre m K c W f1 fo
      ⊢ wp frame (wpE (defs₀ (F := F)) 𝒱₀ (c : Thread nD τ) none) Set.univ
          (k0_part26 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v182 v203 v743 v744) (fun _ => part26_post m c fo) := by
  subst hv
  rw [k0_part26_eq_skeleton]
  unfold k0_part26_skel part26_pre
  simp only [Prog.lift, Prog.bind_op, Prog.bind_ret, Prog.pure_eq_ret]
  rw [Oat_last]
  iintro ⟨#HI, HO, Ho, Hout, Hs, Hw2, Hw1⟩
  set_option sl_exec.maxSteps 1 in sl_exec
  ihave Ho := (Entails.of_eq (pointsTo_congr (ov_stored m c 0 f1 (by decide) _ rfl))) $$ Ho
  sl_exec
  iapply (recvwait_step m K c 2 1 W (piece_credit 2 1)) $$ HI HO Hw2
  iintro ⟨HO, Hp2⟩
  iapply (recvwait_step m K c 1 1 _ (piece_credit 1 1)) $$ HI HO Hw1
  iintro ⟨HO, Hp1⟩
  rw [wp_ret]; imodintro
  unfold part26_post
  isplitl [HO]; · iexists _; iexact HO
  isplitl [Hs]; · iexact Hs
  isplitl [Hp2]; · iexact Hp2
  iexact Hp1

def part27_pre (K : GSem nD τ sig → ℕ) (c : Dev nD) (W : Waits sig Unit) : sProp 𝕄 :=
  iprop(
    invs m K c ∗ owes (c : Thread nD τ) (Oat c 27) W ∗ rwPre c 0 1 ∗ piecePt c (up 1) 1 fullShare (commFinal m c)
      ∗ piecePt c (up 2) 1 fullShare (commFinal m c) ∗ piecePt c 3 1 qK (commFinal m c) ∗ xvPt c 1 (xvFin m c))
def part27_post (c : Dev nD) (r : FVec F S4x128x1024 .f32) : sProp 𝕄 :=
  iprop(
    ⌜r = k0_pay13 (gam m c) (sl m c 0 1) (sl m c 1 1) (sl m c 2 1) (sl m c 3 1) (xc m c 1)⌝ ∗ owesAny c (Oat c 27) ∗ rwPost m c 0 1
      ∗ piecePt c (up 1) 1 fullShare (commFinal m c) ∗ piecePt c (up 2) 1 fullShare (commFinal m c) ∗ piecePt c 3 1 qK (commFinal m c)
      ∗ xvPt c 1 (xvFin m c))

set_option maxHeartbeats 1600000 in
theorem part27_spec (K : GSem nD τ sig → ℕ) (c : Dev nD) (W : Waits sig Unit) (v224 : BitVec 32) (v692 : FVec F S1024 .f32) (hg : v692 = gam m c) :
    part27_pre m K c W
      ⊢ wp frame (wpE (defs₀ (F := F)) 𝒱₀ (c : Thread nD τ) none) Set.univ
          (k0_part27 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v224 v692) (fun r => part27_post m c r) := by
  subst hg
  rw [k0_part27_eq_skeleton]
  unfold k0_part27_skel part27_pre
  simp only [Prog.lift, Prog.bind_op, Prog.bind_ret, Prog.pure_eq_ret]
  rw [Oat_last]
  iintro ⟨#HI, HO, Hw01, P1, P2, P3, Hx⟩
  iapply (recvwait_step m K c 0 1 _ (piece_credit 0 1)) $$ HI HO Hw01
  iintro ⟨HO, Hp01⟩
  icases Hp01 with ⟨P0, S0⟩
  sl_exec
  rw [wp_ret]; imodintro
  unfold part27_post
  isplitr
  · ipureintro
    exact congr (congr (congr (congr (congrArg (k0_pay13 (gam m c)) (read_piece m c 0 1 (by decide))) (read_piece m c 1 1 (by decide)))
      (read_piece m c 2 1 (by decide))) (read_piece m c 3 1 (by decide))) (read_xv m c 1 (by decide))
  isplitl [HO]; · iexists _; iexact HO
  isplitl [P0 S0]
  · isplitl [P0] <;> iassumption
  sl_close

def part28_pre (K : GSem nD τ sig → ℕ) (c : Dev nD) (W : Waits sig Unit) (f1 : Buf (Elt F) ((c : Thread nD τ).loc cc0_scratch1))
    (fo : Buf (Elt F) ((c : Thread nD τ).loc main_v1)) : sProp 𝕄 :=
  iprop(
    invs m K c ∗ owes (c : Thread nD τ) (Oat c 27) W ∗ ovPt c 1 f1 ∗ outPt c 1 fo ∗ sem0 c 9 ∗ rwPre c 2 2)
def part28_post (c : Dev nD) (fo : Buf (Elt F) ((c : Thread nD τ).loc main_v1)) : sProp 𝕄 :=
  iprop(
    owesAny c (Oat c 27) ∗ storeFlight m c 1 fo ∗ rwPost m c 2 2)

set_option maxHeartbeats 1600000 in
theorem part28_spec (K : GSem nD τ sig → ℕ) (c : Dev nD) (W : Waits sig Unit) (f1 : Buf (Elt F) ((c : Thread nD τ).loc cc0_scratch1))
    (fo : Buf (Elt F) ((c : Thread nD τ).loc main_v1))
    (v258 v279 : BitVec 32) (v800 : FVec F S4x128x1024 .f32)
    (hv : v800 = k0_pay13 (gam m c) (sl m c 0 1) (sl m c 1 1) (sl m c 2 1) (sl m c 3 1) (xc m c 1)) :
    part28_pre m K c W f1 fo
      ⊢ wp frame (wpE (defs₀ (F := F)) 𝒱₀ (c : Thread nD τ) none) Set.univ
          (k0_part28 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v258 v279 v800) (fun _ => part28_post m c fo) := by
  subst hv
  rw [k0_part28_eq_skeleton]
  unfold k0_part28_skel part28_pre
  simp only [Prog.lift, Prog.bind_op, Prog.bind_ret, Prog.pure_eq_ret]
  rw [Oat_last]
  iintro ⟨#HI, HO, Ho, Hout, Hs, Hw22⟩
  set_option sl_exec.maxSteps 2 in sl_exec
  ihave Ho := (Entails.of_eq (pointsTo_congr (ov_stored m c 1 f1 (by decide) _ rfl))) $$ Ho
  sl_exec
  iapply (recvwait_step m K c 2 2 _ (piece_credit 2 2)) $$ HI HO Hw22
  iintro ⟨HO, Hp22⟩
  rw [wp_ret]; imodintro
  unfold part28_post
  isplitl [HO]; · iexists _; iexact HO
  isplitl [Hs]; · iexact Hs
  iexact Hp22

def part29_pre (K : GSem nD τ sig → ℕ) (c : Dev nD) (W : Waits sig Unit) : sProp 𝕄 :=
  iprop(
    invs m K c ∗ owes (c : Thread nD τ) (Oat c 27) W ∗ rwPre c 1 2 ∗ rwPre c 0 2 ∗ piecePt c (up 2) 2 fullShare (commFinal m c)
      ∗ piecePt c 3 2 qK (commFinal m c) ∗ xvPt c 2 (xvFin m c))
def part29_post (c : Dev nD) (r : (_ : FVec F S4x128 .f32) ×' FVec F S4x128x1024 .f32) : sProp 𝕄 :=
  iprop(
    ⌜r.1 = k0_pay15 (sl m c 0 2) (sl m c 1 2) (sl m c 2 2) (sl m c 3 2)⌝ ∗ ⌜r.2 = k0_pay16 (xc m c 2)⌝ ∗ owesAny c (Oat c 27) ∗ rwPost m c 1 2
      ∗ rwPost m c 0 2 ∗ piecePt c (up 2) 2 fullShare (commFinal m c) ∗ piecePt c 3 2 qK (commFinal m c) ∗ xvPt c 2 (xvFin m c))

set_option maxHeartbeats 1600000 in
theorem part29_spec (K : GSem nD τ sig → ℕ) (c : Dev nD) (W : Waits sig Unit) (v300 : BitVec 32) :
    part29_pre m K c W
      ⊢ wp frame (wpE (defs₀ (F := F)) 𝒱₀ (c : Thread nD τ) none) Set.univ
          (k0_part29 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v300) (fun r => part29_post m c r) := by
  rw [k0_part29_eq_skeleton]
  unfold k0_part29_skel part29_pre
  simp only [Prog.lift, Prog.bind_op, Prog.bind_ret, Prog.pure_eq_ret]
  rw [Oat_last]
  iintro ⟨#HI, HO, Hw12, Hw02, P2, P3, Hx⟩
  iapply (recvwait_step m K c 1 2 _ (piece_credit 1 2)) $$ HI HO Hw12
  iintro ⟨HO, Hp12⟩
  iapply (recvwait_step m K c 0 2 _ (piece_credit 0 2)) $$ HI HO Hw02
  iintro ⟨HO, Hp02⟩
  icases Hp12 with ⟨P1, S1⟩
  icases Hp02 with ⟨P0, S0⟩
  sl_exec
  rw [wp_ret]; imodintro
  unfold part29_post
  isplitr
  · ipureintro
    exact congr (congr (congr (congrArg k0_pay15 (read_piece m c 0 2 (by decide))) (read_piece m c 1 2 (by decide)))
      (read_piece m c 2 2 (by decide))) (read_piece m c 3 2 (by decide))
  isplitr
  · ipureintro
    exact congrArg k0_pay16 (read_xv m c 2 (by decide))
  isplitl [HO]; · iexists _; iexact HO
  isplitl [P1 S1]
  · isplitl [P1] <;> iassumption
  isplitl [P0 S0]
  · isplitl [P0] <;> iassumption
  sl_close

def part30_pre (K : GSem nD τ sig → ℕ) (c : Dev nD) (W : Waits sig Unit) (f1 : Buf (Elt F) ((c : Thread nD τ).loc cc0_scratch1))
    (fo : Buf (Elt F) ((c : Thread nD τ).loc main_v1)) : sProp 𝕄 :=
  iprop(
    invs m K c ∗ owes (c : Thread nD τ) (Oat c 27) W ∗ ovPt c 2 f1 ∗ outPt c 2 fo ∗ sem0 c 10 ∗ rwPre c 2 3)
def part30_post (c : Dev nD) (fo : Buf (Elt F) ((c : Thread nD τ).loc main_v1)) : sProp 𝕄 :=
  iprop(
    owesAny c (Oat c 27) ∗ storeFlight m c 2 fo ∗ rwPost m c 2 3)

set_option maxHeartbeats 1600000 in
theorem part30_spec (K : GSem nD τ sig → ℕ) (c : Dev nD) (W : Waits sig Unit) (f1 : Buf (Elt F) ((c : Thread nD τ).loc cc0_scratch1))
    (fo : Buf (Elt F) ((c : Thread nD τ).loc main_v1))
    (v334 v355 : BitVec 32) (v692 : FVec F S1024 .f32) (hg : v692 = gam m c) (v850 : FVec F S4x128 .f32)
    (hv850 : v850 = k0_pay15 (sl m c 0 2) (sl m c 1 2) (sl m c 2 2) (sl m c 3 2)) (v853 : FVec F S4x128x1024 .f32) (hv853 : v853 = k0_pay16 (xc m c 2)) :
    part30_pre m K c W f1 fo
      ⊢ wp frame (wpE (defs₀ (F := F)) 𝒱₀ (c : Thread nD τ) none) Set.univ
          (k0_part30 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v334 v355 v692 v850 v853) (fun _ => part30_post m c fo) := by
  subst hg
  subst hv850
  subst hv853
  rw [k0_part30_eq_skeleton]
  unfold k0_part30_skel part30_pre
  simp only [Prog.lift, Prog.bind_op, Prog.bind_ret, Prog.pure_eq_ret]
  rw [Oat_last]
  iintro ⟨#HI, HO, Ho, Hout, Hs, Hw23⟩
  set_option sl_exec.maxSteps 2 in sl_exec
  ihave Ho := (Entails.of_eq (pointsTo_congr (ov_stored m c 2 f1 (by decide) _ rfl))) $$ Ho
  sl_exec
  iapply (recvwait_step m K c 2 3 _ (piece_credit 2 3)) $$ HI HO Hw23
  iintro ⟨HO, Hp23⟩
  rw [wp_ret]; imodintro
  unfold part30_post
  isplitl [HO]; · iexists _; iexact HO
  isplitl [Hs]; · iexact Hs
  iexact Hp23

def part31_pre (K : GSem nD τ sig → ℕ) (c : Dev nD) (W : Waits sig Unit) : sProp 𝕄 :=
  iprop(
    invs m K c ∗ owes (c : Thread nD τ) (Oat c 27) W ∗ rwPre c 1 3 ∗ rwPre c 0 3 ∗ piecePt c (up 2) 3 fullShare (commFinal m c)
      ∗ piecePt c 3 3 qK (commFinal m c))
def part31_post (c : Dev nD) (r : FVec F S4x128 .f32) : sProp 𝕄 :=
  iprop(
    ⌜r = k0_pay18 (sl m c 0 3) (sl m c 1 3) (sl m c 2 3) (sl m c 3 3)⌝ ∗ owesAny c (Oat c 27) ∗ rwPost m c 1 3 ∗ rwPost m c 0 3
      ∗ piecePt c (up 2) 3 fullShare (commFinal m c) ∗ piecePt c 3 3 qK (commFinal m c))

set_option maxHeartbeats 1600000 in
theorem part31_spec (K : GSem nD τ sig → ℕ) (c : Dev nD) (W : Waits sig Unit) (v376 : BitVec 32) :
    part31_pre m K c W
      ⊢ wp frame (wpE (defs₀ (F := F)) 𝒱₀ (c : Thread nD τ) none) Set.univ
          (k0_part31 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v376) (fun r => part31_post m c r) := by
  rw [k0_part31_eq_skeleton]
  unfold k0_part31_skel part31_pre
  simp only [Prog.lift, Prog.bind_op, Prog.bind_ret, Prog.pure_eq_ret]
  rw [Oat_last]
  iintro ⟨#HI, HO, Hw13, Hw03, P2, P3⟩
  iapply (recvwait_step m K c 1 3 _ (piece_credit 1 3)) $$ HI HO Hw13
  iintro ⟨HO, Hp13⟩
  iapply (recvwait_step m K c 0 3 _ (piece_credit 0 3)) $$ HI HO Hw03
  iintro ⟨HO, Hp03⟩
  icases Hp13 with ⟨P1, S1⟩
  icases Hp03 with ⟨P0, S0⟩
  sl_exec
  rw [wp_ret]; imodintro
  unfold part31_post
  isplitr
  · ipureintro
    exact congr (congr (congr (congrArg k0_pay18 (read_piece m c 0 3 (by decide))) (read_piece m c 1 3 (by decide)))
      (read_piece m c 2 3 (by decide))) (read_piece m c 3 3 (by decide))
  isplitl [HO]; · iexists _; iexact HO
  isplitl [P1 S1]
  · isplitl [P1] <;> iassumption
  isplitl [P0 S0]
  · isplitl [P0] <;> iassumption
  sl_close

def part32_pre (K : GSem nD τ sig → ℕ) (c : Dev nD) (W : Waits sig Unit) (f1 : Buf (Elt F) ((c : Thread nD τ).loc cc0_scratch1))
    (fo : Buf (Elt F) ((c : Thread nD τ).loc main_v1)) : sProp 𝕄 :=
  iprop(
    invs m K c ∗ owes (c : Thread nD τ) (Oat c 27) W ∗ xvPt c 3 (xvFin m c) ∗ ovPt c 3 f1 ∗ outPt c 3 fo ∗ sem0 c 11 ∗ rwPre c 2 4)
def part32_post (c : Dev nD) (fo : Buf (Elt F) ((c : Thread nD τ).loc main_v1)) : sProp 𝕄 :=
  iprop(
    owesAny c (Oat c 27) ∗ xvPt c 3 (xvFin m c) ∗ storeFlight m c 3 fo ∗ rwPost m c 2 4)

set_option maxHeartbeats 1600000 in
theorem part32_spec (K : GSem nD τ sig → ℕ) (c : Dev nD) (W : Waits sig Unit) (f1 : Buf (Elt F) ((c : Thread nD τ).loc cc0_scratch1))
    (fo : Buf (Elt F) ((c : Thread nD τ).loc main_v1))
    (v410 : BitVec 32) (v692 : FVec F S1024 .f32) (hg : v692 = gam m c) (v909 : FVec F S4x128 .f32)
    (hv909 : v909 = k0_pay18 (sl m c 0 3) (sl m c 1 3) (sl m c 2 3) (sl m c 3 3)) :
    part32_pre m K c W f1 fo
      ⊢ wp frame (wpE (defs₀ (F := F)) 𝒱₀ (c : Thread nD τ) none) Set.univ
          (k0_part32 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v410 v692 v909) (fun _ => part32_post m c fo) := by
  subst hg
  subst hv909
  rw [k0_part32_eq_skeleton]
  unfold k0_part32_skel part32_pre
  simp only [Prog.lift, Prog.bind_op, Prog.bind_ret, Prog.pure_eq_ret]
  rw [Oat_last]
  iintro ⟨#HI, HO, Hx, Ho, Hout, Hs, Hw24⟩
  set_option sl_exec.maxSteps 3 in sl_exec
  ihave Ho := (Entails.of_eq (pointsTo_congr (ov_stored m c 3 f1 (by decide) _ ((congrArg (k0_pay19 (gam m c) (k0_pay18 (sl m c 0 3) (sl m c 1 3) (sl m c 2 3) (sl m c 3 3))) (read_xv m c 3 (by decide))).trans rfl)))) $$ Ho
  sl_exec
  iapply (recvwait_step m K c 2 4 _ (piece_credit 2 4)) $$ HI HO Hw24
  iintro ⟨HO, Hp24⟩
  rw [wp_ret]; imodintro
  unfold part32_post
  isplitl [HO]; · iexists _; iexact HO
  isplitl [Hx]; · iexact Hx
  isplitl [Hs]; · iexact Hs
  iexact Hp24

/-- info: 'Cert.KernelIdeal.Proto.part3_spec' depends on axioms: [propext, Classical.choice, Quot.sound] -/
#guard_msgs in #print axioms part3_spec

/-- info: 'Cert.KernelIdeal.Proto.part24_spec' depends on axioms: [propext, Classical.choice, Quot.sound] -/
#guard_msgs in #print axioms part24_spec

/-- info: 'Cert.KernelIdeal.Proto.part26_spec' depends on axioms: [propext, Classical.choice, Quot.sound] -/
#guard_msgs in #print axioms part26_spec

/-- info: 'Cert.KernelIdeal.Proto.part32_spec' depends on axioms: [propext, Classical.choice, Quot.sound] -/
#guard_msgs in #print axioms part32_spec

end Cert.KernelIdeal.Proto

end
-- ==== Proof.Parts2b.lean ====
import proofs.«901004_g7700000000001005_dist_rmsnorm_colshard_i_m4096_n1024_v7x_i4_bf16_1_alg».proof.Proof.Parts2

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : GSem nD τ sig → ℕ) (c : Dev nD)
  (harg0 : (Memref.whole main_arg0 : Memref sig .tc .hbm S4096x1024 .f32).IsWhole) (arg1 : Memref sig .tc .vmem S1024 .f32) (harg1 : arg1.IsWhole)
  (harg2 : (Memref.whole main_v1 : Memref sig .tc .hbm S4096x1024 .bf16).IsWhole) (harg3 : (Memref.whole cc0_scratch0 : Memref sig .tc .vmem S8x512x1024 .f32).IsWhole)
  (harg4 : (Memref.whole cc0_scratch1 : Memref sig .tc .vmem S8x512x1024 .bf16).IsWhole) (harg5 : (Memref.whole cc0_scratch2 : Memref sig .tc .vmem S4x32x128 .f32).IsWhole)

theorem b_ov_stored (c : Dev nD) (j : Fin 8) (f1 : Buf (Elt F) ((c : Thread nD τ).loc cc0_scratch1)) (P : FVec F S1x512x1024 .bf16)
    (hP : P = Spec.outChunk (Spec.Xof m) (Spec.Gof m) c j)
    (hin : ∀ a : Fin 3, (![j.val, 0, 0] : Fin 3 → Nat) a + S1x512x1024.size a ≤ S8x512x1024.size a) :
    ∀ i ∈ (ovM j).view.set,
      View.write (Elt F) ((Memref.whole cc0_scratch1 : Memref sig .tc .vmem S8x512x1024 .bf16).access
          (Rect.unit (s := S8x512x1024) ![j.val, 0, 0] S1x512x1024.size hin))
        f1 P Finset.univ i = ovFin m c i := by
  intro i hi
  rw [ov_set] at hi
  have hi' : i ∈ ((Memref.whole cc0_scratch1 : Memref sig .tc .vmem S8x512x1024 .bf16).access
      (Rect.unit (s := S8x512x1024) ![j.val, 0, 0] S1x512x1024.size hin) : View sig .tc _ _ _).set := by
    rw [show ((Memref.whole cc0_scratch1 : Memref sig .tc .vmem S8x512x1024 .bf16).access
      (Rect.unit (s := S8x512x1024) ![j.val, 0, 0] S1x512x1024.size hin) : View sig .tc _ _ _).set = (chunkR j).set from View.set_slice_whole _ _]
    exact hi
  obtain ⟨y, rfl⟩ := View.exists_emb_of_mem_set _ hi'
  rw [View.write_emb_of_mem _ _ (Finset.mem_univ y), hP]
  refine (cast_eq _ _).trans ?_
  unfold ovFin
  have h0 : (y 0).val = 0 := by have : (y 0).val < 1 := (y 0).isLt; omega
  refine congr (congrArg (Spec.outChunk (Spec.Xof m) (Spec.Gof m) c) (Fin.ext ?_)) (funext fun d => ?_)
  · show j.val = j.val + 1 * (y 0).val
    omega
  · match d with
    | ⟨0, _⟩ => exact Fin.ext (by show (y 0).val = 0; omega)
    | ⟨1, _⟩ => exact Fin.ext (by show (y 1).val = 0 + 1 * (y 1).val; omega)
    | ⟨2, _⟩ => exact Fin.ext (by show (y 2).val = 0 + 1 * (y 2).val; omega)

theorem b_pay4 (g : FVec F S1024 .f32) (s0 s1 s2 s3 : Vec F S1x4x128 .f32) (xc : Vec F S1x512x1024 .f32) :
    k0_pay21 g (k0_pay20 s0 s1 s2 s3) (Scalar.ofBits .f32 0x39800000#32) xc = Spec.outc g s0 s1 s2 s3 xc := rfl
theorem b_pay5 (g : FVec F S1024 .f32) (s0 s1 s2 s3 : Vec F S1x4x128 .f32) (xc : Vec F S1x512x1024 .f32) :
    k0_pay23 g (k0_pay22 s0 s1 s2) s3 xc = Spec.outc g s0 s1 s2 s3 xc := rfl
theorem b_pay6 (g : FVec F S1024 .f32) (s0 s1 s2 s3 : Vec F S1x4x128 .f32) (xc : Vec F S1x512x1024 .f32) :
    k0_pay25 g (k0_pay24 s0 s1) s2 s3 xc = Spec.outc g s0 s1 s2 s3 xc := rfl
theorem b_pay7 (g : FVec F S1024 .f32) (s0 s1 s2 s3 : Vec F S1x4x128 .f32) (xc : Vec F S1x512x1024 .f32) :
    k0_pay27 g (k0_pay26 s0) s1 s2 s3 xc = Spec.outc g s0 s1 s2 s3 xc := rfl

def part33_pre (W : Waits sig Unit) : sProp 𝕄 :=
  iprop(invs m K c
    ∗ owes (c : Thread nD τ) (Oat c 27) W
    ∗ rwPre c 1 4
    ∗ rwPre c 0 4
    ∗ piecePt c (up 2) 4 fullShare (commFinal m c)
    ∗ piecePt c 3 4 qK (commFinal m c))

def part33_post (r : (Σ' (v963 : FVec F S4x128 .f32), F .f32)) : sProp 𝕄 :=
  iprop(⌜r.1 = k0_pay20 (sl m c 0 4) (sl m c 1 4) (sl m c 2 4) (sl m c 3 4)⌝
    ∗ ⌜r.2 = Scalar.ofBits .f32 0x39800000#32⌝
    ∗ owesAny c (Oat c 27)
    ∗ rwPost m c 1 4
    ∗ rwPost m c 0 4
    ∗ piecePt c (up 2) 4 fullShare (commFinal m c)
    ∗ piecePt c 3 4 qK (commFinal m c))

set_option maxHeartbeats 3200000 in
theorem part33_spec (W : Waits sig Unit) (v431 : BitVec 32) (v452 : BitVec 32) :
    part33_pre m K c W
      ⊢ wp frame (wpE (defs₀ (F := F)) 𝒱₀ (c : Thread nD τ) none) Set.univ
          (k0_part33 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v431 v452)
          (fun r => part33_post m c r) := by
  rw [k0_part33_eq_skeleton]
  unfold k0_part33_skel part33_pre
  simp only [Prog.lift, Prog.bind_op, Prog.bind_ret, Prog.pure_eq_ret]
  rw [Oat_last]
  iintro ⟨#HI, HO, Hw1, Hw0, P2, P3⟩
  iapply (recvwait_step m K c 1 4 W (piece_credit 1 4)) $$ HI HO Hw1
  iintro ⟨HO, Hr1⟩
  iapply (recvwait_step m K c 0 4 _ (piece_credit 0 4)) $$ HI HO Hw0
  iintro ⟨HO, Hr0⟩
  icases Hr1 with ⟨P1, Hs1⟩
  icases Hr0 with ⟨P0, Hs0⟩
  sl_exec
  rw [wp_ret]; imodintro
  unfold part33_post
  isplitr; · ipureintro; exact congr (congr (congr (congrArg k0_pay20 (read_piece m c 0 4 (by decide))) (read_piece m c 1 4 (by decide))) (read_piece m c 2 4 (by decide))) (read_piece m c 3 4 (by decide))
  isplitr; · ipureintro; rfl
  isplitl [HO]; · iexists _; iexact HO
  isplitl [P1 Hs1]
  · sl_close
  isplitl [P0 Hs0]
  · sl_close
  sl_close

def part34_pre (W : Waits sig Unit) (f1 : Buf (Elt F) ((c : Thread nD τ).loc cc0_scratch1))
    (fo : Buf (Elt F) ((c : Thread nD τ).loc main_v1)) : sProp 𝕄 :=
  iprop(invs m K c
    ∗ owes (c : Thread nD τ) (Oat c 27) W
    ∗ xvPt c 4 (xvFin m c)
    ∗ ovPt c 4 f1
    ∗ outPt c 4 fo
    ∗ sem0 c 12
    ∗ rwPre c 2 5)

def part34_post (fo : Buf (Elt F) ((c : Thread nD τ).loc main_v1)) : sProp 𝕄 :=
  iprop(owesAny c (Oat c 27)
    ∗ xvPt c 4 (xvFin m c)
    ∗ storeFlight m c 4 fo
    ∗ rwPost m c 2 5)

set_option maxHeartbeats 3200000 in
theorem part34_spec (W : Waits sig Unit) (f1 : Buf (Elt F) ((c : Thread nD τ).loc cc0_scratch1))
    (fo : Buf (Elt F) ((c : Thread nD τ).loc main_v1)) (v486 : BitVec 32) (v692 : FVec F S1024 .f32) (v963 : FVec F S4x128 .f32) (cst_902 : F .f32) (hg : v692 = k0_pay10 (Spec.Gof m c)) (hv963 : v963 = k0_pay20 (sl m c 0 4) (sl m c 1 4) (sl m c 2 4) (sl m c 3 4)) (hcst_902 : cst_902 = Scalar.ofBits .f32 0x39800000#32) :
    part34_pre m K c W f1 fo
      ⊢ wp frame (wpE (defs₀ (F := F)) 𝒱₀ (c : Thread nD τ) none) Set.univ
          (k0_part34 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v486 v692 v963 cst_902)
          (fun _ => part34_post m c fo) := by
  subst hg hv963 hcst_902
  rw [k0_part34_eq_skeleton]
  unfold k0_part34_skel part34_pre
  simp only [Prog.lift, Prog.bind_op, Prog.bind_ret, Prog.pure_eq_ret]
  rw [Oat_last]
  iintro ⟨#HI, HO, Hx, Ho, Hout, Hs, Hw2⟩
  set_option sl_exec.maxSteps 3 in sl_exec
  ihave Ho := (Entails.of_eq (pointsTo_congr (b_ov_stored m c 4 f1 _ ((congrArg (k0_pay21 (k0_pay10 (Spec.Gof m c)) (k0_pay20 (sl m c 0 4) (sl m c 1 4) (sl m c 2 4) (sl m c 3 4)) (Scalar.ofBits .f32 0x39800000#32)) (read_xv m c 4 (by decide))).trans (b_pay4 _ _ _ _ _ _)) (by decide)))) $$ Ho
  sl_exec
  iapply (recvwait_step m K c 2 5 W (piece_credit 2 5)) $$ HI HO Hw2
  iintro ⟨HO, Hr2⟩
  rw [wp_ret]; imodintro
  unfold part34_post
  isplitl [HO]; · iexists _; iexact HO
  isplitl [Hx]; · iexact Hx
  isplitl [Hs]; · iexact Hs
  iexact Hr2

def part35_pre (W : Waits sig Unit) : sProp 𝕄 :=
  iprop(invs m K c
    ∗ owes (c : Thread nD τ) (Oat c 27) W
    ∗ rwPre c 1 5
    ∗ rwPre c 0 5
    ∗ piecePt c (up 2) 5 fullShare (commFinal m c))

def part35_post (r : (FVec F S4x128 .f32)) : sProp 𝕄 :=
  iprop(⌜r = k0_pay22 (sl m c 0 5) (sl m c 1 5) (sl m c 2 5)⌝
    ∗ owesAny c (Oat c 27)
    ∗ rwPost m c 1 5
    ∗ rwPost m c 0 5
    ∗ piecePt c (up 2) 5 fullShare (commFinal m c))

set_option maxHeartbeats 3200000 in
theorem part35_spec (W : Waits sig Unit) (v507 : BitVec 32) (v528 : BitVec 32) :
    part35_pre m K c W
      ⊢ wp frame (wpE (defs₀ (F := F)) 𝒱₀ (c : Thread nD τ) none) Set.univ
          (k0_part35 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v507 v528)
          (fun r => part35_post m c r) := by
  rw [k0_part35_eq_skeleton]
  unfold k0_part35_skel part35_pre
  simp only [Prog.lift, Prog.bind_op, Prog.bind_ret, Prog.pure_eq_ret]
  rw [Oat_last]
  iintro ⟨#HI, HO, Hw1, Hw0, P2⟩
  iapply (recvwait_step m K c 1 5 W (piece_credit 1 5)) $$ HI HO Hw1
  iintro ⟨HO, Hr1⟩
  iapply (recvwait_step m K c 0 5 _ (piece_credit 0 5)) $$ HI HO Hw0
  iintro ⟨HO, Hr0⟩
  icases Hr1 with ⟨P1, Hs1⟩
  icases Hr0 with ⟨P0, Hs0⟩
  sl_exec
  rw [wp_ret]; imodintro
  unfold part35_post
  isplitr; · ipureintro; exact congr (congr (congrArg k0_pay22 (read_piece m c 0 5 (by decide))) (read_piece m c 1 5 (by decide))) (read_piece m c 2 5 (by decide))
  isplitl [HO]; · iexists _; iexact HO
  isplitl [P1 Hs1]
  · sl_close
  isplitl [P0 Hs0]
  · sl_close
  iexact P2

def part36_pre (f1 : Buf (Elt F) ((c : Thread nD τ).loc cc0_scratch1))
    (fo : Buf (Elt F) ((c : Thread nD τ).loc main_v1)) : sProp 𝕄 :=
  iprop(piecePt c 3 5 qK (commFinal m c)
    ∗ xvPt c 5 (xvFin m c)
    ∗ ovPt c 5 f1
    ∗ outPt c 5 fo
    ∗ sem0 c 13)

def part36_post (fo : Buf (Elt F) ((c : Thread nD τ).loc main_v1)) : sProp 𝕄 :=
  iprop(piecePt c 3 5 qK (commFinal m c)
    ∗ xvPt c 5 (xvFin m c)
    ∗ storeFlight m c 5 fo)

set_option maxHeartbeats 3200000 in
theorem part36_spec (f1 : Buf (Elt F) ((c : Thread nD τ).loc cc0_scratch1))
    (fo : Buf (Elt F) ((c : Thread nD τ).loc main_v1)) (v562 : BitVec 32) (v692 : FVec F S1024 .f32) (v1019 : FVec F S4x128 .f32) (hg : v692 = k0_pay10 (Spec.Gof m c)) (hv1019 : v1019 = k0_pay22 (sl m c 0 5) (sl m c 1 5) (sl m c 2 5)) :
    part36_pre m c f1 fo
      ⊢ wp frame (wpE (defs₀ (F := F)) 𝒱₀ (c : Thread nD τ) none) Set.univ
          (k0_part36 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v562 v692 v1019)
          (fun _ => part36_post m c fo) := by
  subst hg hv1019
  rw [k0_part36_eq_skeleton]
  unfold k0_part36_skel part36_pre
  simp only [Prog.lift, Prog.bind_op, Prog.bind_ret, Prog.pure_eq_ret]
  iintro ⟨P3, Hx, Ho, Hout, Hs⟩
  set_option sl_exec.maxSteps 4 in sl_exec
  ihave Ho := (Entails.of_eq (pointsTo_congr (b_ov_stored m c 5 f1 _ ((congr (congrArg (k0_pay23 (k0_pay10 (Spec.Gof m c)) (k0_pay22 (sl m c 0 5) (sl m c 1 5) (sl m c 2 5))) (read_piece m c 3 5 (by decide))) (read_xv m c 5 (by decide))).trans (b_pay5 _ _ _ _ _ _)) (by decide)))) $$ Ho
  sl_exec
  rw [wp_ret]; imodintro
  unfold part36_post
  sl_close

def part37_pre (W : Waits sig Unit) : sProp 𝕄 :=
  iprop(invs m K c
    ∗ owes (c : Thread nD τ) (Oat c 27) W
    ∗ rwPre c 2 6
    ∗ rwPre c 1 6
    ∗ rwPre c 0 6)

def part37_post (r : (FVec F S4x128 .f32)) : sProp 𝕄 :=
  iprop(⌜r = k0_pay24 (sl m c 0 6) (sl m c 1 6)⌝
    ∗ owesAny c (Oat c 27)
    ∗ rwPost m c 2 6
    ∗ rwPost m c 1 6
    ∗ rwPost m c 0 6)

set_option maxHeartbeats 3200000 in
theorem part37_spec (W : Waits sig Unit) (v583 : BitVec 32) (v604 : BitVec 32) :
    part37_pre m K c W
      ⊢ wp frame (wpE (defs₀ (F := F)) 𝒱₀ (c : Thread nD τ) none) Set.univ
          (k0_part37 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v583 v604)
          (fun r => part37_post m c r) := by
  rw [k0_part37_eq_skeleton]
  unfold k0_part37_skel part37_pre
  simp only [Prog.lift, Prog.bind_op, Prog.bind_ret, Prog.pure_eq_ret]
  rw [Oat_last]
  iintro ⟨#HI, HO, Hw2, Hw1, Hw0⟩
  iapply (recvwait_step m K c 2 6 W (piece_credit 2 6)) $$ HI HO Hw2
  iintro ⟨HO, Hr2⟩
  iapply (recvwait_step m K c 1 6 _ (piece_credit 1 6)) $$ HI HO Hw1
  iintro ⟨HO, Hr1⟩
  iapply (recvwait_step m K c 0 6 _ (piece_credit 0 6)) $$ HI HO Hw0
  iintro ⟨HO, Hr0⟩
  icases Hr2 with ⟨P2, Hs2⟩
  icases Hr1 with ⟨P1, Hs1⟩
  icases Hr0 with ⟨P0, Hs0⟩
  sl_exec
  rw [wp_ret]; imodintro
  unfold part37_post
  isplitr; · ipureintro; exact congr (congrArg k0_pay24 (read_piece m c 0 6 (by decide))) (read_piece m c 1 6 (by decide))
  isplitl [HO]; · iexists _; iexact HO
  isplitl [P2 Hs2]
  · sl_close
  isplitl [P1 Hs1]
  · sl_close
  sl_close

def part38_pre (f1 : Buf (Elt F) ((c : Thread nD τ).loc cc0_scratch1))
    (fo : Buf (Elt F) ((c : Thread nD τ).loc main_v1)) : sProp 𝕄 :=
  iprop(piecePt c (up 2) 6 fullShare (commFinal m c)
    ∗ piecePt c 3 6 qK (commFinal m c)
    ∗ xvPt c 6 (xvFin m c)
    ∗ ovPt c 6 f1
    ∗ outPt c 6 fo
    ∗ sem0 c 14)

def part38_post (fo : Buf (Elt F) ((c : Thread nD τ).loc main_v1)) : sProp 𝕄 :=
  iprop(piecePt c (up 2) 6 fullShare (commFinal m c)
    ∗ piecePt c 3 6 qK (commFinal m c)
    ∗ xvPt c 6 (xvFin m c)
    ∗ storeFlight m c 6 fo)

set_option maxHeartbeats 3200000 in
theorem part38_spec (f1 : Buf (Elt F) ((c : Thread nD τ).loc cc0_scratch1))
    (fo : Buf (Elt F) ((c : Thread nD τ).loc main_v1)) (v638 : BitVec 32) (v692 : FVec F S1024 .f32) (v1075 : FVec F S4x128 .f32) (hg : v692 = k0_pay10 (Spec.Gof m c)) (hv1075 : v1075 = k0_pay24 (sl m c 0 6) (sl m c 1 6)) :
    part38_pre m c f1 fo
      ⊢ wp frame (wpE (defs₀ (F := F)) 𝒱₀ (c : Thread nD τ) none) Set.univ
          (k0_part38 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v638 v692 v1075)
          (fun _ => part38_post m c fo) := by
  subst hg hv1075
  rw [k0_part38_eq_skeleton]
  unfold k0_part38_skel part38_pre
  simp only [Prog.lift, Prog.bind_op, Prog.bind_ret, Prog.pure_eq_ret]
  iintro ⟨P2, P3, Hx, Ho, Hout, Hs⟩
  set_option sl_exec.maxSteps 5 in sl_exec
  ihave Ho := (Entails.of_eq (pointsTo_congr (b_ov_stored m c 6 f1 _ ((congr (congr (congrArg (k0_pay25 (k0_pay10 (Spec.Gof m c)) (k0_pay24 (sl m c 0 6) (sl m c 1 6))) (read_piece m c 2 6 (by decide))) (read_piece m c 3 6 (by decide))) (read_xv m c 6 (by decide))).trans (b_pay6 _ _ _ _ _ _)) (by decide)))) $$ Ho
  sl_exec
  rw [wp_ret]; imodintro
  unfold part38_post
  sl_close

def part39_pre (W : Waits sig Unit) : sProp 𝕄 :=
  iprop(invs m K c
    ∗ owes (c : Thread nD τ) (Oat c 27) W
    ∗ rwPre c 2 7
    ∗ rwPre c 1 7
    ∗ rwPre c 0 7)

def part39_post (r : (FVec F S4x128 .f32)) : sProp 𝕄 :=
  iprop(⌜r = k0_pay26 (sl m c 0 7)⌝
    ∗ owesAny c (Oat c 27)
    ∗ rwPost m c 2 7
    ∗ rwPost m c 1 7
    ∗ rwPost m c 0 7)

set_option maxHeartbeats 3200000 in
theorem part39_spec (W : Waits sig Unit) (v659 : BitVec 32) (v680 : BitVec 32) (v1106 : BitVec 32) (c0_i32_1047 : BitVec 32) :
    part39_pre m K c W
      ⊢ wp frame (wpE (defs₀ (F := F)) 𝒱₀ (c : Thread nD τ) none) Set.univ
          (k0_part39 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v659 v680 v1106 c0_i32_1047)
          (fun r => part39_post m c r) := by
  rw [k0_part39_eq_skeleton]
  unfold k0_part39_skel part39_pre
  simp only [Prog.lift, Prog.bind_op, Prog.bind_ret, Prog.pure_eq_ret]
  rw [Oat_last]
  iintro ⟨#HI, HO, Hw2, Hw1, Hw0⟩
  iapply (recvwait_step m K c 2 7 W (piece_credit 2 7)) $$ HI HO Hw2
  iintro ⟨HO, Hr2⟩
  iapply (recvwait_step m K c 1 7 _ (piece_credit 1 7)) $$ HI HO Hw1
  iintro ⟨HO, Hr1⟩
  iapply (recvwait_step m K c 0 7 _ (piece_credit 0 7)) $$ HI HO Hw0
  iintro ⟨HO, Hr0⟩
  icases Hr2 with ⟨P2, Hs2⟩
  icases Hr1 with ⟨P1, Hs1⟩
  icases Hr0 with ⟨P0, Hs0⟩
  sl_exec
  rw [wp_ret]; imodintro
  unfold part39_post
  isplitr; · ipureintro; exact congrArg k0_pay26 (read_piece m c 0 7 (by decide))
  isplitl [HO]; · iexists _; iexact HO
  isplitl [P2 Hs2]
  · sl_close
  isplitl [P1 Hs1]
  · sl_close
  sl_close

def part40_pre (f1 : Buf (Elt F) ((c : Thread nD τ).loc cc0_scratch1))
    (fo : Buf (Elt F) ((c : Thread nD τ).loc main_v1)) : sProp 𝕄 :=
  iprop(piecePt c (up 1) 7 fullShare (commFinal m c)
    ∗ piecePt c (up 2) 7 fullShare (commFinal m c)
    ∗ piecePt c 3 7 qK (commFinal m c)
    ∗ xvPt c 7 (xvFin m c)
    ∗ ovPt c 7 f1
    ∗ outPt c 7 fo
    ∗ sem0 c 15)

def part40_post (fo : Buf (Elt F) ((c : Thread nD τ).loc main_v1)) : sProp 𝕄 :=
  iprop(piecePt c (up 1) 7 fullShare (commFinal m c)
    ∗ piecePt c (up 2) 7 fullShare (commFinal m c)
    ∗ piecePt c 3 7 qK (commFinal m c)
    ∗ xvPt c 7 (xvFin m c)
    ∗ storeFlight m c 7 fo)

set_option maxHeartbeats 3200000 in
theorem part40_spec (f1 : Buf (Elt F) ((c : Thread nD τ).loc cc0_scratch1))
    (fo : Buf (Elt F) ((c : Thread nD τ).loc main_v1)) (v692 : FVec F S1024 .f32) (v1131 : FVec F S4x128 .f32) (hg : v692 = k0_pay10 (Spec.Gof m c)) (hv1131 : v1131 = k0_pay26 (sl m c 0 7)) :
    part40_pre m c f1 fo
      ⊢ wp frame (wpE (defs₀ (F := F)) 𝒱₀ (c : Thread nD τ) none) Set.univ
          (k0_part40 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v692 v1131)
          (fun _ => part40_post m c fo) := by
  subst hg hv1131
  rw [k0_part40_eq_skeleton]
  unfold k0_part40_skel part40_pre
  simp only [Prog.lift, Prog.bind_op, Prog.bind_ret, Prog.pure_eq_ret]
  iintro ⟨P1, P2, P3, Hx, Ho, Hout, Hs⟩
  set_option sl_exec.maxSteps 6 in sl_exec
  ihave Ho := (Entails.of_eq (pointsTo_congr (b_ov_stored m c 7 f1 _ ((congr (congr (congr (congrArg (k0_pay27 (k0_pay10 (Spec.Gof m c)) (k0_pay26 (sl m c 0 7))) (read_piece m c 1 7 (by decide))) (read_piece m c 2 7 (by decide))) (read_piece m c 3 7 (by decide))) (read_xv m c 7 (by decide))).trans (b_pay7 _ _ _ _ _ _)) (by decide)))) $$ Ho
  sl_exec
  rw [wp_ret]; imodintro
  unfold part40_post
  sl_close

/-- info: 'Cert.KernelIdeal.Proto.part33_spec' depends on axioms: [propext, Classical.choice, Quot.sound] -/
#guard_msgs in #print axioms part33_spec

/-- info: 'Cert.KernelIdeal.Proto.part34_spec' depends on axioms: [propext, Classical.choice, Quot.sound] -/
#guard_msgs in #print axioms part34_spec

/-- info: 'Cert.KernelIdeal.Proto.part35_spec' depends on axioms: [propext, Classical.choice, Quot.sound] -/
#guard_msgs in #print axioms part35_spec

/-- info: 'Cert.KernelIdeal.Proto.part36_spec' depends on axioms: [propext, Classical.choice, Quot.sound] -/
#guard_msgs in #print axioms part36_spec

/-- info: 'Cert.KernelIdeal.Proto.part37_spec' depends on axioms: [propext, Classical.choice, Quot.sound] -/
#guard_msgs in #print axioms part37_spec

/-- info: 'Cert.KernelIdeal.Proto.part38_spec' depends on axioms: [propext, Classical.choice, Quot.sound] -/
#guard_msgs in #print axioms part38_spec

/-- info: 'Cert.KernelIdeal.Proto.part39_spec' depends on axioms: [propext, Classical.choice, Quot.sound] -/
#guard_msgs in #print axioms part39_spec

/-- info: 'Cert.KernelIdeal.Proto.part40_spec' depends on axioms: [propext, Classical.choice, Quot.sound] -/
#guard_msgs in #print axioms part40_spec

end Cert.KernelIdeal.Proto

end
-- ==== Proof.Parts3.lean ====
import proofs.«901004_g7700000000001005_dist_rmsnorm_colshard_i_m4096_n1024_v7x_i4_bf16_1_alg».proof.Proof.Res
import Idealize.ShloMosaic.Lib.Pipeline.Value

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev swPre (c : Dev nD) (d : Fin 3) (h : Fin 8) : sProp 𝕄 :=
  iprop(cred (tallyAt (sendCell c d h) () N) ∗ atPos ER (sendCell c d h) 0 ∅ 0)
abbrev swPost (c : Dev nD) (d : Fin 3) (h : Fin 8) : sProp 𝕄 :=
  iprop(piecePt c 3 h (qS d) (commFinal m c) ∗ semVal (sendCell c d h) 0)

theorem sendwait_step (K : GSem nD τ sig → ℕ) (c : Dev nD) (d : Fin 3) (h : Fin 8) (W : Waits sig Unit)
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {Q : α → sProp 𝕄} {kk : PUnit → Prog (TpuEff nD τ sig (Elt F) Λ₀ .tc) α} :
    ⊢ iprop(invs m K c -∗ owes (c : Thread nD τ) 0 W -∗ swPre c d h
          -∗ (iprop(owes (c : Thread nD τ) 0 (insert (SemLoc.dma (sendS d h), ()) W) ∗ swPost m c d h)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS d h) src dst hsrc hdst) kk) Q) := by
  iintro #Hinv HO Hw Hk
  ihave #HI := (invs_send m K c d h) $$ Hinv
  iapply (cellwait_step m c (sendS d h) _ (duties_send m c d h) (expect_send m c d h) ((payload_send m c d h 0).trans (sendPay_eq m c d h)) (K (sendCell c d h)) W hN) $$ HI HO Hw Hk

def part41_pre (K : GSem nD τ sig → ℕ) (c : Dev nD) (W : Waits sig Unit) : sProp 𝕄 :=
  iprop(invs m K c ∗ owes (c : Thread nD τ) (Oat c 27) W ∗ swPre c 0 0 ∗ swPre c 1 0 ∗ swPre c 2 0)
def part41_post (c : Dev nD) : sProp 𝕄 :=
  iprop(owesAny c (Oat c 27) ∗ swPost m c 0 0 ∗ swPost m c 1 0 ∗ swPost m c 2 0)

set_option maxHeartbeats 800000 in
theorem part41_spec (K : GSem nD τ sig → ℕ) (c : Dev nD) (W : Waits sig Unit)
    (arg0 : Memref sig .tc .hbm S4096x1024 .f32) (harg0 : arg0.IsWhole) (arg1 : Memref sig .tc .vmem S1024 .f32) (harg1 : arg1.IsWhole)
    (arg2 : Memref sig .tc .hbm S4096x1024 .bf16) (harg2 : arg2.IsWhole) (arg3 : Memref sig .tc .vmem S8x512x1024 .f32) (harg3 : arg3.IsWhole)
    (arg4 : Memref sig .tc .vmem S8x512x1024 .bf16) (harg4 : arg4.IsWhole) (harg5 : (Memref.whole cc0_scratch2 : Memref sig .tc .vmem S4x32x128 .f32).IsWhole)
    (arg6 : DmaSems sig S8) (arg7 : DmaSems sig S8) (arg9 : DmaSems sig S3x8) :
    part41_pre m K c W
      ⊢ wp frame (wpE (defs₀ (F := F)) 𝒱₀ (c : Thread nD τ) none) Set.univ
          (k0_part41 (F := F) arg0 harg0 arg1 harg1 arg2 harg2 arg3 harg3 arg4 harg4 (Memref.whole cc0_scratch2) harg5 arg6 arg7 cc0_scratch5 arg9)
          (fun _ => part41_post (F := F) m c) := by
  rw [k0_part41_eq_skeleton]
  unfold k0_part41_skel part41_pre part41_post
  simp only [Prog.lift, Prog.bind_op, Prog.bind_ret, Prog.pure_eq_ret]
  rw [Oat_last]
  iintro ⟨#Hinv, HO, S0, S1, S2⟩
  iapply (sendwait_step m K c 0 0 _ (piece_credit 3 0)) $$ Hinv HO S0
  iintro ⟨HO, P0, ZP0⟩
  iapply (sendwait_step m K c 1 0 _ (piece_credit 3 0)) $$ Hinv HO S1
  iintro ⟨HO, P1, ZP1⟩
  iapply (sendwait_step m K c 2 0 _ (piece_credit 3 0)) $$ Hinv HO S2
  iintro ⟨HO, P2, ZP2⟩
  rw [wp_ret]; imodintro
  sl_close

abbrev zc (y : S512x1024.Idx) : S1x512x1024.Idx := Shape.reshapeEquiv squeezes_S1x512x1024_S512x1024.numel_eq y
theorem zc_eq (y : S512x1024.Idx) : zc y = Fin.cons ⟨0, Nat.one_pos⟩ y := Shape.reshapeEquiv_cons_one _ y
theorem zc0 (y : S512x1024.Idx) : ((zc y 0 : Fin 1) : Nat) = 0 := by rw [zc_eq]; rfl
theorem zc1 (y : S512x1024.Idx) : ((zc y 1 : Fin 512) : Nat) = ((y 0 : Fin 512) : Nat) := by rw [zc_eq]; rfl
theorem zc2 (y : S512x1024.Idx) : ((zc y 2 : Fin 1024) : Nat) = ((y 1 : Fin 1024) : Nat) := by rw [zc_eq]; rfl

theorem ov_emb0 (j : Fin 8) (y : S512x1024.Idx) :
    ((((ovM j).view.emb y : S8x512x1024.Idx) 0 : Fin 8) : Nat) = j.val + 1 * ((zc y 0 : Fin 1) : Nat) := rfl
theorem ov_emb1 (j : Fin 8) (y : S512x1024.Idx) :
    ((((ovM j).view.emb y : S8x512x1024.Idx) 1 : Fin 512) : Nat) = 0 + 1 * ((zc y 1 : Fin 512) : Nat) := rfl
theorem ov_emb2 (j : Fin 8) (y : S512x1024.Idx) :
    ((((ovM j).view.emb y : S8x512x1024.Idx) 2 : Fin 1024) : Nat) = 0 + 1 * ((zc y 2 : Fin 1024) : Nat) := rfl
theorem out_emb0 (j : Fin 8) (y : S512x1024.Idx) :
    ((((outM j).view.emb y : S4096x1024.Idx) 0 : Fin 4096) : Nat) = 512 * j.val + 1 * ((y 0 : Fin 512) : Nat) := rfl
theorem out_emb1 (j : Fin 8) (y : S512x1024.Idx) :
    ((((outM j).view.emb y : S4096x1024.Idx) 1 : Fin 1024) : Nat) = 0 + 1 * ((y 1 : Fin 1024) : Nat) := rfl

def oc (X : Dev nD → Vec F S4096x1024 .f32) (G : Dev nD → Vec F S1024 .f32) (p : Dev nD) (a b l : ℕ) (ha : a < 8) (hb : b < 512) (hl : l < 1024) : Elt F .bf16 :=
  Spec.outChunk X G p ⟨a, ha⟩ (ix3 (n0 := 1) (n1 := 512) (n2 := 1024) 0 ⟨b, hb⟩ ⟨l, hl⟩)
theorem oc_congr {X : Dev nD → Vec F S4096x1024 .f32} {G : Dev nD → Vec F S1024 .f32} {p : Dev nD} {a a' b b' l l' : ℕ}
    {ha : a < 8} {ha' : a' < 8} {hb : b < 512} {hb' : b' < 512} {hl : l < 1024} {hl' : l' < 1024}
    (ea : a = a') (eb : b = b') (el : l = l') : oc X G p a b l ha hb hl = oc X G p a' b' l' ha' hb' hl' := by
  subst ea eb el; rfl

theorem store_landed_eq (c : Dev nD) (j : Fin 8) (fo : Buf (Elt F) ((c : Thread nD τ).loc main_v1)) :
    ∀ i ∈ (outM j).view.set,
      ((outM j).view.writes (Elt F) fo [⟨Rect.whole S512x1024, ReadAs.same.apply ((ovM j).view.read (Elt F) (ovFin m c))⟩]) i
        = (Spec.outArr (Spec.Xof m) (Spec.Gof m) c : Buf (Elt F) ((c : Thread nD τ).loc main_v1)) i := by
  intro i hi
  obtain ⟨y, rfl⟩ := View.exists_emb_of_mem_set _ hi
  have hy : ((outM j).view.slice (Rect.whole S512x1024)).emb y = (outM j).view.emb y := by
    show (outM j).view.emb ((Rect.whole S512x1024).emb y) = _
    rw [Rect.emb_whole_apply]
  have key := View.write_emb_of_mem (v := (outM j).view.slice (Rect.whole S512x1024)) (Val := Elt F) fo
    (ReadAs.same.apply ((ovM j).view.read (Elt F) (ovFin m c))) (M := Finset.univ) (x := y) (Finset.mem_univ y)
  rw [hy] at key
  rw [View.writes_singleton, key, ReadAs.apply_same, View.read_apply]
  refine (cast_cast_self _ _ _).trans ?_
  have e0 := ov_emb0 j y; have e1 := ov_emb1 j y; have e2 := ov_emb2 j y
  have o0 := out_emb0 j y; have o1 := out_emb1 j y
  have z0 := zc0 y; have z1 := zc1 y; have z2 := zc2 y
  have hy0 : ((y 0 : Fin 512) : Nat) < 512 := (y 0).isLt
  show oc (Spec.Xof m) (Spec.Gof m) c ((((ovM j).view.emb y : S8x512x1024.Idx) 0 : Fin 8) : Nat) ((((ovM j).view.emb y : S8x512x1024.Idx) 1 : Fin 512) : Nat)
        ((((ovM j).view.emb y : S8x512x1024.Idx) 2 : Fin 1024) : Nat) (Fin.isLt _) (Fin.isLt _) (Fin.isLt _)
      = oc (Spec.Xof m) (Spec.Gof m) c (((((outM j).view.emb y : S4096x1024.Idx) 0 : Fin 4096) : Nat) / 512) (((((outM j).view.emb y : S4096x1024.Idx) 0 : Fin 4096) : Nat) % 512)
        ((((outM j).view.emb y : S4096x1024.Idx) 1 : Fin 1024) : Nat) (by omega) (Nat.mod_lt _ (by decide)) (Fin.isLt _)
  exact oc_congr (by omega) (by omega) (by omega)

theorem store_landed (c : Dev nD) (j : Fin 8) (fo : Buf (Elt F) ((c : Thread nD τ).loc main_v1)) :
    ((outM j).view.loc (c : Thread nD τ) ↦[(outM j).view.set]{fullShare}
        (outM j).view.writes (Elt F) fo [⟨Rect.whole S512x1024, ReadAs.same.apply ((ovM j).view.read (Elt F) (ovFin m c))⟩] : sProp 𝕄)
      ⊢ outPt c j (Spec.outArr (Spec.Xof m) (Spec.Gof m) c) := by
  rw [pointsTo_congr (store_landed_eq m c j fo)]

def part48_pre (K : GSem nD τ sig → ℕ) (c : Dev nD) (W : Waits sig Unit) (fo : Buf (Elt F) ((c : Thread nD τ).loc main_v1)) : sProp 𝕄 :=
  iprop(invs m K c ∗ owes (c : Thread nD τ) (Oat c 27) W ∗ swPre c 2 7
    ∗ storeFlight m c 0 fo ∗ storeFlight m c 1 fo ∗ storeFlight m c 2 fo ∗ storeFlight m c 3 fo)
def part48_post (c : Dev nD) : sProp 𝕄 :=
  iprop(owesAny c (Oat c 27) ∗ swPost m c 2 7
    ∗ ovPt c 0 (ovFin m c) ∗ sem0 c 8 ∗ outPt c 0 (Spec.outArr (Spec.Xof m) (Spec.Gof m) c)
    ∗ ovPt c 1 (ovFin m c) ∗ sem0 c 9 ∗ outPt c 1 (Spec.outArr (Spec.Xof m) (Spec.Gof m) c)
    ∗ ovPt c 2 (ovFin m c) ∗ sem0 c 10 ∗ outPt c 2 (Spec.outArr (Spec.Xof m) (Spec.Gof m) c)
    ∗ ovPt c 3 (ovFin m c) ∗ sem0 c 11 ∗ outPt c 3 (Spec.outArr (Spec.Xof m) (Spec.Gof m) c))

set_option maxHeartbeats 1600000 in
theorem part48_spec (K : GSem nD τ sig → ℕ) (c : Dev nD) (W : Waits sig Unit) (fo : Buf (Elt F) ((c : Thread nD τ).loc main_v1))
    (arg0 : Memref sig .tc .hbm S4096x1024 .f32) (harg0 : arg0.IsWhole) (arg1 : Memref sig .tc .vmem S1024 .f32) (harg1 : arg1.IsWhole)
    (harg2 : (Memref.whole main_v1 : Memref sig .tc .hbm S4096x1024 .bf16).IsWhole) (arg3 : Memref sig .tc .vmem S8x512x1024 .f32) (harg3 : arg3.IsWhole)
    (harg4 : (Memref.whole cc0_scratch1 : Memref sig .tc .vmem S8x512x1024 .bf16).IsWhole) (harg5 : (Memref.whole cc0_scratch2 : Memref sig .tc .vmem S4x32x128 .f32).IsWhole)
    (arg6 : DmaSems sig S8) (arg9 : DmaSems sig S3x8) :
    part48_pre m K c W fo
      ⊢ wp frame (wpE (defs₀ (F := F)) 𝒱₀ (c : Thread nD τ) none) Set.univ
          (k0_part48 (F := F) arg0 harg0 arg1 harg1 (Memref.whole main_v1) harg2 arg3 harg3 (Memref.whole cc0_scratch1) harg4 (Memref.whole cc0_scratch2) harg5 arg6 cc0_scratch4 cc0_scratch5 arg9)
          (fun _ => part48_post (F := F) m c) := by
  rw [k0_part48_eq_skeleton]
  unfold k0_part48_skel part48_pre part48_post
  simp only [Prog.lift, Prog.bind_op, Prog.bind_ret, Prog.pure_eq_ret]
  rw [Oat_last]
  iintro ⟨#Hinv, HO, S0, F0, F1, F2, F3⟩
  iapply (sendwait_step m K c 2 7 _ (piece_credit 3 7)) $$ Hinv HO S0
  iintro ⟨HO, P0⟩
  sl_exec
  rw [wp_ret]; imodintro
  isplitl [HO]; · iexists _; iexact HO
  isplitl [P0]; · iexact P0
  isplitl [F0_src]; · iexact F0_src
  isplitl [F0]; · iexact F0
  isplitl [F0_dst]; · iapply (store_landed m c 0 fo) $$ F0_dst
  isplitl [F1_src]; · iexact F1_src
  isplitl [F1]; · iexact F1
  isplitl [F1_dst]; · iapply (store_landed m c 1 fo) $$ F1_dst
  isplitl [F2_src]; · iexact F2_src
  isplitl [F2]; · iexact F2
  isplitl [F2_dst]; · iapply (store_landed m c 2 fo) $$ F2_dst
  isplitl [F3_src]; · iexact F3_src
  isplitl [F3]; · iexact F3
  iapply (store_landed m c 3 fo) $$ F3_dst

theorem eg_fin64 (Φ : Fin 64 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide) Φ

theorem eq_of_biEntails {P Q : sProp 𝕄} (h : P ⊣⊢ Q) : P = Q := equiv_iff.mp ⟨h.1, h.2⟩

theorem scratch_intro (c : Dev nD) (g0 : Buf (Elt F) ((c : Thread nD τ).loc cc0_scratch0)) (g1 : Buf (Elt F) ((c : Thread nD τ).loc cc0_scratch1))
    (g2 : Buf (Elt F) ((c : Thread nD τ).loc cc0_scratch2)) :
    iprop((((c : Thread nD τ).loc cc0_scratch0) ↦{fullShare} g0) ∗ (((c : Thread nD τ).loc cc0_scratch1) ↦{fullShare} g1)
        ∗ (((c : Thread nD τ).loc cc0_scratch2) ↦{fullShare} g2))
      ⊢ (scratch c : sProp 𝕄) := by
  unfold scratch
  iintro ⟨H0, H1, H2⟩
  isplitl [H0]; · iexists g0; iexact H0
  isplitl [H1]; · iexists g1; iexact H1
  iexists g2; iexact H2

theorem piece3_quarters_eq (c : Dev nD) (h : Fin 8) :
    (((pieceM 3 h).view.loc ((c : Dev nD) : Thread nD τ) ↦[(pieceM 3 h).view.set]{fullShare} commFinal m c) : sProp 𝕄)
      = iprop(piecePt c 3 h (qS 0) (commFinal m c) ∗ piecePt c 3 h (qS 1) (commFinal m c) ∗ piecePt c 3 h (qS 2) (commFinal m c)
          ∗ piecePt c 3 h qK (commFinal m c)) :=
  eq_of_biEntails (piece_quarters c 3 h (commFinal m c))

/-- info: 'Cert.KernelIdeal.Proto.part41_spec' depends on axioms: [propext, Classical.choice, Quot.sound] -/
#guard_msgs in #print axioms part41_spec

/-- info: 'Cert.KernelIdeal.Proto.part48_spec' depends on axioms: [propext, Classical.choice, Quot.sound] -/
#guard_msgs in #print axioms part48_spec

/-- info: 'Cert.KernelIdeal.Proto.store_landed' depends on axioms: [propext, Classical.choice, Quot.sound] -/
#guard_msgs in #print axioms store_landed

end Cert.KernelIdeal.Proto

end
-- ==== Proof.Parts3b.lean ====
import proofs.«901004_g7700000000001005_dist_rmsnorm_colshard_i_m4096_n1024_v7x_i4_bf16_1_alg».proof.Proof.Parts3

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : GSem nD τ sig → ℕ) (c : Dev nD)
  (arg0 : Memref sig .tc .hbm S4096x1024 .f32) (harg0 : arg0.IsWhole) (arg1 : Memref sig .tc .vmem S1024 .f32) (harg1 : arg1.IsWhole)
  (arg2 : Memref sig .tc .hbm S4096x1024 .bf16) (harg2 : arg2.IsWhole) (arg3 : Memref sig .tc .vmem S8x512x1024 .f32) (harg3 : arg3.IsWhole)
  (arg4 : Memref sig .tc .vmem S8x512x1024 .bf16) (harg4 : arg4.IsWhole) (harg5 : (Memref.whole cc0_scratch2 : Memref sig .tc .vmem S4x32x128 .f32).IsWhole)
  (arg6 : DmaSems sig S8) (arg7 : DmaSems sig S8) (arg9 : DmaSems sig S3x8)

def part42_pre (W : Waits sig Unit) : sProp 𝕄 :=
  iprop(invs m K c ∗ owes (c : Thread nD τ) (Oat c 27) W ∗ swPre c 0 1 ∗ swPre c 1 1 ∗ swPre c 2 1)
def part42_post : sProp 𝕄 :=
  iprop(owesAny c (Oat c 27) ∗ swPost m c 0 1 ∗ swPost m c 1 1 ∗ swPost m c 2 1)

set_option maxHeartbeats 800000 in
theorem part42_spec (W : Waits sig Unit) :
    part42_pre m K c W
      ⊢ wp frame (wpE (defs₀ (F := F)) 𝒱₀ (c : Thread nD τ) none) Set.univ
          (k0_part42 (F := F) arg0 harg0 arg1 harg1 arg2 harg2 arg3 harg3 arg4 harg4 (Memref.whole cc0_scratch2) harg5 arg6 arg7 cc0_scratch5 arg9)
          (fun _ => part42_post (F := F) m c) := by
  rw [k0_part42_eq_skeleton]
  unfold k0_part42_skel part42_pre part42_post
  simp only [Prog.lift, Prog.bind_op, Prog.bind_ret, Prog.pure_eq_ret]
  rw [Oat_last]
  iintro ⟨#Hinv, HO, S0, S1, S2⟩
  iapply (sendwait_step m K c 0 1 _ (piece_credit 3 1)) $$ Hinv HO S0
  iintro ⟨HO, P0, ZP0⟩
  iapply (sendwait_step m K c 1 1 _ (piece_credit 3 1)) $$ Hinv HO S1
  iintro ⟨HO, P1, ZP1⟩
  iapply (sendwait_step m K c 2 1 _ (piece_credit 3 1)) $$ Hinv HO S2
  iintro ⟨HO, P2, ZP2⟩
  rw [wp_ret]; imodintro
  sl_close

def part43_pre (W : Waits sig Unit) : sProp 𝕄 :=
  iprop(invs m K c ∗ owes (c : Thread nD τ) (Oat c 27) W ∗ swPre c 0 2 ∗ swPre c 1 2 ∗ swPre c 2 2 ∗ swPre c 0 3)
def part43_post : sProp 𝕄 :=
  iprop(owesAny c (Oat c 27) ∗ swPost m c 0 2 ∗ swPost m c 1 2 ∗ swPost m c 2 2 ∗ swPost m c 0 3)

set_option maxHeartbeats 800000 in
theorem part43_spec (W : Waits sig Unit) :
    part43_pre m K c W
      ⊢ wp frame (wpE (defs₀ (F := F)) 𝒱₀ (c : Thread nD τ) none) Set.univ
          (k0_part43 (F := F) arg0 harg0 arg1 harg1 arg2 harg2 arg3 harg3 arg4 harg4 (Memref.whole cc0_scratch2) harg5 arg6 arg7 cc0_scratch5 arg9)
          (fun _ => part43_post (F := F) m c) := by
  rw [k0_part43_eq_skeleton]
  unfold k0_part43_skel part43_pre part43_post
  simp only [Prog.lift, Prog.bind_op, Prog.bind_ret, Prog.pure_eq_ret]
  rw [Oat_last]
  iintro ⟨#Hinv, HO, S0, S1, S2, S3⟩
  iapply (sendwait_step m K c 0 2 _ (piece_credit 3 2)) $$ Hinv HO S0
  iintro ⟨HO, P0, ZP0⟩
  iapply (sendwait_step m K c 1 2 _ (piece_credit 3 2)) $$ Hinv HO S1
  iintro ⟨HO, P1, ZP1⟩
  iapply (sendwait_step m K c 2 2 _ (piece_credit 3 2)) $$ Hinv HO S2
  iintro ⟨HO, P2, ZP2⟩
  iapply (sendwait_step m K c 0 3 _ (piece_credit 3 3)) $$ Hinv HO S3
  iintro ⟨HO, P3, ZP3⟩
  rw [wp_ret]; imodintro
  sl_close

def part44_pre (W : Waits sig Unit) : sProp 𝕄 :=
  iprop(invs m K c ∗ owes (c : Thread nD τ) (Oat c 27) W ∗ swPre c 1 3 ∗ swPre c 2 3 ∗ swPre c 0 4)
def part44_post : sProp 𝕄 :=
  iprop(owesAny c (Oat c 27) ∗ swPost m c 1 3 ∗ swPost m c 2 3 ∗ swPost m c 0 4)

set_option maxHeartbeats 800000 in
theorem part44_spec (W : Waits sig Unit) :
    part44_pre m K c W
      ⊢ wp frame (wpE (defs₀ (F := F)) 𝒱₀ (c : Thread nD τ) none) Set.univ
          (k0_part44 (F := F) arg0 harg0 arg1 harg1 arg2 harg2 arg3 harg3 arg4 harg4 (Memref.whole cc0_scratch2) harg5 arg6 arg7 cc0_scratch5 arg9)
          (fun _ => part44_post (F := F) m c) := by
  rw [k0_part44_eq_skeleton]
  unfold k0_part44_skel part44_pre part44_post
  simp only [Prog.lift, Prog.bind_op, Prog.bind_ret, Prog.pure_eq_ret]
  rw [Oat_last]
  iintro ⟨#Hinv, HO, S0, S1, S2⟩
  iapply (sendwait_step m K c 1 3 _ (piece_credit 3 3)) $$ Hinv HO S0
  iintro ⟨HO, P0, ZP0⟩
  iapply (sendwait_step m K c 2 3 _ (piece_credit 3 3)) $$ Hinv HO S1
  iintro ⟨HO, P1, ZP1⟩
  iapply (sendwait_step m K c 0 4 _ (piece_credit 3 4)) $$ Hinv HO S2
  iintro ⟨HO, P2, ZP2⟩
  rw [wp_ret]; imodintro
  sl_close

def part45_pre (W : Waits sig Unit) : sProp 𝕄 :=
  iprop(invs m K c ∗ owes (c : Thread nD τ) (Oat c 27) W ∗ swPre c 1 4 ∗ swPre c 2 4 ∗ swPre c 0 5)
def part45_post : sProp 𝕄 :=
  iprop(owesAny c (Oat c 27) ∗ swPost m c 1 4 ∗ swPost m c 2 4 ∗ swPost m c 0 5)

set_option maxHeartbeats 800000 in
theorem part45_spec (W : Waits sig Unit) :
    part45_pre m K c W
      ⊢ wp frame (wpE (defs₀ (F := F)) 𝒱₀ (c : Thread nD τ) none) Set.univ
          (k0_part45 (F := F) arg0 harg0 arg1 harg1 arg2 harg2 arg3 harg3 arg4 harg4 (Memref.whole cc0_scratch2) harg5 arg6 arg7 cc0_scratch5 arg9)
          (fun _ => part45_post (F := F) m c) := by
  rw [k0_part45_eq_skeleton]
  unfold k0_part45_skel part45_pre part45_post
  simp only [Prog.lift, Prog.bind_op, Prog.bind_ret, Prog.pure_eq_ret]
  rw [Oat_last]
  iintro ⟨#Hinv, HO, S0, S1, S2⟩
  iapply (sendwait_step m K c 1 4 _ (piece_credit 3 4)) $$ Hinv HO S0
  iintro ⟨HO, P0, ZP0⟩
  iapply (sendwait_step m K c 2 4 _ (piece_credit 3 4)) $$ Hinv HO S1
  iintro ⟨HO, P1, ZP1⟩
  iapply (sendwait_step m K c 0 5 _ (piece_credit 3 5)) $$ Hinv HO S2
  iintro ⟨HO, P2, ZP2⟩
  rw [wp_ret]; imodintro
  sl_close

def part46_pre (W : Waits sig Unit) : sProp 𝕄 :=
  iprop(invs m K c ∗ owes (c : Thread nD τ) (Oat c 27) W ∗ swPre c 1 5 ∗ swPre c 2 5 ∗ swPre c 0 6 ∗ swPre c 1 6)
def part46_post : sProp 𝕄 :=
  iprop(owesAny c (Oat c 27) ∗ swPost m c 1 5 ∗ swPost m c 2 5 ∗ swPost m c 0 6 ∗ swPost m c 1 6)

set_option maxHeartbeats 800000 in
theorem part46_spec (W : Waits sig Unit) :
    part46_pre m K c W
      ⊢ wp frame (wpE (defs₀ (F := F)) 𝒱₀ (c : Thread nD τ) none) Set.univ
          (k0_part46 (F := F) arg0 harg0 arg1 harg1 arg2 harg2 arg3 harg3 arg4 harg4 (Memref.whole cc0_scratch2) harg5 arg6 arg7 cc0_scratch5 arg9)
          (fun _ => part46_post (F := F) m c) := by
  rw [k0_part46_eq_skeleton]
  unfold k0_part46_skel part46_pre part46_post
  simp only [Prog.lift, Prog.bind_op, Prog.bind_ret, Prog.pure_eq_ret]
  rw [Oat_last]
  iintro ⟨#Hinv, HO, S0, S1, S2, S3⟩
  iapply (sendwait_step m K c 1 5 _ (piece_credit 3 5)) $$ Hinv HO S0
  iintro ⟨HO, P0, ZP0⟩
  iapply (sendwait_step m K c 2 5 _ (piece_credit 3 5)) $$ Hinv HO S1
  iintro ⟨HO, P1, ZP1⟩
  iapply (sendwait_step m K c 0 6 _ (piece_credit 3 6)) $$ Hinv HO S2
  iintro ⟨HO, P2, ZP2⟩
  iapply (sendwait_step m K c 1 6 _ (piece_credit 3 6)) $$ Hinv HO S3
  iintro ⟨HO, P3, ZP3⟩
  rw [wp_ret]; imodintro
  sl_close

def part47_pre (W : Waits sig Unit) : sProp 𝕄 :=
  iprop(invs m K c ∗ owes (c : Thread nD τ) (Oat c 27) W ∗ swPre c 2 6 ∗ swPre c 0 7 ∗ swPre c 1 7)
def part47_post : sProp 𝕄 :=
  iprop(owesAny c (Oat c 27) ∗ swPost m c 2 6 ∗ swPost m c 0 7 ∗ swPost m c 1 7)

set_option maxHeartbeats 800000 in
theorem part47_spec (W : Waits sig Unit) :
    part47_pre m K c W
      ⊢ wp frame (wpE (defs₀ (F := F)) 𝒱₀ (c : Thread nD τ) none) Set.univ
          (k0_part47 (F := F) arg0 harg0 arg1 harg1 arg2 harg2 arg3 harg3 arg4 harg4 (Memref.whole cc0_scratch2) harg5 arg6 arg7 cc0_scratch5 arg9)
          (fun _ => part47_post (F := F) m c) := by
  rw [k0_part47_eq_skeleton]
  unfold k0_part47_skel part47_pre part47_post
  simp only [Prog.lift, Prog.bind_op, Prog.bind_ret, Prog.pure_eq_ret]
  rw [Oat_last]
  iintro ⟨#Hinv, HO, S0, S1, S2⟩
  iapply (sendwait_step m K c 2 6 _ (piece_credit 3 6)) $$ Hinv HO S0
  iintro ⟨HO, P0, ZP0⟩
  iapply (sendwait_step m K c 0 7 _ (piece_credit 3 7)) $$ Hinv HO S1
  iintro ⟨HO, P1, ZP1⟩
  iapply (sendwait_step m K c 1 7 _ (piece_credit 3 7)) $$ Hinv HO S2
  iintro ⟨HO, P2, ZP2⟩
  rw [wp_ret]; imodintro
  sl_close

end Cert.KernelIdeal.Proto

end
-- ==== Proof.Body.lean ====
import proofs.«901004_g7700000000001005_dist_rmsnorm_colshard_i_m4096_n1024_v7x_i4_bf16_1_alg».proof.Proof.Res
import proofs.«901004_g7700000000001005_dist_rmsnorm_colshard_i_m4096_n1024_v7x_i4_bf16_1_alg».proof.Proof.Parts1
import proofs.«901004_g7700000000001005_dist_rmsnorm_colshard_i_m4096_n1024_v7x_i4_bf16_1_alg».proof.Proof.Parts2
import proofs.«901004_g7700000000001005_dist_rmsnorm_colshard_i_m4096_n1024_v7x_i4_bf16_1_alg».proof.Proof.Parts2b
import proofs.«901004_g7700000000001005_dist_rmsnorm_colshard_i_m4096_n1024_v7x_i4_bf16_1_alg».proof.Proof.Parts3b
import Idealize.ShloMosaic.Rules.PointsTo
import Idealize.ShloMosaic.Lib.Exec.Geometry

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

set_option maxHeartbeats 16000000 in
set_option maxRecDepth 65536 in
/-- From `Φ₀` (with the device's debt and gamma's staged block) to the atoms at the end: `Φ₀` opened into pieces, the 48 parts chained, the last four store copies waited for. -/
theorem root_run (c : Dev nD) (W : Waits sig Unit) :
    iprop(Φ₀ m c ∗ owes (c : Thread nD τ) (Oat c 0) W
        ∗ ((Memref.whole cc0_stg0_0 : Memref sig .tc _ _ _).view.loc (c : Thread nD τ) ↦{fullShare} gstg m c))
      ⊢ wp frame (wpE (defs₀ (F := F)) 𝒱₀ (c : Thread nD τ) none) Set.univ (bodyAt0 (F := F) t0_0)
        (fun _ => iprop((hbm₁ m c ∗ ((((c : Thread nD τ).loc cc0_scratch0) ↦{fullShare} xvFin m c) ∗ (((c : Thread nD τ).loc cc0_scratch1) ↦{fullShare} ovFin m c)
            ∗ (((c : Thread nD τ).loc cc0_scratch2) ↦{fullShare} commFinal m c)) ∗ Pipeline.ownSems0 osem c)
          ∗ owesAny c 0 ∗ ((Memref.whole cc0_stg0_0 : Memref sig .tc _ _ _).view.loc (c : Thread nD τ) ↦{fullShare} gstg m c))) := by
  unfold Φ₀ start ghost hbm₀ scratch lins
  simp only [chain_fin3, chain_3x8, chain_fin16]
  iintro ⟨⟨⟨⟨%K, #Hinv, HatB, ⟨HatS0_0, HatS0_1, HatS0_2, HatS0_3, HatS0_4, HatS0_5, HatS0_6, HatS0_7, HatS1_0, HatS1_1, HatS1_2, HatS1_3, HatS1_4, HatS1_5, HatS1_6, HatS1_7, HatS2_0, HatS2_1, HatS2_2, HatS2_3, HatS2_4, HatS2_5, HatS2_6, HatS2_7⟩, ⟨HatR0_0, HatR0_1, HatR0_2, HatR0_3, HatR0_4, HatR0_5, HatR0_6, HatR0_7, HatR1_0, HatR1_1, HatR1_2, HatR1_3, HatR1_4, HatR1_5, HatR1_6, HatR1_7, HatR2_0, HatR2_1, HatR2_2, HatR2_3, HatR2_4, HatR2_5, HatR2_6, HatR2_7⟩, ⟨HtB0, HtB1, HtB2⟩, ⟨HtS0_0, HtS0_1, HtS0_2, HtS0_3, HtS0_4, HtS0_5, HtS0_6, HtS0_7, HtS1_0, HtS1_1, HtS1_2, HtS1_3, HtS1_4, HtS1_5, HtS1_6, HtS1_7, HtS2_0, HtS2_1, HtS2_2, HtS2_3, HtS2_4, HtS2_5, HtS2_6, HtS2_7⟩, ⟨HtR0_0, HtR0_1, HtR0_2, HtR0_3, HtR0_4, HtR0_5, HtR0_6, HtR0_7, HtR1_0, HtR1_1, HtR1_2, HtR1_3, HtR1_4, HtR1_5, HtR1_6, HtR1_7, HtR2_0, HtR2_1, HtR2_2, HtR2_3, HtR2_4, HtR2_5, HtR2_6, HtR2_7⟩, HcB, ⟨HcR0_0, HcR0_1, HcR0_2, HcR0_3, HcR0_4, HcR0_5, HcR0_6, HcR0_7, HcR1_0, HcR1_1, HcR1_2, HcR1_3, HcR1_4, HcR1_5, HcR1_6, HcR1_7, HcR2_0, HcR2_1, HcR2_2, HcR2_3, HcR2_4, HcR2_5, HcR2_6, HcR2_7⟩, ⟨Hs0, Hs1, Hs2, Hs3, Hs4, Hs5, Hs6, Hs7, Hs8, Hs9, Hs10, Hs11, Hs12, Hs13, Hs14, Hs15⟩⟩, Hx, Ho⟩, ⟨%f0, H0⟩, ⟨%f1, H1⟩, ⟨%f2, H2⟩⟩, HO, Hg⟩
  ihave Hxs := ((xin_split c _).1.trans (Entails.of_eq (chain_fin8 _))) $$ Hx
  icases Hxs with ⟨Hxi0, Hxi1, Hxi2, Hxi3, Hxi4, Hxi5, Hxi6, Hxi7⟩
  ihave Hos := ((out_split c _).1.trans (Entails.of_eq (chain_fin8 _))) $$ Ho
  icases Hos with ⟨Hou0, Hou1, Hou2, Hou3, Hou4, Hou5, Hou6, Hou7⟩
  ihave H0s := ((xv_split c f0).1.trans (Entails.of_eq (chain_fin8 _))) $$ H0
  icases H0s with ⟨Hxv0, Hxv1, Hxv2, Hxv3, Hxv4, Hxv5, Hxv6, Hxv7⟩
  ihave H1s := ((ov_split c f1).1.trans (Entails.of_eq (chain_fin8 _))) $$ H1
  icases H1s with ⟨Hov0, Hov1, Hov2, Hov3, Hov4, Hov5, Hov6, Hov7⟩
  ihave H2s := ((comm_split c f2).1.trans (Entails.of_eq (chain_4x8 _))) $$ H2
  icases H2s with ⟨Hp0_0, Hp0_1, Hp0_2, Hp0_3, Hp0_4, Hp0_5, Hp0_6, Hp0_7, Hp1_0, Hp1_1, Hp1_2, Hp1_3, Hp1_4, Hp1_5, Hp1_6, Hp1_7, Hp2_0, Hp2_1, Hp2_2, Hp2_3, Hp2_4, Hp2_5, Hp2_6, Hp2_7, Hp3_0, Hp3_1, Hp3_2, Hp3_3, Hp3_4, Hp3_5, Hp3_6, Hp3_7⟩
  have h3 := part3_spec m K c
  have h4 := part4_spec m K c
  have h5 := part5_spec m K c
  have h6 := part6_spec m K c
  have h7 := part7_spec m K c
  have h8 := part8_spec m K c
  have h9 := part9_spec m K c
  have h10 := part10_spec m K c
  have h11 := part11_spec m K c
  have h12 := part12_spec m K c
  have h13 := part13_spec m K c
  have h14 := part14_spec m K c
  have h15 := part15_spec m K c
  have h16 := part16_spec m K c
  have h17 := part17_spec m K c
  have h18 := part18_spec m K c
  have h19 := part19_spec m K c
  have h20 := part20_spec m K c
  have h21 := part21_spec m K c
  have h22 := part22_spec m K c
  have h23 := part23_spec m K c
  have h24 := part24_spec m K c
  have h25 := part25_spec m K c
  have h26 := part26_spec m K c
  have h27 := part27_spec m K c
  have h28 := part28_spec m K c
  have h29 := part29_spec m K c
  have h30 := part30_spec m K c
  have h31 := part31_spec m K c
  have h32 := part32_spec m K c
  have h33 := part33_spec m K c
  have h34 := part34_spec m K c
  have h35 := part35_spec m K c
  have h36 := part36_spec m c
  have h37 := part37_spec m K c
  have h38 := part38_spec m c
  have h39 := part39_spec m K c
  have h40 := part40_spec m c
  have h41 := part41_spec m K c
  have h42 := part42_spec m K c
  have h43 := part43_spec m K c
  have h44 := part44_spec m K c
  have h45 := part45_spec m K c
  have h46 := part46_spec m K c
  have h47 := part47_spec m K c
  have h48 := part48_spec m K c
  unfold bodyAt0
  sl_unfold [cc0_body]
  sl_exec
  sl_step
  ihave Ho4 := (store_landed m c 4 _) $$ Hk0_part34_2_dst
  ihave Ho5 := (store_landed m c 5 _) $$ Hk0_part36_2_dst
  ihave Ho6 := (store_landed m c 6 _) $$ Hk0_part38_3_dst
  ihave Ho7 := (store_landed m c 7 _) $$ Hk0_part40_4_dst
  unfold hbm₁ Pipeline.ownSems0
  rw [Oat_last, eq_of_biEntails (xin_split c _), eq_of_biEntails (out_split c _), eq_of_biEntails (xv_split c _), eq_of_biEntails (ov_split c _),
    eq_of_biEntails (comm_split c _), eg_fin64]
  rw [chain_fin8, chain_fin8, chain_fin8, chain_fin8, chain_4x8]
  rw [piece3_quarters_eq m c 0, piece3_quarters_eq m c 1, piece3_quarters_eq m c 2, piece3_quarters_eq m c 3, piece3_quarters_eq m c 4, piece3_quarters_eq m c 5, piece3_quarters_eq m c 6, piece3_quarters_eq m c 7]
  sl_close

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(Φ₀ m c ∗ (dats m 0 c).owesAt () t0_0.castSucc ∗ (∃ d, stg c ((dats m 0 c).before (0 : Fin 1) t0_0 d)))
def bodyPost (c : Dev nD) : sProp 𝕄 :=
  iprop(Φ₁ m c ∗ (dats m 0 c).owesAt () t0_0.succ ∗ stg c (gstg m c))

theorem root_run_post (c : Dev nD) (W : Waits sig Unit) :
    iprop(Φ₀ m c ∗ owes (c : Thread nD τ) (Oat c 0) W
        ∗ ((Memref.whole cc0_stg0_0 : Memref sig .tc _ _ _).view.loc (c : Thread nD τ) ↦{fullShare} gstg m c))
      ⊢ wp frame (wpE (defs₀ (F := F)) 𝒱₀ (c : Thread nD τ) none) Set.univ (bodyAt0 (F := F) t0_0) (fun _ => bodyPost m c) :=
  (root_run m c W).trans (wp_mono frame _ _ fun _ => (sep_mono_left (sep_mono_right (sep_mono_left (scratch_intro c _ _ _)))).trans
    (show iprop(Φ₁ m c ∗ owesAny c 0 ∗ ((Memref.whole cc0_stg0_0 : Memref sig .tc _ _ _).view.loc (c : Thread nD τ) ↦{fullShare} gstg m c))
        ⊢ bodyPost m c from by
      unfold bodyPost Dat.owesAt Pipeline.owesWithin owesAny
      rw [show (dats m 0 c).owed t0_0.succ = 0 from rfl]
      iintro ⟨HΦ, ⟨%W', HO⟩, Hg⟩
      isplitl [HΦ]; · iexact HΦ
      isplitl [HO]
      · iexists W'
        isplitr; · ipureintro; exact fun _ _ => Or.inl trivial
        iexact HO
      iexists _; isplitr; · (ipureintro; rfl)
      iexact Hg))

theorem sound_body (c : Dev nD) :
    bodyPre m c ⊢ wp frame (wpE (defs₀ (F := F)) 𝒱₀ (c : Thread nD τ) none) Set.univ (bodyAt0 (F := F) t0_0) (fun _ => bodyPost m c) := by
  unfold bodyPre
  iintro ⟨HΦ, Ho, ⟨%d0, %g0, %hg0, Hg⟩⟩
  have hx : g0 = gstg m c := by
    rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl, O₀_eq_Oat]
  iapply (root_run_post m c W) $$ [HΦ HO Hg]
  isplitl [HΦ]; · iexact HΦ
  isplitl [HO]; · iexact HO
  iexact Hg

theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ (bodyAt0 (F := F) t0_0) (fun _ => bodyPost m c)
  exact sound_body m c

/-- info: 'Cert.KernelIdeal.Proto.body_obligation' depends on axioms: [propext, Classical.choice, Quot.sound] -/
#guard_msgs in #print axioms body_obligation

end Cert.KernelIdeal.Proto

end
-- ==== Proof.Launch.lean ====
import proofs.«901004_g7700000000001005_dist_rmsnorm_colshard_i_m4096_n1024_v7x_i4_bf16_1_alg».proof.Proof.Body

noncomputable section

namespace Cert.KernelIdeal.Proto

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats (F := F) m 0 c).share w = fullShare := by unfold Dat.share; split <;> rfl

abbrev CI : Type := Unit ⊕ ((Fin 3 × Fin 8) ⊕ (Fin 3 × Fin 8))

abbrev csem : CI → SemLoc sig
  | .inl _ => .reg barS
  | .inr (.inl dh) => .dma (sendS dh.1 dh.2)
  | .inr (.inr kh) => .dma (recvS kh.1 kh.2)

abbrev ckOf : CI → CK
  | .inl _ => .bar
  | .inr (.inl dh) => .send dh.1 dh.2
  | .inr (.inr kh) => .recv kh.1 kh.2

theorem decode_csem (i : CI) : decode (csem i) = some (ckOf i) := by
  rcases i with _ | ⟨d, h⟩ | ⟨k, h⟩
  · exact decode_bar
  · exact decode_send d h
  · exact decode_recv k h

theorem ckOf_injective : Function.Injective ckOf := by
  intro i j h
  rcases i with _ | ⟨d, e⟩ | ⟨k, e⟩ <;> rcases j with _ | ⟨d', e'⟩ | ⟨k', e'⟩ <;> simp only [ckOf] at h <;> first | rfl | (cases h <;> rfl)

theorem csem_injective : Function.Injective csem := fun i j h =>
  ckOf_injective (Option.some.inj ((decode_csem i).symm.trans ((congrArg decode h).trans (decode_csem j))))

abbrev kcell (ci : Dev nD × CI) : GSem nD τ sig := ((ci.1 : Thread nD τ), csem ci.2)

theorem kcell_injective : Function.Injective (kcell : Dev nD × CI → GSem nD τ sig) := by
  rintro ⟨c, i⟩ ⟨c', i'⟩ h
  have h1 : c = c' := congrArg (fun g : GSem nD τ sig => g.1.1) h
  subst h1
  have h2 : i = i' := csem_injective (congrArg Prod.snd h)
  subst h2; rfl

def ringCells : Finset (GSem nD τ sig) := Finset.univ.map ⟨kcell, kcell_injective⟩

abbrev TI : Type := Fin 3 ⊕ ((Fin 3 × Fin 8) ⊕ (Fin 3 × Fin 8))

abbrev tokOf (cj : Dev nD × TI) : GSem nD τ sig × ℕ × Fin 3 := match cj.2 with
  | .inl e => (barCell cj.1, 0, e)
  | .inr (.inl dh) => (sendCell cj.1 dh.1 dh.2, 0, 0)
  | .inr (.inr kh) => (recvCell cj.1 kh.1 kh.2, 0, 0)

abbrev tiCell : TI → CI
  | .inl _ => .inl ()
  | .inr x => .inr x

theorem tokOf_cell (cj : Dev nD × TI) : (tokOf cj).1 = kcell (cj.1, tiCell cj.2) := by
  obtain ⟨c, j⟩ := cj
  rcases j with e | ⟨d, h⟩ | ⟨k, h⟩ <;> rfl

theorem tokOf_injective : Function.Injective (tokOf : Dev nD × TI → GSem nD τ sig × ℕ × Fin 3) := by
  rintro ⟨c, j⟩ ⟨c', j'⟩ h
  have hc := congrArg Prod.fst h
  rw [tokOf_cell, tokOf_cell] at hc
  have hk := kcell_injective hc
  have h1 : c = c' := congrArg Prod.fst hk
  subst h1
  have h2 : tiCell j = tiCell j' := congrArg Prod.snd hk
  rcases j with e | x <;> rcases j' with e' | x'
  · have : e = e' := congrArg (fun x : GSem nD τ sig × ℕ × Fin 3 => x.2.2) h
    subst this; rfl
  · cases h2
  · cases h2
  · have : x = x' := Sum.inr.inj h2
    subst this; rfl

def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, (1 : Counters)))

def toks (c : Dev nD) : sProp 𝕄 :=
  bigSep Finset.univ fun j : TI => dutyTok ER (tokOf (c, j)).1 (tokOf (c, j)).2.1 (tokOf (c, j)).2.2

def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ toks c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (F := F) (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb (embR : Emb (UB × Counters) 𝕄) (initOf ringCells ringToks) (1 : Counters)) $$ HX
  icases H2 with ⟨HR, -⟩
  imod (show BI.own (((Emb.inl : Emb UB (UB × Counters)).trans (embR : Emb (UB × Counters) 𝕄)) (initOf ringCells ringToks))
      ⊢ (|==> bigSep Finset.univ (G m) : sProp 𝕄) from fund_ring m) $$ HR with HG
  imodintro
  isplitl [HP] <;> iassumption

def semEquiv : (Fin 16 ⊕ ((Fin 3 × Fin 8) ⊕ (Fin 3 × Fin 8))) ≃ Fin 64 :=
  (Equiv.sumCongr (Equiv.refl (Fin 16)) ((Equiv.sumCongr finProdFinEquiv finProdFinEquiv).trans finSumFinEquiv)).trans finSumFinEquiv

theorem osem_local : ∀ i : Fin 16, osem (semEquiv (.inl i)) = .dma (locS i) := by decide
theorem osem_send : ∀ dh : Fin 3 × Fin 8, osem (semEquiv (.inr (.inl dh))) = .dma (sendS dh.1 dh.2) := by decide
theorem osem_recv : ∀ kh : Fin 3 × Fin 8, osem (semEquiv (.inr (.inr kh))) = .dma (recvS kh.1 kh.2) := by decide

def locals (c : Dev nD) : sProp 𝕄 := bigSep Finset.univ fun i : Fin 16 => semVal ((c : Thread nD τ), SemLoc.dma (locS i)) 0

theorem bigSep_CI (Φ : CI → sProp 𝕄) : bigSep Finset.univ Φ
    = iprop(Φ (.inl ()) ∗ (bigSep Finset.univ fun dh : Fin 3 × Fin 8 => Φ (.inr (.inl dh))) ∗ (bigSep Finset.univ fun kh : Fin 3 × Fin 8 => Φ (.inr (.inr kh)))) := by
  rw [bigSep_univ_sum, bigSep_univ_sum, bigSep_univ_of_subsingleton ()]; rfl

theorem bigSep_TI (Φ : TI → sProp 𝕄) : bigSep Finset.univ Φ
    = iprop((bigSep Finset.univ fun e : Fin 3 => Φ (.inl e)) ∗ (bigSep Finset.univ fun dh : Fin 3 × Fin 8 => Φ (.inr (.inl dh))) ∗ (bigSep Finset.univ fun kh : Fin 3 × Fin 8 => Φ (.inr (.inr kh)))) := by
  rw [bigSep_univ_sum, bigSep_univ_sum]; rfl

theorem ownSems0_split (c : Dev nD) : (Pipeline.ownSems0 (Ix := Unit) (Name := ℕ) (U := UU) (Lvl := ℕ) (Val := Elt F) (τ := τ) osem c : sProp 𝕄)
    = iprop(locals c ∗ (bigSep Finset.univ fun dh : Fin 3 × Fin 8 => semVal (sendCell c dh.1 dh.2) 0) ∗ (bigSep Finset.univ fun kh : Fin 3 × Fin 8 => semVal (recvCell c kh.1 kh.2) 0)) := by
  unfold Pipeline.ownSems0 locals
  rw [bigSep_univ_equiv semEquiv, bigSep_univ_sum, bigSep_univ_sum]
  exact congrArg₂ _ (bigSep_congr fun i _ => by rw [osem_local]) (congrArg₂ _ (bigSep_congr fun dh _ => by rw [osem_send]) (bigSep_congr fun kh _ => by rw [osem_recv]))

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun i : CI => semVal (kcell (c, i)) 0) ∗ locals c) : sProp 𝕄) := by
  rw [ownSems0_split, unscopedSems0_eq, bigSep_CI]
  iintro ⟨⟨Hl, HS, HV⟩, HB⟩
  isplitr [Hl]
  · isplitl [HB]; · iexact HB
    isplitl [HS] <;> iassumption
  · iexact Hl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c ∗ locals c) := by
  unfold G
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

abbrev ciOf : CK → CI
  | .bar => .inl ()
  | .send d h => .inr (.inl (d, h))
  | .recv k h => .inr (.inr (k, h))

def nameAt (K : Dev nD × CI → ℕ) (g : GSem nD τ sig) : ℕ := match decode g.2 with
  | some ck => K (g.1.1, ciOf ck)
  | none => 0

theorem nameAt_kcell (K : Dev nD × CI → ℕ) (ci : Dev nD × CI) : nameAt K (kcell ci) = K ci := by
  obtain ⟨c, i⟩ := ci
  unfold nameAt
  rw [show (kcell (c, i)).2 = csem i from rfl, decode_csem]
  rcases i with _ | ⟨d, h⟩ | ⟨k, h⟩ <;> rfl

def records (K : Dev nD × CI → ℕ) : sProp 𝕄 :=
  iprop((bigSep Finset.univ fun ci : Dev nD × CI => cellInv ER (Rd m) (K ci) (kcell ci))
    ∗ bigSep Finset.univ fun ci : Dev nD × CI => reached ER (kcell ci) 0)

instance records_persistent (K : Dev nD × CI → ℕ) : BI.Persistent (records m K) := by unfold records; infer_instance

theorem inv_at (K : Dev nD × CI → ℕ) (ci : Dev nD × CI) :
    records m K ⊢ cellInv ER (Rd m) (nameAt K (kcell ci)) (kcell ci) := by
  rw [nameAt_kcell]
  unfold records
  exact (BI.Entails.trans BI.sep_and BI.and_elimL).trans (bigSep_elim (Φ := fun ci : Dev nD × CI => (cellInv ER (Rd m) (K ci) (kcell ci) : sProp 𝕄)) (Finset.mem_univ ci))
theorem reached_at (K : Dev nD × CI → ℕ) (ci : Dev nD × CI) : records m K ⊢ reached ER (kcell ci) 0 := by
  unfold records
  exact (BI.Entails.trans BI.sep_and BI.and_elimR).trans (bigSep_elim (Φ := fun ci : Dev nD × CI => (reached ER (kcell ci) 0 : sProp 𝕄)) (Finset.mem_univ ci))

def invsP (K : GSem nD τ sig → ℕ) (c : Dev nD) : sProp 𝕄 :=
  iprop(cellInv ER (Rd m) (K (barCell c)) (barCell c)
    ∗ (bigSep Finset.univ fun d : Fin 3 => cellInv ER (Rd m) (K (barCell (pd c d))) (barCell (pd c d)))
    ∗ (bigSep Finset.univ fun dh : Fin 3 × Fin 8 => cellInv ER (Rd m) (K (sendCell c dh.1 dh.2)) (sendCell c dh.1 dh.2))
    ∗ (bigSep Finset.univ fun kh : Fin 3 × Fin 8 => cellInv ER (Rd m) (K (recvCell c kh.1 kh.2)) (recvCell c kh.1 kh.2))
    ∗ (bigSep Finset.univ fun dh : Fin 3 × Fin 8 => cellInv ER (Rd m) (K (recvCell (pd c dh.1) (opp dh.1) dh.2)) (recvCell (pd c dh.1) (opp dh.1) dh.2))
    ∗ (bigSep Finset.univ fun d : Fin 3 => reached ER (barCell (pd c d)) 0)
    ∗ (bigSep Finset.univ fun kh : Fin 3 × Fin 8 => reached ER (recvCell c kh.1 kh.2) 0)
    ∗ (bigSep Finset.univ fun dh : Fin 3 × Fin 8 => reached ER (sendCell c dh.1 dh.2) 0))

instance invsP_persistent (K : GSem nD τ sig → ℕ) (c : Dev nD) : BI.Persistent (invsP m K c) := by unfold invsP; infer_instance

theorem invsP_intro (K : Dev nD × CI → ℕ) (c : Dev nD) : records m K ⊢ invsP m (nameAt K) c := by
  unfold invsP
  iintro #H
  isplitr; · iapply (inv_at m K (c, .inl ())); iexact H
  isplitr; · iapply (bigSep_intro_persistent fun (d : Fin 3) _ => inv_at m K (pd c d, .inl ())); iexact H
  isplitr; · iapply (bigSep_intro_persistent fun (dh : Fin 3 × Fin 8) _ => inv_at m K (c, .inr (.inl dh))); iexact H
  isplitr; · iapply (bigSep_intro_persistent fun (kh : Fin 3 × Fin 8) _ => inv_at m K (c, .inr (.inr kh))); iexact H
  isplitr; · iapply (bigSep_intro_persistent fun (dh : Fin 3 × Fin 8) _ => inv_at m K (pd c dh.1, .inr (.inr (opp dh.1, dh.2)))); iexact H
  isplitr; · iapply (bigSep_intro_persistent fun (d : Fin 3) _ => reached_at m K (pd c d, .inl ())); iexact H
  isplitr; · iapply (bigSep_intro_persistent fun (kh : Fin 3 × Fin 8) _ => reached_at m K (c, .inr (.inr kh))); iexact H
  iapply (bigSep_intro_persistent fun (dh : Fin 3 × Fin 8) _ => reached_at m K (c, .inr (.inl dh))); iexact H

def payToks (c : Dev nD) : sProp 𝕄 :=
  iprop((bigSep Finset.univ fun d : Fin 3 => dutyTok ER (barCell (pd c d)) 0 d)
    ∗ (bigSep Finset.univ fun dh : Fin 3 × Fin 8 => dutyTok ER (sendCell c dh.1 dh.2) 0 0)
    ∗ (bigSep Finset.univ fun dh : Fin 3 × Fin 8 => dutyTok ER (recvCell (pd c dh.1) (opp dh.1) dh.2) 0 0))

def linsP (c : Dev nD) : sProp 𝕄 :=
  iprop((atPos ER (barCell c) 0 ∅ 0
      ∗ (bigSep Finset.univ fun dh : Fin 3 × Fin 8 => atPos ER (sendCell c dh.1 dh.2) 0 ∅ 0)
      ∗ (bigSep Finset.univ fun kh : Fin 3 × Fin 8 => atPos ER (recvCell c kh.1 kh.2) 0 ∅ 0))
    ∗ payToks c ∗ locals c)

def G' (c : Dev nD) : sProp 𝕄 := iprop(∃ K : GSem nD τ sig → ℕ, invsP m K c ∗ linsP c)

theorem ghost_intro (K : Dev nD × CI → ℕ) (c : Dev nD) : iprop(records m K ∗ linsP c) ⊢ G' m c := by
  unfold G'
  iintro ⟨#HR, HL⟩
  iexists (nameAt K)
  isplitr
  · iapply (invsP_intro m K c); iexact HR
  · iexact HL

def ringE (d : Fin 3) : Dev nD ≃ Dev nD := ⟨fun c => pd c d, fun c => ps c d, fun c => ps_pd c d, fun c => pd_ps c d⟩

def oppE : Fin 3 × Fin 8 ≃ Fin 3 × Fin 8 :=
  ⟨fun x => (opp x.1, x.2), fun x => (opp x.1, x.2), fun x => Prod.ext (opp_opp x.1) rfl, fun x => Prod.ext (opp_opp x.1) rfl⟩

theorem toks_around : (bigSep Finset.univ fun c : Dev nD => (toks c : sProp 𝕄)) ⊢ bigSep Finset.univ fun c : Dev nD => payToks c := by
  have hB : (bigSep Finset.univ fun c : Dev nD => bigSep Finset.univ fun e : Fin 3 => (dutyTok ER (barCell c) 0 e : sProp 𝕄))
      = bigSep Finset.univ fun c : Dev nD => bigSep Finset.univ fun e : Fin 3 => dutyTok ER (barCell (pd c e)) 0 e := by
    rw [bigSep_univ_comm, bigSep_univ_comm (fun (c : Dev nD) (e : Fin 3) => (dutyTok ER (barCell (pd c e)) 0 e : sProp 𝕄))]
    exact bigSep_congr fun e _ => bigSep_univ_equiv (ringE e) (fun c : Dev nD => (dutyTok ER (barCell c) 0 e : sProp 𝕄))
  have hV : (bigSep Finset.univ fun c : Dev nD => bigSep Finset.univ fun kh : Fin 3 × Fin 8 => (dutyTok ER (recvCell c kh.1 kh.2) 0 0 : sProp 𝕄))
      = bigSep Finset.univ fun c : Dev nD => bigSep Finset.univ fun dh : Fin 3 × Fin 8 => dutyTok ER (recvCell (pd c dh.1) (opp dh.1) dh.2) 0 0 := by
    rw [bigSep_univ_comm, bigSep_univ_comm (fun (c : Dev nD) (dh : Fin 3 × Fin 8) => (dutyTok ER (recvCell (pd c dh.1) (opp dh.1) dh.2) 0 0 : sProp 𝕄)),
      bigSep_univ_equiv oppE]
    exact bigSep_congr fun dh _ => bigSep_univ_equiv (ringE dh.1) (fun c : Dev nD => (dutyTok ER (recvCell c (opp dh.1) dh.2) 0 0 : sProp 𝕄))
  unfold toks payToks
  simp only [bigSep_TI, bigSep_sep']
  rw [hB, hV]

theorem regroup :
    (bigSep Finset.univ fun c : Dev nD => iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c ∗ locals c) : sProp 𝕄)
      ⊢ bigSep Finset.univ (G' m) := by
  rw [bigSep_sep', bigSep_sep', bigSep_sep', ← bigSep_univ_prod (fun ci : Dev nD × CI => iprop(∃ κ : ℕ, cellInv ER (Rd m) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok, Hloc⟩
  ihave HK := (BI.bigSep_exists_pi Finset.univ (fun (ci : Dev nD × CI) (κ : ℕ) => (cellInv ER (Rd m) κ (kcell ci) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linsP
    simp only [bigSep_sep']
    isplitl [Hat]
    · ihave Hat' := (Entails.of_eq (bigSep_congr (s := Finset.univ) fun (c : Dev nD) _ => bigSep_CI (fun i : CI => (atPos ER (kcell (c, i)) 0 ∅ 0 : sProp 𝕄)))) $$ Hat
      simp only [bigSep_sep'] at *
      iexact Hat'
    isplitl [Htk]; · iexact Htk
    iexact Hloc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem cred_bar (c : Dev nD) : (Pipeline.launchCred (fun d => Obar d) c : sProp 𝕄) ⊢ cred (tallyAt (barCell c) () 3) := by
  have e : (tallyAt (barCell c) () 1 + tallyAt (barCell c) () 1 + tallyAt (barCell c) () 1 : CellTallies nD τ sig Unit) = tallyAt (barCell c) () 3 := by
    rw [tallyAt_add, tallyAt_add]
  unfold Obar
  rw [Pipeline.launchCred_add, Pipeline.launchCred_add, ← e]
  iintro ⟨⟨H0, H1⟩, H2⟩
  iapply (cred_add _ _).2
  isplitr [H2]
  · iapply (cred_add _ _).2
    isplitl [H0]
    · iapply (Pipeline.launchCred_tallyAt (SemLoc.reg barS) (fun d => pd d 0) (fun d => ps d 0) (fun c => pd_ps c 0) (fun d => ps_pd d 0) () 1 c); iexact H0
    · iapply (Pipeline.launchCred_tallyAt (SemLoc.reg barS) (fun d => pd d 1) (fun d => ps d 1) (fun c => pd_ps c 1) (fun d => ps_pd d 1) () 1 c); iexact H1
  · iapply (Pipeline.launchCred_tallyAt (SemLoc.reg barS) (fun d => pd d 2) (fun d => ps d 2) (fun c => pd_ps c 2) (fun d => ps_pd d 2) () 1 c); iexact H2

theorem cred_recv (c : Dev nD) (h : Fin 8) :
    (Pipeline.launchCred (fun d => Orecv d h) c : sProp 𝕄) ⊢ bigSep Finset.univ fun k : Fin 3 => cred (tallyAt (recvCell c k h) () N) := by
  unfold Orecv
  rw [Pipeline.launchCred_add, Pipeline.launchCred_add, chain_fin3]
  iintro ⟨⟨H0, H1⟩, H2⟩
  isplitl [H2]
  · iapply (Pipeline.launchCred_tallyAt (SemLoc.dma (recvS 0 h)) (fun d => pd d 2) (fun d => ps d 2) (fun c => pd_ps c 2) (fun d => ps_pd d 2) () N c); iexact H2
  isplitl [H1]
  · iapply (Pipeline.launchCred_tallyAt (SemLoc.dma (recvS 1 h)) (fun d => pd d 1) (fun d => ps d 1) (fun c => pd_ps c 1) (fun d => ps_pd d 1) () N c); iexact H1
  · iapply (Pipeline.launchCred_tallyAt (SemLoc.dma (recvS 2 h)) (fun d => pd d 0) (fun d => ps d 0) (fun c => pd_ps c 0) (fun d => ps_pd d 0) () N c); iexact H0

theorem creds (c : Dev nD) :
    (Pipeline.launchCred O₀ c : sProp 𝕄)
      ⊢ iprop(cred (tallyAt (barCell c) () 3) ∗ bigSep Finset.univ fun kh : Fin 3 × Fin 8 => cred (tallyAt (recvCell c kh.1 kh.2) () N)) := by
  have e : (bigSep Finset.univ fun kh : Fin 3 × Fin 8 => (cred (tallyAt (recvCell c kh.1 kh.2) () N) : sProp 𝕄))
      = bigSep Finset.univ fun h : Fin 8 => bigSep Finset.univ fun k : Fin 3 => cred (tallyAt (recvCell c k h) () N) := by
    rw [bigSep_univ_prod, bigSep_univ_comm]
  have hO : (O₀ : Dev nD → CellTallies nD τ sig Unit)
      = fun d => Obar d + (Orecv d 0 + (Orecv d 1 + (Orecv d 2 + (Orecv d 3 + (Orecv d 4 + (Orecv d 5 + (Orecv d 6 + Orecv d 7))))))) := rfl
  rw [e, chain_fin8, hO, Pipeline.launchCred_add, Pipeline.launchCred_add, Pipeline.launchCred_add, Pipeline.launchCred_add,
    Pipeline.launchCred_add, Pipeline.launchCred_add, Pipeline.launchCred_add, Pipeline.launchCred_add]
  iintro ⟨Hb, H0, H1, H2, H3, H4, H5, H6, H7⟩
  isplitl [Hb]; · iapply (cred_bar (F := F) c); iexact Hb
  isplitl [H0]; · iapply (cred_recv (F := F) c 0); iexact H0
  isplitl [H1]; · iapply (cred_recv (F := F) c 1); iexact H1
  isplitl [H2]; · iapply (cred_recv (F := F) c 2); iexact H2
  isplitl [H3]; · iapply (cred_recv (F := F) c 3); iexact H3
  isplitl [H4]; · iapply (cred_recv (F := F) c 4); iexact H4
  isplitl [H5]; · iapply (cred_recv (F := F) c 5); iexact H5
  isplitl [H6]; · iapply (cred_recv (F := F) c 6); iexact H6
  iapply (cred_recv (F := F) c 7); iexact H7

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, #Hlev, Hcr, -, HG⟩
  ihave Hc := (creds (F := F) c) $$ Hcr
  icases Hc with ⟨Hcb, Hcv⟩
  unfold G' invsP linsP payToks
  icases HG with ⟨%K, ⟨#I1, #I2, #I3, #I4, #I5, #R1, #R2, #R3⟩, ⟨A1, A2, A3⟩, ⟨T1, T2, T3⟩, Hloc⟩
  imodintro
  unfold start ghost invs lins hbm₀
  isplitl
  · isplitr [Ha Hv]
    · iexists K
      isplitr
      · isplitr; · iexact I1
        isplitr; · iexact I2
        isplitr; · iexact I3
        isplitr; · iexact I4
        isplitr; · iexact I5
        isplitr; · iexact Hlev
        isplitr; · iexact R1
        isplitr; · iexact R2
        iexact R3
      · isplitl [A1]; · iexact A1
        isplitl [A2]; · iexact A2
        isplitl [A3]; · iexact A3
        isplitl [T1]; · iexact T1
        isplitl [T2]; · iexact T2
        isplitl [T3]; · iexact T3
        isplitl [Hcb]; · iexact Hcb
        isplitl [Hcv]; · iexact Hcv
        unfold locals; iexact Hloc
    · isplitl [Ha] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀ scratch
  iintro ⟨Hs, -, Hr⟩
  isplitl [Hs] <;> iassumption

theorem phi1_exit (c : Dev nD) :
    (dats (F := F) m 0 c).Φ (Fin.last cfg0.N) ⊢ iprop(hbm₁ m c ∗ Pipeline.ownSems0 osem c ∗ Pipeline.scopedRest cfg0.spec c) := by
  rw [show (dats (F := F) m 0 c).Φ (Fin.last cfg0.N) = Φ₁ m c from rfl, scopedRest0_eq]
  unfold Φ₁ scratch
  iintro ⟨Hh, Hr, Hs⟩
  isplitl [Hh]; · iexact Hh
  isplitl [Hs] <;> iassumption

theorem above_O₀ (c : Dev nD) : Above 0 (O₀ c) := O₀_eq_Oat c ▸ above_Oat c 0

theorem decode_stage : decode (SemLoc.dma (cc0_sem0_0 : DmaSem sig)) = none := by decide

theorem waits (c : Dev nD) : (levAts L lv : sProp 𝕄) ⊢ Pipeline.cellsWaits cfgs (dats (F := F) m) () 0 c :=
  Pipeline.cellsWaits_intro cfgs (dats m) () 0 c fun w s t =>
    mayWait_of c _ 0 (by
        fin_cases w; fin_cases s
        show lv ((c : Thread nD τ), SemLoc.dma cc0_sem0_0) () ≤ 0
        dsimp only [lv]; rw [decode_stage]) _ (by
      rcases t with ⟨_ | _, ht⟩
      · exact above_O₀ c
      · exact Above.zero 0)

theorem run_main :
    θ_run defs (onTc (τ := τ) (main (F := F))) ⟨m, fun _ => 0, ρ⟩ (fun r => ∀ c : Dev nD,
      r.2.mem ((c.tc : Thread nD τ).loc main_v1) = (Spec.outArr (Spec.Xof m) (Spec.Gof m) c : Buf (Elt F) ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := hbm₁ m) (Z := fun _ => iprop(emp))
    (hX := start_intro m ρ) (hin := phi0_intro m) (hout := phi1_exit m)
    (QY := fun c s => s.mem ((c.tc : Thread nD τ).loc main_v1) = (Spec.outArr (Spec.Xof m) (Spec.Gof m) c : Buf (Elt F) ((c.tc : Thread nD τ).loc main_v1))
      ∧ s.mem ((c.tc : Thread nD τ).loc main_arg0) = m ((c.tc : Thread nD τ).loc main_arg0))
    (hY := fun c s' => by
      unfold hbm₁
      iintro ⟨⟨Ha, Hv⟩, -, HSI⟩
      icombine HSI Ha gives %ha
      icombine HSI Hv gives %hv
      imodintro
      isplitr
      · ipureintro; exact ⟨Buf.eq_of_forall_mem_univ hv, Buf.eq_of_forall_mem_univ ha⟩
      iexact HSI)
    (hQ := fun s h c => ⟨(h c).2.2.1, (h c).2.2.2, ((h c).1 0).trans ((dats (F := F) m 0 c).arrAt_in 0 rfl _)⟩)

/-- info: 'Cert.KernelIdeal.Proto.glob' depends on axioms: [propext, Classical.choice, Quot.sound] -/
#guard_msgs in #print axioms glob

/-- info: 'Cert.KernelIdeal.Proto.creds' depends on axioms: [propext, Classical.choice, Quot.sound] -/
#guard_msgs in #print axioms creds

/-- info: 'Cert.KernelIdeal.Proto.start_intro' depends on axioms: [propext, Classical.choice, Quot.sound] -/
#guard_msgs in #print axioms start_intro

/-- info: 'Cert.KernelIdeal.Proto.run_main' depends on axioms: [propext, Classical.choice, Quot.sound] -/
#guard_msgs in #print axioms run_main

end Cert.KernelIdeal.Proto

end
-- ==== Proof.SpecKernel.lean ====
import proofs.«901004_g7700000000001005_dist_rmsnorm_colshard_i_m4096_n1024_v7x_i4_bf16_1_alg».proof.Proof.Gen.Kernel.Skeleton
import Idealize.ShloMosaic.Lib.ValueIdx

noncomputable section

namespace Cert.Kernel.Spec

open Idealize.ShloMosaic Idealize.ShloMosaic.ValueIdx Idealize.SL.Sem
open Cert.Kernel Cert.Kernel.Gen

variable {F : FTy → Type} [FloatOps F]

def xch (X : Vec F S4096x1024 .f32) (j : Fin 8) : Vec F S1x512x1024 .f32 :=
  fun i => X (ix2 (n0 := 4096) (n1 := 1024) ⟨512 * j.val + (i 1).val, by
    have h1 : (i 1).val < 512 := (i 1).isLt
    have h2 := j.isLt
    omega⟩ ⟨(i 2).val, (i 2).isLt⟩)

def part (xc : Vec F S1x512x1024 .f32) : FVec F S1x4x128 .f32 := k0_pay1 xc

def outc (g : FVec F S1024 .f32) (s0 s1 s2 s3 : Vec F S1x4x128 .f32) (xc : Vec F S1x512x1024 .f32) : FVec F S1x512x1024 .bf16 :=
  k0_pay12 (k0_pay11 g s0 s1 s2 s3 xc)

def srcDev (c : Dev nD) (k : Fin 4) : Dev nD := ⟨(c.val + k.val + 1) % 4, Nat.mod_lt _ (by decide)⟩

theorem srcDev_three (c : Dev nD) : srcDev c 3 = c := by revert c; decide

def slot (X : Dev nD → Vec F S4096x1024 .f32) (c : Dev nD) (k : Fin 4) (j : Fin 8) : FVec F S1x4x128 .f32 :=
  part (xch (X (srcDev c k)) j)

def outChunk (X : Dev nD → Vec F S4096x1024 .f32) (Gm : Dev nD → Vec F S1024 .f32) (c : Dev nD) (j : Fin 8) : FVec F S1x512x1024 .bf16 :=
  outc (k0_pay10 (Gm c)) (slot X c 0 j) (slot X c 1 j) (slot X c 2 j) (slot X c 3 j) (xch (X c) j)

def outArr (X : Dev nD → Vec F S4096x1024 .f32) (Gm : Dev nD → Vec F S1024 .f32) (c : Dev nD) : Vec F S4096x1024 .bf16 :=
  fun i => outChunk X Gm c ⟨(i 0).val / 512, by
      have h : (i 0).val < 4096 := (i 0).isLt
      omega⟩
    (ix3 (n0 := 1) (n1 := 512) (n2 := 1024) 0 ⟨(i 0).val % 512, Nat.mod_lt _ (by decide)⟩ ⟨(i 1).val, (i 1).isLt⟩)

abbrev Xof (m : (ℓ : Loc nD τ sig) → Buf (Elt F) ℓ) (d : Dev nD) : Vec F S4096x1024 .f32 := m ((d.tc : Thread nD τ).loc main_arg0)
abbrev Gof (m : (ℓ : Loc nD τ sig) → Buf (Elt F) ℓ) (d : Dev nD) : Vec F S1024 .f32 := m ((d.tc : Thread nD τ).loc main_arg1)

end Cert.Kernel.Spec

end
-- ==== Proof.ProtoKernel.lean ====
import proofs.«901004_g7700000000001005_dist_rmsnorm_colshard_i_m4096_n1024_v7x_i4_bf16_1_alg».proof.Proof.SpecKernel
import proofs.«901004_g7700000000001005_dist_rmsnorm_colshard_i_m4096_n1024_v7x_i4_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER embR; infer_instance

abbrev 𝒱₀ : Variants := Variants.none

variable (m : (ℓ : Loc nD τ sig) → Buf (Elt F) ℓ) (ρ : Dev nD → PrngReg)

def pd (c : Dev nD) (d : Fin 3) : Dev nD := ⟨(c.val + d.val + 1) % 4, Nat.mod_lt _ (by decide)⟩
def ps (c : Dev nD) (d : Fin 3) : Dev nD := ⟨(c.val + 3 - d.val) % 4, Nat.mod_lt _ (by decide)⟩
def opp (d : Fin 3) : Fin 3 := ⟨2 - d.val, by omega⟩

theorem ps_pd : ∀ (c : Dev nD) (d : Fin 3), ps (pd c d) d = c := by decide
theorem pd_ps : ∀ (c : Dev nD) (d : Fin 3), pd (ps c d) d = c := by decide
theorem opp_opp : ∀ d : Fin 3, opp (opp d) = d := by decide
theorem pd_opp : ∀ (c : Dev nD) (e : Fin 3), pd c (opp e) = ps c e := by decide

abbrev barS : Sem sig := (SemArray.scalar (sig.barrier 0 rfl) : Sems sig S_).sem
abbrev sendS (d : Fin 3) (h : Fin 8) : DmaSem sig := ⟨17 + 8 * d.val + h.val, by have := d.isLt; have := h.isLt; show _ < 65; omega⟩
abbrev recvS (k : Fin 3) (h : Fin 8) : DmaSem sig := ⟨41 + 8 * k.val + h.val, by have := k.isLt; have := h.isLt; show _ < 65; omega⟩

abbrev barCell (c : Dev nD) : GSem nD τ sig := ((c : Thread nD τ), .reg barS)
abbrev sendCell (c : Dev nD) (d : Fin 3) (h : Fin 8) : GSem nD τ sig := ((c : Thread nD τ), .dma (sendS d h))
abbrev recvCell (c : Dev nD) (k : Fin 3) (h : Fin 8) : GSem nD τ sig := ((c : Thread nD τ), .dma (recvS k h))

inductive CK where
  | bar
  | send (d : Fin 3) (h : Fin 8)
  | recv (k : Fin 3) (h : Fin 8)
deriving DecidableEq

def decode : SemLoc sig → Option CK
  | .reg s => if s = barS then some .bar else none
  | .dma s =>
    if h1 : 17 ≤ s.val ∧ s.val < 41 then some (.send ⟨(s.val - 17) / 8, by omega⟩ ⟨(s.val - 17) % 8, Nat.mod_lt _ (by decide)⟩)
    else if h2 : 41 ≤ s.val ∧ s.val < 65 then some (.recv ⟨(s.val - 41) / 8, by omega⟩ ⟨(s.val - 41) % 8, Nat.mod_lt _ (by decide)⟩)
    else none

theorem decode_bar : decode (.reg barS) = some .bar := by decide
theorem decode_send : ∀ (d : Fin 3) (h : Fin 8), decode (.dma (sendS d h)) = some (.send d h) := by decide
theorem decode_recv : ∀ (k : Fin 3) (h : Fin 8), decode (.dma (recvS k h)) = some (.recv k h) := by decide

abbrev commM : Memref sig .tc .vmem S4x32x128 .f32 := Memref.whole cc0_scratch2

theorem piece_inb : ∀ (k : Fin 4) (h : Fin 8) (a : Fin 3), (![k.val, 4 * h.val, 0] : Fin 3 → Nat) a + S1x4x128.size a ≤ S4x32x128.size a := by decide

abbrev pieceM (k : Fin 4) (h : Fin 8) : Memref sig .tc .vmem S4x128 .f32 :=
  (commM.slice (Rect.unit (s := S4x32x128) ![k.val, 4 * h.val, 0] S1x4x128.size (piece_inb k h)) (fun _ => rfl)).squeeze S4x128 squeezes_S1x4x128_S4x128

abbrev N : ℕ := (pieceM 0 0).view.dmaCredit
theorem N_pos : 0 < N := View.dmaCredit_pos _ (by decide)

def commFinal (p : Dev nD) : Buf (Elt F) ((p : Thread nD τ).loc cc0_scratch2) :=
  fun i => Spec.slot (Spec.Xof m) p ⟨(i 0).val, (i 0).isLt⟩ ⟨(i 1).val / 4, by have h : (i 1).val < 32 := (i 1).isLt; omega⟩
    (ix3 (n0 := 1) (n1 := 4) (n2 := 128) 0 ⟨(i 1).val % 4, Nat.mod_lt _ (by decide)⟩ ⟨(i 2).val, (i 2).isLt⟩)

def qS : Fin 3 → PosShare TreeShare
  | 0 => fullShare.left.left
  | 1 => fullShare.left.right
  | 2 => fullShare.right.left
abbrev qK : PosShare TreeShare := fullShare.right.right

abbrev up (k : Fin 3) : Fin 4 := ⟨k.val, by omega⟩

abbrev piecePt (p : Dev nD) (k : Fin 4) (h : Fin 8) (q : PosShare TreeShare) (f : Buf (Elt F) ((pieceM k h).view.loc (p : Thread nD τ))) : sProp 𝕄 :=
  (pieceM k h).view.loc (p : Thread nD τ) ↦[(pieceM k h).view.set]{q} f

def slotGift (q : Dev nD) (e : Fin 3) : sProp 𝕄 :=
  iprop((∃ f, piecePt q (up e) 0 fullShare f) ∗ (∃ f, piecePt q (up e) 1 fullShare f) ∗ (∃ f, piecePt q (up e) 2 fullShare f) ∗ (∃ f, piecePt q (up e) 3 fullShare f) ∗ (∃ f, piecePt q (up e) 4 fullShare f) ∗ (∃ f, piecePt q (up e) 5 fullShare f) ∗ (∃ f, piecePt q (up e) 6 fullShare f) ∗ (∃ f, piecePt q (up e) 7 fullShare f)
    ∗ reached ER (recvCell q e 0) 0 ∗ reached ER (recvCell q e 1) 0 ∗ reached ER (recvCell q e 2) 0 ∗ reached ER (recvCell q e 3) 0 ∗ reached ER (recvCell q e 4) 0 ∗ reached ER (recvCell q e 5) 0 ∗ reached ER (recvCell q e 6) 0 ∗ reached ER (recvCell q e 7) 0)

def recvPay (p : Dev nD) (k : Fin 3) (h : Fin 8) : sProp 𝕄 := piecePt p (up k) h fullShare (commFinal m p)
def sendPay (c : Dev nD) (d : Fin 3) (h : Fin 8) : sProp 𝕄 := piecePt c 3 h (qS d) (commFinal m c)

def Rd : Rounds.Schedule (GSem nD τ sig) (Fin 3) 𝕄 where
  duties g r :=
    if r = 0 ∧ g.1.2 = .tc then
      match decode g.2 with
      | some .bar => Finset.univ
      | some _ => {0}
      | none => ∅
    else ∅
  amount g _ _ := match decode g.2 with
    | some .bar => 1
    | _ => N
  payload g _ e := match decode g.2 with
    | some .bar => slotGift (ps g.1.1 e) e
    | some (.send d h) => sendPay m g.1.1 d h
    | some (.recv k h) => recvPay m g.1.1 k h
    | none => iprop(emp)
  amount_pos g _ _ _ := by
    split
    · exact Nat.one_pos
    · exact N_pos

set_option synthInstance.maxHeartbeats 2000000 in
set_option synthInstance.maxSize 4096 in
instance slotGift_storable (q : Dev nD) (e : Fin 3) : BI.Storable (upEmb : UEmb _ 𝕄) (slotGift (F := F) q e) := by
  unfold slotGift; infer_instance
instance recvPay_storable (p : Dev nD) (k : Fin 3) (h : Fin 8) : BI.Storable (upEmb : UEmb _ 𝕄) (recvPay (F := F) m p k h) := by
  unfold recvPay; infer_instance
instance sendPay_storable (c : Dev nD) (d : Fin 3) (h : Fin 8) : BI.Storable (upEmb : UEmb _ 𝕄) (sendPay (F := F) m c d h) := by
  unfold sendPay; infer_instance

instance Rd_payload_storable (g : GSem nD τ sig) (r : ℕ) (e : Fin 3) : BI.Storable (upEmb : UEmb _ 𝕄) ((Rd (F := F) m).payload g r e) := by
  show BI.Storable upEmb (match decode g.2 with
    | some .bar => slotGift (ps g.1.1 e) e
    | some (.send d h) => sendPay m g.1.1 d h
    | some (.recv k h) => recvPay m g.1.1 k h
    | none => iprop(emp))
  split <;> infer_instance

section Tables
variable (c : Dev nD) (d k e : Fin 3) (h : Fin 8)

theorem duties_bar : (Rd (F := F) m).duties (barCell c) 0 = Finset.univ := by
  dsimp only [Rd]; rw [if_pos ⟨rfl, rfl⟩, decode_bar]
theorem duties_send : (Rd (F := F) m).duties (sendCell c d h) 0 = {0} := by
  dsimp only [Rd]; rw [if_pos ⟨rfl, rfl⟩, decode_send]
theorem duties_recv : (Rd (F := F) m).duties (recvCell c k h) 0 = {0} := by
  dsimp only [Rd]; rw [if_pos ⟨rfl, rfl⟩, decode_recv]
theorem duties_later (g : GSem nD τ sig) : ∀ r, 1 ≤ r → (Rd (F := F) m).duties g r = ∅ :=
  fun r hr => by dsimp only [Rd]; rw [if_neg fun h => by omega]

theorem amount_bar : (Rd (F := F) m).amount (barCell c) 0 e = 1 := by dsimp only [Rd]; rw [decode_bar]
theorem amount_send (e' : Fin 3) : (Rd (F := F) m).amount (sendCell c d h) 0 e' = N := by dsimp only [Rd]; rw [decode_send]
theorem amount_recv (e' : Fin 3) : (Rd (F := F) m).amount (recvCell c k h) 0 e' = N := by dsimp only [Rd]; rw [decode_recv]

theorem expect_bar : (Rd (F := F) m).expect (barCell c) 0 = 3 := by
  unfold Schedule.expect Schedule.amountOf
  rw [duties_bar, Finset.sum_congr rfl fun e _ => amount_bar m c e, Finset.sum_const, Finset.card_univ, Fintype.card_fin, smul_eq_mul]
theorem expect_send : (Rd (F := F) m).expect (sendCell c d h) 0 = N := by
  unfold Schedule.expect Schedule.amountOf; rw [duties_send, Finset.sum_singleton, amount_send]
theorem expect_recv : (Rd (F := F) m).expect (recvCell c k h) 0 = N := by
  unfold Schedule.expect Schedule.amountOf; rw [duties_recv, Finset.sum_singleton, amount_recv]

theorem payload_bar : (Rd (F := F) m).payload (barCell c) 0 e = slotGift (ps c e) e := by dsimp only [Rd]; rw [decode_bar]
theorem payload_bar_pd : (Rd (F := F) m).payload (barCell (pd c e)) 0 e = slotGift c e := by rw [payload_bar, ps_pd]
theorem payload_send (e' : Fin 3) : (Rd (F := F) m).payload (sendCell c d h) 0 e' = sendPay m c d h := by dsimp only [Rd]; rw [decode_send]
theorem payload_recv (e' : Fin 3) : (Rd (F := F) m).payload (recvCell c k h) 0 e' = recvPay m c k h := by dsimp only [Rd]; rw [decode_recv]

end Tables

theorem recvPay_eq (p : Dev nD) (k : Fin 3) (h : Fin 8) : recvPay (F := F) m p k h = ((pieceM (up k) h).view.loc ((p : Dev nD) : Thread nD τ) ↦[(pieceM (up k) h).view.set]{fullShare} commFinal m p) := rfl
theorem sendPay_eq (c : Dev nD) (d : Fin 3) (h : Fin 8) : sendPay (F := F) m c d h = ((pieceM 3 h).view.loc ((c : Dev nD) : Thread nD τ) ↦[(pieceM 3 h).view.set]{(qS d)} commFinal m c) := rfl

def Obar (c : Dev nD) : CellTallies nD τ sig Unit :=
  tallyAt (barCell (pd c 0)) () 1 + tallyAt (barCell (pd c 1)) () 1 + tallyAt (barCell (pd c 2)) () 1
def Orecv (c : Dev nD) (h : Fin 8) : CellTallies nD τ sig Unit :=
  tallyAt (recvCell (pd c 0) 2 h) () N + tallyAt (recvCell (pd c 1) 1 h) () N + tallyAt (recvCell (pd c 2) 0 h) () N
def O₀ (c : Dev nD) : CellTallies nD τ sig Unit :=
  Obar c + (Orecv c 0 + (Orecv c 1 + (Orecv c 2 + (Orecv c 3 + (Orecv c 4 + (Orecv c 5 + (Orecv c 6 + Orecv c 7)))))))

def L (g : GSem nD τ sig) : Finset Unit := if g.1.2 = .tc then {()} else ∅
def lv (g : GSem nD τ sig) (_ : Unit) : ℕ := match decode g.2 with
  | some .bar => 1
  | some (.recv _ _) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [decode_bar]
theorem lv_recv (c : Dev nD) (k : Fin 3) (h : Fin 8) : lv (recvCell c k h) () = 2 := by dsimp only [lv]; rw [decode_recv]

def Above (b : ℕ) (O : CellTallies nD τ sig Unit) : Prop := ∀ (g : GSem nD τ sig) (u : Unit), 0 < O g u → g.1.2 = .tc ∧ b < lv g u

theorem Above.zero (b : ℕ) : Above b (0 : CellTallies nD τ sig Unit) := fun g u h => absurd h (Nat.lt_irrefl 0)
theorem Above.add {b : ℕ} {A B : CellTallies nD τ sig Unit} (hA : Above b A) (hB : Above b B) : Above b (A + B) := fun g u h => by
  rw [Pi.add_apply, Finsupp.add_apply] at h
  rcases Nat.eq_zero_or_pos (A g u) with h0 | h0
  · rw [h0, Nat.zero_add] at h; exact hB g u h
  · exact hA g u h0
theorem Above.tally {b : ℕ} (g₀ : GSem nD τ sig) (n : ℕ) (htc : g₀.1.2 = .tc) (hb : b < lv g₀ ()) : Above b (tallyAt g₀ () n) := fun g u h => by
  rw [tallyAt_apply] at h
  by_cases hg : g = g₀ ∧ u = ()
  · rw [hg.1]; cases u; exact ⟨htc, hb⟩
  · rw [if_neg hg] at h; exact absurd h (Nat.lt_irrefl 0)
theorem Above.bar (c : Dev nD) (n : ℕ) : Above 0 (tallyAt (barCell c) () n) := Above.tally _ n rfl (by rw [lv_bar]; decide)
theorem Above.recv (b : ℕ) (hb : b < 2) (c : Dev nD) (k : Fin 3) (h : Fin 8) (n : ℕ) : Above b (tallyAt (recvCell c k h) () n) :=
  Above.tally _ n rfl (by rw [lv_recv]; exact hb)

theorem mayWait_of (c : Dev nD) (sm : SemLoc sig) (b : ℕ) (hsm : lv ((c : Thread nD τ), sm) () ≤ b) (O : CellTallies nD τ sig Unit) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hsm)
    (fun g u hg => (hO g u hg).2)

end Cert.Kernel.Proto

end
-- ==== Proof.DevTableKernel.lean ====
import proofs.«901004_g7700000000001005_dist_rmsnorm_colshard_i_m4096_n1024_v7x_i4_bf16_1_alg».proof.Proof.ProtoKernel

namespace Cert.Kernel.Proto

open Cert.Kernel Cert.Kernel.Gen Idealize.ShloMosaic Idealize.ShloMosaic.Tactic

/-! The device each printed `device_id` chain names, decided over the mesh of four: chain N addresses the device (N - 1) % 3 + 1 places ahead. -/

theorem k0_dev1_val : ∀ c : Dev nD, k0_dev1 c = (pd c 0).val := by decide +kernel
@[sl_canon] theorem dev1_eq (c : Dev nD) : (⟨k0_dev1 c, k0_dev1_lt c⟩ : Dev nD) = pd c 0 := Fin.ext (k0_dev1_val c)
theorem k0_dev2_val : ∀ c : Dev nD, k0_dev2 c = (pd c 1).val := by decide +kernel
@[sl_canon] theorem dev2_eq (c : Dev nD) : (⟨k0_dev2 c, k0_dev2_lt c⟩ : Dev nD) = pd c 1 := Fin.ext (k0_dev2_val c)
theorem k0_dev3_val : ∀ c : Dev nD, k0_dev3 c = (pd c 2).val := by decide +kernel
@[sl_canon] theorem dev3_eq (c : Dev nD) : (⟨k0_dev3 c, k0_dev3_lt c⟩ : Dev nD) = pd c 2 := Fin.ext (k0_dev3_val c)
theorem k0_dev4_val : ∀ c : Dev nD, k0_dev4 c = (pd c 0).val := by decide +kernel
@[sl_canon] theorem dev4_eq (c : Dev nD) : (⟨k0_dev4 c, k0_dev4_lt c⟩ : Dev nD) = pd c 0 := Fin.ext (k0_dev4_val c)
theorem k0_dev5_val : ∀ c : Dev nD, k0_dev5 c = (pd c 1).val := by decide +kernel
@[sl_canon] theorem dev5_eq (c : Dev nD) : (⟨k0_dev5 c, k0_dev5_lt c⟩ : Dev nD) = pd c 1 := Fin.ext (k0_dev5_val c)
theorem k0_dev6_val : ∀ c : Dev nD, k0_dev6 c = (pd c 2).val := by decide +kernel
@[sl_canon] theorem dev6_eq (c : Dev nD) : (⟨k0_dev6 c, k0_dev6_lt c⟩ : Dev nD) = pd c 2 := Fin.ext (k0_dev6_val c)
theorem k0_dev7_val : ∀ c : Dev nD, k0_dev7 c = (pd c 0).val := by decide +kernel
@[sl_canon] theorem dev7_eq (c : Dev nD) : (⟨k0_dev7 c, k0_dev7_lt c⟩ : Dev nD) = pd c 0 := Fin.ext (k0_dev7_val c)
theorem k0_dev8_val : ∀ c : Dev nD, k0_dev8 c = (pd c 1).val := by decide +kernel
@[sl_canon] theorem dev8_eq (c : Dev nD) : (⟨k0_dev8 c, k0_dev8_lt c⟩ : Dev nD) = pd c 1 := Fin.ext (k0_dev8_val c)
theorem k0_dev9_val : ∀ c : Dev nD, k0_dev9 c = (pd c 2).val := by decide +kernel
@[sl_canon] theorem dev9_eq (c : Dev nD) : (⟨k0_dev9 c, k0_dev9_lt c⟩ : Dev nD) = pd c 2 := Fin.ext (k0_dev9_val c)
theorem k0_dev10_val : ∀ c : Dev nD, k0_dev10 c = (pd c 0).val := by decide +kernel
@[sl_canon] theorem dev10_eq (c : Dev nD) : (⟨k0_dev10 c, k0_dev10_lt c⟩ : Dev nD) = pd c 0 := Fin.ext (k0_dev10_val c)
theorem k0_dev11_val : ∀ c : Dev nD, k0_dev11 c = (pd c 1).val := by decide +kernel
@[sl_canon] theorem dev11_eq (c : Dev nD) : (⟨k0_dev11 c, k0_dev11_lt c⟩ : Dev nD) = pd c 1 := Fin.ext (k0_dev11_val c)
theorem k0_dev12_val : ∀ c : Dev nD, k0_dev12 c = (pd c 2).val := by decide +kernel
@[sl_canon] theorem dev12_eq (c : Dev nD) : (⟨k0_dev12 c, k0_dev12_lt c⟩ : Dev nD) = pd c 2 := Fin.ext (k0_dev12_val c)
theorem k0_dev13_val : ∀ c : Dev nD, k0_dev13 c = (pd c 0).val := by decide +kernel
@[sl_canon] theorem dev13_eq (c : Dev nD) : (⟨k0_dev13 c, k0_dev13_lt c⟩ : Dev nD) = pd c 0 := Fin.ext (k0_dev13_val c)
theorem k0_dev14_val : ∀ c : Dev nD, k0_dev14 c = (pd c 1).val := by decide +kernel
@[sl_canon] theorem dev14_eq (c : Dev nD) : (⟨k0_dev14 c, k0_dev14_lt c⟩ : Dev nD) = pd c 1 := Fin.ext (k0_dev14_val c)
theorem k0_dev15_val : ∀ c : Dev nD, k0_dev15 c = (pd c 2).val := by decide +kernel
@[sl_canon] theorem dev15_eq (c : Dev nD) : (⟨k0_dev15 c, k0_dev15_lt c⟩ : Dev nD) = pd c 2 := Fin.ext (k0_dev15_val c)
theorem k0_dev16_val : ∀ c : Dev nD, k0_dev16 c = (pd c 0).val := by decide +kernel
@[sl_canon] theorem dev16_eq (c : Dev nD) : (⟨k0_dev16 c, k0_dev16_lt c⟩ : Dev nD) = pd c 0 := Fin.ext (k0_dev16_val c)
theorem k0_dev17_val : ∀ c : Dev nD, k0_dev17 c = (pd c 1).val := by decide +kernel
@[sl_canon] theorem dev17_eq (c : Dev nD) : (⟨k0_dev17 c, k0_dev17_lt c⟩ : Dev nD) = pd c 1 := Fin.ext (k0_dev17_val c)
theorem k0_dev18_val : ∀ c : Dev nD, k0_dev18 c = (pd c 2).val := by decide +kernel
@[sl_canon] theorem dev18_eq (c : Dev nD) : (⟨k0_dev18 c, k0_dev18_lt c⟩ : Dev nD) = pd c 2 := Fin.ext (k0_dev18_val c)
theorem k0_dev19_val : ∀ c : Dev nD, k0_dev19 c = (pd c 0).val := by decide +kernel
@[sl_canon] theorem dev19_eq (c : Dev nD) : (⟨k0_dev19 c, k0_dev19_lt c⟩ : Dev nD) = pd c 0 := Fin.ext (k0_dev19_val c)
theorem k0_dev20_val : ∀ c : Dev nD, k0_dev20 c = (pd c 1).val := by decide +kernel
@[sl_canon] theorem dev20_eq (c : Dev nD) : (⟨k0_dev20 c, k0_dev20_lt c⟩ : Dev nD) = pd c 1 := Fin.ext (k0_dev20_val c)
theorem k0_dev21_val : ∀ c : Dev nD, k0_dev21 c = (pd c 2).val := by decide +kernel
@[sl_canon] theorem dev21_eq (c : Dev nD) : (⟨k0_dev21 c, k0_dev21_lt c⟩ : Dev nD) = pd c 2 := Fin.ext (k0_dev21_val c)
theorem k0_dev22_val : ∀ c : Dev nD, k0_dev22 c = (pd c 0).val := by decide +kernel
@[sl_canon] theorem dev22_eq (c : Dev nD) : (⟨k0_dev22 c, k0_dev22_lt c⟩ : Dev nD) = pd c 0 := Fin.ext (k0_dev22_val c)
theorem k0_dev23_val : ∀ c : Dev nD, k0_dev23 c = (pd c 1).val := by decide +kernel
@[sl_canon] theorem dev23_eq (c : Dev nD) : (⟨k0_dev23 c, k0_dev23_lt c⟩ : Dev nD) = pd c 1 := Fin.ext (k0_dev23_val c)
theorem k0_dev24_val : ∀ c : Dev nD, k0_dev24 c = (pd c 2).val := by decide +kernel
@[sl_canon] theorem dev24_eq (c : Dev nD) : (⟨k0_dev24 c, k0_dev24_lt c⟩ : Dev nD) = pd c 2 := Fin.ext (k0_dev24_val c)
theorem k0_dev25_val : ∀ c : Dev nD, k0_dev25 c = (pd c 0).val := by decide +kernel
@[sl_canon] theorem dev25_eq (c : Dev nD) : (⟨k0_dev25 c, k0_dev25_lt c⟩ : Dev nD) = pd c 0 := Fin.ext (k0_dev25_val c)
theorem k0_dev26_val : ∀ c : Dev nD, k0_dev26 c = (pd c 1).val := by decide +kernel
@[sl_canon] theorem dev26_eq (c : Dev nD) : (⟨k0_dev26 c, k0_dev26_lt c⟩ : Dev nD) = pd c 1 := Fin.ext (k0_dev26_val c)
theorem k0_dev27_val : ∀ c : Dev nD, k0_dev27 c = (pd c 2).val := by decide +kernel
@[sl_canon] theorem dev27_eq (c : Dev nD) : (⟨k0_dev27 c, k0_dev27_lt c⟩ : Dev nD) = pd c 2 := Fin.ext (k0_dev27_val c)

end Cert.Kernel.Proto
-- ==== Proof.IfaceKernel.lean ====
import proofs.«901004_g7700000000001005_dist_rmsnorm_colshard_i_m4096_n1024_v7x_i4_bf16_1_alg».proof.Proof.DevTableKernel

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev locS (i : Fin 16) : DmaSem sig := ⟨1 + i.val, by have := i.isLt; show _ < 65; omega⟩
abbrev osem : Fin 64 → SemLoc sig := fun i => .dma ⟨1 + i.val, by have := i.isLt; show _ < 65; omega⟩

def gstg (c : Dev nD) : (cc0_stg0_0 : Ref sig .tc).ty.Contents (Elt F) :=
  (win0_0.blk (0 : Fin 1)).view.read (Elt F) (m ((c : Thread nD τ).loc main_arg1))

def invs (K : GSem nD τ sig → ℕ) (c : Dev nD) : sProp 𝕄 :=
  iprop(cellInv ER (Rd m) (K (barCell c)) (barCell c)
    ∗ (bigSep Finset.univ fun d : Fin 3 => cellInv ER (Rd m) (K (barCell (pd c d))) (barCell (pd c d)))
    ∗ (bigSep Finset.univ fun dh : Fin 3 × Fin 8 => cellInv ER (Rd m) (K (sendCell c dh.1 dh.2)) (sendCell c dh.1 dh.2))
    ∗ (bigSep Finset.univ fun kh : Fin 3 × Fin 8 => cellInv ER (Rd m) (K (recvCell c kh.1 kh.2)) (recvCell c kh.1 kh.2))
    ∗ (bigSep Finset.univ fun dh : Fin 3 × Fin 8 => cellInv ER (Rd m) (K (recvCell (pd c dh.1) (opp dh.1) dh.2)) (recvCell (pd c dh.1) (opp dh.1) dh.2))
    ∗ levAts L lv
    ∗ (bigSep Finset.univ fun d : Fin 3 => reached ER (barCell (pd c d)) 0)
    ∗ (bigSep Finset.univ fun kh : Fin 3 × Fin 8 => reached ER (recvCell c kh.1 kh.2) 0)
    ∗ (bigSep Finset.univ fun dh : Fin 3 × Fin 8 => reached ER (sendCell c dh.1 dh.2) 0))

instance invs_persistent (K : GSem nD τ sig → ℕ) (c : Dev nD) : BI.Persistent (invs m K c) := by unfold invs; infer_instance

def lins (c : Dev nD) : sProp 𝕄 :=
  iprop(atPos ER (barCell c) 0 ∅ 0
    ∗ (bigSep Finset.univ fun dh : Fin 3 × Fin 8 => atPos ER (sendCell c dh.1 dh.2) 0 ∅ 0)
    ∗ (bigSep Finset.univ fun kh : Fin 3 × Fin 8 => atPos ER (recvCell c kh.1 kh.2) 0 ∅ 0)
    ∗ (bigSep Finset.univ fun d : Fin 3 => dutyTok ER (barCell (pd c d)) 0 d)
    ∗ (bigSep Finset.univ fun dh : Fin 3 × Fin 8 => dutyTok ER (sendCell c dh.1 dh.2) 0 0)
    ∗ (bigSep Finset.univ fun dh : Fin 3 × Fin 8 => dutyTok ER (recvCell (pd c dh.1) (opp dh.1) dh.2) 0 0)
    ∗ cred (tallyAt (barCell c) () 3)
    ∗ (bigSep Finset.univ fun kh : Fin 3 × Fin 8 => cred (tallyAt (recvCell c kh.1 kh.2) () N))
    ∗ (bigSep Finset.univ fun i : Fin 16 => semVal ((c : Thread nD τ), SemLoc.dma (locS i)) 0))

def ghost (c : Dev nD) : sProp 𝕄 := iprop(∃ K, invs m K c ∗ lins c)

def hbm₀ (c : Dev nD) : sProp 𝕄 :=
  iprop((((c : Thread nD τ).loc main_arg0) ↦{fullShare} m ((c : Thread nD τ).loc main_arg0))
    ∗ (((c : Thread nD τ).loc main_v1) ↦{fullShare} m ((c : Thread nD τ).loc main_v1)))
def hbm₁ (c : Dev nD) : sProp 𝕄 :=
  iprop((((c : Thread nD τ).loc main_arg0) ↦{fullShare} m ((c : Thread nD τ).loc main_arg0))
    ∗ (((c : Thread nD τ).loc main_v1) ↦{fullShare} (Spec.outArr (Spec.Xof m) (Spec.Gof m) c : Buf (Elt F) ((c : Thread nD τ).loc main_v1))))
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def start (c : Dev nD) : sProp 𝕄 := iprop(ghost m c ∗ hbm₀ m c)
def Φ₀ (c : Dev nD) : sProp 𝕄 := iprop(start m c ∗ scratch c)
def Φ₁ (c : Dev nD) : sProp 𝕄 := iprop(hbm₁ m c ∗ scratch c ∗ Pipeline.ownSems0 osem c)

def dats (_ : Fin 1) (c : Dev nD) : Dat τ (Elt F) Unit ℕ UU ℕ cfg0 c where
  A w := m ((cfg0.win w).arr.view.loc (c : Thread nD τ))
  after w _ := match w with
    | ⟨0, _⟩ => gstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.Proto

end
-- ==== Proof.StepsKernel.lean ====
import proofs.«901004_g7700000000001005_dist_rmsnorm_colshard_i_m4096_n1024_v7x_i4_bf16_1_alg».proof.Proof.IfaceKernel

import Idealize.ShloMosaic.Lib.Pipeline.Value

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem wp_sig (c : Dev nD) (d : Fin 3) (n : Dev nD) (hn : n = pd c d) (κ : ℕ) (O : CellTallies nD τ sig Unit) (W : Waits sig Unit)
    {α : Type} {Q : α → sProp 𝕄} {k : PUnit → Prog (TpuEff nD τ sig (Elt F) Λ₀ .tc) α} :
    iprop(cellInv ER (Rd m) κ (barCell (pd c d)) ∗ owes (c : Thread nD τ) (O + tallyAt (barCell (pd c d)) () 1) W
        ∗ dutyTok ER (barCell (pd c d)) 0 d ∗ slotGift c d ∗ reached ER (barCell (pd c d)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n, Proc.tc) : Thread nD τ) barS (1#32).toNat) k) Q) := by
  subst hn
  have h := Rounds.wp_signal (defs := defs₀ (F := F)) (Γ := .empty) 𝒱₀ ER (Rd m) (c : Thread nD τ) none (dst := (pd c d : Thread nD τ)) (sem := barS)
    (r := 0) (d := d) (κ := κ) (k := k) (Q := Q) (Es := Set.univ) (W := W)
    (by rw [duties_bar]; exact Finset.mem_univ _) (amount_bar m (pd c d) d) () O rfl
  rw [payload_bar_pd] at h
  exact h

theorem bar_payloads (c : Dev nD) :
    bigSep (Finset.univ : Finset (Fin 3)) (fun e => (Rd (F := F) m).payload (barCell c) 0 e)
      = iprop(slotGift (ps c 0) 0 ∗ slotGift (ps c 1) 1 ∗ slotGift (ps c 2) 2) := by
  rw [bigSep_univ_eq_bigSepL [0, 1, 2] (by decide) (by decide)]
  show iprop((Rd (F := F) m).payload (barCell c) 0 0 ∗ (Rd (F := F) m).payload (barCell c) 0 1 ∗ (Rd (F := F) m).payload (barCell c) 0 2) = _
  rw [payload_bar, payload_bar, payload_bar]

theorem wp_barwait (c : Dev nD) (κ : ℕ) (O : CellTallies nD τ sig Unit) (hO : Above 1 O) (W : Waits sig Unit)
    {α : Type} {Q : α → sProp 𝕄} {k : PUnit → Prog (TpuEff nD τ sig (Elt F) Λ₀ .tc) α} :
    iprop(cellInv ER (Rd m) κ (barCell c) ∗ cred (tallyAt (barCell c) () 3) ∗ owes (c : Thread nD τ) O W ∗ levAts L lv
        ∗ atPos ER (barCell c) 0 ∅ 0)
      ⊢ iprop((iprop(owes (c : Thread nD τ) O (insert (SemLoc.reg barS, ()) W) ∗ atPos ER (barCell c) 1 ∅ 0
              ∗ slotGift (ps c 0) 0 ∗ slotGift (ps c 1) 1 ∗ slotGift (ps c 2) 2)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (3#32).toNat) k) Q) := by
  have hr := Rounds.wp_wait_rest_token (defs := defs₀ (F := F)) (Γ := .empty) 𝒱₀ ER (Rd m) (c : Thread nD τ) none
    (w := .semWait barS (3#32).toNat) (sm := .reg barS) (k' := 3) (Es := Set.univ) (κ := κ) (k := k) (Q := Q)
    (wpE_semWait_eq 𝒱₀ (c : Thread nD τ) none Set.univ) (Set.mem_univ _) () (O := O) (W := W) (R := 0) (m := 0) (T := ∅)
    (by rw [expect_bar])
  rw [Finset.sdiff_empty, duties_bar, bar_payloads] at hr
  iintro ⟨Hg, Hc, HL, Hlev, Hat⟩ Hk
  iapply hr $$ [Hg Hc HL Hlev Hat]
  · isplitl [Hg]; · iexact Hg
    isplitl [Hc]; · iexact Hc
    isplitl [HL]; · iexact HL
    isplitl [Hlev]
    · iapply (mayWait_of c (.reg barS) 1 (le_of_eq (lv_bar c)) O hO); iexact Hlev
    · iexact Hat
  iintro ⟨HL, Hat, -, H0, H1, H2⟩
  iapply Hk
  isplitl [HL]; · iexact HL
  isplitl [Hat]; · iexact Hat
  isplitl [H0]; · iexact H0
  isplitl [H1]; · iexact H1
  iexact H2

abbrev zz (y : S4x128.Idx) : S1x4x128.Idx := Shape.reshapeEquiv squeezes_S1x4x128_S4x128.numel_eq y

theorem piece_emb0 (k : Fin 4) (h : Fin 8) (y : S4x128.Idx) :
    ((((pieceM k h).view.emb y : S4x32x128.Idx) 0 : Fin 4) : Nat) = k.val + 1 * ((zz y 0 : Fin 1) : Nat) := rfl
theorem piece_emb1 (k : Fin 4) (h : Fin 8) (y : S4x128.Idx) :
    ((((pieceM k h).view.emb y : S4x32x128.Idx) 1 : Fin 32) : Nat) = 4 * h.val + 1 * ((zz y 1 : Fin 4) : Nat) := rfl
theorem piece_emb2 (k : Fin 4) (h : Fin 8) (y : S4x128.Idx) :
    ((((pieceM k h).view.emb y : S4x32x128.Idx) 2 : Fin 128) : Nat) = 0 + 1 * ((zz y 2 : Fin 128) : Nat) := rfl

def cf (X : Dev nD → Vec F S4096x1024 .f32) (p : Dev nD) (a b l : ℕ) (ha : a < 4) (hb : b < 32) (hl : l < 128) : Elt F .f32 :=
  Spec.slot X p ⟨a, ha⟩ ⟨b / 4, by omega⟩ (ix3 (n0 := 1) (n1 := 4) (n2 := 128) 0 ⟨b % 4, Nat.mod_lt _ (by decide)⟩ ⟨l, hl⟩)

theorem cf_congr {X : Dev nD → Vec F S4096x1024 .f32} {p p' : Dev nD} {a a' b b' l l' : ℕ}
    {ha : a < 4} {ha' : a' < 4} {hb : b < 32} {hb' : b' < 32} {hl : l < 128} {hl' : l' < 128}
    (hs : Spec.srcDev p ⟨a, ha⟩ = Spec.srcDev p' ⟨a', ha'⟩) (eb : b = b') (el : l = l') :
    cf X p a b l ha hb hl = cf X p' a' b' l' ha' hb' hl' := by
  subst eb el
  unfold cf Spec.slot
  rw [hs]

theorem srcDev_of_val (p : Dev nD) (a : ℕ) (ha : a < 4) (k : Fin 4) (e : a = k.val) : Spec.srcDev p ⟨a, ha⟩ = Spec.srcDev p k := by
  subst e; rfl

theorem commFinal_congr (p p' : Dev nD) (i i' : S4x32x128.Idx) (k k' : Fin 4)
    (h0 : ((i 0 : Fin 4) : Nat) = k.val) (h0' : ((i' 0 : Fin 4) : Nat) = k'.val) (hs : Spec.srcDev p k = Spec.srcDev p' k')
    (h1 : ((i 1 : Fin 32) : Nat) = ((i' 1 : Fin 32) : Nat)) (h2 : ((i 2 : Fin 128) : Nat) = ((i' 2 : Fin 128) : Nat)) :
    commFinal m p i = commFinal m p' i' := by
  show cf (Spec.Xof m) p ((i 0 : Fin 4) : Nat) ((i 1 : Fin 32) : Nat) ((i 2 : Fin 128) : Nat) (i 0 : Fin 4).isLt (i 1 : Fin 32).isLt (i 2 : Fin 128).isLt
    = cf (Spec.Xof m) p' ((i' 0 : Fin 4) : Nat) ((i' 1 : Fin 32) : Nat) ((i' 2 : Fin 128) : Nat) (i' 0 : Fin 4).isLt (i' 1 : Fin 32).isLt (i' 2 : Fin 128).isLt
  exact cf_congr ((srcDev_of_val p _ _ k h0).trans (hs.trans (srcDev_of_val p' _ _ k' h0').symm)) h1 h2

theorem srcDev_pd : ∀ (c : Dev nD) (d : Fin 3), Spec.srcDev (pd c d) (up (opp d)) = c := by decide

theorem cast_cast_self {α β : Type} (h₁ : α = β) (h₂ : β = α) (a : α) : _root_.cast h₂ (_root_.cast h₁ a) = a := by
  subst h₁; rfl

theorem landed_eq (c : Dev nD) (d : Fin 3) (h : Fin 8)
    (fn : Buf (Elt F) ((pieceM (up (opp d)) h).view.loc ((pd c d : Dev nD) : Thread nD τ))) :
    ∀ i ∈ (pieceM (up (opp d)) h).view.set,
      ((pieceM (up (opp d)) h).view.write (Elt F) fn ((pieceM 3 h).view.read (Elt F) (commFinal m c)) Finset.univ) i
        = commFinal m (pd c d) i := by
  intro i hi
  obtain ⟨y, rfl⟩ := View.exists_emb_of_mem_set _ hi
  rw [View.write_emb_of_mem _ _ (Finset.mem_univ y), View.read_apply]
  refine (cast_cast_self _ _ _).trans ?_
  have z0 : ((zz y 0 : Fin 1) : Nat) < 1 := (zz y 0).isLt
  have e3 : ((((pieceM 3 h).view.emb y : S4x32x128.Idx) 0 : Fin 4) : Nat) = 3 + 1 * ((zz y 0 : Fin 1) : Nat) := piece_emb0 3 h y
  have ed := piece_emb0 (up (opp d)) h y
  exact commFinal_congr m c (pd c d) _ _ 3 (up (opp d)) (show _ = 3 by omega) (by omega)
    ((Spec.srcDev_three c).trans (srcDev_pd c d).symm)
    ((piece_emb1 3 h y).trans (piece_emb1 (up (opp d)) h y).symm)
    ((piece_emb2 3 h y).trans (piece_emb2 (up (opp d)) h y).symm)

theorem piece_credit (k : Fin 4) (h : Fin 8) : (pieceM k h).view.dmaCredit = N := rfl

theorem wp_send_piece (c : Dev nD) (d : Fin 3) (h : Fin 8) (n : Dev nD) (hn : n = pd c d) (κ₁ κ₂ : ℕ)
    (O : CellTallies nD τ sig Unit) (W : Waits sig Unit)
    (fn : Buf (Elt F) ((pieceM (up (opp d)) h).view.loc ((pd c d : Dev nD) : Thread nD τ)))
    {hsc : (pieceM (up (opp d)) h : Memref sig (Dev.tc n : Thread nD τ).2.kind .vmem S4x128 .f32).view.ref.isScScratch = false}
    {hsrc : (pieceM 3 h : Memref sig .tc .vmem S4x128 .f32).view.WordExact} {hdst : (pieceM (up (opp d)) h : Memref sig .tc .vmem S4x128 .f32).view.WordExact}
    {hsem : DmaTarget.Typed .vmem (.dma (recvS (opp d) h)) (.remote (Dev.tc n : Thread nD τ) (pieceM (up (opp d)) h : Memref sig .tc .vmem S4x128 .f32) (.dma (sendS d h)) hsc)}
    {α : Type} {Q : α → sProp 𝕄} {k : PUnit → Prog (TpuEff nD τ sig (Elt F) Λ₀ .tc) α} :
    iprop(cellInv ER (Rd m) κ₁ (sendCell c d h) ∗ cellInv ER (Rd m) κ₂ (recvCell (pd c d) (opp d) h)
        ∗ piecePt c 3 h (qS d) (commFinal m c) ∗ piecePt (pd c d) (up (opp d)) h fullShare fn
        ∗ owes (c : Thread nD τ) (O + tallyAt (recvCell (pd c d) (opp d) h) () N) W
        ∗ dutyTok ER (sendCell c d h) 0 0 ∗ reached ER (sendCell c d h) 0
        ∗ dutyTok ER (recvCell (pd c d) (opp d) h) 0 0 ∗ reached ER (recvCell (pd c d) (opp d) h) 0)
      ⊢ iprop(((cred (tallyAt (sendCell c d h) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pieceM 3 h) (.remote (Dev.tc n : Thread nD τ) (pieceM (up (opp d)) h) (.dma (sendS d h)) hsc) (.dma (recvS (opp d) h)) hsrc hdst hsem) k) Q) := by
  subst hn
  have hpay₁ : ((pieceM 3 h).view.loc (c : Thread nD τ) ↦[(pieceM 3 h).view.set]{qS d} commFinal m c : sProp 𝕄)
      ⊢ (Rd m).payload (sendCell c d h) 0 0 := by
    rw [payload_send, sendPay_eq]
  have hpay₂ : ((pieceM (up (opp d)) h).view.loc ((pd c d : Dev nD) : Thread nD τ) ↦[(pieceM (up (opp d)) h).view.set]{fullShare}
        ((pieceM (up (opp d)) h).view.write (Elt F) fn ((pieceM 3 h).view.read (Elt F) (commFinal m c)) Finset.univ) : sProp 𝕄)
      ⊢ (Rd m).payload (recvCell (pd c d) (opp d) h) 0 0 := by
    rw [payload_recv, recvPay_eq, pointsTo_congr (landed_eq m c d h fn)]
  exact Rounds.wp_send_pointsTo (defs := defs₀ (F := F)) (Γ := .empty) 𝒱₀ ER (Rd m) (c : Thread nD τ) none
    (c' := ((pd c d : Dev nD) : Thread nD τ)) (src := pieceM 3 h) (dst := pieceM (up (opp d)) h)
    (sS := .dma (sendS d h)) (sem := .dma (recvS (opp d) h)) (q := qS d) (fs := commFinal m c) (fd := fn)
    (r₁ := 0) (r₂ := 0) (d₁ := 0) (d₂ := 0) (κ₁ := κ₁) (κ₂ := κ₂) (k := k) (Q := Q) (Es := Set.univ) (W := W)
    (by rw [duties_send]; exact Finset.mem_singleton_self _) (by rw [duties_recv]; exact Finset.mem_singleton_self _)
    () () N (piece_credit _ _) (amount_send m c d h 0) (amount_recv m (pd c d) (opp d) h 0) O rfl hpay₁ hpay₂

/-- The wait on the device's send or receive cell `s`, whose one duty hands back `P`, by a device that owes nothing; then the cell is closed. -/
theorem cellwait_step (c : Dev nD) (s : DmaSem sig) (P : sProp 𝕄)
    (hd : (Rd (F := F) m).duties ((c : Thread nD τ), .dma s) 0 = {0}) (he : (Rd (F := F) m).expect ((c : Thread nD τ), .dma s) 0 = N)
    (hp : (Rd (F := F) m).payload ((c : Thread nD τ), .dma s) 0 0 = P) (κ : ℕ) (W : Waits sig Unit)
    {sp sp' : Space} {s₁ s₂ : Shape} {e e' : EltTy} {src : Memref sig .tc sp' s₂ e'} {dst : Memref sig .tc sp s₁ e}
    {hsrc : src.view.WordExact} {hdst : dst.view.WordExact} (hN : dst.view.dmaCredit = N)
    {α : Type} {Q : α → sProp 𝕄} {kk : PUnit → Prog (TpuEff nD τ sig (Elt F) Λ₀ .tc) α} :
    ⊢ iprop(cellInv ER (Rd m) κ ((c : Thread nD τ), .dma s) -∗ owes (c : Thread nD τ) 0 W
        -∗ iprop(cred (tallyAt ((c : Thread nD τ), SemLoc.dma s) () N) ∗ atPos ER ((c : Thread nD τ), .dma s) 0 ∅ 0)
        -∗ (iprop(owes (c : Thread nD τ) 0 (insert (SemLoc.dma s, ()) W) ∗ P ∗ semVal ((c : Thread nD τ), SemLoc.dma s) 0)
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s src dst hsrc hdst) kk) Q) := by
  have hw : ∀ K : PUnit → sProp 𝕄, wpE' (defs₀ (F := F)) 𝒱₀ (c : Thread nD τ) none .empty Set.univ (.waitDma2 s src dst hsrc hdst) K
      = waitSpec (c : Thread nD τ) Set.univ (.dma s) N K := fun K => by
    rw [← hN]; exact wpE_waitDma2_eq 𝒱₀ (c : Thread nD τ) none Set.univ K
  have hr := Rounds.wp_wait_rest_token (defs := defs₀ (F := F)) (Γ := .empty) 𝒱₀ ER (Rd m) (c : Thread nD τ) none
    (w := .waitDma2 s src dst hsrc hdst) (sm := .dma s) (k' := N) (Es := Set.univ) (κ := κ) (k := kk) (Q := Q)
    hw (Set.mem_univ _) () (O := 0) (W := W) (R := 0) (m := 0) (T := ∅) (by rw [he, Nat.zero_add])
  rw [MayWait_zero, Finset.sdiff_empty, hd, bigSep_singleton, hp] at hr
  iintro #HI HO ⟨Hc, Hat⟩ Hk
  iapply hr $$ [Hc HO Hat]
  · isplitr; · iexact HI
    isplitl [Hc]; · iexact Hc
    isplitl [HO]; · iexact HO
    isplitr; · iempintro
    iexact Hat
  iintro ⟨HO, Hat, -, Hpay⟩
  imod (Rounds.cell_close ER (Rd m) (Set.mem_univ κ) (fun h => h) (R := 0 + 1) (duties_later m _)) $$ [Hat] with Hs
  · isplitr; · iexact HI
    iexact Hat
  iapply Hk
  isplitl [HO]; · iexact HO
  isplitl [Hpay]; · iexact Hpay
  iexact Hs

/-- info: 'Cert.Kernel.Proto.wp_barwait' depends on axioms: [propext, Classical.choice, Quot.sound] -/
#guard_msgs in #print axioms wp_barwait

/-- info: 'Cert.Kernel.Proto.wp_send_piece' depends on axioms: [propext, Classical.choice, Quot.sound] -/
#guard_msgs in #print axioms wp_send_piece

/-- info: 'Cert.Kernel.Proto.cellwait_step' depends on axioms: [propext, Classical.choice, Quot.sound] -/
#guard_msgs in #print axioms cellwait_step

end Cert.Kernel.Proto

end
-- ==== Proof.GeomKernel.lean ====
import proofs.«901004_g7700000000001005_dist_rmsnorm_colshard_i_m4096_n1024_v7x_i4_bf16_1_alg».proof.Proof.IfaceKernel
import Idealize.ShloMosaic.Rules.PointsTo
import Idealize.ShloMosaic.Lib.Exec.Geometry

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem piece_set (k : Fin 4) (h : Fin 8) :
    (pieceM k h).view.set = (Rect.unit (s := S4x32x128) ![k.val, 4 * h.val, 0] S1x4x128.size (piece_inb k h)).set := by
  rw [Memref.set_view_squeeze]
  exact View.set_slice_whole _ _

theorem mem_piece {k : Fin 4} {h : Fin 8} {i : S4x32x128.Idx} :
    i ∈ (pieceM k h).view.set ↔ (i 0).val = k.val ∧ (i 1).val / 4 = h.val := by
  rw [piece_set, Rect.mem_set_unit]
  constructor
  · intro H
    have h0 : k.val ≤ (i 0).val ∧ (i 0).val < k.val + 1 := H 0
    have h1 : 4 * h.val ≤ (i 1).val ∧ (i 1).val < 4 * h.val + 4 := H 1
    omega
  · rintro ⟨h0, h1⟩ a
    have h2 : (i 2).val < 128 := (i 2).isLt
    match a with
    | 0 => show k.val ≤ (i 0).val ∧ (i 0).val < k.val + 1; omega
    | 1 => show 4 * h.val ≤ (i 1).val ∧ (i 1).val < 4 * h.val + 4; omega
    | 2 => show 0 ≤ (i 2).val ∧ (i 2).val < 0 + 128; omega

theorem comm_cover : (Finset.univ : Finset S4x32x128.Idx) = Finset.univ.biUnion fun t : Fin 4 × Fin 8 => (pieceM t.1 t.2).view.set := by
  ext i
  simp only [Finset.mem_univ, Finset.mem_biUnion, true_and, true_iff]
  have h0 : (i 0).val < 4 := (i 0).isLt
  have h1 : (i 1).val < 32 := (i 1).isLt
  exact ⟨(⟨(i 0).val, h0⟩, ⟨(i 1).val / 4, by omega⟩), mem_piece.mpr ⟨rfl, rfl⟩⟩

theorem comm_disjoint {t t' : Fin 4 × Fin 8} (hne : t ≠ t') :
    Disjoint (pieceM t.1 t.2).view.set (pieceM t'.1 t'.2).view.set := by
  rw [piece_set, piece_set]
  by_cases hk : t.1 = t'.1
  · have hh : t.2.val ≠ t'.2.val := fun e => hne (Prod.ext hk (Fin.ext e))
    refine Rect.unit_disjoint 1 ?_
    show 4 * t.2.val + 4 ≤ 4 * t'.2.val ∨ 4 * t'.2.val + 4 ≤ 4 * t.2.val
    omega
  · have hk' : t.1.val ≠ t'.1.val := fun e => hk (Fin.ext e)
    refine Rect.unit_disjoint 0 ?_
    show t.1.val + 1 ≤ t'.1.val ∨ t'.1.val + 1 ≤ t.1.val
    omega

theorem comm_split (c : Dev nD) (f : Buf (Elt F) ((c : Thread nD τ).loc cc0_scratch2)) :
    ((((c : Thread nD τ).loc cc0_scratch2) ↦{fullShare} f : sProp 𝕄))
      ⊣⊢ bigSep Finset.univ fun t : Fin 4 × Fin 8 => ((pieceM t.1 t.2).view.loc (c : Thread nD τ) ↦[(pieceM t.1 t.2).view.set]{fullShare} f) := by
  have e : ((((c : Thread nD τ).loc cc0_scratch2) ↦[Finset.univ.biUnion fun t : Fin 4 × Fin 8 => (pieceM t.1 t.2).view.set]{fullShare} f : sProp 𝕄)) = _ :=
    pointsTo_biUnion (q := fullShare) (f := f) (ℓ := (c : Thread nD τ).loc cc0_scratch2) Finset.univ
      (fun t : Fin 4 × Fin 8 => (pieceM t.1 t.2).view.set) (fun t _ t' _ hne => comm_disjoint hne)
  rw [← comm_cover] at e
  exact BiEntails.of_eq e

theorem piece_quarters (p : Dev nD) (k : Fin 4) (h : Fin 8) (f : Buf (Elt F) ((pieceM k h).view.loc (p : Thread nD τ))) :
    (piecePt p k h fullShare f : sProp 𝕄)
      ⊣⊢ iprop(piecePt p k h (qS 0) f ∗ piecePt p k h (qS 1) f ∗ piecePt p k h (qS 2) f ∗ piecePt p k h qK f) := by
  constructor
  · iintro H
    ihave H := (pointsTo_share (PosShare.mem_left_op_right fullShare)).1 $$ H
    icases H with ⟨HL, HR⟩
    ihave HL := (pointsTo_share (PosShare.mem_left_op_right fullShare.left)).1 $$ HL
    ihave HR := (pointsTo_share (PosShare.mem_left_op_right fullShare.right)).1 $$ HR
    icases HL with ⟨H0, H1⟩
    icases HR with ⟨H2, H3⟩
    isplitl [H0]; · iexact H0
    isplitl [H1]; · iexact H1
    isplitl [H2]; · iexact H2
    iexact H3
  · iintro ⟨H0, H1, H2, H3⟩
    ihave HL := (pointsTo_share (PosShare.mem_left_op_right fullShare.left)).2 $$ [H0 H1]
    · isplitl [H0]; · iexact H0
      iexact H1
    ihave HR := (pointsTo_share (PosShare.mem_left_op_right fullShare.right)).2 $$ [H2 H3]
    · isplitl [H2]; · iexact H2
      iexact H3
    iapply (pointsTo_share (PosShare.mem_left_op_right fullShare)).2
    isplitl [HL]; · iexact HL
    iexact HR

theorem out_inb : ∀ (j : Fin 8) (a : Fin 2), (![512 * j.val, 0] : Fin 2 → Nat) a + S512x1024.size a ≤ S4096x1024.size a := by decide

abbrev outM (j : Fin 8) : Memref sig .tc .hbm S512x1024 .bf16 :=
  (Memref.whole main_v1).slice (Rect.unit (s := S4096x1024) ![512 * j.val, 0] S512x1024.size (out_inb j)) (fun _ => rfl)

theorem out_set (j : Fin 8) :
    (outM j).view.set = (Rect.unit (s := S4096x1024) ![512 * j.val, 0] S512x1024.size (out_inb j)).set :=
  View.set_slice_whole _ _

theorem mem_out {j : Fin 8} {i : S4096x1024.Idx} : i ∈ (outM j).view.set ↔ (i 0).val / 512 = j.val := by
  rw [out_set, Rect.mem_set_unit]
  constructor
  · intro H
    have h0 : 512 * j.val ≤ (i 0).val ∧ (i 0).val < 512 * j.val + 512 := H 0
    omega
  · intro h0 a
    have h1 : (i 1).val < 1024 := (i 1).isLt
    match a with
    | 0 => show 512 * j.val ≤ (i 0).val ∧ (i 0).val < 512 * j.val + 512; omega
    | 1 => show 0 ≤ (i 1).val ∧ (i 1).val < 0 + 1024; omega

theorem out_cover : (Finset.univ : Finset S4096x1024.Idx) = Finset.univ.biUnion fun j : Fin 8 => (outM j).view.set := by
  ext i
  simp only [Finset.mem_univ, Finset.mem_biUnion, true_and, true_iff]
  have h0 : (i 0).val < 4096 := (i 0).isLt
  exact ⟨⟨(i 0).val / 512, by omega⟩, mem_out.mpr rfl⟩

theorem out_disjoint {j j' : Fin 8} (hne : j ≠ j') : Disjoint (outM j).view.set (outM j').view.set := by
  rw [out_set, out_set]
  have hj : j.val ≠ j'.val := fun e => hne (Fin.ext e)
  refine Rect.unit_disjoint 0 ?_
  show 512 * j.val + 512 ≤ 512 * j'.val ∨ 512 * j'.val + 512 ≤ 512 * j.val
  omega

theorem out_split (c : Dev nD) (f : Buf (Elt F) ((c : Thread nD τ).loc main_v1)) :
    ((((c : Thread nD τ).loc main_v1) ↦{fullShare} f : sProp 𝕄))
      ⊣⊢ bigSep Finset.univ fun j : Fin 8 => ((outM j).view.loc (c : Thread nD τ) ↦[(outM j).view.set]{fullShare} f) := by
  have e : ((((c : Thread nD τ).loc main_v1) ↦[Finset.univ.biUnion fun j : Fin 8 => (outM j).view.set]{fullShare} f : sProp 𝕄)) = _ :=
    pointsTo_biUnion (q := fullShare) (f := f) (ℓ := (c : Thread nD τ).loc main_v1) Finset.univ
      (fun j : Fin 8 => (outM j).view.set) (fun j _ j' _ hne => out_disjoint hne)
  rw [← out_cover] at e
  exact BiEntails.of_eq e

theorem chunk_inb : ∀ (j : Fin 8) (a : Fin 3), (![j.val, 0, 0] : Fin 3 → Nat) a + S1x512x1024.size a ≤ S8x512x1024.size a := by decide

abbrev chunkR (j : Fin 8) : Rect S8x512x1024 := Rect.unit (s := S8x512x1024) ![j.val, 0, 0] S1x512x1024.size (chunk_inb j)

theorem mem_chunk {j : Fin 8} {i : S8x512x1024.Idx} : i ∈ (chunkR j).set ↔ (i 0).val = j.val := by
  rw [Rect.mem_set_unit]
  constructor
  · intro H
    have h0 : j.val ≤ (i 0).val ∧ (i 0).val < j.val + 1 := H 0
    omega
  · intro h0 a
    have h1 : (i 1).val < 512 := (i 1).isLt
    have h2 : (i 2).val < 1024 := (i 2).isLt
    match a with
    | 0 => show j.val ≤ (i 0).val ∧ (i 0).val < j.val + 1; omega
    | 1 => show 0 ≤ (i 1).val ∧ (i 1).val < 0 + 512; omega
    | 2 => show 0 ≤ (i 2).val ∧ (i 2).val < 0 + 1024; omega

theorem chunk_cover : (Finset.univ : Finset S8x512x1024.Idx) = Finset.univ.biUnion fun j : Fin 8 => (chunkR j).set := by
  ext i
  simp only [Finset.mem_univ, Finset.mem_biUnion, true_and, true_iff]
  have h0 : (i 0).val < 8 := (i 0).isLt
  exact ⟨⟨(i 0).val, h0⟩, mem_chunk.mpr rfl⟩

theorem chunk_disjoint {j j' : Fin 8} (hne : j ≠ j') : Disjoint (chunkR j).set (chunkR j').set := by
  have hj : j.val ≠ j'.val := fun e => hne (Fin.ext e)
  refine Rect.unit_disjoint 0 ?_
  show j.val + 1 ≤ j'.val ∨ j'.val + 1 ≤ j.val
  omega

abbrev xvM (j : Fin 8) : Memref sig .tc .vmem S512x1024 .f32 :=
  ((Memref.whole cc0_scratch0).slice (Rect.unit (s := S8x512x1024) ![j.val, 0, 0] S1x512x1024.size (chunk_inb j)) (fun _ => rfl)).squeeze S512x1024 squeezes_S1x512x1024_S512x1024

theorem xv_set (j : Fin 8) : (xvM j).view.set = (chunkR j).set := by
  rw [Memref.set_view_squeeze]
  exact View.set_slice_whole _ _

theorem xv_cover : (Finset.univ : Finset S8x512x1024.Idx) = Finset.univ.biUnion fun j : Fin 8 => (xvM j).view.set := by
  rw [chunk_cover]; exact Finset.biUnion_congr rfl fun j _ => (xv_set j).symm

theorem xv_disjoint {j j' : Fin 8} (hne : j ≠ j') : Disjoint (xvM j).view.set (xvM j').view.set := by
  rw [xv_set, xv_set]; exact chunk_disjoint hne

theorem xv_split (c : Dev nD) (f : Buf (Elt F) ((c : Thread nD τ).loc cc0_scratch0)) :
    ((((c : Thread nD τ).loc cc0_scratch0) ↦{fullShare} f : sProp 𝕄))
      ⊣⊢ bigSep Finset.univ fun j : Fin 8 => ((xvM j).view.loc (c : Thread nD τ) ↦[(xvM j).view.set]{fullShare} f) := by
  have e : ((((c : Thread nD τ).loc cc0_scratch0) ↦[Finset.univ.biUnion fun j : Fin 8 => (xvM j).view.set]{fullShare} f : sProp 𝕄)) = _ :=
    pointsTo_biUnion (q := fullShare) (f := f) (ℓ := (c : Thread nD τ).loc cc0_scratch0) Finset.univ
      (fun j : Fin 8 => (xvM j).view.set) (fun j _ j' _ hne => xv_disjoint hne)
  rw [← xv_cover] at e
  exact BiEntails.of_eq e

abbrev ovM (j : Fin 8) : Memref sig .tc .vmem S512x1024 .bf16 :=
  ((Memref.whole cc0_scratch1).slice (Rect.unit (s := S8x512x1024) ![j.val, 0, 0] S1x512x1024.size (chunk_inb j)) (fun _ => rfl)).squeeze S512x1024 squeezes_S1x512x1024_S512x1024

theorem ov_set (j : Fin 8) : (ovM j).view.set = (chunkR j).set := by
  rw [Memref.set_view_squeeze]
  exact View.set_slice_whole _ _

theorem ov_cover : (Finset.univ : Finset S8x512x1024.Idx) = Finset.univ.biUnion fun j : Fin 8 => (ovM j).view.set := by
  rw [chunk_cover]; exact Finset.biUnion_congr rfl fun j _ => (ov_set j).symm

theorem ov_disjoint {j j' : Fin 8} (hne : j ≠ j') : Disjoint (ovM j).view.set (ovM j').view.set := by
  rw [ov_set, ov_set]; exact chunk_disjoint hne

theorem ov_split (c : Dev nD) (f : Buf (Elt F) ((c : Thread nD τ).loc cc0_scratch1)) :
    ((((c : Thread nD τ).loc cc0_scratch1) ↦{fullShare} f : sProp 𝕄))
      ⊣⊢ bigSep Finset.univ fun j : Fin 8 => ((ovM j).view.loc (c : Thread nD τ) ↦[(ovM j).view.set]{fullShare} f) := by
  have e : ((((c : Thread nD τ).loc cc0_scratch1) ↦[Finset.univ.biUnion fun j : Fin 8 => (ovM j).view.set]{fullShare} f : sProp 𝕄)) = _ :=
    pointsTo_biUnion (q := fullShare) (f := f) (ℓ := (c : Thread nD τ).loc cc0_scratch1) Finset.univ
      (fun j : Fin 8 => (ovM j).view.set) (fun j _ j' _ hne => ov_disjoint hne)
  rw [← ov_cover] at e
  exact BiEntails.of_eq e

/-- info: 'Cert.Kernel.Proto.comm_split' depends on axioms: [propext, Classical.choice, Quot.sound] -/
#guard_msgs in #print axioms comm_split

/-- info: 'Cert.Kernel.Proto.piece_quarters' depends on axioms: [propext, Classical.choice, Quot.sound] -/
#guard_msgs in #print axioms piece_quarters

/-- info: 'Cert.Kernel.Proto.out_split' depends on axioms: [propext, Classical.choice, Quot.sound] -/
#guard_msgs in #print axioms out_split

/-- info: 'Cert.Kernel.Proto.xv_split' depends on axioms: [propext, Classical.choice, Quot.sound] -/
#guard_msgs in #print axioms xv_split

/-- info: 'Cert.Kernel.Proto.ov_split' depends on axioms: [propext, Classical.choice, Quot.sound] -/
#guard_msgs in #print axioms ov_split

end Cert.Kernel.Proto

end
-- ==== Proof.ResKernel.lean ====
import proofs.«901004_g7700000000001005_dist_rmsnorm_colshard_i_m4096_n1024_v7x_i4_bf16_1_alg».proof.Proof.StepsKernel
import proofs.«901004_g7700000000001005_dist_rmsnorm_colshard_i_m4096_n1024_v7x_i4_bf16_1_alg».proof.Proof.GeomKernel

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def xvFin (c : Dev nD) : Buf (Elt F) ((c : Thread nD τ).loc cc0_scratch0) :=
  fun i => Spec.Xof m c (ix2 (n0 := 4096) (n1 := 1024) ⟨512 * (i 0).val + (i 1).val, by
    have h0 : (i 0).val < 8 := (i 0).isLt
    have h1 : (i 1).val < 512 := (i 1).isLt
    omega⟩ ⟨(i 2).val, (i 2).isLt⟩)

def ovFin (c : Dev nD) : Buf (Elt F) ((c : Thread nD τ).loc cc0_scratch1) :=
  fun i => Spec.outChunk (Spec.Xof m) (Spec.Gof m) c ⟨(i 0).val, (i 0).isLt⟩
    (ix3 (n0 := 1) (n1 := 512) (n2 := 1024) 0 ⟨(i 1).val, (i 1).isLt⟩ ⟨(i 2).val, (i 2).isLt⟩)

theorem xin_inb : ∀ (j : Fin 8) (a : Fin 2), (![512 * j.val, 0] : Fin 2 → Nat) a + S512x1024.size a ≤ S4096x1024.size a := by decide
abbrev xinM (j : Fin 8) : Memref sig .tc .hbm S512x1024 .f32 :=
  (Memref.whole main_arg0).slice (Rect.unit (s := S4096x1024) ![512 * j.val, 0] S512x1024.size (xin_inb j)) (fun _ => rfl)

theorem xin_set (j : Fin 8) :
    (xinM j).view.set = (Rect.unit (s := S4096x1024) ![512 * j.val, 0] S512x1024.size (xin_inb j)).set :=
  View.set_slice_whole _ _

theorem mem_xin {j : Fin 8} {i : S4096x1024.Idx} : i ∈ (xinM j).view.set ↔ (i 0).val / 512 = j.val := by
  rw [xin_set, Rect.mem_set_unit]
  constructor
  · intro H
    have h0 : 512 * j.val ≤ (i 0).val ∧ (i 0).val < 512 * j.val + 512 := H 0
    omega
  · intro h0 a
    have h1 : (i 1).val < 1024 := (i 1).isLt
    match a with
    | 0 => show 512 * j.val ≤ (i 0).val ∧ (i 0).val < 512 * j.val + 512; omega
    | 1 => show 0 ≤ (i 1).val ∧ (i 1).val < 0 + 1024; omega

theorem xin_cover : (Finset.univ : Finset S4096x1024.Idx) = Finset.univ.biUnion fun j : Fin 8 => (xinM j).view.set := by
  ext i
  simp only [Finset.mem_univ, Finset.mem_biUnion, true_and, true_iff]
  have h0 : (i 0).val < 4096 := (i 0).isLt
  exact ⟨⟨(i 0).val / 512, by omega⟩, mem_xin.mpr rfl⟩

theorem xin_disjoint {j j' : Fin 8} (hne : j ≠ j') : Disjoint (xinM j).view.set (xinM j').view.set := by
  rw [xin_set, xin_set]
  have hj : j.val ≠ j'.val := fun e => hne (Fin.ext e)
  refine Rect.unit_disjoint 0 ?_
  show 512 * j.val + 512 ≤ 512 * j'.val ∨ 512 * j'.val + 512 ≤ 512 * j.val
  omega

theorem xin_split (c : Dev nD) (f : Buf (Elt F) ((c : Thread nD τ).loc main_arg0)) :
    ((((c : Thread nD τ).loc main_arg0) ↦{fullShare} f : sProp 𝕄))
      ⊣⊢ bigSep Finset.univ fun j : Fin 8 => ((xinM j).view.loc (c : Thread nD τ) ↦[(xinM j).view.set]{fullShare} f) := by
  have e : ((((c : Thread nD τ).loc main_arg0) ↦[Finset.univ.biUnion fun j : Fin 8 => (xinM j).view.set]{fullShare} f : sProp 𝕄)) = _ :=
    pointsTo_biUnion (q := fullShare) (f := f) (ℓ := (c : Thread nD τ).loc main_arg0) Finset.univ
      (fun j : Fin 8 => (xinM j).view.set) (fun j _ j' _ hne => xin_disjoint hne)
  rw [← xin_cover] at e
  exact BiEntails.of_eq e

theorem chain_fin3 (Φ : Fin 3 → sProp 𝕄) : bigSep Finset.univ Φ = iprop(Φ 0 ∗ Φ 1 ∗ Φ 2) :=
  bigSep_univ_eq_bigSepL [0, 1, 2] (by decide) (by decide) Φ
theorem chain_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem chain_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem chain_3x8 (Φ : Fin 3 × Fin 8 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7)] (by decide) (by decide) Φ
theorem chain_4x8 (Φ : Fin 4 × Fin 8 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7) ∗ Φ (3, 0) ∗ Φ (3, 1) ∗ Φ (3, 2) ∗ Φ (3, 3) ∗ Φ (3, 4) ∗ Φ (3, 5) ∗ Φ (3, 6) ∗ Φ (3, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7)] (by decide) (by decide) Φ

theorem slot_congr {X : Dev nD → Vec F S4096x1024 .f32} {p : Dev nD} {k k' : Fin 4} {h h' : Fin 8} {y y' : S1x4x128.Idx}
    (hk : k = k') (hh : h = h') (hy : y = y') : Spec.slot X p k h y = Spec.slot X p k' h' y' := by
  subst hk hh hy; rfl

section Extract
variable (K : GSem nD τ sig → ℕ) (c : Dev nD)

theorem invs_bar : invs m K c ⊢ cellInv ER (Rd m) (K (barCell c)) (barCell c) := by
  unfold invs; iintro ⟨H, -⟩; iexact H
theorem invs_lev : invs m K c ⊢ (levAts L lv : sProp 𝕄) := by
  unfold invs; iintro ⟨-, -, -, -, -, H, -⟩; iexact H
theorem invs_barP (d : Fin 3) : invs m K c ⊢ cellInv ER (Rd m) (K (barCell (pd c d))) (barCell (pd c d)) := by
  unfold invs; iintro ⟨-, H, -⟩
  iapply (show (bigSep Finset.univ (fun d : Fin 3 => cellInv ER (Rd m) (K (barCell (pd c d))) (barCell (pd c d))) : sProp 𝕄) ⊢ cellInv ER (Rd m) (K (barCell (pd c d))) (barCell (pd c d)) from bigSep_elim (Finset.mem_univ d)) $$ H
theorem invs_send (d : Fin 3) (h : Fin 8) : invs m K c ⊢ cellInv ER (Rd m) (K (sendCell c d h)) (sendCell c d h) := by
  unfold invs; iintro ⟨-, -, H, -⟩
  iapply (show (bigSep Finset.univ (fun dh : Fin 3 × Fin 8 => cellInv ER (Rd m) (K (sendCell c dh.1 dh.2)) (sendCell c dh.1 dh.2)) : sProp 𝕄) ⊢ cellInv ER (Rd m) (K (sendCell c d h)) (sendCell c d h) from bigSep_elim (Finset.mem_univ (d, h))) $$ H
theorem invs_recv (k : Fin 3) (h : Fin 8) : invs m K c ⊢ cellInv ER (Rd m) (K (recvCell c k h)) (recvCell c k h) := by
  unfold invs; iintro ⟨-, -, -, H, -⟩
  iapply (show (bigSep Finset.univ (fun kh : Fin 3 × Fin 8 => cellInv ER (Rd m) (K (recvCell c kh.1 kh.2)) (recvCell c kh.1 kh.2)) : sProp 𝕄) ⊢ cellInv ER (Rd m) (K (recvCell c k h)) (recvCell c k h) from bigSep_elim (Finset.mem_univ (k, h))) $$ H
theorem invs_recvP (d : Fin 3) (h : Fin 8) : invs m K c ⊢ cellInv ER (Rd m) (K (recvCell (pd c d) (opp d) h)) (recvCell (pd c d) (opp d) h) := by
  unfold invs; iintro ⟨-, -, -, -, H, -⟩
  iapply (show (bigSep Finset.univ (fun dh : Fin 3 × Fin 8 => cellInv ER (Rd m) (K (recvCell (pd c dh.1) (opp dh.1) dh.2)) (recvCell (pd c dh.1) (opp dh.1) dh.2)) : sProp 𝕄) ⊢ cellInv ER (Rd m) (K (recvCell (pd c d) (opp d) h)) (recvCell (pd c d) (opp d) h) from bigSep_elim (Finset.mem_univ (d, h))) $$ H
theorem invs_rB (d : Fin 3) : invs m K c ⊢ reached ER (barCell (pd c d)) 0 := by
  unfold invs; iintro ⟨-, -, -, -, -, -, H, -⟩
  iapply (show (bigSep Finset.univ (fun d : Fin 3 => reached ER (barCell (pd c d)) 0) : sProp 𝕄) ⊢ reached ER (barCell (pd c d)) 0 from bigSep_elim (Finset.mem_univ d)) $$ H
theorem invs_rR (k : Fin 3) (h : Fin 8) : invs m K c ⊢ reached ER (recvCell c k h) 0 := by
  unfold invs; iintro ⟨-, -, -, -, -, -, -, H, -⟩
  iapply (show (bigSep Finset.univ (fun kh : Fin 3 × Fin 8 => reached ER (recvCell c kh.1 kh.2) 0) : sProp 𝕄) ⊢ reached ER (recvCell c k h) 0 from bigSep_elim (Finset.mem_univ (k, h))) $$ H
theorem invs_rS (d : Fin 3) (h : Fin 8) : invs m K c ⊢ reached ER (sendCell c d h) 0 := by
  unfold invs; iintro ⟨-, -, -, -, -, -, -, -, H⟩
  iapply (show (bigSep Finset.univ (fun dh : Fin 3 × Fin 8 => reached ER (sendCell c dh.1 dh.2) 0) : sProp 𝕄) ⊢ reached ER (sendCell c d h) 0 from bigSep_elim (Finset.mem_univ (d, h))) $$ H

/-- What the copy of piece (3, h) to the device `d + 1` places ahead takes: the quarter it lends, the addressee's piece, the two cells' tokens. -/
abbrev sendPre (d : Fin 3) (h : Fin 8) : sProp 𝕄 :=
  iprop(piecePt c 3 h (qS d) (commFinal m c) ∗ (∃ fn, piecePt (pd c d) (up (opp d)) h fullShare fn)
    ∗ reached ER (recvCell (pd c d) (opp d) h) 0 ∗ dutyTok ER (sendCell c d h) 0 0 ∗ dutyTok ER (recvCell (pd c d) (opp d) h) 0 0)

/-- Piece (3, h) at its final contents in its four quarters. -/
abbrev quarters (h : Fin 8) : sProp 𝕄 :=
  iprop(piecePt c 3 h (qS 0) (commFinal m c) ∗ piecePt c 3 h (qS 1) (commFinal m c) ∗ piecePt c 3 h (qS 2) (commFinal m c) ∗ piecePt c 3 h qK (commFinal m c))

/-- That copy, paid out of the debt `O'`, by a device that holds its persistent facts. -/
theorem send_piece (d : Fin 3) (h : Fin 8) (n : Dev nD) (hn : n = pd c d)
    (O' O : CellTallies nD τ sig Unit) (hO : O' = O + tallyAt (recvCell (pd c d) (opp d) h) () N) (W : Waits sig Unit)
    {hsc : (pieceM (up (opp d)) h : Memref sig (Dev.tc n : Thread nD τ).2.kind .vmem S4x128 .f32).view.ref.isScScratch = false}
    {hsrc : (pieceM 3 h : Memref sig .tc .vmem S4x128 .f32).view.WordExact} {hdst : (pieceM (up (opp d)) h : Memref sig .tc .vmem S4x128 .f32).view.WordExact}
    {hsem : DmaTarget.Typed .vmem (.dma (recvS (opp d) h)) (.remote (Dev.tc n : Thread nD τ) (pieceM (up (opp d)) h : Memref sig .tc .vmem S4x128 .f32) (.dma (sendS d h)) hsc)}
    {α : Type} {Q : α → sProp 𝕄} {k : PUnit → Prog (TpuEff nD τ sig (Elt F) Λ₀ .tc) α} :
    ⊢ iprop(invs m K c -∗ sendPre m c d h -∗ owes (c : Thread nD τ) O' W
        -∗ ((cred (tallyAt (sendCell c d h) () N) ∗ owes (c : Thread nD τ) O W)
            -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (pieceM 3 h) (.remote (Dev.tc n : Thread nD τ) (pieceM (up (opp d)) h) (.dma (sendS d h)) hsc) (.dma (recvS (opp d) h)) hsrc hdst hsem) k) Q) := by
  subst hO
  iintro #Hinv ⟨Hq, ⟨%fn, Hp⟩, #Rr, Ts, Tr⟩ HO
  iapply (wp_send_piece m c d h n hn (K (sendCell c d h)) (K (recvCell (pd c d) (opp d) h)) O W fn) $$ [HO Hq Hp Ts Tr]
  isplitr; · iapply (invs_send m K c d h); iexact Hinv
  isplitr; · iapply (invs_recvP m K c d h); iexact Hinv
  isplitl [Hq]; · iexact Hq
  isplitl [Hp]; · iexact Hp
  isplitl [HO]; · iexact HO
  isplitl [Ts]; · iexact Ts
  isplitr; · iapply (invs_rS m K c d h); iexact Hinv
  isplitl [Tr]; · iexact Tr
  iexact Rr

end Extract

/-- The `k`-th of the 27 payments: the three barrier units, then per half the three copies' receive credits, addressee 1, 2, 3 places ahead. -/
def pay (c : Dev nD) : ℕ → CellTallies nD τ sig Unit
  | 0 => tallyAt (barCell (pd c 0)) () 1
  | 1 => tallyAt (barCell (pd c 1)) () 1
  | 2 => tallyAt (barCell (pd c 2)) () 1
  | j + 3 => tallyAt (recvCell (pd c ⟨j % 3, Nat.mod_lt _ (by decide)⟩) (opp ⟨j % 3, Nat.mod_lt _ (by decide)⟩) ⟨j / 3 % 8, Nat.mod_lt _ (by decide)⟩) () N

/-- The last `n` payments, the earliest the outermost summand. -/
def lastPays (c : Dev nD) : ℕ → CellTallies nD τ sig Unit
  | 0 => 0
  | n + 1 => lastPays c n + pay c (26 - n)

/-- What device `c` still owes after its first `k` payments. -/
def Oat (c : Dev nD) (k : ℕ) : CellTallies nD τ sig Unit := lastPays c (27 - k)

theorem Oat_last (c : Dev nD) : Oat c 27 = 0 := rfl

theorem above_pay (c : Dev nD) : ∀ k, Above 0 (pay c k)
  | 0 | 1 | 2 => Above.bar _ _
  | _ + 3 => Above.recv 0 (by decide) _ _ _ _

theorem above_Oat (c : Dev nD) (k : ℕ) : Above 0 (Oat c k) := by
  unfold Oat
  induction 27 - k with
  | zero => exact Above.zero 0
  | succ n ih => exact Above.add ih (above_pay c _)

/-- From the fourth payment on the debt is on receive cells only. -/
theorem above1_lastPays (c : Dev nD) : ∀ n, n ≤ 24 → Above 1 (lastPays c n)
  | 0, _ => Above.zero 1
  | n + 1, h => Above.add (above1_lastPays c n (by omega)) (by
      obtain ⟨j, hj⟩ : ∃ j, 26 - n = j + 3 := ⟨23 - n, by omega⟩
      rw [hj]; exact Above.recv 1 (by decide) _ _ _ _)

theorem above_Oat3 (c : Dev nD) : Above 1 (Oat c 3) := above1_lastPays c 24 (le_refl _)

theorem O₀_eq_Oat (c : Dev nD) : O₀ c = Oat c 0 :=
  calc O₀ c = pay c 0 + pay c 1 + pay c 2 + (pay c 3 + pay c 4 + pay c 5 + (pay c 6 + pay c 7 + pay c 8 + (pay c 9 + pay c 10 + pay c 11 + (pay c 12 + pay c 13 + pay c 14 + (pay c 15 + pay c 16 + pay c 17 + (pay c 18 + pay c 19 + pay c 20 + (pay c 21 + pay c 22 + pay c 23 + (pay c 24 + pay c 25 + pay c 26)))))))) := rfl
    _ = Oat c 0 := by
      simp only [Oat, lastPays, Nat.reduceSub, zero_add]
      ac_rfl

section Atoms
variable (c : Dev nD)

abbrev xinPt (j : Fin 8) : sProp 𝕄 :=
  (xinM j).view.loc (c : Thread nD τ) ↦[(xinM j).view.set]{fullShare} (m ((c : Thread nD τ).loc main_arg0))
abbrev xvPt (j : Fin 8) (f : Buf (Elt F) ((c : Thread nD τ).loc cc0_scratch0)) : sProp 𝕄 :=
  (xvM j).view.loc (c : Thread nD τ) ↦[(xvM j).view.set]{fullShare} f
abbrev ovPt (j : Fin 8) (f : Buf (Elt F) ((c : Thread nD τ).loc cc0_scratch1)) : sProp 𝕄 :=
  (ovM j).view.loc (c : Thread nD τ) ↦[(ovM j).view.set]{fullShare} f
abbrev outPt (j : Fin 8) (f : Buf (Elt F) ((c : Thread nD τ).loc main_v1)) : sProp 𝕄 :=
  (outM j).view.loc (c : Thread nD τ) ↦[(outM j).view.set]{fullShare} f

abbrev loadFlight (j : Fin 8) (f0 : Buf (Elt F) ((c : Thread nD τ).loc cc0_scratch0)) : sProp 𝕄 :=
  Transfers.Flight countersEmb (c : Thread nD τ) (SemLoc.dma (locS ⟨j.val, by omega⟩)) default 65536
    iprop(((xvM j).view.loc (c : Thread nD τ) ↦[(xvM j).view.set]{fullShare}
        (xvM j).view.writes (Elt F) f0 [⟨Rect.whole S512x1024, ReadAs.same.apply ((xinM j).view.read (Elt F) (m ((c : Thread nD τ).loc main_arg0)))⟩])
      ∗ xinPt m c j)

abbrev storeFlight (j : Fin 8) (fo : Buf (Elt F) ((c : Thread nD τ).loc main_v1)) : sProp 𝕄 :=
  Transfers.Flight countersEmb (c : Thread nD τ) (SemLoc.dma (locS ⟨8 + j.val, by omega⟩)) default 32768
    iprop(((outM j).view.loc (c : Thread nD τ) ↦[(outM j).view.set]{fullShare}
        (outM j).view.writes (Elt F) fo [⟨Rect.whole S512x1024, ReadAs.same.apply ((ovM j).view.read (Elt F) (ovFin m c))⟩])
      ∗ ovPt c j (ovFin m c))

abbrev sem0 (i : Fin 16) : sProp 𝕄 := semVal ((c : Thread nD τ), SemLoc.dma (locS i)) 0

abbrev owesAny (O : CellTallies nD τ sig Unit) : sProp 𝕄 := iprop(∃ W : Waits sig Unit, owes (c : Thread nD τ) O W)

end Atoms

/-- info: 'Cert.Kernel.Proto.send_piece' depends on axioms: [propext, Classical.choice, Quot.sound] -/
#guard_msgs in #print axioms send_piece

/-- info: 'Cert.Kernel.Proto.O₀_eq_Oat' depends on axioms: [propext, Classical.choice, Quot.sound] -/
#guard_msgs in #print axioms O₀_eq_Oat

end Cert.Kernel.Proto

end
-- ==== Proof.Parts1Kernel.lean ====
import proofs.«901004_g7700000000001005_dist_rmsnorm_colshard_i_m4096_n1024_v7x_i4_bf16_1_alg».proof.Proof.ResKernel
import Idealize.ShloMosaic.Lib.ValueLayout

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : GSem nD τ sig → ℕ) (c : Dev nD)
  (harg0 : (Memref.whole main_arg0 : Memref sig .tc .hbm S4096x1024 .f32).IsWhole) (arg1 : Memref sig .tc .vmem S1024 .f32) (harg1 : arg1.IsWhole)
  (harg2 : (Memref.whole main_v1 : Memref sig .tc .hbm S4096x1024 .bf16).IsWhole) (harg3 : (Memref.whole cc0_scratch0 : Memref sig .tc .vmem S8x512x1024 .f32).IsWhole)
  (harg4 : (Memref.whole cc0_scratch1 : Memref sig .tc .vmem S8x512x1024 .bf16).IsWhole) (harg5 : (Memref.whole cc0_scratch2 : Memref sig .tc .vmem S4x32x128 .f32).IsWhole)

theorem lv_loc : ∀ (c : Dev nD) (i : Fin 16), lv ((c : Thread nD τ), SemLoc.dma (locS i)) () = 0 := by decide

theorem xv_landed (c : Dev nD) (j : Fin 8) (g : Buf (Elt F) ((c : Thread nD τ).loc cc0_scratch0)) :
    ∀ i ∈ (xvM j).view.set,
      ((xvM j).view.writes (Elt F) g [⟨Rect.whole S512x1024, ReadAs.same.apply ((xinM j).view.read (Elt F) (m ((c : Thread nD τ).loc main_arg0)))⟩]) i
        = xvFin m c i := by
  intro i hi
  obtain ⟨y, rfl⟩ := View.exists_emb_of_mem_set _ hi
  obtain ⟨r, l, rfl⟩ : ∃ (r : Fin 512) (l : Fin 1024), y = ix2 r l := ⟨y 0, y 1, eq_ix2 y⟩
  have e1 : (xvM j).view.emb (ix2 r l) = ((xvM j).view.slice (Rect.whole S512x1024)).emb (ix2 r l) := by
    show (xvM j).view.emb (ix2 r l) = (xvM j).view.emb ((Rect.whole S512x1024).emb (ix2 r l))
    rw [Rect.emb_whole_apply]
  rw [View.writes_singleton, e1, View.write_emb_of_mem _ _ (Finset.mem_univ _), ← e1]
  show _root_.cast _ ((xinM j).view.read (Elt F) (m ((c : Thread nD τ).loc main_arg0)) (ix2 r l)) = _
  rw [View.read_apply]
  refine (cast_cast_self _ _ _).trans ?_
  have e2 : (xvM j).view.emb (ix2 r l) = (chunkR j).emb (ix3 (⟨0, Nat.one_pos⟩ : Fin 1) r l) := by
    show (chunkR j).emb (Shape.reshapeEquiv squeezes_S1x512x1024_S512x1024.numel_eq (ix2 r l)) = _
    rw [reshapeEquiv_ix2_1ab]
  rw [e2]
  unfold xvFin
  refine congrArg (m ((c : Thread nD τ).loc main_arg0)) (funext fun a => Fin.ext ?_)
  match a with
  | ⟨0, _⟩ => show 512 * j.val + 1 * r.val = 512 * (j.val + 1 * 0) + (0 + 1 * r.val); omega
  | ⟨1, _⟩ => show 0 + 1 * l.val = 0 + 1 * l.val; rfl

theorem chunk_read (c : Dev nD) (h : Fin 8) (G : Buf (Elt F) ((c : Thread nD τ).loc cc0_scratch0))
    (hG : ∀ i ∈ (xvM h).view.set, G i = xvFin m c i) (inb : ∀ a, (![h.val, 0, 0] : Fin 3 → Nat) a + S1x512x1024.size a ≤ S8x512x1024.size a) :
    View.readAt (Elt F) (Memref.whole cc0_scratch0 : Memref sig .tc .vmem S8x512x1024 .f32).view
        (Rect.unit (s := S8x512x1024) ![h.val, 0, 0] S1x512x1024.size inb).toLoadRect G
      = Spec.xch (Spec.Xof m c) h := by
  have e : View.readAt (Elt F) (Memref.whole cc0_scratch0 : Memref sig .tc .vmem S8x512x1024 .f32).view
        (Rect.unit (s := S8x512x1024) ![h.val, 0, 0] S1x512x1024.size inb).toLoadRect G
      = View.readAt (Elt F) (Memref.whole cc0_scratch0 : Memref sig .tc .vmem S8x512x1024 .f32).view
        (Rect.unit (s := S8x512x1024) ![h.val, 0, 0] S1x512x1024.size inb).toLoadRect (xvFin m c) := by
    refine View.readAt_congr fun i hi => ?_
    obtain ⟨x, hx, rfl⟩ := Finset.mem_map.mp hi
    exact hG _ (by rw [xv_set]; exact hx)
  rw [e]
  funext x
  rw [View.readAt_apply, View.read_apply]
  refine (cast_eq _ _).trans ?_
  unfold xvFin Spec.xch
  refine congrArg (Spec.Xof m c) (funext fun a => Fin.ext ?_)
  have x0 : (x 0).val < 1 := (x 0).isLt
  match a with
  | ⟨0, _⟩ => show 512 * (h.val + 1 * (x 0).val) + (0 + 1 * (x 1).val) = 512 * h.val + (x 1).val; omega
  | ⟨1, _⟩ => show 0 + 1 * (x 2).val = (x 2).val; omega

theorem piece_stored (c : Dev nD) (h : Fin 8) (f2 : Buf (Elt F) ((c : Thread nD τ).loc cc0_scratch2)) (v : Vec F S1x4x128 .f32)
    (hv : v = Spec.part (Spec.xch (Spec.Xof m c) h))
    (inb : ∀ a, (![3, 4 * h.val, 0] : Fin 3 → Nat) a + S1x4x128.size a ≤ S4x32x128.size a) :
    ∀ i ∈ (pieceM 3 h).view.set,
      (View.write (Elt F) ((Memref.whole cc0_scratch2 : Memref sig .tc .vmem S4x32x128 .f32).access
          (Rect.unit (s := S4x32x128) ![3, 4 * h.val, 0] S1x4x128.size inb)) f2 v Finset.univ) i = commFinal m c i := by
  intro i hi
  rw [piece_set, ← Rect.map_emb_univ] at hi
  obtain ⟨z, -, rfl⟩ := Finset.mem_map.mp hi
  have e1 : (Rect.unit (s := S4x32x128) ![(3 : Fin 4).val, 4 * h.val, 0] S1x4x128.size (piece_inb 3 h)).emb z
      = ((Memref.whole cc0_scratch2 : Memref sig .tc .vmem S4x32x128 .f32).access
          (Rect.unit (s := S4x32x128) ![3, 4 * h.val, 0] S1x4x128.size inb)).emb z := rfl
  rw [e1, View.write_emb_of_mem _ _ (Finset.mem_univ z), ← e1, hv]
  refine (cast_eq _ _).trans ?_
  have hs : Spec.part (Spec.xch (Spec.Xof m c) h) = Spec.slot (Spec.Xof m) c 3 h := by
    unfold Spec.slot; rw [Spec.srcDev_three]
  rw [hs]
  have z0 : (z 0).val < 1 := (z 0).isLt
  have z1 : (z 1).val < 4 := (z 1).isLt
  have hh : h.val < 8 := h.isLt
  show Spec.slot (Spec.Xof m) c 3 h z = Spec.slot (Spec.Xof m) c ⟨3 + 1 * (z 0).val, _⟩ ⟨(4 * h.val + 1 * (z 1).val) / 4, _⟩
    (ix3 (n0 := 1) (n1 := 4) (n2 := 128) 0 ⟨(4 * h.val + 1 * (z 1).val) % 4, _⟩ ⟨0 + 1 * (z 2).val, _⟩)
  refine slot_congr (Fin.ext (by show 3 = 3 + 1 * (z 0).val; omega)) (Fin.ext (by show h.val = (4 * h.val + 1 * (z 1).val) / 4; omega)) ?_
  funext a
  match a with
  | ⟨0, _⟩ => exact Fin.ext (by show (z 0).val = 0; omega)
  | ⟨1, _⟩ => exact Fin.ext (by show (z 1).val = (4 * h.val + 1 * (z 1).val) % 4; omega)
  | ⟨2, _⟩ => exact Fin.ext (by show (z 2).val = 0 + 1 * (z 2).val; omega)

def part4_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 3) W
    ∗ loadFlight m c 0 f0
    ∗ piecePt c 3 0 fullShare f2)

def part4_post (r : (BitVec 32)) : sProp 𝕄 :=
  iprop(owesAny c (Oat c 3)
    ∗ sem0 c 0
    ∗ xinPt m c 0
    ∗ xvPt c 0 (xvFin m c)
    ∗ quarters m c 0)

set_option maxHeartbeats 3200000 in
theorem part4_spec (W : Waits sig Unit) (f0 : Buf (Elt F) ((c : Thread nD τ).loc cc0_scratch0))
    (f2 : Buf (Elt F) ((c : Thread nD τ).loc cc0_scratch2)) (v2 : BitVec 32) :
    part4_pre m K c W f0 f2
      ⊢ wp frame (wpE (defs₀ (F := F)) 𝒱₀ (c : Thread nD τ) none) Set.univ
          (k0_part4 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v2)
          (fun r => part4_post m c r) := by
  rw [k0_part4_eq_skeleton]
  unfold k0_part4_skel part4_pre
  simp only [Prog.lift, Prog.bind_op, Prog.bind_ret, Prog.pure_eq_ret]
  iintro ⟨#Hinv, HO, Hfl, Hp⟩
  ihave Hlev := (invs_lev m K c) $$ Hinv
  have hmw : (levAts L lv : sProp 𝕄) ⊢ MayWait (c : Thread nD τ) (SemLoc.dma (locS 0)) () (Oat c 3) :=
    mayWait_of c _ 0 (le_of_eq (lv_loc c 0)) _ (above_Oat c 3)
  sl_exec
  rw [wp_ret]; imodintro
  ihave Hxv := (Entails.of_eq (pointsTo_congr (xv_landed m c 0 _))) $$ Hfl_dst
  ihave Hp := (Entails.of_eq (pointsTo_congr (piece_stored m c 0 f2 _ (congrArg _ (chunk_read m c 0 _ (xv_landed m c 0 _) _)) _))) $$ Hp
  ihave Hq := (piece_quarters c 3 0 (commFinal m c)).1 $$ Hp
  icases Hq with ⟨Q0, Q1, Q2, QK⟩
  unfold part4_post
  sl_close

def part5_pre (W : Waits sig Unit) : sProp 𝕄 :=
  iprop(invs m K c
    ∗ owes (c : Thread nD τ) (Oat c 3) W
    ∗ sendPre m c 0 0
    ∗ sendPre m c 1 0)

def part5_post (r : (Σ' (v127 : BitVec 32) (v140 : BitVec 32) (v141 : BitVec 32) (v142 : BitVec 1), BitVec 1)) : sProp 𝕄 :=
  iprop(owesAny c (Oat c 5)
    ∗ cred (tallyAt (sendCell c 0 0) () N)
    ∗ cred (tallyAt (sendCell c 1 0) () N))

set_option maxHeartbeats 3200000 in
theorem part5_spec (W : Waits sig Unit) (v2 : BitVec 32) :
    part5_pre m K c W
      ⊢ wp frame (wpE (defs₀ (F := F)) 𝒱₀ (c : Thread nD τ) none) Set.univ
          (k0_part5 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part5_post c r) := by
  rw [k0_part5_eq_skeleton]
  unfold k0_part5_skel part5_pre
  simp only [Prog.lift, Prog.bind_op, Prog.bind_ret, Prog.pure_eq_ret]
  iintro ⟨#Hinv, HO, Q00, Q01⟩
  iapply (send_piece m K c 0 0 _ (dev4_eq c) (Oat c 3) (Oat c 4) rfl _) $$ Hinv Q00 HO
  iintro ⟨C00, HO⟩
  iapply (send_piece m K c 1 0 _ (dev5_eq c) (Oat c 4) (Oat c 5) rfl _) $$ Hinv Q01 HO
  iintro ⟨C01, HO⟩
  rw [wp_ret]; imodintro
  unfold part5_post
  sl_close

def part6_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 5) W
    ∗ sendPre m c 2 0
    ∗ loadFlight m c 1 f0
    ∗ piecePt c 3 1 fullShare f2)

def part6_post (r : (Σ' (v148 : BitVec 32) (v172 : BitVec 32), BitVec 32)) : sProp 𝕄 :=
  iprop(owesAny c (Oat c 6)
    ∗ cred (tallyAt (sendCell c 2 0) () N)
    ∗ sem0 c 1
    ∗ xinPt m c 1
    ∗ xvPt c 1 (xvFin m c)
    ∗ quarters m c 1)

set_option maxHeartbeats 3200000 in
theorem part6_spec (W : Waits sig Unit) (f0 : Buf (Elt F) ((c : Thread nD τ).loc cc0_scratch0))
    (f2 : Buf (Elt F) ((c : Thread nD τ).loc cc0_scratch2)) (v2 : BitVec 32) (v140 : BitVec 32) (v141 : BitVec 32) (v142 : BitVec 1) (v143 : BitVec 1) :
    part6_pre m K c W f0 f2
      ⊢ wp frame (wpE (defs₀ (F := F)) 𝒱₀ (c : Thread nD τ) none) Set.univ
          (k0_part6 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v140 v141 v142 v143)
          (fun r => part6_post m c r) := by
  rw [k0_part6_eq_skeleton]
  unfold k0_part6_skel part6_pre
  simp only [Prog.lift, Prog.bind_op, Prog.bind_ret, Prog.pure_eq_ret]
  iintro ⟨#Hinv, HO, Q02, Hfl, Hp⟩
  iapply (send_piece m K c 2 0 _ (dev6_eq c) (Oat c 5) (Oat c 6) rfl _) $$ Hinv Q02 HO
  iintro ⟨C02, HO⟩
  ihave Hlev := (invs_lev m K c) $$ Hinv
  have hmw : (levAts L lv : sProp 𝕄) ⊢ MayWait (c : Thread nD τ) (SemLoc.dma (locS 1)) () (Oat c 6) :=
    mayWait_of c _ 0 (le_of_eq (lv_loc c 1)) _ (above_Oat c 6)
  sl_exec
  rw [wp_ret]; imodintro
  ihave Hxv := (Entails.of_eq (pointsTo_congr (xv_landed m c 1 _))) $$ Hfl_dst
  ihave Hp := (Entails.of_eq (pointsTo_congr (piece_stored m c 1 f2 _ (congrArg _ (chunk_read m c 1 _ (xv_landed m c 1 _) _)) _))) $$ Hp
  ihave Hq := (piece_quarters c 3 1 (commFinal m c)).1 $$ Hp
  icases Hq with ⟨Q0, Q1, Q2, QK⟩
  unfold part6_post
  sl_close

def part7_pre (W : Waits sig Unit) : sProp 𝕄 :=
  iprop(invs m K c
    ∗ owes (c : Thread nD τ) (Oat c 6) W
    ∗ sendPre m c 0 1)

def part7_post (r : (Σ' (v182 : BitVec 32), BitVec 32)) : sProp 𝕄 :=
  iprop(owesAny c (Oat c 7)
    ∗ cred (tallyAt (sendCell c 0 1) () N))

set_option maxHeartbeats 3200000 in
theorem part7_spec (W : Waits sig Unit) (v2 : BitVec 32) (v172 : BitVec 32) (c4_i32_145 : BitVec 32) :
    part7_pre m K c W
      ⊢ wp frame (wpE (defs₀ (F := F)) 𝒱₀ (c : Thread nD τ) none) Set.univ
          (k0_part7 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v172 c4_i32_145)
          (fun r => part7_post c r) := by
  rw [k0_part7_eq_skeleton]
  unfold k0_part7_skel part7_pre
  simp only [Prog.lift, Prog.bind_op, Prog.bind_ret, Prog.pure_eq_ret]
  iintro ⟨#Hinv, HO, Q10⟩
  iapply (send_piece m K c 0 1 _ (dev7_eq c) (Oat c 6) (Oat c 7) rfl _) $$ Hinv Q10 HO
  iintro ⟨C10, HO⟩
  rw [wp_ret]; imodintro
  unfold part7_post
  sl_close

def part8_pre (W : Waits sig Unit) : sProp 𝕄 :=
  iprop(invs m K c
    ∗ owes (c : Thread nD τ) (Oat c 7) W
    ∗ sendPre m c 1 1
    ∗ sendPre m c 2 1)

def part8_post (r : (BitVec 32)) : sProp 𝕄 :=
  iprop(owesAny c (Oat c 9)
    ∗ cred (tallyAt (sendCell c 1 1) () N)
    ∗ cred (tallyAt (sendCell c 2 1) () N))

set_option maxHeartbeats 3200000 in
theorem part8_spec (W : Waits sig Unit) (v2 : BitVec 32) (v203 : BitVec 32) :
    part8_pre m K c W
      ⊢ wp frame (wpE (defs₀ (F := F)) 𝒱₀ (c : Thread nD τ) none) Set.univ
          (k0_part8 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v203)
          (fun r => part8_post c r) := by
  rw [k0_part8_eq_skeleton]
  unfold k0_part8_skel part8_pre
  simp only [Prog.lift, Prog.bind_op, Prog.bind_ret, Prog.pure_eq_ret]
  iintro ⟨#Hinv, HO, Q11, Q12⟩
  iapply (send_piece m K c 1 1 _ (dev8_eq c) (Oat c 7) (Oat c 8) rfl _) $$ Hinv Q11 HO
  iintro ⟨C11, HO⟩
  iapply (send_piece m K c 2 1 _ (dev9_eq c) (Oat c 8) (Oat c 9) rfl _) $$ Hinv Q12 HO
  iintro ⟨C12, HO⟩
  rw [wp_ret]; imodintro
  unfold part8_post
  sl_close

def part9_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 9) W
    ∗ loadFlight m c 2 f0
    ∗ piecePt c 3 2 fullShare f2)

def part9_post (r : (BitVec 32)) : sProp 𝕄 :=
  iprop(owesAny c (Oat c 9)
    ∗ sem0 c 2
    ∗ xinPt m c 2
    ∗ xvPt c 2 (xvFin m c)
    ∗ quarters m c 2)

set_option maxHeartbeats 3200000 in
theorem part9_spec (W : Waits sig Unit) (f0 : Buf (Elt F) ((c : Thread nD τ).loc cc0_scratch0))
    (f2 : Buf (Elt F) ((c : Thread nD τ).loc cc0_scratch2)) (v2 : BitVec 32) :
    part9_pre m K c W f0 f2
      ⊢ wp frame (wpE (defs₀ (F := F)) 𝒱₀ (c : Thread nD τ) none) Set.univ
          (k0_part9 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v2)
          (fun r => part9_post m c r) := by
  rw [k0_part9_eq_skeleton]
  unfold k0_part9_skel part9_pre
  simp only [Prog.lift, Prog.bind_op, Prog.bind_ret, Prog.pure_eq_ret]
  iintro ⟨#Hinv, HO, Hfl, Hp⟩
  ihave Hlev := (invs_lev m K c) $$ Hinv
  have hmw : (levAts L lv : sProp 𝕄) ⊢ MayWait (c : Thread nD τ) (SemLoc.dma (locS 2)) () (Oat c 9) :=
    mayWait_of c _ 0 (le_of_eq (lv_loc c 2)) _ (above_Oat c 9)
  sl_exec
  rw [wp_ret]; imodintro
  ihave Hxv := (Entails.of_eq (pointsTo_congr (xv_landed m c 2 _))) $$ Hfl_dst
  ihave Hp := (Entails.of_eq (pointsTo_congr (piece_stored m c 2 f2 _ (congrArg _ (chunk_read m c 2 _ (xv_landed m c 2 _) _)) _))) $$ Hp
  ihave Hq := (piece_quarters c 3 2 (commFinal m c)).1 $$ Hp
  icases Hq with ⟨Q0, Q1, Q2, QK⟩
  unfold part9_post
  sl_close

def part10_pre (W : Waits sig Unit) : sProp 𝕄 :=
  iprop(invs m K c
    ∗ owes (c : Thread nD τ) (Oat c 9) W
    ∗ sendPre m c 0 2
    ∗ sendPre m c 1 2)

def part10_post (r : (Σ' (v279 : BitVec 32) (v292 : BitVec 32) (v293 : BitVec 32), BitVec 1)) : sProp 𝕄 :=
  iprop(owesAny c (Oat c 11)
    ∗ cred (tallyAt (sendCell c 0 2) () N)
    ∗ cred (tallyAt (sendCell c 1 2) () N))

set_option maxHeartbeats 3200000 in
theorem part10_spec (W : Waits sig Unit) (v2 : BitVec 32) :
    part10_pre m K c W
      ⊢ wp frame (wpE (defs₀ (F := F)) 𝒱₀ (c : Thread nD τ) none) Set.univ
          (k0_part10 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part10_post c r) := by
  rw [k0_part10_eq_skeleton]
  unfold k0_part10_skel part10_pre
  simp only [Prog.lift, Prog.bind_op, Prog.bind_ret, Prog.pure_eq_ret]
  iintro ⟨#Hinv, HO, Q20, Q21⟩
  iapply (send_piece m K c 0 2 _ (dev10_eq c) (Oat c 9) (Oat c 10) rfl _) $$ Hinv Q20 HO
  iintro ⟨C20, HO⟩
  iapply (send_piece m K c 1 2 _ (dev11_eq c) (Oat c 10) (Oat c 11) rfl _) $$ Hinv Q21 HO
  iintro ⟨C21, HO⟩
  rw [wp_ret]; imodintro
  unfold part10_post
  sl_close

def part11_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 11) W
    ∗ sendPre m c 2 2
    ∗ loadFlight m c 3 f0
    ∗ piecePt c 3 3 fullShare f2)

def part11_post (r : (Σ' (v300 : BitVec 32), BitVec 32)) : sProp 𝕄 :=
  iprop(owesAny c (Oat c 12)
    ∗ cred (tallyAt (sendCell c 2 2) () N)
    ∗ sem0 c 3
    ∗ xinPt m c 3
    ∗ xvPt c 3 (xvFin m c)
    ∗ quarters m c 3)

set_option maxHeartbeats 3200000 in
theorem part11_spec (W : Waits sig Unit) (f0 : Buf (Elt F) ((c : Thread nD τ).loc cc0_scratch0))
    (f2 : Buf (Elt F) ((c : Thread nD τ).loc cc0_scratch2)) (v292 : BitVec 32) (v293 : BitVec 32) (v294 : BitVec 1) :
    part11_pre m K c W f0 f2
      ⊢ wp frame (wpE (defs₀ (F := F)) 𝒱₀ (c : Thread nD τ) none) Set.univ
          (k0_part11 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v292 v293 v294)
          (fun r => part11_post m c r) := by
  rw [k0_part11_eq_skeleton]
  unfold k0_part11_skel part11_pre
  simp only [Prog.lift, Prog.bind_op, Prog.bind_ret, Prog.pure_eq_ret]
  iintro ⟨#Hinv, HO, Q22, Hfl, Hp⟩
  iapply (send_piece m K c 2 2 _ (dev12_eq c) (Oat c 11) (Oat c 12) rfl _) $$ Hinv Q22 HO
  iintro ⟨C22, HO⟩
  ihave Hlev := (invs_lev m K c) $$ Hinv
  have hmw : (levAts L lv : sProp 𝕄) ⊢ MayWait (c : Thread nD τ) (SemLoc.dma (locS 3)) () (Oat c 12) :=
    mayWait_of c _ 0 (le_of_eq (lv_loc c 3)) _ (above_Oat c 12)
  sl_exec
  rw [wp_ret]; imodintro
  ihave Hxv := (Entails.of_eq (pointsTo_congr (xv_landed m c 3 _))) $$ Hfl_dst
  ihave Hp := (Entails.of_eq (pointsTo_congr (piece_stored m c 3 f2 _ (congrArg _ (chunk_read m c 3 _ (xv_landed m c 3 _) _)) _))) $$ Hp
  ihave Hq := (piece_quarters c 3 3 (commFinal m c)).1 $$ Hp
  icases Hq with ⟨Q0, Q1, Q2, QK⟩
  unfold part11_post
  sl_close

def part12_pre (W : Waits sig Unit) : sProp 𝕄 :=
  iprop(invs m K c
    ∗ owes (c : Thread nD τ) (Oat c 12) W
    ∗ sendPre m c 0 3)

def part12_post (r : (Σ' (v334 : BitVec 32), BitVec 32)) : sProp 𝕄 :=
  iprop(owesAny c (Oat c 13)
    ∗ cred (tallyAt (sendCell c 0 3) () N))

set_option maxHeartbeats 3200000 in
theorem part12_spec (W : Waits sig Unit) (v2 : BitVec 32) (c1_i32_280 : BitVec 32) :
    part12_pre m K c W
      ⊢ wp frame (wpE (defs₀ (F := F)) 𝒱₀ (c : Thread nD τ) none) Set.univ
          (k0_part12 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 c1_i32_280)
          (fun r => part12_post c r) := by
  rw [k0_part12_eq_skeleton]
  unfold k0_part12_skel part12_pre
  simp only [Prog.lift, Prog.bind_op, Prog.bind_ret, Prog.pure_eq_ret]
  iintro ⟨#Hinv, HO, Q30⟩
  iapply (send_piece m K c 0 3 _ (dev13_eq c) (Oat c 12) (Oat c 13) rfl _) $$ Hinv Q30 HO
  iintro ⟨C30, HO⟩
  rw [wp_ret]; imodintro
  unfold part12_post
  sl_close

def part13_pre (W : Waits sig Unit) : sProp 𝕄 :=
  iprop(invs m K c
    ∗ owes (c : Thread nD τ) (Oat c 13) W
    ∗ sendPre m c 1 3)

def part13_post (r : (BitVec 32)) : sProp 𝕄 :=
  iprop(owesAny c (Oat c 14)
    ∗ cred (tallyAt (sendCell c 1 3) () N))

set_option maxHeartbeats 3200000 in
theorem part13_spec (W : Waits sig Unit) (v2 : BitVec 32) (v355 : BitVec 32) :
    part13_pre m K c W
      ⊢ wp frame (wpE (defs₀ (F := F)) 𝒱₀ (c : Thread nD τ) none) Set.univ
          (k0_part13 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v355)
          (fun r => part13_post c r) := by
  rw [k0_part13_eq_skeleton]
  unfold k0_part13_skel part13_pre
  simp only [Prog.lift, Prog.bind_op, Prog.bind_ret, Prog.pure_eq_ret]
  iintro ⟨#Hinv, HO, Q31⟩
  iapply (send_piece m K c 1 3 _ (dev14_eq c) (Oat c 13) (Oat c 14) rfl _) $$ Hinv Q31 HO
  iintro ⟨C31, HO⟩
  rw [wp_ret]; imodintro
  unfold part13_post
  sl_close

def part14_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 14) W
    ∗ sendPre m c 2 3
    ∗ loadFlight m c 4 f0
    ∗ piecePt c 3 4 fullShare f2)

def part14_post (r : (BitVec 32)) : sProp 𝕄 :=
  iprop(owesAny c (Oat c 15)
    ∗ cred (tallyAt (sendCell c 2 3) () N)
    ∗ sem0 c 4
    ∗ xinPt m c 4
    ∗ xvPt c 4 (xvFin m c)
    ∗ quarters m c 4)

set_option maxHeartbeats 3200000 in
theorem part14_spec (W : Waits sig Unit) (f0 : Buf (Elt F) ((c : Thread nD τ).loc cc0_scratch0))
    (f2 : Buf (Elt F) ((c : Thread nD τ).loc cc0_scratch2)) (v2 : BitVec 32) :
    part14_pre m K c W f0 f2
      ⊢ wp frame (wpE (defs₀ (F := F)) 𝒱₀ (c : Thread nD τ) none) Set.univ
          (k0_part14 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part14_post m c r) := by
  rw [k0_part14_eq_skeleton]
  unfold k0_part14_skel part14_pre
  simp only [Prog.lift, Prog.bind_op, Prog.bind_ret, Prog.pure_eq_ret]
  iintro ⟨#Hinv, HO, Q32, Hfl, Hp⟩
  iapply (send_piece m K c 2 3 _ (dev15_eq c) (Oat c 14) (Oat c 15) rfl _) $$ Hinv Q32 HO
  iintro ⟨C32, HO⟩
  ihave Hlev := (invs_lev m K c) $$ Hinv
  have hmw : (levAts L lv : sProp 𝕄) ⊢ MayWait (c : Thread nD τ) (SemLoc.dma (locS 4)) () (Oat c 15) :=
    mayWait_of c _ 0 (le_of_eq (lv_loc c 4)) _ (above_Oat c 15)
  sl_exec
  rw [wp_ret]; imodintro
  ihave Hxv := (Entails.of_eq (pointsTo_congr (xv_landed m c 4 _))) $$ Hfl_dst
  ihave Hp := (Entails.of_eq (pointsTo_congr (piece_stored m c 4 f2 _ (congrArg _ (chunk_read m c 4 _ (xv_landed m c 4 _) _)) _))) $$ Hp
  ihave Hq := (piece_quarters c 3 4 (commFinal m c)).1 $$ Hp
  icases Hq with ⟨Q0, Q1, Q2, QK⟩
  unfold part14_post
  sl_close

def part15_pre (W : Waits sig Unit) : sProp 𝕄 :=
  iprop(invs m K c
    ∗ owes (c : Thread nD τ) (Oat c 15) W
    ∗ sendPre m c 0 4
    ∗ sendPre m c 1 4)

def part15_post (r : (Σ' (v431 : BitVec 32) (v444 : BitVec 32), BitVec 32)) : sProp 𝕄 :=
  iprop(owesAny c (Oat c 17)
    ∗ cred (tallyAt (sendCell c 0 4) () N)
    ∗ cred (tallyAt (sendCell c 1 4) () N))

set_option maxHeartbeats 3200000 in
theorem part15_spec (W : Waits sig Unit) (v2 : BitVec 32) :
    part15_pre m K c W
      ⊢ wp frame (wpE (defs₀ (F := F)) 𝒱₀ (c : Thread nD τ) none) Set.univ
          (k0_part15 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part15_post c r) := by
  rw [k0_part15_eq_skeleton]
  unfold k0_part15_skel part15_pre
  simp only [Prog.lift, Prog.bind_op, Prog.bind_ret, Prog.pure_eq_ret]
  iintro ⟨#Hinv, HO, Q40, Q41⟩
  iapply (send_piece m K c 0 4 _ (dev16_eq c) (Oat c 15) (Oat c 16) rfl _) $$ Hinv Q40 HO
  iintro ⟨C40, HO⟩
  iapply (send_piece m K c 1 4 _ (dev17_eq c) (Oat c 16) (Oat c 17) rfl _) $$ Hinv Q41 HO
  iintro ⟨C41, HO⟩
  rw [wp_ret]; imodintro
  unfold part15_post
  sl_close

def part16_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 17) W
    ∗ sendPre m c 2 4
    ∗ loadFlight m c 5 f0
    ∗ piecePt c 3 5 fullShare f2)

def part16_post (f2 : Buf (Elt F) ((c : Thread nD τ).loc cc0_scratch2)) (r : (Σ' (v452 : BitVec 32), FVec F S1x4x128 .f32)) : sProp 𝕄 :=
  iprop(owesAny c (Oat c 18)
    ∗ cred (tallyAt (sendCell c 2 4) () N)
    ∗ sem0 c 5
    ∗ xinPt m c 5
    ∗ xvPt c 5 (xvFin m c)
    ∗ piecePt c 3 5 fullShare f2
    ∗ ⌜r.2 = Spec.part (Spec.xch (Spec.Xof m c) 5)⌝)

set_option maxHeartbeats 3200000 in
theorem part16_spec (W : Waits sig Unit) (f0 : Buf (Elt F) ((c : Thread nD τ).loc cc0_scratch0))
    (f2 : Buf (Elt F) ((c : Thread nD τ).loc cc0_scratch2)) (v444 : BitVec 32) (v445 : BitVec 32) :
    part16_pre m K c W f0 f2
      ⊢ wp frame (wpE (defs₀ (F := F)) 𝒱₀ (c : Thread nD τ) none) Set.univ
          (k0_part16 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v444 v445)
          (fun r => part16_post m c f2 r) := by
  rw [k0_part16_eq_skeleton]
  unfold k0_part16_skel part16_pre
  simp only [Prog.lift, Prog.bind_op, Prog.bind_ret, Prog.pure_eq_ret]
  iintro ⟨#Hinv, HO, Q42, Hfl, Hp⟩
  iapply (send_piece m K c 2 4 _ (dev18_eq c) (Oat c 17) (Oat c 18) rfl _) $$ Hinv Q42 HO
  iintro ⟨C42, HO⟩
  ihave Hlev := (invs_lev m K c) $$ Hinv
  have hmw : (levAts L lv : sProp 𝕄) ⊢ MayWait (c : Thread nD τ) (SemLoc.dma (locS 5)) () (Oat c 18) :=
    mayWait_of c _ 0 (le_of_eq (lv_loc c 5)) _ (above_Oat c 18)
  sl_exec
  rw [wp_ret]; imodintro
  ihave Hxv := (Entails.of_eq (pointsTo_congr (xv_landed m c 5 _))) $$ Hfl_dst
  unfold part16_post
  isplitl [HO]; · iexists _; iexact HO
  isplitl [C42]; · iexact C42
  isplitl [Hfl]; · iexact Hfl
  isplitl [Hfl_src]; · iexact Hfl_src
  isplitl [Hxv]; · iexact Hxv
  isplitl [Hp]; · iexact Hp
  ipureintro; exact congrArg k0_pay6 (chunk_read m c 5 _ (xv_landed m c 5 _) _)

def part17_pre (W : Waits sig Unit)
    (f2 : Buf (Elt F) ((c : Thread nD τ).loc cc0_scratch2)) : sProp 𝕄 :=
  iprop(invs m K c
    ∗ owes (c : Thread nD τ) (Oat c 18) W
    ∗ piecePt c 3 5 fullShare f2
    ∗ (∃ f, piecePt (pd c 0) (up (opp 0)) 5 fullShare f)
    ∗ reached ER (recvCell (pd c 0) (opp 0) 5) 0
    ∗ dutyTok ER (sendCell c 0 5) 0 0
    ∗ dutyTok ER (recvCell (pd c 0) (opp 0) 5) 0 0)

def part17_post (r : (Σ' (v486 : BitVec 32), BitVec 32)) : sProp 𝕄 :=
  iprop(owesAny c (Oat c 19)
    ∗ cred (tallyAt (sendCell c 0 5) () N)
    ∗ piecePt c 3 5 (qS 1) (commFinal m c)
    ∗ piecePt c 3 5 (qS 2) (commFinal m c)
    ∗ piecePt c 3 5 qK (commFinal m c))

set_option maxHeartbeats 3200000 in
theorem part17_spec (W : Waits sig Unit)
    (f2 : Buf (Elt F) ((c : Thread nD τ).loc cc0_scratch2)) (v2 : BitVec 32) (v475 : FVec F S1x4x128 .f32) (hv : v475 = Spec.part (Spec.xch (Spec.Xof m c) 5)) :
    part17_pre m K c W f2
      ⊢ wp frame (wpE (defs₀ (F := F)) 𝒱₀ (c : Thread nD τ) none) Set.univ
          (k0_part17 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v475)
          (fun r => part17_post m c r) := by
  rw [k0_part17_eq_skeleton]
  unfold k0_part17_skel part17_pre
  simp only [Prog.lift, Prog.bind_op, Prog.bind_ret, Prog.pure_eq_ret]
  iintro ⟨#Hinv, HO, Hp, PE50, #RR50, TS50, TR50⟩
  sl_exec
  ihave Hp := (Entails.of_eq (pointsTo_congr (piece_stored m c 5 f2 _ (by rw [hv]) _))) $$ Hp
  ihave Hq := (piece_quarters c 3 5 (commFinal m c)).1 $$ Hp
  icases Hq with ⟨Q0, Q1, Q2, QK⟩
  iapply (send_piece m K c 0 5 _ (dev19_eq c) (Oat c 18) (Oat c 19) rfl _) $$ Hinv [Q0 PE50 TS50 TR50] HO
  · isplitl [Q0]; · iexact Q0
    isplitl [PE50]; · iexact PE50
    isplitr; · iexact RR50
    isplitl [TS50]; · iexact TS50
    iexact TR50
  iintro ⟨C50, HO⟩
  rw [wp_ret]; imodintro
  unfold part17_post
  sl_close

def part18_pre (W : Waits sig Unit) : sProp 𝕄 :=
  iprop(invs m K c
    ∗ owes (c : Thread nD τ) (Oat c 19) W
    ∗ sendPre m c 1 5)

def part18_post (r : (BitVec 32)) : sProp 𝕄 :=
  iprop(owesAny c (Oat c 20)
    ∗ cred (tallyAt (sendCell c 1 5) () N))

set_option maxHeartbeats 3200000 in
theorem part18_spec (W : Waits sig Unit) (v2 : BitVec 32) (v507 : BitVec 32) :
    part18_pre m K c W
      ⊢ wp frame (wpE (defs₀ (F := F)) 𝒱₀ (c : Thread nD τ) none) Set.univ
          (k0_part18 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v507)
          (fun r => part18_post c r) := by
  rw [k0_part18_eq_skeleton]
  unfold k0_part18_skel part18_pre
  simp only [Prog.lift, Prog.bind_op, Prog.bind_ret, Prog.pure_eq_ret]
  iintro ⟨#Hinv, HO, Q51⟩
  iapply (send_piece m K c 1 5 _ (dev20_eq c) (Oat c 19) (Oat c 20) rfl _) $$ Hinv Q51 HO
  iintro ⟨C51, HO⟩
  rw [wp_ret]; imodintro
  unfold part18_post
  sl_close

def part19_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 20) W
    ∗ sendPre m c 2 5
    ∗ loadFlight m c 6 f0
    ∗ piecePt c 3 6 fullShare f2)

def part19_post (r : (BitVec 32)) : sProp 𝕄 :=
  iprop(owesAny c (Oat c 21)
    ∗ cred (tallyAt (sendCell c 2 5) () N)
    ∗ sem0 c 6
    ∗ xinPt m c 6
    ∗ xvPt c 6 (xvFin m c)
    ∗ quarters m c 6)

set_option maxHeartbeats 3200000 in
theorem part19_spec (W : Waits sig Unit) (f0 : Buf (Elt F) ((c : Thread nD τ).loc cc0_scratch0))
    (f2 : Buf (Elt F) ((c : Thread nD τ).loc cc0_scratch2)) (v2 : BitVec 32) :
    part19_pre m K c W f0 f2
      ⊢ wp frame (wpE (defs₀ (F := F)) 𝒱₀ (c : Thread nD τ) none) Set.univ
          (k0_part19 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part19_post m c r) := by
  rw [k0_part19_eq_skeleton]
  unfold k0_part19_skel part19_pre
  simp only [Prog.lift, Prog.bind_op, Prog.bind_ret, Prog.pure_eq_ret]
  iintro ⟨#Hinv, HO, Q52, Hfl, Hp⟩
  iapply (send_piece m K c 2 5 _ (dev21_eq c) (Oat c 20) (Oat c 21) rfl _) $$ Hinv Q52 HO
  iintro ⟨C52, HO⟩
  ihave Hlev := (invs_lev m K c) $$ Hinv
  have hmw : (levAts L lv : sProp 𝕄) ⊢ MayWait (c : Thread nD τ) (SemLoc.dma (locS 6)) () (Oat c 21) :=
    mayWait_of c _ 0 (le_of_eq (lv_loc c 6)) _ (above_Oat c 21)
  sl_exec
  rw [wp_ret]; imodintro
  ihave Hxv := (Entails.of_eq (pointsTo_congr (xv_landed m c 6 _))) $$ Hfl_dst
  ihave Hp := (Entails.of_eq (pointsTo_congr (piece_stored m c 6 f2 _ (congrArg _ (chunk_read m c 6 _ (xv_landed m c 6 _) _)) _))) $$ Hp
  ihave Hq := (piece_quarters c 3 6 (commFinal m c)).1 $$ Hp
  icases Hq with ⟨Q0, Q1, Q2, QK⟩
  unfold part19_post
  sl_close

def part20_pre (W : Waits sig Unit) : sProp 𝕄 :=
  iprop(invs m K c
    ∗ owes (c : Thread nD τ) (Oat c 21) W
    ∗ sendPre m c 0 6
    ∗ sendPre m c 1 6)

def part20_post (r : (Σ' (v583 : BitVec 32) (v594 : BitVec 32) (c4_i32_520 : BitVec 32) (v595 : BitVec 1), BitVec 32)) : sProp 𝕄 :=
  iprop(owesAny c (Oat c 23)
    ∗ cred (tallyAt (sendCell c 0 6) () N)
    ∗ cred (tallyAt (sendCell c 1 6) () N))

set_option maxHeartbeats 3200000 in
theorem part20_spec (W : Waits sig Unit) (v2 : BitVec 32) :
    part20_pre m K c W
      ⊢ wp frame (wpE (defs₀ (F := F)) 𝒱₀ (c : Thread nD τ) none) Set.univ
          (k0_part20 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2)
          (fun r => part20_post c r) := by
  rw [k0_part20_eq_skeleton]
  unfold k0_part20_skel part20_pre
  simp only [Prog.lift, Prog.bind_op, Prog.bind_ret, Prog.pure_eq_ret]
  iintro ⟨#Hinv, HO, Q60, Q61⟩
  iapply (send_piece m K c 0 6 _ (dev22_eq c) (Oat c 21) (Oat c 22) rfl _) $$ Hinv Q60 HO
  iintro ⟨C60, HO⟩
  iapply (send_piece m K c 1 6 _ (dev23_eq c) (Oat c 22) (Oat c 23) rfl _) $$ Hinv Q61 HO
  iintro ⟨C61, HO⟩
  rw [wp_ret]; imodintro
  unfold part20_post
  sl_close

def part21_pre (W : Waits sig Unit) (f0 : Buf (Elt F) ((c : Thread nD τ).loc cc0_scratch0))
    (f2 : Buf (Elt F) ((c : Thread nD τ).loc cc0_scratch2)) : sProp 𝕄 :=
  iprop(invs m K c
    ∗ owes (c : Thread nD τ) (Oat c 23) W
    ∗ sendPre m c 2 6
    ∗ loadFlight m c 7 f0
    ∗ piecePt c 3 7 fullShare f2)

def part21_post (f2 : Buf (Elt F) ((c : Thread nD τ).loc cc0_scratch2)) (r : (Σ' (v604 : BitVec 32) (v624 : FVec F S4x128 .f32), Vec F S1x4x128 .f32)) : sProp 𝕄 :=
  iprop(owesAny c (Oat c 24)
    ∗ cred (tallyAt (sendCell c 2 6) () N)
    ∗ sem0 c 7
    ∗ xinPt m c 7
    ∗ xvPt c 7 (xvFin m c)
    ∗ piecePt c 3 7 fullShare f2
    ∗ ⌜r.2.1 = k0_pay8 (Spec.xch (Spec.Xof m c) 7)⌝)

set_option maxHeartbeats 3200000 in
theorem part21_spec (W : Waits sig Unit) (f0 : Buf (Elt F) ((c : Thread nD τ).loc cc0_scratch0))
    (f2 : Buf (Elt F) ((c : Thread nD τ).loc cc0_scratch2)) (v594 : BitVec 32) (c4_i32_520 : BitVec 32) (v595 : BitVec 1) (c1_i32_522 : BitVec 32) :
    part21_pre m K c W f0 f2
      ⊢ wp frame (wpE (defs₀ (F := F)) 𝒱₀ (c : Thread nD τ) none) Set.univ
          (k0_part21 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v594 c4_i32_520 v595 c1_i32_522)
          (fun r => part21_post m c f2 r) := by
  rw [k0_part21_eq_skeleton]
  unfold k0_part21_skel part21_pre
  simp only [Prog.lift, Prog.bind_op, Prog.bind_ret, Prog.pure_eq_ret]
  iintro ⟨#Hinv, HO, Q62, Hfl, Hp⟩
  iapply (send_piece m K c 2 6 _ (dev24_eq c) (Oat c 23) (Oat c 24) rfl _) $$ Hinv Q62 HO
  iintro ⟨C62, HO⟩
  ihave Hlev := (invs_lev m K c) $$ Hinv
  have hmw : (levAts L lv : sProp 𝕄) ⊢ MayWait (c : Thread nD τ) (SemLoc.dma (locS 7)) () (Oat c 24) :=
    mayWait_of c _ 0 (le_of_eq (lv_loc c 7)) _ (above_Oat c 24)
  sl_exec
  rw [wp_ret]; imodintro
  ihave Hxv := (Entails.of_eq (pointsTo_congr (xv_landed m c 7 _))) $$ Hfl_dst
  unfold part21_post
  isplitl [HO]; · iexists _; iexact HO
  isplitl [C62]; · iexact C62
  isplitl [Hfl]; · iexact Hfl
  isplitl [Hfl_src]; · iexact Hfl_src
  isplitl [Hxv]; · iexact Hxv
  isplitl [Hp]; · iexact Hp
  ipureintro; exact congrArg k0_pay8 (chunk_read m c 7 _ (xv_landed m c 7 _) _)

def part22_pre (W : Waits sig Unit)
    (f2 : Buf (Elt F) ((c : Thread nD τ).loc cc0_scratch2)) : sProp 𝕄 :=
  iprop(invs m K c
    ∗ owes (c : Thread nD τ) (Oat c 24) W
    ∗ piecePt c 3 7 fullShare f2
    ∗ (∃ f, piecePt (pd c 0) (up (opp 0)) 7 fullShare f)
    ∗ reached ER (recvCell (pd c 0) (opp 0) 7) 0
    ∗ dutyTok ER (sendCell c 0 7) 0 0
    ∗ dutyTok ER (recvCell (pd c 0) (opp 0) 7) 0 0)

def part22_post (r : (Σ' (v638 : BitVec 32) (v651 : BitVec 32) (v652 : BitVec 32), BitVec 1)) : sProp 𝕄 :=
  iprop(owesAny c (Oat c 25)
    ∗ cred (tallyAt (sendCell c 0 7) () N)
    ∗ piecePt c 3 7 (qS 1) (commFinal m c)
    ∗ piecePt c 3 7 (qS 2) (commFinal m c)
    ∗ piecePt c 3 7 qK (commFinal m c))

set_option maxHeartbeats 3200000 in
theorem part22_spec (W : Waits sig Unit)
    (f2 : Buf (Elt F) ((c : Thread nD τ).loc cc0_scratch2)) (v2 : BitVec 32) (v624 : FVec F S4x128 .f32) (v625 : Vec F S1x4x128 .f32) (hv : v624 = k0_pay8 (Spec.xch (Spec.Xof m c) 7)) :
    part22_pre m K c W f2
      ⊢ wp frame (wpE (defs₀ (F := F)) 𝒱₀ (c : Thread nD τ) none) Set.univ
          (k0_part22 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v624 v625)
          (fun r => part22_post m c r) := by
  rw [k0_part22_eq_skeleton]
  unfold k0_part22_skel part22_pre
  simp only [Prog.lift, Prog.bind_op, Prog.bind_ret, Prog.pure_eq_ret]
  iintro ⟨#Hinv, HO, Hp, PE70, #RR70, TS70, TR70⟩
  sl_exec
  ihave Hp := (Entails.of_eq (pointsTo_congr (piece_stored m c 7 f2 _ (by rw [hv]; rfl) _))) $$ Hp
  ihave Hq := (piece_quarters c 3 7 (commFinal m c)).1 $$ Hp
  icases Hq with ⟨Q0, Q1, Q2, QK⟩
  iapply (send_piece m K c 0 7 _ (dev25_eq c) (Oat c 24) (Oat c 25) rfl _) $$ Hinv [Q0 PE70 TS70 TR70] HO
  · isplitl [Q0]; · iexact Q0
    isplitl [PE70]; · iexact PE70
    isplitr; · iexact RR70
    isplitl [TS70]; · iexact TS70
    iexact TR70
  iintro ⟨C70, HO⟩
  rw [wp_ret]; imodintro
  unfold part22_post
  sl_close

def part23_pre (W : Waits sig Unit) : sProp 𝕄 :=
  iprop(invs m K c
    ∗ owes (c : Thread nD τ) (Oat c 25) W
    ∗ sendPre m c 1 7)

def part23_post (r : (Σ' (v659 : BitVec 32), BitVec 32)) : sProp 𝕄 :=
  iprop(owesAny c (Oat c 26)
    ∗ cred (tallyAt (sendCell c 1 7) () N))

set_option maxHeartbeats 3200000 in
theorem part23_spec (W : Waits sig Unit) (v2 : BitVec 32) (v651 : BitVec 32) (v652 : BitVec 32) (v657 : BitVec 1) :
    part23_pre m K c W
      ⊢ wp frame (wpE (defs₀ (F := F)) 𝒱₀ (c : Thread nD τ) none) Set.univ
          (k0_part23 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 c v2 v651 v652 v657)
          (fun r => part23_post c r) := by
  rw [k0_part23_eq_skeleton]
  unfold k0_part23_skel part23_pre
  simp only [Prog.lift, Prog.bind_op, Prog.bind_ret, Prog.pure_eq_ret]
  iintro ⟨#Hinv, HO, Q71⟩
  iapply (send_piece m K c 1 7 _ (dev26_eq c) (Oat c 25) (Oat c 26) rfl _) $$ Hinv Q71 HO
  iintro ⟨C71, HO⟩
  rw [wp_ret]; imodintro
  unfold part23_post
  sl_close

/-- info: 'Cert.Kernel.Proto.part4_spec' depends on axioms: [propext, Classical.choice, Quot.sound] -/
#guard_msgs in #print axioms part4_spec

/-- info: 'Cert.Kernel.Proto.part5_spec' depends on axioms: [propext, Classical.choice, Quot.sound] -/
#guard_msgs in #print axioms part5_spec

/-- info: 'Cert.Kernel.Proto.part6_spec' depends on axioms: [propext, Classical.choice, Quot.sound] -/
#guard_msgs in #print axioms part6_spec

/-- info: 'Cert.Kernel.Proto.part7_spec' depends on axioms: [propext, Classical.choice, Quot.sound] -/
#guard_msgs in #print axioms part7_spec

/-- info: 'Cert.Kernel.Proto.part8_spec' depends on axioms: [propext, Classical.choice, Quot.sound] -/
#guard_msgs in #print axioms part8_spec

/-- info: 'Cert.Kernel.Proto.part9_spec' depends on axioms: [propext, Classical.choice, Quot.sound] -/
#guard_msgs in #print axioms part9_spec

/-- info: 'Cert.Kernel.Proto.part10_spec' depends on axioms: [propext, Classical.choice, Quot.sound] -/
#guard_msgs in #print axioms part10_spec

/-- info: 'Cert.Kernel.Proto.part11_spec' depends on axioms: [propext, Classical.choice, Quot.sound] -/
#guard_msgs in #print axioms part11_spec

/-- info: 'Cert.Kernel.Proto.part12_spec' depends on axioms: [propext, Classical.choice, Quot.sound] -/
#guard_msgs in #print axioms part12_spec

/-- info: 'Cert.Kernel.Proto.part13_spec' depends on axioms: [propext, Classical.choice, Quot.sound] -/
#guard_msgs in #print axioms part13_spec

/-- info: 'Cert.Kernel.Proto.part14_spec' depends on axioms: [propext, Classical.choice, Quot.sound] -/
#guard_msgs in #print axioms part14_spec

/-- info: 'Cert.Kernel.Proto.part15_spec' depends on axioms: [propext, Classical.choice, Quot.sound] -/
#guard_msgs in #print axioms part15_spec

/-- info: 'Cert.Kernel.Proto.part16_spec' depends on axioms: [propext, Classical.choice, Quot.sound] -/
#guard_msgs in #print axioms part16_spec

/-- info: 'Cert.Kernel.Proto.part17_spec' depends on axioms: [propext, Classical.choice, Quot.sound] -/
#guard_msgs in #print axioms part17_spec

/-- info: 'Cert.Kernel.Proto.part18_spec' depends on axioms: [propext, Classical.choice, Quot.sound] -/
#guard_msgs in #print axioms part18_spec

/-- info: 'Cert.Kernel.Proto.part19_spec' depends on axioms: [propext, Classical.choice, Quot.sound] -/
#guard_msgs in #print axioms part19_spec

/-- info: 'Cert.Kernel.Proto.part20_spec' depends on axioms: [propext, Classical.choice, Quot.sound] -/
#guard_msgs in #print axioms part20_spec

/-- info: 'Cert.Kernel.Proto.part21_spec' depends on axioms: [propext, Classical.choice, Quot.sound] -/
#guard_msgs in #print axioms part21_spec

/-- info: 'Cert.Kernel.Proto.part22_spec' depends on axioms: [propext, Classical.choice, Quot.sound] -/
#guard_msgs in #print axioms part22_spec

/-- info: 'Cert.Kernel.Proto.part23_spec' depends on axioms: [propext, Classical.choice, Quot.sound] -/
#guard_msgs in #print axioms part23_spec

end Cert.Kernel.Proto

end
-- ==== Proof.Parts2Kernel.lean ====
import proofs.«901004_g7700000000001005_dist_rmsnorm_colshard_i_m4096_n1024_v7x_i4_bf16_1_alg».proof.Proof.ResKernel

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev gam (c : Dev nD) : FVec F S1024 .f32 := k0_pay10 (Spec.Gof m c)
abbrev sl (c : Dev nD) (k : Fin 4) (h : Fin 8) : FVec F S1x4x128 .f32 := Spec.slot (Spec.Xof m) c k h
abbrev xc (c : Dev nD) (h : Fin 8) : Vec F S1x512x1024 .f32 := Spec.xch (Spec.Xof m c) h

theorem read_piece (c : Dev nD) (k : Fin 4) (h : Fin 8)
    (hin : ∀ a : Fin 3, (![k.val, 4 * h.val, 0] : Fin 3 → Nat) a + S1x4x128.size a ≤ S4x32x128.size a) :
    View.readAt (Elt F) (Memref.whole cc0_scratch2 : Memref sig .tc .vmem S4x32x128 .f32).view
        (Rect.unit (s := S4x32x128) ![k.val, 4 * h.val, 0] S1x4x128.size hin).toLoadRect (commFinal m c)
      = Spec.slot (Spec.Xof m) c k h := by
  funext x
  obtain ⟨a, b, l, rfl⟩ : ∃ (a : Fin 1) (b : Fin 4) (l : Fin 128), x = ix3 a b l := ⟨x 0, x 1, x 2, eq_ix3 x⟩
  have ha : a.val = 0 := by have := a.isLt; omega
  show commFinal m c ((Rect.unit (s := S4x32x128) ![k.val, 4 * h.val, 0] S1x4x128.size hin).toLoadRect.idx (ix3 a b l)) = _
  unfold commFinal
  refine slot_congr (Fin.ext ?_) (Fin.ext ?_) (funext fun d => ?_)
  · show k.val + 1 * a.val = k.val
    omega
  · show (4 * h.val + 1 * b.val) / 4 = h.val
    have := b.isLt; omega
  · match d with
    | ⟨0, _⟩ => exact Fin.ext (by show 0 = a.val; omega)
    | ⟨1, _⟩ => exact Fin.ext (by show (4 * h.val + 1 * b.val) % 4 = b.val; have := b.isLt; omega)
    | ⟨2, _⟩ => exact Fin.ext (by show 0 + 1 * l.val = l.val; omega)

theorem read_xv (c : Dev nD) (j : Fin 8)
    (hin : ∀ a : Fin 3, (![j.val, 0, 0] : Fin 3 → Nat) a + S1x512x1024.size a ≤ S8x512x1024.size a) :
    View.readAt (Elt F) (Memref.whole cc0_scratch0 : Memref sig .tc .vmem S8x512x1024 .f32).view
        (Rect.unit (s := S8x512x1024) ![j.val, 0, 0] S1x512x1024.size hin).toLoadRect (xvFin m c)
      = Spec.xch (Spec.Xof m c) j := by
  funext x
  show xvFin m c ((Rect.unit (s := S8x512x1024) ![j.val, 0, 0] S1x512x1024.size hin).toLoadRect.idx x) = _
  unfold xvFin Spec.xch
  have h0 : (x 0).val = 0 := by have : (x 0).val < 1 := (x 0).isLt; omega
  refine congrArg (Spec.Xof m c) (funext fun d => ?_)
  match d with
  | ⟨0, _⟩ => exact Fin.ext (by show 512 * (j.val + 1 * (x 0).val) + (0 + 1 * (x 1).val) = 512 * j.val + (x 1).val; omega)
  | ⟨1, _⟩ => exact Fin.ext (by show 0 + 1 * (x 2).val = (x 2).val; omega)

def outHalf (c : Dev nD) (h : Fin 8) : FVec F S512x1024 .bf16 :=
  k0_pay11 (k0_pay10 (Spec.Gof m c)) (Spec.slot (Spec.Xof m) c 0 h) (Spec.slot (Spec.Xof m) c 1 h) (Spec.slot (Spec.Xof m) c 2 h)
    (Spec.slot (Spec.Xof m) c 3 h) (Spec.xch (Spec.Xof m c) h)

theorem outHalf_chunk (c : Dev nD) (h : Fin 8) : k0_pay12 (outHalf m c h) = Spec.outChunk (Spec.Xof m) (Spec.Gof m) c h := rfl

abbrev rwPre (c : Dev nD) (k : Fin 3) (h : Fin 8) : sProp 𝕄 :=
  iprop(cred (tallyAt (recvCell c k h) () N) ∗ atPos ER (recvCell c k h) 0 ∅ 0)
abbrev rwPost (c : Dev nD) (k : Fin 3) (h : Fin 8) : sProp 𝕄 :=
  iprop(piecePt c (up k) h fullShare (commFinal m c) ∗ semVal (recvCell c k h) 0)

theorem recvwait_step (K : GSem nD τ sig → ℕ) (c : Dev nD) (k : Fin 3) (h : Fin 8) (W : Waits sig Unit)
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {Q : α → sProp 𝕄} {kk : PUnit → Prog (TpuEff nD τ sig (Elt F) Λ₀ .tc) α} :
    ⊢ iprop(invs m K c -∗ owes (c : Thread nD τ) 0 W -∗ rwPre c k h
          -∗ (iprop(owes (c : Thread nD τ) 0 (insert (SemLoc.dma (recvS k h), ()) W) ∗ rwPost m c k h)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k h) src dst hsrc hdst) kk) Q) := by
  iintro #Hinv HO Hw Hk
  ihave #HI := (invs_recv m K c k h) $$ Hinv
  iapply (cellwait_step m c (recvS k h) _ (duties_recv m c k h) (expect_recv m c k h) ((payload_recv m c k h 0).trans (recvPay_eq m c k h)) (K (recvCell c k h)) W hN) $$ HI HO Hw Hk

theorem ov_stored (c : Dev nD) (j : Fin 8) (f1 : Buf (Elt F) ((c : Thread nD τ).loc cc0_scratch1))
    (hin : ∀ a : Fin 3, (![j.val, 0, 0] : Fin 3 → Nat) a + S1x512x1024.size a ≤ S8x512x1024.size a)
    (P : FVec F S1x512x1024 .bf16) (hP : P = k0_pay12 (outHalf m c j)) :
    ∀ i ∈ (ovM j).view.set,
      View.write (Elt F) ((Memref.whole cc0_scratch1 : Memref sig .tc .vmem S8x512x1024 .bf16).access
          (Rect.unit (s := S8x512x1024) ![j.val, 0, 0] S1x512x1024.size hin))
        f1 P Finset.univ i = ovFin m c i := by
  subst hP
  intro i hi
  rw [ov_set] at hi
  have hi' : i ∈ ((Memref.whole cc0_scratch1 : Memref sig .tc .vmem S8x512x1024 .bf16).access
      (Rect.unit (s := S8x512x1024) ![j.val, 0, 0] S1x512x1024.size hin) : View sig .tc _ _ _).set := by
    rw [show ((Memref.whole cc0_scratch1 : Memref sig .tc .vmem S8x512x1024 .bf16).access
      (Rect.unit (s := S8x512x1024) ![j.val, 0, 0] S1x512x1024.size hin) : View sig .tc _ _ _).set = (chunkR j).set from View.set_slice_whole _ _]
    exact hi
  obtain ⟨y, rfl⟩ := View.exists_emb_of_mem_set _ hi'
  rw [View.write_emb_of_mem _ _ (Finset.mem_univ y)]
  refine (cast_eq _ _).trans ?_
  rw [outHalf_chunk]
  unfold ovFin
  have h0 : (y 0).val = 0 := by have : (y 0).val < 1 := (y 0).isLt; omega
  refine congr (congrArg (Spec.outChunk (Spec.Xof m) (Spec.Gof m) c) (Fin.ext ?_)) (funext fun d => ?_)
  · show j.val = j.val + 1 * (y 0).val
    omega
  · match d with
    | ⟨0, _⟩ => exact Fin.ext (by show (y 0).val = 0; omega)
    | ⟨1, _⟩ => exact Fin.ext (by show (y 1).val = 0 + 1 * (y 1).val; omega)
    | ⟨2, _⟩ => exact Fin.ext (by show (y 2).val = 0 + 1 * (y 2).val; omega)

def part3_pre (K : GSem nD τ sig → ℕ) (c : Dev nD) (W : Waits sig Unit) (f2 : Buf (Elt F) ((c : Thread nD τ).loc cc0_scratch2)) : sProp 𝕄 :=
  iprop(
    invs m K c ∗ owes (c : Thread nD τ) (Oat c 0) W ∗ dutyTok ER (barCell (pd c 0)) 0 0 ∗ dutyTok ER (barCell (pd c 1)) 0 1
      ∗ dutyTok ER (barCell (pd c 2)) 0 2 ∗ piecePt c (up 0) 0 fullShare f2 ∗ piecePt c (up 0) 1 fullShare f2 ∗ piecePt c (up 0) 2 fullShare f2
      ∗ piecePt c (up 0) 3 fullShare f2 ∗ piecePt c (up 0) 4 fullShare f2 ∗ piecePt c (up 0) 5 fullShare f2 ∗ piecePt c (up 0) 6 fullShare f2
      ∗ piecePt c (up 0) 7 fullShare f2 ∗ piecePt c (up 1) 0 fullShare f2 ∗ piecePt c (up 1) 1 fullShare f2 ∗ piecePt c (up 1) 2 fullShare f2
      ∗ piecePt c (up 1) 3 fullShare f2 ∗ piecePt c (up 1) 4 fullShare f2 ∗ piecePt c (up 1) 5 fullShare f2 ∗ piecePt c (up 1) 6 fullShare f2
      ∗ piecePt c (up 1) 7 fullShare f2 ∗ piecePt c (up 2) 0 fullShare f2 ∗ piecePt c (up 2) 1 fullShare f2 ∗ piecePt c (up 2) 2 fullShare f2
      ∗ piecePt c (up 2) 3 fullShare f2 ∗ piecePt c (up 2) 4 fullShare f2 ∗ piecePt c (up 2) 5 fullShare f2 ∗ piecePt c (up 2) 6 fullShare f2
      ∗ piecePt c (up 2) 7 fullShare f2 ∗ cred (tallyAt (barCell c) () 3) ∗ atPos ER (barCell c) 0 ∅ 0)

def part3_post (c : Dev nD) : sProp 𝕄 :=
  iprop(
    owesAny c (Oat c 3) ∗ atPos ER (barCell c) 1 ∅ 0 ∗ (∃ f, piecePt (pd c 0) (up (opp 0)) 0 fullShare f)
      ∗ reached ER (recvCell (pd c 0) (opp 0) 0) 0 ∗ (∃ f, piecePt (pd c 0) (up (opp 0)) 1 fullShare f) ∗ reached ER (recvCell (pd c 0) (opp 0) 1) 0
      ∗ (∃ f, piecePt (pd c 0) (up (opp 0)) 2 fullShare f) ∗ reached ER (recvCell (pd c 0) (opp 0) 2) 0
      ∗ (∃ f, piecePt (pd c 0) (up (opp 0)) 3 fullShare f) ∗ reached ER (recvCell (pd c 0) (opp 0) 3) 0
      ∗ (∃ f, piecePt (pd c 0) (up (opp 0)) 4 fullShare f) ∗ reached ER (recvCell (pd c 0) (opp 0) 4) 0
      ∗ (∃ f, piecePt (pd c 0) (up (opp 0)) 5 fullShare f) ∗ reached ER (recvCell (pd c 0) (opp 0) 5) 0
      ∗ (∃ f, piecePt (pd c 0) (up (opp 0)) 6 fullShare f) ∗ reached ER (recvCell (pd c 0) (opp 0) 6) 0
      ∗ (∃ f, piecePt (pd c 0) (up (opp 0)) 7 fullShare f) ∗ reached ER (recvCell (pd c 0) (opp 0) 7) 0
      ∗ (∃ f, piecePt (pd c 1) (up (opp 1)) 0 fullShare f) ∗ reached ER (recvCell (pd c 1) (opp 1) 0) 0
      ∗ (∃ f, piecePt (pd c 1) (up (opp 1)) 1 fullShare f) ∗ reached ER (recvCell (pd c 1) (opp 1) 1) 0
      ∗ (∃ f, piecePt (pd c 1) (up (opp 1)) 2 fullShare f) ∗ reached ER (recvCell (pd c 1) (opp 1) 2) 0
      ∗ (∃ f, piecePt (pd c 1) (up (opp 1)) 3 fullShare f) ∗ reached ER (recvCell (pd c 1) (opp 1) 3) 0
      ∗ (∃ f, piecePt (pd c 1) (up (opp 1)) 4 fullShare f) ∗ reached ER (recvCell (pd c 1) (opp 1) 4) 0
      ∗ (∃ f, piecePt (pd c 1) (up (opp 1)) 5 fullShare f) ∗ reached ER (recvCell (pd c 1) (opp 1) 5) 0
      ∗ (∃ f, piecePt (pd c 1) (up (opp 1)) 6 fullShare f) ∗ reached ER (recvCell (pd c 1) (opp 1) 6) 0
      ∗ (∃ f, piecePt (pd c 1) (up (opp 1)) 7 fullShare f) ∗ reached ER (recvCell (pd c 1) (opp 1) 7) 0
      ∗ (∃ f, piecePt (pd c 2) (up (opp 2)) 0 fullShare f) ∗ reached ER (recvCell (pd c 2) (opp 2) 0) 0
      ∗ (∃ f, piecePt (pd c 2) (up (opp 2)) 1 fullShare f) ∗ reached ER (recvCell (pd c 2) (opp 2) 1) 0
      ∗ (∃ f, piecePt (pd c 2) (up (opp 2)) 2 fullShare f) ∗ reached ER (recvCell (pd c 2) (opp 2) 2) 0
      ∗ (∃ f, piecePt (pd c 2) (up (opp 2)) 3 fullShare f) ∗ reached ER (recvCell (pd c 2) (opp 2) 3) 0
      ∗ (∃ f, piecePt (pd c 2) (up (opp 2)) 4 fullShare f) ∗ reached ER (recvCell (pd c 2) (opp 2) 4) 0
      ∗ (∃ f, piecePt (pd c 2) (up (opp 2)) 5 fullShare f) ∗ reached ER (recvCell (pd c 2) (opp 2) 5) 0
      ∗ (∃ f, piecePt (pd c 2) (up (opp 2)) 6 fullShare f) ∗ reached ER (recvCell (pd c 2) (opp 2) 6) 0
      ∗ (∃ f, piecePt (pd c 2) (up (opp 2)) 7 fullShare f) ∗ reached ER (recvCell (pd c 2) (opp 2) 7) 0)

theorem gift_eq (c : Dev nD) (e d : Fin 3) (hd : d = opp e) : slotGift (F := F) (ps c e) e = slotGift (pd c d) (opp d) := by
  subst hd; rw [pd_opp, opp_opp]

/-- The unit signalled `d + 1` places ahead, paid out of the debt `O'`: it hands over the eight pieces of slot `d`. -/
theorem sig_step (K : GSem nD τ sig → ℕ) (c : Dev nD) (d : Fin 3) (n : Dev nD) (hn : n = pd c d)
    (O' O : CellTallies nD τ sig Unit) (hO : O' = O + tallyAt (barCell (pd c d)) () 1) (W : Waits sig Unit)
    (f2 : Buf (Elt F) ((c : Thread nD τ).loc cc0_scratch2))
    {α : Type} {Q : α → sProp 𝕄} {k : PUnit → Prog (TpuEff nD τ sig (Elt F) Λ₀ .tc) α} :
    ⊢ iprop(invs m K c -∗ owes (c : Thread nD τ) O' W -∗ dutyTok ER (barCell (pd c d)) 0 d
        -∗ piecePt c (up d) 0 fullShare f2 -∗ piecePt c (up d) 1 fullShare f2 -∗ piecePt c (up d) 2 fullShare f2 -∗ piecePt c (up d) 3 fullShare f2
        -∗ piecePt c (up d) 4 fullShare f2 -∗ piecePt c (up d) 5 fullShare f2 -∗ piecePt c (up d) 6 fullShare f2 -∗ piecePt c (up d) 7 fullShare f2
        -∗ (owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ
              (.op (.semSignal ((n, Proc.tc) : Thread nD τ) barS (1#32).toNat) k) Q) := by
  subst hO
  iintro #HI HO T P0 P1 P2 P3 P4 P5 P6 P7
  iapply (wp_sig m c d n hn (K (barCell (pd c d))) O W) $$ [HO T P0 P1 P2 P3 P4 P5 P6 P7]
  isplitr; · iapply (invs_barP m K c d); iexact HI
  isplitl [HO]; · iexact HO
  isplitl [T]; · iexact T
  isplitr []
  · unfold slotGift
    isplitl [P0]; · iexists f2; iexact P0
    isplitl [P1]; · iexists f2; iexact P1
    isplitl [P2]; · iexists f2; iexact P2
    isplitl [P3]; · iexists f2; iexact P3
    isplitl [P4]; · iexists f2; iexact P4
    isplitl [P5]; · iexists f2; iexact P5
    isplitl [P6]; · iexists f2; iexact P6
    isplitl [P7]; · iexists f2; iexact P7
    isplitr; · iapply (invs_rR m K c d 0); iexact HI
    isplitr; · iapply (invs_rR m K c d 1); iexact HI
    isplitr; · iapply (invs_rR m K c d 2); iexact HI
    isplitr; · iapply (invs_rR m K c d 3); iexact HI
    isplitr; · iapply (invs_rR m K c d 4); iexact HI
    isplitr; · iapply (invs_rR m K c d 5); iexact HI
    isplitr; · iapply (invs_rR m K c d 6); iexact HI
    iapply (invs_rR m K c d 7); iexact HI
  · iapply (invs_rB m K c d); iexact HI

set_option maxHeartbeats 1600000 in
theorem part3_spec (K : GSem nD τ sig → ℕ) (c : Dev nD) (W : Waits sig Unit) (f2 : Buf (Elt F) ((c : Thread nD τ).loc cc0_scratch2))
    (arg0 : Memref sig .tc .hbm S4096x1024 .f32) (harg0 : arg0.IsWhole) (arg1 : Memref sig .tc .vmem S1024 .f32) (harg1 : arg1.IsWhole)
    (arg2 : Memref sig .tc .hbm S4096x1024 .bf16) (harg2 : arg2.IsWhole) (arg3 : Memref sig .tc .vmem S8x512x1024 .f32) (harg3 : arg3.IsWhole)
    (arg4 : Memref sig .tc .vmem S8x512x1024 .bf16) (harg4 : arg4.IsWhole) (arg5 : Memref sig .tc .vmem S4x32x128 .f32) (harg5 : arg5.IsWhole)
    (arg6 : DmaSems sig S8) (arg7 : DmaSems sig S8) (arg8 : DmaSems sig S3x8) (arg9 : DmaSems sig S3x8)
    (v2 v47 : BitVec 32) (v52 : BitVec 1) (v53 : BitVec 32) :
    part3_pre m K c W f2
      ⊢ wp frame (wpE (defs₀ (F := F)) 𝒱₀ (c : Thread nD τ) none) Set.univ
          (k0_part3 (F := F) arg0 harg0 arg1 harg1 arg2 harg2 arg3 harg3 arg4 harg4 arg5 harg5 arg6 arg7 arg8 arg9 c v2
            (SemArray.scalar (sig.barrier 0 rfl)) v47 v52 v53)
          (fun _ => part3_post (F := F) c) := by
  rw [k0_part3_eq_skeleton]
  unfold k0_part3_skel part3_pre
  simp only [semSignalWord, semWaitWord, Prog.lift, Prog.bind_op, Prog.bind_ret, Prog.pure_eq_ret]
  iintro ⟨#HI, HO, T0, T1, T2, P00, P01, P02, P03, P04, P05, P06, P07, P10, P11, P12, P13, P14, P15, P16, P17, P20, P21, P22, P23, P24, P25, P26, P27, Hc, Hat⟩

  iapply (sig_step m K c 0 _ (dev1_eq c) (Oat c 0) (Oat c 1) rfl W f2) $$ HI HO T0 P00 P01 P02 P03 P04 P05 P06 P07
  iintro HO

  iapply (sig_step m K c 1 _ (dev2_eq c) (Oat c 1) (Oat c 2) rfl W f2) $$ HI HO T1 P10 P11 P12 P13 P14 P15 P16 P17
  iintro HO

  iapply (sig_step m K c 2 _ (dev3_eq c) (Oat c 2) (Oat c 3) rfl W f2) $$ HI HO T2 P20 P21 P22 P23 P24 P25 P26 P27
  iintro HO
  iapply (wp_barwait m c (K (barCell c)) (Oat c 3) (above_Oat3 c) W) $$ [HO Hc Hat]
  · isplitr; · iapply (invs_bar m K c); iexact HI
    isplitl [Hc]; · iexact Hc
    isplitl [HO]; · iexact HO
    isplitr; · iapply (invs_lev m K c); iexact HI
    iexact Hat
  iintro ⟨HO, Hat, G0, G1, G2⟩
  rw [wp_ret]; imodintro
  ihave G0 := (Entails.of_eq (gift_eq (F := F) c 0 2 rfl)) $$ G0
  ihave G1 := (Entails.of_eq (gift_eq (F := F) c 1 1 rfl)) $$ G1
  ihave G2 := (Entails.of_eq (gift_eq (F := F) c 2 0 rfl)) $$ G2
  unfold part3_post slotGift
  icases G0 with ⟨⟨%a20, A20⟩, ⟨%a21, A21⟩, ⟨%a22, A22⟩, ⟨%a23, A23⟩, ⟨%a24, A24⟩, ⟨%a25, A25⟩, ⟨%a26, A26⟩, ⟨%a27, A27⟩, R20, R21, R22, R23, R24, R25, R26, R27⟩
  icases G1 with ⟨⟨%a10, A10⟩, ⟨%a11, A11⟩, ⟨%a12, A12⟩, ⟨%a13, A13⟩, ⟨%a14, A14⟩, ⟨%a15, A15⟩, ⟨%a16, A16⟩, ⟨%a17, A17⟩, R10, R11, R12, R13, R14, R15, R16, R17⟩
  icases G2 with ⟨⟨%a00, A00⟩, ⟨%a01, A01⟩, ⟨%a02, A02⟩, ⟨%a03, A03⟩, ⟨%a04, A04⟩, ⟨%a05, A05⟩, ⟨%a06, A06⟩, ⟨%a07, A07⟩, R00, R01, R02, R03, R04, R05, R06, R07⟩
  sl_close

abbrev gamPt (c : Dev nD) : sProp 𝕄 :=
  (Memref.whole cc0_stg0_0 : Memref sig .tc _ _ _).view.loc (c : Thread nD τ) ↦{fullShare} gstg m c

theorem gstg_eq (c : Dev nD) : gstg m c = Spec.Gof m c := by
  unfold gstg
  exact Memref.read_access_unit_zero (Elt F) main_arg1 (funext fun a => by fin_cases a; rfl) _ _

theorem read_gamma (c : Dev nD) (hin : ∀ a : Fin 1, (![0] : Fin 1 → Nat) a + S1024.size a ≤ S1024.size a) :
    View.readAt (Elt F) (Memref.whole cc0_stg0_0 : Memref sig .tc .vmem S1024 .f32).view (Rect.unit (s := S1024) ![0] S1024.size hin).toLoadRect (gstg m c)
      = Spec.Gof m c :=
  (Memref.readAt_unit_zero (Elt F) cc0_stg0_0 (funext fun a => by fin_cases a; rfl) hin (gstg m c)).trans (gstg_eq m c)

def part24_pre (K : GSem nD τ sig → ℕ) (c : Dev nD) (W : Waits sig Unit)
    (fn : Buf (Elt F) ((pieceM (up (opp 2)) 7).view.loc ((pd c 2 : Dev nD) : Thread nD τ))) : sProp 𝕄 :=
  iprop(invs m K c ∗ owes (c : Thread nD τ) (Oat c 26) W ∗ piecePt c 3 7 (qS 2) (commFinal m c)
    ∗ piecePt (pd c 2) (up (opp 2)) 7 fullShare fn ∗ reached ER (recvCell (pd c 2) (opp 2) 7) 0
    ∗ dutyTok ER (sendCell c 2 7) 0 0 ∗ dutyTok ER (recvCell (pd c 2) (opp 2) 7) 0 0
    ∗ gamPt m c ∗ rwPre c 2 0 ∗ rwPre c 1 0)
def part24_post (c : Dev nD) (r : (_ : FVec F S1024 .f32) ×' (_ : BitVec 32) ×' BitVec 32) : sProp 𝕄 :=
  iprop(⌜r.1 = gam m c⌝ ∗ owesAny c (Oat c 27) ∗ cred (tallyAt (sendCell c 2 7) () N) ∗ gamPt m c ∗ rwPost m c 2 0 ∗ rwPost m c 1 0)

set_option maxHeartbeats 1600000 in
theorem part24_spec (K : GSem nD τ sig → ℕ) (c : Dev nD) (W : Waits sig Unit)
    (fn : Buf (Elt F) ((pieceM (up (opp 2)) 7).view.loc ((pd c 2 : Dev nD) : Thread nD τ)))
    (v106 v127 v148 : BitVec 32) :
    part24_pre m K c W fn
      ⊢ wp frame (wpE (defs₀ (F := F)) 𝒱₀ (c : Thread nD τ) none) Set.univ
          (k0_part24 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v106 v127 v148) (fun r => part24_post m c r) := by
  rw [k0_part24_eq_skeleton]
  unfold k0_part24_skel part24_pre
  simp only [Prog.lift, Prog.bind_op, Prog.bind_ret, Prog.pure_eq_ret]
  iintro ⟨#HI, HO, P3, Pn, #Rn, Ts, Tr, Hg, Hw20, Hw10⟩
  iapply (send_piece m K c 2 7 _ (dev27_eq c) (Oat c 26) (Oat c 27) rfl W) $$ HI [P3 Pn Ts Tr] HO
  · isplitl [P3]; · iexact P3
    isplitl [Pn]; · iexists _; iexact Pn
    isplitr; · iexact Rn
    isplitl [Ts]; · iexact Ts
    iexact Tr
  iintro ⟨Hcs, HO⟩
  sl_exec
  rw [Oat_last]
  iapply (recvwait_step m K c 2 0 _ (piece_credit 2 0)) $$ HI HO Hw20
  iintro ⟨HO, Hp20⟩
  iapply (recvwait_step m K c 1 0 _ (piece_credit 1 0)) $$ HI HO Hw10
  iintro ⟨HO, Hp10⟩
  rw [wp_ret]; imodintro
  unfold part24_post
  isplitr
  · ipureintro
    exact congrArg k0_pay10 (read_gamma m c (by decide))
  isplitl [HO]; · iexists _; rw [Oat_last]; iexact HO
  isplitl [Hcs]; · iexact Hcs
  isplitl [Hg]; · iexact Hg
  isplitl [Hp20]; · iexact Hp20
  iexact Hp10

def part25_pre (K : GSem nD τ sig → ℕ) (c : Dev nD) (W : Waits sig Unit) (f1 : Buf (Elt F) ((c : Thread nD τ).loc cc0_scratch1)) : sProp 𝕄 :=
  iprop(invs m K c ∗ owes (c : Thread nD τ) (Oat c 27) W ∗ rwPre c 0 0
    ∗ piecePt c (up 1) 0 fullShare (commFinal m c) ∗ piecePt c (up 2) 0 fullShare (commFinal m c) ∗ piecePt c 3 0 qK (commFinal m c)
    ∗ xvPt c 0 (xvFin m c) ∗ ovPt c 0 f1)
def part25_post (c : Dev nD) (f1 : Buf (Elt F) ((c : Thread nD τ).loc cc0_scratch1))
    (r : (_ : FVec F S512x1024 .bf16) ×' Vec F S1x512x1024 .bf16) : sProp 𝕄 :=
  iprop(⌜r.1 = outHalf m c 0⌝ ∗ owesAny c (Oat c 27) ∗ rwPost m c 0 0
    ∗ piecePt c (up 1) 0 fullShare (commFinal m c) ∗ piecePt c (up 2) 0 fullShare (commFinal m c) ∗ piecePt c 3 0 qK (commFinal m c)
    ∗ xvPt c 0 (xvFin m c) ∗ ovPt c 0 f1)

set_option maxHeartbeats 1600000 in
theorem part25_spec (K : GSem nD τ sig → ℕ) (c : Dev nD) (W : Waits sig Unit) (f1 : Buf (Elt F) ((c : Thread nD τ).loc cc0_scratch1))
    (v692 : FVec F S1024 .f32) (hg : v692 = gam m c) (v709 c0 : BitVec 32) :
    part25_pre m K c W f1
      ⊢ wp frame (wpE (defs₀ (F := F)) 𝒱₀ (c : Thread nD τ) none) Set.univ
          (k0_part25 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v692 v709 c0) (fun r => part25_post m c f1 r) := by
  rw [k0_part25_eq_skeleton]
  unfold k0_part25_skel part25_pre
  simp only [Prog.lift, Prog.bind_op, Prog.bind_ret, Prog.pure_eq_ret]
  rw [Oat_last]
  subst hg
  iintro ⟨#HI, HO, Hw, P1, P2, P3, Hx, Ho⟩
  iapply (recvwait_step m K c 0 0 W (piece_credit 0 0)) $$ HI HO Hw
  iintro ⟨HO, Hp0⟩
  icases Hp0 with ⟨P0, Hs⟩
  sl_exec
  rw [wp_ret]; imodintro
  unfold part25_post
  isplitr
  · ipureintro
    exact congr (congr (congr (congr (congrArg (k0_pay11 (k0_pay10 (Spec.Gof m c))) (read_piece m c 0 0 (by decide))) (read_piece m c 1 0 (by decide)))
      (read_piece m c 2 0 (by decide))) (read_piece m c 3 0 (by decide))) (read_xv m c 0 (by decide))
  isplitl [HO]; · iexists _; iexact HO
  isplitl [P0 Hs]
  · isplitl [P0] <;> iassumption
  sl_close

def part26_pre (K : GSem nD τ sig → ℕ) (c : Dev nD) (W : Waits sig Unit) (f1 : Buf (Elt F) ((c : Thread nD τ).loc cc0_scratch1))
    (fo : Buf (Elt F) ((c : Thread nD τ).loc main_v1)) : sProp 𝕄 :=
  iprop(invs m K c ∗ owes (c : Thread nD τ) (Oat c 27) W ∗ ovPt c 0 f1 ∗ outPt c 0 fo ∗ sem0 c 8 ∗ rwPre c 2 1 ∗ rwPre c 1 1)
def part26_post (c : Dev nD) (fo : Buf (Elt F) ((c : Thread nD τ).loc main_v1)) : sProp 𝕄 :=
  iprop(owesAny c (Oat c 27) ∗ storeFlight m c 0 fo ∗ rwPost m c 2 1 ∗ rwPost m c 1 1)

set_option maxHeartbeats 1600000 in
theorem part26_spec (K : GSem nD τ sig → ℕ) (c : Dev nD) (W : Waits sig Unit) (f1 : Buf (Elt F) ((c : Thread nD τ).loc cc0_scratch1))
    (fo : Buf (Elt F) ((c : Thread nD τ).loc main_v1))
    (v182 v203 : BitVec 32) (v743 : FVec F S512x1024 .bf16) (hv : v743 = outHalf m c 0) (v744 : Vec F S1x512x1024 .bf16) :
    part26_pre m K c W f1 fo
      ⊢ wp frame (wpE (defs₀ (F := F)) 𝒱₀ (c : Thread nD τ) none) Set.univ
          (k0_part26 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v182 v203 v743 v744) (fun _ => part26_post m c fo) := by
  subst hv
  rw [k0_part26_eq_skeleton]
  unfold k0_part26_skel part26_pre
  simp only [Prog.lift, Prog.bind_op, Prog.bind_ret, Prog.pure_eq_ret]
  rw [Oat_last]
  iintro ⟨#HI, HO, Ho, Hout, Hs, Hw2, Hw1⟩
  set_option sl_exec.maxSteps 1 in sl_exec
  ihave Ho := (Entails.of_eq (pointsTo_congr (ov_stored m c 0 f1 (by decide) _ rfl))) $$ Ho
  sl_exec
  iapply (recvwait_step m K c 2 1 W (piece_credit 2 1)) $$ HI HO Hw2
  iintro ⟨HO, Hp2⟩
  iapply (recvwait_step m K c 1 1 _ (piece_credit 1 1)) $$ HI HO Hw1
  iintro ⟨HO, Hp1⟩
  rw [wp_ret]; imodintro
  unfold part26_post
  isplitl [HO]; · iexists _; iexact HO
  isplitl [Hs]; · iexact Hs
  isplitl [Hp2]; · iexact Hp2
  iexact Hp1

def part27_pre (K : GSem nD τ sig → ℕ) (c : Dev nD) (W : Waits sig Unit) : sProp 𝕄 :=
  iprop(
    invs m K c ∗ owes (c : Thread nD τ) (Oat c 27) W ∗ rwPre c 0 1 ∗ piecePt c (up 1) 1 fullShare (commFinal m c)
      ∗ piecePt c (up 2) 1 fullShare (commFinal m c) ∗ piecePt c 3 1 qK (commFinal m c) ∗ xvPt c 1 (xvFin m c))
def part27_post (c : Dev nD) (r : FVec F S4x128x1024 .f32) : sProp 𝕄 :=
  iprop(
    ⌜r = k0_pay13 (gam m c) (sl m c 0 1) (sl m c 1 1) (sl m c 2 1) (sl m c 3 1) (xc m c 1)⌝ ∗ owesAny c (Oat c 27) ∗ rwPost m c 0 1
      ∗ piecePt c (up 1) 1 fullShare (commFinal m c) ∗ piecePt c (up 2) 1 fullShare (commFinal m c) ∗ piecePt c 3 1 qK (commFinal m c)
      ∗ xvPt c 1 (xvFin m c))

set_option maxHeartbeats 1600000 in
theorem part27_spec (K : GSem nD τ sig → ℕ) (c : Dev nD) (W : Waits sig Unit) (v224 : BitVec 32) (v692 : FVec F S1024 .f32) (hg : v692 = gam m c) :
    part27_pre m K c W
      ⊢ wp frame (wpE (defs₀ (F := F)) 𝒱₀ (c : Thread nD τ) none) Set.univ
          (k0_part27 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v224 v692) (fun r => part27_post m c r) := by
  subst hg
  rw [k0_part27_eq_skeleton]
  unfold k0_part27_skel part27_pre
  simp only [Prog.lift, Prog.bind_op, Prog.bind_ret, Prog.pure_eq_ret]
  rw [Oat_last]
  iintro ⟨#HI, HO, Hw01, P1, P2, P3, Hx⟩
  iapply (recvwait_step m K c 0 1 _ (piece_credit 0 1)) $$ HI HO Hw01
  iintro ⟨HO, Hp01⟩
  icases Hp01 with ⟨P0, S0⟩
  sl_exec
  rw [wp_ret]; imodintro
  unfold part27_post
  isplitr
  · ipureintro
    exact congr (congr (congr (congr (congrArg (k0_pay13 (gam m c)) (read_piece m c 0 1 (by decide))) (read_piece m c 1 1 (by decide)))
      (read_piece m c 2 1 (by decide))) (read_piece m c 3 1 (by decide))) (read_xv m c 1 (by decide))
  isplitl [HO]; · iexists _; iexact HO
  isplitl [P0 S0]
  · isplitl [P0] <;> iassumption
  sl_close

def part28_pre (K : GSem nD τ sig → ℕ) (c : Dev nD) (W : Waits sig Unit) (f1 : Buf (Elt F) ((c : Thread nD τ).loc cc0_scratch1))
    (fo : Buf (Elt F) ((c : Thread nD τ).loc main_v1)) : sProp 𝕄 :=
  iprop(
    invs m K c ∗ owes (c : Thread nD τ) (Oat c 27) W ∗ ovPt c 1 f1 ∗ outPt c 1 fo ∗ sem0 c 9 ∗ rwPre c 2 2)
def part28_post (c : Dev nD) (fo : Buf (Elt F) ((c : Thread nD τ).loc main_v1)) : sProp 𝕄 :=
  iprop(
    owesAny c (Oat c 27) ∗ storeFlight m c 1 fo ∗ rwPost m c 2 2)

set_option maxHeartbeats 1600000 in
theorem part28_spec (K : GSem nD τ sig → ℕ) (c : Dev nD) (W : Waits sig Unit) (f1 : Buf (Elt F) ((c : Thread nD τ).loc cc0_scratch1))
    (fo : Buf (Elt F) ((c : Thread nD τ).loc main_v1))
    (v258 v279 : BitVec 32) (v800 : FVec F S4x128x1024 .f32)
    (hv : v800 = k0_pay13 (gam m c) (sl m c 0 1) (sl m c 1 1) (sl m c 2 1) (sl m c 3 1) (xc m c 1)) :
    part28_pre m K c W f1 fo
      ⊢ wp frame (wpE (defs₀ (F := F)) 𝒱₀ (c : Thread nD τ) none) Set.univ
          (k0_part28 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v258 v279 v800) (fun _ => part28_post m c fo) := by
  subst hv
  rw [k0_part28_eq_skeleton]
  unfold k0_part28_skel part28_pre
  simp only [Prog.lift, Prog.bind_op, Prog.bind_ret, Prog.pure_eq_ret]
  rw [Oat_last]
  iintro ⟨#HI, HO, Ho, Hout, Hs, Hw22⟩
  set_option sl_exec.maxSteps 2 in sl_exec
  ihave Ho := (Entails.of_eq (pointsTo_congr (ov_stored m c 1 f1 (by decide) _ rfl))) $$ Ho
  sl_exec
  iapply (recvwait_step m K c 2 2 _ (piece_credit 2 2)) $$ HI HO Hw22
  iintro ⟨HO, Hp22⟩
  rw [wp_ret]; imodintro
  unfold part28_post
  isplitl [HO]; · iexists _; iexact HO
  isplitl [Hs]; · iexact Hs
  iexact Hp22

def part29_pre (K : GSem nD τ sig → ℕ) (c : Dev nD) (W : Waits sig Unit) : sProp 𝕄 :=
  iprop(
    invs m K c ∗ owes (c : Thread nD τ) (Oat c 27) W ∗ rwPre c 1 2 ∗ rwPre c 0 2 ∗ piecePt c (up 2) 2 fullShare (commFinal m c)
      ∗ piecePt c 3 2 qK (commFinal m c) ∗ xvPt c 2 (xvFin m c))
def part29_post (c : Dev nD) (r : (_ : FVec F S4x128 .f32) ×' FVec F S4x128x1024 .f32) : sProp 𝕄 :=
  iprop(
    ⌜r.1 = k0_pay15 (sl m c 0 2) (sl m c 1 2) (sl m c 2 2) (sl m c 3 2)⌝ ∗ ⌜r.2 = k0_pay16 (xc m c 2)⌝ ∗ owesAny c (Oat c 27) ∗ rwPost m c 1 2
      ∗ rwPost m c 0 2 ∗ piecePt c (up 2) 2 fullShare (commFinal m c) ∗ piecePt c 3 2 qK (commFinal m c) ∗ xvPt c 2 (xvFin m c))

set_option maxHeartbeats 1600000 in
theorem part29_spec (K : GSem nD τ sig → ℕ) (c : Dev nD) (W : Waits sig Unit) (v300 : BitVec 32) :
    part29_pre m K c W
      ⊢ wp frame (wpE (defs₀ (F := F)) 𝒱₀ (c : Thread nD τ) none) Set.univ
          (k0_part29 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v300) (fun r => part29_post m c r) := by
  rw [k0_part29_eq_skeleton]
  unfold k0_part29_skel part29_pre
  simp only [Prog.lift, Prog.bind_op, Prog.bind_ret, Prog.pure_eq_ret]
  rw [Oat_last]
  iintro ⟨#HI, HO, Hw12, Hw02, P2, P3, Hx⟩
  iapply (recvwait_step m K c 1 2 _ (piece_credit 1 2)) $$ HI HO Hw12
  iintro ⟨HO, Hp12⟩
  iapply (recvwait_step m K c 0 2 _ (piece_credit 0 2)) $$ HI HO Hw02
  iintro ⟨HO, Hp02⟩
  icases Hp12 with ⟨P1, S1⟩
  icases Hp02 with ⟨P0, S0⟩
  sl_exec
  rw [wp_ret]; imodintro
  unfold part29_post
  isplitr
  · ipureintro
    exact congr (congr (congr (congrArg k0_pay15 (read_piece m c 0 2 (by decide))) (read_piece m c 1 2 (by decide)))
      (read_piece m c 2 2 (by decide))) (read_piece m c 3 2 (by decide))
  isplitr
  · ipureintro
    exact congrArg k0_pay16 (read_xv m c 2 (by decide))
  isplitl [HO]; · iexists _; iexact HO
  isplitl [P1 S1]
  · isplitl [P1] <;> iassumption
  isplitl [P0 S0]
  · isplitl [P0] <;> iassumption
  sl_close

def part30_pre (K : GSem nD τ sig → ℕ) (c : Dev nD) (W : Waits sig Unit) (f1 : Buf (Elt F) ((c : Thread nD τ).loc cc0_scratch1))
    (fo : Buf (Elt F) ((c : Thread nD τ).loc main_v1)) : sProp 𝕄 :=
  iprop(
    invs m K c ∗ owes (c : Thread nD τ) (Oat c 27) W ∗ ovPt c 2 f1 ∗ outPt c 2 fo ∗ sem0 c 10 ∗ rwPre c 2 3)
def part30_post (c : Dev nD) (fo : Buf (Elt F) ((c : Thread nD τ).loc main_v1)) : sProp 𝕄 :=
  iprop(
    owesAny c (Oat c 27) ∗ storeFlight m c 2 fo ∗ rwPost m c 2 3)

set_option maxHeartbeats 1600000 in
theorem part30_spec (K : GSem nD τ sig → ℕ) (c : Dev nD) (W : Waits sig Unit) (f1 : Buf (Elt F) ((c : Thread nD τ).loc cc0_scratch1))
    (fo : Buf (Elt F) ((c : Thread nD τ).loc main_v1))
    (v334 v355 : BitVec 32) (v692 : FVec F S1024 .f32) (hg : v692 = gam m c) (v850 : FVec F S4x128 .f32)
    (hv850 : v850 = k0_pay15 (sl m c 0 2) (sl m c 1 2) (sl m c 2 2) (sl m c 3 2)) (v853 : FVec F S4x128x1024 .f32) (hv853 : v853 = k0_pay16 (xc m c 2)) :
    part30_pre m K c W f1 fo
      ⊢ wp frame (wpE (defs₀ (F := F)) 𝒱₀ (c : Thread nD τ) none) Set.univ
          (k0_part30 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v334 v355 v692 v850 v853) (fun _ => part30_post m c fo) := by
  subst hg
  subst hv850
  subst hv853
  rw [k0_part30_eq_skeleton]
  unfold k0_part30_skel part30_pre
  simp only [Prog.lift, Prog.bind_op, Prog.bind_ret, Prog.pure_eq_ret]
  rw [Oat_last]
  iintro ⟨#HI, HO, Ho, Hout, Hs, Hw23⟩
  set_option sl_exec.maxSteps 2 in sl_exec
  ihave Ho := (Entails.of_eq (pointsTo_congr (ov_stored m c 2 f1 (by decide) _ rfl))) $$ Ho
  sl_exec
  iapply (recvwait_step m K c 2 3 _ (piece_credit 2 3)) $$ HI HO Hw23
  iintro ⟨HO, Hp23⟩
  rw [wp_ret]; imodintro
  unfold part30_post
  isplitl [HO]; · iexists _; iexact HO
  isplitl [Hs]; · iexact Hs
  iexact Hp23

def part31_pre (K : GSem nD τ sig → ℕ) (c : Dev nD) (W : Waits sig Unit) : sProp 𝕄 :=
  iprop(
    invs m K c ∗ owes (c : Thread nD τ) (Oat c 27) W ∗ rwPre c 1 3 ∗ rwPre c 0 3 ∗ piecePt c (up 2) 3 fullShare (commFinal m c)
      ∗ piecePt c 3 3 qK (commFinal m c))
def part31_post (c : Dev nD) (r : FVec F S4x128 .f32) : sProp 𝕄 :=
  iprop(
    ⌜r = k0_pay18 (sl m c 0 3) (sl m c 1 3) (sl m c 2 3) (sl m c 3 3)⌝ ∗ owesAny c (Oat c 27) ∗ rwPost m c 1 3 ∗ rwPost m c 0 3
      ∗ piecePt c (up 2) 3 fullShare (commFinal m c) ∗ piecePt c 3 3 qK (commFinal m c))

set_option maxHeartbeats 1600000 in
theorem part31_spec (K : GSem nD τ sig → ℕ) (c : Dev nD) (W : Waits sig Unit) (v376 : BitVec 32) :
    part31_pre m K c W
      ⊢ wp frame (wpE (defs₀ (F := F)) 𝒱₀ (c : Thread nD τ) none) Set.univ
          (k0_part31 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v376) (fun r => part31_post m c r) := by
  rw [k0_part31_eq_skeleton]
  unfold k0_part31_skel part31_pre
  simp only [Prog.lift, Prog.bind_op, Prog.bind_ret, Prog.pure_eq_ret]
  rw [Oat_last]
  iintro ⟨#HI, HO, Hw13, Hw03, P2, P3⟩
  iapply (recvwait_step m K c 1 3 _ (piece_credit 1 3)) $$ HI HO Hw13
  iintro ⟨HO, Hp13⟩
  iapply (recvwait_step m K c 0 3 _ (piece_credit 0 3)) $$ HI HO Hw03
  iintro ⟨HO, Hp03⟩
  icases Hp13 with ⟨P1, S1⟩
  icases Hp03 with ⟨P0, S0⟩
  sl_exec
  rw [wp_ret]; imodintro
  unfold part31_post
  isplitr
  · ipureintro
    exact congr (congr (congr (congrArg k0_pay18 (read_piece m c 0 3 (by decide))) (read_piece m c 1 3 (by decide)))
      (read_piece m c 2 3 (by decide))) (read_piece m c 3 3 (by decide))
  isplitl [HO]; · iexists _; iexact HO
  isplitl [P1 S1]
  · isplitl [P1] <;> iassumption
  isplitl [P0 S0]
  · isplitl [P0] <;> iassumption
  sl_close

def part32_pre (K : GSem nD τ sig → ℕ) (c : Dev nD) (W : Waits sig Unit) (f1 : Buf (Elt F) ((c : Thread nD τ).loc cc0_scratch1))
    (fo : Buf (Elt F) ((c : Thread nD τ).loc main_v1)) : sProp 𝕄 :=
  iprop(
    invs m K c ∗ owes (c : Thread nD τ) (Oat c 27) W ∗ xvPt c 3 (xvFin m c) ∗ ovPt c 3 f1 ∗ outPt c 3 fo ∗ sem0 c 11 ∗ rwPre c 2 4)
def part32_post (c : Dev nD) (fo : Buf (Elt F) ((c : Thread nD τ).loc main_v1)) : sProp 𝕄 :=
  iprop(
    owesAny c (Oat c 27) ∗ xvPt c 3 (xvFin m c) ∗ storeFlight m c 3 fo ∗ rwPost m c 2 4)

set_option maxHeartbeats 1600000 in
theorem part32_spec (K : GSem nD τ sig → ℕ) (c : Dev nD) (W : Waits sig Unit) (f1 : Buf (Elt F) ((c : Thread nD τ).loc cc0_scratch1))
    (fo : Buf (Elt F) ((c : Thread nD τ).loc main_v1))
    (v410 : BitVec 32) (v692 : FVec F S1024 .f32) (hg : v692 = gam m c) (v909 : FVec F S4x128 .f32)
    (hv909 : v909 = k0_pay18 (sl m c 0 3) (sl m c 1 3) (sl m c 2 3) (sl m c 3 3)) :
    part32_pre m K c W f1 fo
      ⊢ wp frame (wpE (defs₀ (F := F)) 𝒱₀ (c : Thread nD τ) none) Set.univ
          (k0_part32 (F := F) (Memref.whole main_arg0) (Memref.isWhole_whole _) (win0_0.stage (cfg0.slots t0_0 0)) (hstage0_0 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v410 v692 v909) (fun _ => part32_post m c fo) := by
  subst hg
  subst hv909
  rw [k0_part32_eq_skeleton]
  unfold k0_part32_skel part32_pre
  simp only [Prog.lift, Prog.bind_op, Prog.bind_ret, Prog.pure_eq_ret]
  rw [Oat_last]
  iintro ⟨#HI, HO, Hx, Ho, Hout, Hs, Hw24⟩
  set_option sl_exec.maxSteps 3 in sl_exec
  ihave Ho := (Entails.of_eq (pointsTo_congr (ov_stored m c 3 f1 (by decide) _ ((congrArg (k0_pay19 (gam m c) (k0_pay18 (sl m c 0 3) (sl m c 1 3) (sl m c 2 3) (sl m c 3 3))) (read_xv m c 3 (by decide))).trans rfl)))) $$ Ho
  sl_exec
  iapply (recvwait_step m K c 2 4 _ (piece_credit 2 4)) $$ HI HO Hw24
  iintro ⟨HO, Hp24⟩
  rw [wp_ret]; imodintro
  unfold part32_post
  isplitl [HO]; · iexists _; iexact HO
  isplitl [Hx]; · iexact Hx
  isplitl [Hs]; · iexact Hs
  iexact Hp24

/-- info: 'Cert.Kernel.Proto.part3_spec' depends on axioms: [propext, Classical.choice, Quot.sound] -/
#guard_msgs in #print axioms part3_spec

/-- info: 'Cert.Kernel.Proto.part24_spec' depends on axioms: [propext, Classical.choice, Quot.sound] -/
#guard_msgs in #print axioms part24_spec

/-- info: 'Cert.Kernel.Proto.part26_spec' depends on axioms: [propext, Classical.choice, Quot.sound] -/
#guard_msgs in #print axioms part26_spec

/-- info: 'Cert.Kernel.Proto.part32_spec' depends on axioms: [propext, Classical.choice, Quot.sound] -/
#guard_msgs in #print axioms part32_spec

end Cert.Kernel.Proto

end
-- ==== Proof.Parts2bKernel.lean ====
import proofs.«901004_g7700000000001005_dist_rmsnorm_colshard_i_m4096_n1024_v7x_i4_bf16_1_alg».proof.Proof.Parts2Kernel

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : GSem nD τ sig → ℕ) (c : Dev nD)
  (harg0 : (Memref.whole main_arg0 : Memref sig .tc .hbm S4096x1024 .f32).IsWhole) (arg1 : Memref sig .tc .vmem S1024 .f32) (harg1 : arg1.IsWhole)
  (harg2 : (Memref.whole main_v1 : Memref sig .tc .hbm S4096x1024 .bf16).IsWhole) (harg3 : (Memref.whole cc0_scratch0 : Memref sig .tc .vmem S8x512x1024 .f32).IsWhole)
  (harg4 : (Memref.whole cc0_scratch1 : Memref sig .tc .vmem S8x512x1024 .bf16).IsWhole) (harg5 : (Memref.whole cc0_scratch2 : Memref sig .tc .vmem S4x32x128 .f32).IsWhole)

theorem b_ov_stored (c : Dev nD) (j : Fin 8) (f1 : Buf (Elt F) ((c : Thread nD τ).loc cc0_scratch1)) (P : FVec F S1x512x1024 .bf16)
    (hP : P = Spec.outChunk (Spec.Xof m) (Spec.Gof m) c j)
    (hin : ∀ a : Fin 3, (![j.val, 0, 0] : Fin 3 → Nat) a + S1x512x1024.size a ≤ S8x512x1024.size a) :
    ∀ i ∈ (ovM j).view.set,
      View.write (Elt F) ((Memref.whole cc0_scratch1 : Memref sig .tc .vmem S8x512x1024 .bf16).access
          (Rect.unit (s := S8x512x1024) ![j.val, 0, 0] S1x512x1024.size hin))
        f1 P Finset.univ i = ovFin m c i := by
  intro i hi
  rw [ov_set] at hi
  have hi' : i ∈ ((Memref.whole cc0_scratch1 : Memref sig .tc .vmem S8x512x1024 .bf16).access
      (Rect.unit (s := S8x512x1024) ![j.val, 0, 0] S1x512x1024.size hin) : View sig .tc _ _ _).set := by
    rw [show ((Memref.whole cc0_scratch1 : Memref sig .tc .vmem S8x512x1024 .bf16).access
      (Rect.unit (s := S8x512x1024) ![j.val, 0, 0] S1x512x1024.size hin) : View sig .tc _ _ _).set = (chunkR j).set from View.set_slice_whole _ _]
    exact hi
  obtain ⟨y, rfl⟩ := View.exists_emb_of_mem_set _ hi'
  rw [View.write_emb_of_mem _ _ (Finset.mem_univ y), hP]
  refine (cast_eq _ _).trans ?_
  unfold ovFin
  have h0 : (y 0).val = 0 := by have : (y 0).val < 1 := (y 0).isLt; omega
  refine congr (congrArg (Spec.outChunk (Spec.Xof m) (Spec.Gof m) c) (Fin.ext ?_)) (funext fun d => ?_)
  · show j.val = j.val + 1 * (y 0).val
    omega
  · match d with
    | ⟨0, _⟩ => exact Fin.ext (by show (y 0).val = 0; omega)
    | ⟨1, _⟩ => exact Fin.ext (by show (y 1).val = 0 + 1 * (y 1).val; omega)
    | ⟨2, _⟩ => exact Fin.ext (by show (y 2).val = 0 + 1 * (y 2).val; omega)

theorem b_pay4 (g : FVec F S1024 .f32) (s0 s1 s2 s3 : Vec F S1x4x128 .f32) (xc : Vec F S1x512x1024 .f32) :
    k0_pay21 g (k0_pay20 s0 s1 s2 s3) (Scalar.ofBits .f32 0x39800000#32) xc = Spec.outc g s0 s1 s2 s3 xc := rfl
theorem b_pay5 (g : FVec F S1024 .f32) (s0 s1 s2 s3 : Vec F S1x4x128 .f32) (xc : Vec F S1x512x1024 .f32) :
    k0_pay23 g (k0_pay22 s0 s1 s2) s3 xc = Spec.outc g s0 s1 s2 s3 xc := rfl
theorem b_pay6 (g : FVec F S1024 .f32) (s0 s1 s2 s3 : Vec F S1x4x128 .f32) (xc : Vec F S1x512x1024 .f32) :
    k0_pay25 g (k0_pay24 s0 s1) s2 s3 xc = Spec.outc g s0 s1 s2 s3 xc := rfl
theorem b_pay7 (g : FVec F S1024 .f32) (s0 s1 s2 s3 : Vec F S1x4x128 .f32) (xc : Vec F S1x512x1024 .f32) :
    k0_pay27 g (k0_pay26 s0) s1 s2 s3 xc = Spec.outc g s0 s1 s2 s3 xc := rfl

def part33_pre (W : Waits sig Unit) : sProp 𝕄 :=
  iprop(invs m K c
    ∗ owes (c : Thread nD τ) (Oat c 27) W
    ∗ rwPre c 1 4
    ∗ rwPre c 0 4
    ∗ piecePt c (up 2) 4 fullShare (commFinal m c)
    ∗ piecePt c 3 4 qK (commFinal m c))

def part33_post (r : (Σ' (v963 : FVec F S4x128 .f32), F .f32)) : sProp 𝕄 :=
  iprop(⌜r.1 = k0_pay20 (sl m c 0 4) (sl m c 1 4) (sl m c 2 4) (sl m c 3 4)⌝
    ∗ ⌜r.2 = Scalar.ofBits .f32 0x39800000#32⌝
    ∗ owesAny c (Oat c 27)
    ∗ rwPost m c 1 4
    ∗ rwPost m c 0 4
    ∗ piecePt c (up 2) 4 fullShare (commFinal m c)
    ∗ piecePt c 3 4 qK (commFinal m c))

set_option maxHeartbeats 3200000 in
theorem part33_spec (W : Waits sig Unit) (v431 : BitVec 32) (v452 : BitVec 32) :
    part33_pre m K c W
      ⊢ wp frame (wpE (defs₀ (F := F)) 𝒱₀ (c : Thread nD τ) none) Set.univ
          (k0_part33 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v431 v452)
          (fun r => part33_post m c r) := by
  rw [k0_part33_eq_skeleton]
  unfold k0_part33_skel part33_pre
  simp only [Prog.lift, Prog.bind_op, Prog.bind_ret, Prog.pure_eq_ret]
  rw [Oat_last]
  iintro ⟨#HI, HO, Hw1, Hw0, P2, P3⟩
  iapply (recvwait_step m K c 1 4 W (piece_credit 1 4)) $$ HI HO Hw1
  iintro ⟨HO, Hr1⟩
  iapply (recvwait_step m K c 0 4 _ (piece_credit 0 4)) $$ HI HO Hw0
  iintro ⟨HO, Hr0⟩
  icases Hr1 with ⟨P1, Hs1⟩
  icases Hr0 with ⟨P0, Hs0⟩
  sl_exec
  rw [wp_ret]; imodintro
  unfold part33_post
  isplitr; · ipureintro; exact congr (congr (congr (congrArg k0_pay20 (read_piece m c 0 4 (by decide))) (read_piece m c 1 4 (by decide))) (read_piece m c 2 4 (by decide))) (read_piece m c 3 4 (by decide))
  isplitr; · ipureintro; rfl
  isplitl [HO]; · iexists _; iexact HO
  isplitl [P1 Hs1]
  · sl_close
  isplitl [P0 Hs0]
  · sl_close
  sl_close

def part34_pre (W : Waits sig Unit) (f1 : Buf (Elt F) ((c : Thread nD τ).loc cc0_scratch1))
    (fo : Buf (Elt F) ((c : Thread nD τ).loc main_v1)) : sProp 𝕄 :=
  iprop(invs m K c
    ∗ owes (c : Thread nD τ) (Oat c 27) W
    ∗ xvPt c 4 (xvFin m c)
    ∗ ovPt c 4 f1
    ∗ outPt c 4 fo
    ∗ sem0 c 12
    ∗ rwPre c 2 5)

def part34_post (fo : Buf (Elt F) ((c : Thread nD τ).loc main_v1)) : sProp 𝕄 :=
  iprop(owesAny c (Oat c 27)
    ∗ xvPt c 4 (xvFin m c)
    ∗ storeFlight m c 4 fo
    ∗ rwPost m c 2 5)

set_option maxHeartbeats 3200000 in
theorem part34_spec (W : Waits sig Unit) (f1 : Buf (Elt F) ((c : Thread nD τ).loc cc0_scratch1))
    (fo : Buf (Elt F) ((c : Thread nD τ).loc main_v1)) (v486 : BitVec 32) (v692 : FVec F S1024 .f32) (v963 : FVec F S4x128 .f32) (cst_902 : F .f32) (hg : v692 = k0_pay10 (Spec.Gof m c)) (hv963 : v963 = k0_pay20 (sl m c 0 4) (sl m c 1 4) (sl m c 2 4) (sl m c 3 4)) (hcst_902 : cst_902 = Scalar.ofBits .f32 0x39800000#32) :
    part34_pre m K c W f1 fo
      ⊢ wp frame (wpE (defs₀ (F := F)) 𝒱₀ (c : Thread nD τ) none) Set.univ
          (k0_part34 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v486 v692 v963 cst_902)
          (fun _ => part34_post m c fo) := by
  subst hg hv963 hcst_902
  rw [k0_part34_eq_skeleton]
  unfold k0_part34_skel part34_pre
  simp only [Prog.lift, Prog.bind_op, Prog.bind_ret, Prog.pure_eq_ret]
  rw [Oat_last]
  iintro ⟨#HI, HO, Hx, Ho, Hout, Hs, Hw2⟩
  set_option sl_exec.maxSteps 3 in sl_exec
  ihave Ho := (Entails.of_eq (pointsTo_congr (b_ov_stored m c 4 f1 _ ((congrArg (k0_pay21 (k0_pay10 (Spec.Gof m c)) (k0_pay20 (sl m c 0 4) (sl m c 1 4) (sl m c 2 4) (sl m c 3 4)) (Scalar.ofBits .f32 0x39800000#32)) (read_xv m c 4 (by decide))).trans (b_pay4 _ _ _ _ _ _)) (by decide)))) $$ Ho
  sl_exec
  iapply (recvwait_step m K c 2 5 W (piece_credit 2 5)) $$ HI HO Hw2
  iintro ⟨HO, Hr2⟩
  rw [wp_ret]; imodintro
  unfold part34_post
  isplitl [HO]; · iexists _; iexact HO
  isplitl [Hx]; · iexact Hx
  isplitl [Hs]; · iexact Hs
  iexact Hr2

def part35_pre (W : Waits sig Unit) : sProp 𝕄 :=
  iprop(invs m K c
    ∗ owes (c : Thread nD τ) (Oat c 27) W
    ∗ rwPre c 1 5
    ∗ rwPre c 0 5
    ∗ piecePt c (up 2) 5 fullShare (commFinal m c))

def part35_post (r : (FVec F S4x128 .f32)) : sProp 𝕄 :=
  iprop(⌜r = k0_pay22 (sl m c 0 5) (sl m c 1 5) (sl m c 2 5)⌝
    ∗ owesAny c (Oat c 27)
    ∗ rwPost m c 1 5
    ∗ rwPost m c 0 5
    ∗ piecePt c (up 2) 5 fullShare (commFinal m c))

set_option maxHeartbeats 3200000 in
theorem part35_spec (W : Waits sig Unit) (v507 : BitVec 32) (v528 : BitVec 32) :
    part35_pre m K c W
      ⊢ wp frame (wpE (defs₀ (F := F)) 𝒱₀ (c : Thread nD τ) none) Set.univ
          (k0_part35 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v507 v528)
          (fun r => part35_post m c r) := by
  rw [k0_part35_eq_skeleton]
  unfold k0_part35_skel part35_pre
  simp only [Prog.lift, Prog.bind_op, Prog.bind_ret, Prog.pure_eq_ret]
  rw [Oat_last]
  iintro ⟨#HI, HO, Hw1, Hw0, P2⟩
  iapply (recvwait_step m K c 1 5 W (piece_credit 1 5)) $$ HI HO Hw1
  iintro ⟨HO, Hr1⟩
  iapply (recvwait_step m K c 0 5 _ (piece_credit 0 5)) $$ HI HO Hw0
  iintro ⟨HO, Hr0⟩
  icases Hr1 with ⟨P1, Hs1⟩
  icases Hr0 with ⟨P0, Hs0⟩
  sl_exec
  rw [wp_ret]; imodintro
  unfold part35_post
  isplitr; · ipureintro; exact congr (congr (congrArg k0_pay22 (read_piece m c 0 5 (by decide))) (read_piece m c 1 5 (by decide))) (read_piece m c 2 5 (by decide))
  isplitl [HO]; · iexists _; iexact HO
  isplitl [P1 Hs1]
  · sl_close
  isplitl [P0 Hs0]
  · sl_close
  iexact P2

def part36_pre (f1 : Buf (Elt F) ((c : Thread nD τ).loc cc0_scratch1))
    (fo : Buf (Elt F) ((c : Thread nD τ).loc main_v1)) : sProp 𝕄 :=
  iprop(piecePt c 3 5 qK (commFinal m c)
    ∗ xvPt c 5 (xvFin m c)
    ∗ ovPt c 5 f1
    ∗ outPt c 5 fo
    ∗ sem0 c 13)

def part36_post (fo : Buf (Elt F) ((c : Thread nD τ).loc main_v1)) : sProp 𝕄 :=
  iprop(piecePt c 3 5 qK (commFinal m c)
    ∗ xvPt c 5 (xvFin m c)
    ∗ storeFlight m c 5 fo)

set_option maxHeartbeats 3200000 in
theorem part36_spec (f1 : Buf (Elt F) ((c : Thread nD τ).loc cc0_scratch1))
    (fo : Buf (Elt F) ((c : Thread nD τ).loc main_v1)) (v562 : BitVec 32) (v692 : FVec F S1024 .f32) (v1019 : FVec F S4x128 .f32) (hg : v692 = k0_pay10 (Spec.Gof m c)) (hv1019 : v1019 = k0_pay22 (sl m c 0 5) (sl m c 1 5) (sl m c 2 5)) :
    part36_pre m c f1 fo
      ⊢ wp frame (wpE (defs₀ (F := F)) 𝒱₀ (c : Thread nD τ) none) Set.univ
          (k0_part36 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v562 v692 v1019)
          (fun _ => part36_post m c fo) := by
  subst hg hv1019
  rw [k0_part36_eq_skeleton]
  unfold k0_part36_skel part36_pre
  simp only [Prog.lift, Prog.bind_op, Prog.bind_ret, Prog.pure_eq_ret]
  iintro ⟨P3, Hx, Ho, Hout, Hs⟩
  set_option sl_exec.maxSteps 4 in sl_exec
  ihave Ho := (Entails.of_eq (pointsTo_congr (b_ov_stored m c 5 f1 _ ((congr (congrArg (k0_pay23 (k0_pay10 (Spec.Gof m c)) (k0_pay22 (sl m c 0 5) (sl m c 1 5) (sl m c 2 5))) (read_piece m c 3 5 (by decide))) (read_xv m c 5 (by decide))).trans (b_pay5 _ _ _ _ _ _)) (by decide)))) $$ Ho
  sl_exec
  rw [wp_ret]; imodintro
  unfold part36_post
  sl_close

def part37_pre (W : Waits sig Unit) : sProp 𝕄 :=
  iprop(invs m K c
    ∗ owes (c : Thread nD τ) (Oat c 27) W
    ∗ rwPre c 2 6
    ∗ rwPre c 1 6
    ∗ rwPre c 0 6)

def part37_post (r : (FVec F S4x128 .f32)) : sProp 𝕄 :=
  iprop(⌜r = k0_pay24 (sl m c 0 6) (sl m c 1 6)⌝
    ∗ owesAny c (Oat c 27)
    ∗ rwPost m c 2 6
    ∗ rwPost m c 1 6
    ∗ rwPost m c 0 6)

set_option maxHeartbeats 3200000 in
theorem part37_spec (W : Waits sig Unit) (v583 : BitVec 32) (v604 : BitVec 32) :
    part37_pre m K c W
      ⊢ wp frame (wpE (defs₀ (F := F)) 𝒱₀ (c : Thread nD τ) none) Set.univ
          (k0_part37 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v583 v604)
          (fun r => part37_post m c r) := by
  rw [k0_part37_eq_skeleton]
  unfold k0_part37_skel part37_pre
  simp only [Prog.lift, Prog.bind_op, Prog.bind_ret, Prog.pure_eq_ret]
  rw [Oat_last]
  iintro ⟨#HI, HO, Hw2, Hw1, Hw0⟩
  iapply (recvwait_step m K c 2 6 W (piece_credit 2 6)) $$ HI HO Hw2
  iintro ⟨HO, Hr2⟩
  iapply (recvwait_step m K c 1 6 _ (piece_credit 1 6)) $$ HI HO Hw1
  iintro ⟨HO, Hr1⟩
  iapply (recvwait_step m K c 0 6 _ (piece_credit 0 6)) $$ HI HO Hw0
  iintro ⟨HO, Hr0⟩
  icases Hr2 with ⟨P2, Hs2⟩
  icases Hr1 with ⟨P1, Hs1⟩
  icases Hr0 with ⟨P0, Hs0⟩
  sl_exec
  rw [wp_ret]; imodintro
  unfold part37_post
  isplitr; · ipureintro; exact congr (congrArg k0_pay24 (read_piece m c 0 6 (by decide))) (read_piece m c 1 6 (by decide))
  isplitl [HO]; · iexists _; iexact HO
  isplitl [P2 Hs2]
  · sl_close
  isplitl [P1 Hs1]
  · sl_close
  sl_close

def part38_pre (f1 : Buf (Elt F) ((c : Thread nD τ).loc cc0_scratch1))
    (fo : Buf (Elt F) ((c : Thread nD τ).loc main_v1)) : sProp 𝕄 :=
  iprop(piecePt c (up 2) 6 fullShare (commFinal m c)
    ∗ piecePt c 3 6 qK (commFinal m c)
    ∗ xvPt c 6 (xvFin m c)
    ∗ ovPt c 6 f1
    ∗ outPt c 6 fo
    ∗ sem0 c 14)

def part38_post (fo : Buf (Elt F) ((c : Thread nD τ).loc main_v1)) : sProp 𝕄 :=
  iprop(piecePt c (up 2) 6 fullShare (commFinal m c)
    ∗ piecePt c 3 6 qK (commFinal m c)
    ∗ xvPt c 6 (xvFin m c)
    ∗ storeFlight m c 6 fo)

set_option maxHeartbeats 3200000 in
theorem part38_spec (f1 : Buf (Elt F) ((c : Thread nD τ).loc cc0_scratch1))
    (fo : Buf (Elt F) ((c : Thread nD τ).loc main_v1)) (v638 : BitVec 32) (v692 : FVec F S1024 .f32) (v1075 : FVec F S4x128 .f32) (hg : v692 = k0_pay10 (Spec.Gof m c)) (hv1075 : v1075 = k0_pay24 (sl m c 0 6) (sl m c 1 6)) :
    part38_pre m c f1 fo
      ⊢ wp frame (wpE (defs₀ (F := F)) 𝒱₀ (c : Thread nD τ) none) Set.univ
          (k0_part38 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v638 v692 v1075)
          (fun _ => part38_post m c fo) := by
  subst hg hv1075
  rw [k0_part38_eq_skeleton]
  unfold k0_part38_skel part38_pre
  simp only [Prog.lift, Prog.bind_op, Prog.bind_ret, Prog.pure_eq_ret]
  iintro ⟨P2, P3, Hx, Ho, Hout, Hs⟩
  set_option sl_exec.maxSteps 5 in sl_exec
  ihave Ho := (Entails.of_eq (pointsTo_congr (b_ov_stored m c 6 f1 _ ((congr (congr (congrArg (k0_pay25 (k0_pay10 (Spec.Gof m c)) (k0_pay24 (sl m c 0 6) (sl m c 1 6))) (read_piece m c 2 6 (by decide))) (read_piece m c 3 6 (by decide))) (read_xv m c 6 (by decide))).trans (b_pay6 _ _ _ _ _ _)) (by decide)))) $$ Ho
  sl_exec
  rw [wp_ret]; imodintro
  unfold part38_post
  sl_close

def part39_pre (W : Waits sig Unit) : sProp 𝕄 :=
  iprop(invs m K c
    ∗ owes (c : Thread nD τ) (Oat c 27) W
    ∗ rwPre c 2 7
    ∗ rwPre c 1 7
    ∗ rwPre c 0 7)

def part39_post (r : (FVec F S4x128 .f32)) : sProp 𝕄 :=
  iprop(⌜r = k0_pay26 (sl m c 0 7)⌝
    ∗ owesAny c (Oat c 27)
    ∗ rwPost m c 2 7
    ∗ rwPost m c 1 7
    ∗ rwPost m c 0 7)

set_option maxHeartbeats 3200000 in
theorem part39_spec (W : Waits sig Unit) (v659 : BitVec 32) (v680 : BitVec 32) (v1106 : BitVec 32) (c0_i32_1047 : BitVec 32) :
    part39_pre m K c W
      ⊢ wp frame (wpE (defs₀ (F := F)) 𝒱₀ (c : Thread nD τ) none) Set.univ
          (k0_part39 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v659 v680 v1106 c0_i32_1047)
          (fun r => part39_post m c r) := by
  rw [k0_part39_eq_skeleton]
  unfold k0_part39_skel part39_pre
  simp only [Prog.lift, Prog.bind_op, Prog.bind_ret, Prog.pure_eq_ret]
  rw [Oat_last]
  iintro ⟨#HI, HO, Hw2, Hw1, Hw0⟩
  iapply (recvwait_step m K c 2 7 W (piece_credit 2 7)) $$ HI HO Hw2
  iintro ⟨HO, Hr2⟩
  iapply (recvwait_step m K c 1 7 _ (piece_credit 1 7)) $$ HI HO Hw1
  iintro ⟨HO, Hr1⟩
  iapply (recvwait_step m K c 0 7 _ (piece_credit 0 7)) $$ HI HO Hw0
  iintro ⟨HO, Hr0⟩
  icases Hr2 with ⟨P2, Hs2⟩
  icases Hr1 with ⟨P1, Hs1⟩
  icases Hr0 with ⟨P0, Hs0⟩
  sl_exec
  rw [wp_ret]; imodintro
  unfold part39_post
  isplitr; · ipureintro; exact congrArg k0_pay26 (read_piece m c 0 7 (by decide))
  isplitl [HO]; · iexists _; iexact HO
  isplitl [P2 Hs2]
  · sl_close
  isplitl [P1 Hs1]
  · sl_close
  sl_close

def part40_pre (f1 : Buf (Elt F) ((c : Thread nD τ).loc cc0_scratch1))
    (fo : Buf (Elt F) ((c : Thread nD τ).loc main_v1)) : sProp 𝕄 :=
  iprop(piecePt c (up 1) 7 fullShare (commFinal m c)
    ∗ piecePt c (up 2) 7 fullShare (commFinal m c)
    ∗ piecePt c 3 7 qK (commFinal m c)
    ∗ xvPt c 7 (xvFin m c)
    ∗ ovPt c 7 f1
    ∗ outPt c 7 fo
    ∗ sem0 c 15)

def part40_post (fo : Buf (Elt F) ((c : Thread nD τ).loc main_v1)) : sProp 𝕄 :=
  iprop(piecePt c (up 1) 7 fullShare (commFinal m c)
    ∗ piecePt c (up 2) 7 fullShare (commFinal m c)
    ∗ piecePt c 3 7 qK (commFinal m c)
    ∗ xvPt c 7 (xvFin m c)
    ∗ storeFlight m c 7 fo)

set_option maxHeartbeats 3200000 in
theorem part40_spec (f1 : Buf (Elt F) ((c : Thread nD τ).loc cc0_scratch1))
    (fo : Buf (Elt F) ((c : Thread nD τ).loc main_v1)) (v692 : FVec F S1024 .f32) (v1131 : FVec F S4x128 .f32) (hg : v692 = k0_pay10 (Spec.Gof m c)) (hv1131 : v1131 = k0_pay26 (sl m c 0 7)) :
    part40_pre m c f1 fo
      ⊢ wp frame (wpE (defs₀ (F := F)) 𝒱₀ (c : Thread nD τ) none) Set.univ
          (k0_part40 (F := F) (Memref.whole main_arg0) harg0 arg1 harg1 (Memref.whole main_v1) harg2 (Memref.whole cc0_scratch0) harg3 (Memref.whole cc0_scratch1) harg4 (Memref.whole cc0_scratch2) harg5 cc0_scratch3 cc0_scratch4 cc0_scratch5 cc0_scratch6 v692 v1131)
          (fun _ => part40_post m c fo) := by
  subst hg hv1131
  rw [k0_part40_eq_skeleton]
  unfold k0_part40_skel part40_pre
  simp only [Prog.lift, Prog.bind_op, Prog.bind_ret, Prog.pure_eq_ret]
  iintro ⟨P1, P2, P3, Hx, Ho, Hout, Hs⟩
  set_option sl_exec.maxSteps 6 in sl_exec
  ihave Ho := (Entails.of_eq (pointsTo_congr (b_ov_stored m c 7 f1 _ ((congr (congr (congr (congrArg (k0_pay27 (k0_pay10 (Spec.Gof m c)) (k0_pay26 (sl m c 0 7))) (read_piece m c 1 7 (by decide))) (read_piece m c 2 7 (by decide))) (read_piece m c 3 7 (by decide))) (read_xv m c 7 (by decide))).trans (b_pay7 _ _ _ _ _ _)) (by decide)))) $$ Ho
  sl_exec
  rw [wp_ret]; imodintro
  unfold part40_post
  sl_close

/-- info: 'Cert.Kernel.Proto.part33_spec' depends on axioms: [propext, Classical.choice, Quot.sound] -/
#guard_msgs in #print axioms part33_spec

/-- info: 'Cert.Kernel.Proto.part34_spec' depends on axioms: [propext, Classical.choice, Quot.sound] -/
#guard_msgs in #print axioms part34_spec

/-- info: 'Cert.Kernel.Proto.part35_spec' depends on axioms: [propext, Classical.choice, Quot.sound] -/
#guard_msgs in #print axioms part35_spec

/-- info: 'Cert.Kernel.Proto.part36_spec' depends on axioms: [propext, Classical.choice, Quot.sound] -/
#guard_msgs in #print axioms part36_spec

/-- info: 'Cert.Kernel.Proto.part37_spec' depends on axioms: [propext, Classical.choice, Quot.sound] -/
#guard_msgs in #print axioms part37_spec

/-- info: 'Cert.Kernel.Proto.part38_spec' depends on axioms: [propext, Classical.choice, Quot.sound] -/
#guard_msgs in #print axioms part38_spec

/-- info: 'Cert.Kernel.Proto.part39_spec' depends on axioms: [propext, Classical.choice, Quot.sound] -/
#guard_msgs in #print axioms part39_spec

/-- info: 'Cert.Kernel.Proto.part40_spec' depends on axioms: [propext, Classical.choice, Quot.sound] -/
#guard_msgs in #print axioms part40_spec

end Cert.Kernel.Proto

end
-- ==== Proof.Parts3Kernel.lean ====
import proofs.«901004_g7700000000001005_dist_rmsnorm_colshard_i_m4096_n1024_v7x_i4_bf16_1_alg».proof.Proof.ResKernel
import Idealize.ShloMosaic.Lib.Pipeline.Value

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev swPre (c : Dev nD) (d : Fin 3) (h : Fin 8) : sProp 𝕄 :=
  iprop(cred (tallyAt (sendCell c d h) () N) ∗ atPos ER (sendCell c d h) 0 ∅ 0)
abbrev swPost (c : Dev nD) (d : Fin 3) (h : Fin 8) : sProp 𝕄 :=
  iprop(piecePt c 3 h (qS d) (commFinal m c) ∗ semVal (sendCell c d h) 0)

theorem sendwait_step (K : GSem nD τ sig → ℕ) (c : Dev nD) (d : Fin 3) (h : Fin 8) (W : Waits sig Unit)
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {Q : α → sProp 𝕄} {kk : PUnit → Prog (TpuEff nD τ sig (Elt F) Λ₀ .tc) α} :
    ⊢ iprop(invs m K c -∗ owes (c : Thread nD τ) 0 W -∗ swPre c d h
          -∗ (iprop(owes (c : Thread nD τ) 0 (insert (SemLoc.dma (sendS d h), ()) W) ∗ swPost m c d h)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS d h) src dst hsrc hdst) kk) Q) := by
  iintro #Hinv HO Hw Hk
  ihave #HI := (invs_send m K c d h) $$ Hinv
  iapply (cellwait_step m c (sendS d h) _ (duties_send m c d h) (expect_send m c d h) ((payload_send m c d h 0).trans (sendPay_eq m c d h)) (K (sendCell c d h)) W hN) $$ HI HO Hw Hk

def part41_pre (K : GSem nD τ sig → ℕ) (c : Dev nD) (W : Waits sig Unit) : sProp 𝕄 :=
  iprop(invs m K c ∗ owes (c : Thread nD τ) (Oat c 27) W ∗ swPre c 0 0 ∗ swPre c 1 0 ∗ swPre c 2 0)
def part41_post (c : Dev nD) : sProp 𝕄 :=
  iprop(owesAny c (Oat c 27) ∗ swPost m c 0 0 ∗ swPost m c 1 0 ∗ swPost m c 2 0)

set_option maxHeartbeats 800000 in
theorem part41_spec (K : GSem nD τ sig → ℕ) (c : Dev nD) (W : Waits sig Unit)
    (arg0 : Memref sig .tc .hbm S4096x1024 .f32) (harg0 : arg0.IsWhole) (arg1 : Memref sig .tc .vmem S1024 .f32) (harg1 : arg1.IsWhole)
    (arg2 : Memref sig .tc .hbm S4096x1024 .bf16) (harg2 : arg2.IsWhole) (arg3 : Memref sig .tc .vmem S8x512x1024 .f32) (harg3 : arg3.IsWhole)
    (arg4 : Memref sig .tc .vmem S8x512x1024 .bf16) (harg4 : arg4.IsWhole) (harg5 : (Memref.whole cc0_scratch2 : Memref sig .tc .vmem S4x32x128 .f32).IsWhole)
    (arg6 : DmaSems sig S8) (arg7 : DmaSems sig S8) (arg9 : DmaSems sig S3x8) :
    part41_pre m K c W
      ⊢ wp frame (wpE (defs₀ (F := F)) 𝒱₀ (c : Thread nD τ) none) Set.univ
          (k0_part41 (F := F) arg0 harg0 arg1 harg1 arg2 harg2 arg3 harg3 arg4 harg4 (Memref.whole cc0_scratch2) harg5 arg6 arg7 cc0_scratch5 arg9)
          (fun _ => part41_post (F := F) m c) := by
  rw [k0_part41_eq_skeleton]
  unfold k0_part41_skel part41_pre part41_post
  simp only [Prog.lift, Prog.bind_op, Prog.bind_ret, Prog.pure_eq_ret]
  rw [Oat_last]
  iintro ⟨#Hinv, HO, S0, S1, S2⟩
  iapply (sendwait_step m K c 0 0 _ (piece_credit 3 0)) $$ Hinv HO S0
  iintro ⟨HO, P0, ZP0⟩
  iapply (sendwait_step m K c 1 0 _ (piece_credit 3 0)) $$ Hinv HO S1
  iintro ⟨HO, P1, ZP1⟩
  iapply (sendwait_step m K c 2 0 _ (piece_credit 3 0)) $$ Hinv HO S2
  iintro ⟨HO, P2, ZP2⟩
  rw [wp_ret]; imodintro
  sl_close

abbrev zc (y : S512x1024.Idx) : S1x512x1024.Idx := Shape.reshapeEquiv squeezes_S1x512x1024_S512x1024.numel_eq y
theorem zc_eq (y : S512x1024.Idx) : zc y = Fin.cons ⟨0, Nat.one_pos⟩ y := Shape.reshapeEquiv_cons_one _ y
theorem zc0 (y : S512x1024.Idx) : ((zc y 0 : Fin 1) : Nat) = 0 := by rw [zc_eq]; rfl
theorem zc1 (y : S512x1024.Idx) : ((zc y 1 : Fin 512) : Nat) = ((y 0 : Fin 512) : Nat) := by rw [zc_eq]; rfl
theorem zc2 (y : S512x1024.Idx) : ((zc y 2 : Fin 1024) : Nat) = ((y 1 : Fin 1024) : Nat) := by rw [zc_eq]; rfl

theorem ov_emb0 (j : Fin 8) (y : S512x1024.Idx) :
    ((((ovM j).view.emb y : S8x512x1024.Idx) 0 : Fin 8) : Nat) = j.val + 1 * ((zc y 0 : Fin 1) : Nat) := rfl
theorem ov_emb1 (j : Fin 8) (y : S512x1024.Idx) :
    ((((ovM j).view.emb y : S8x512x1024.Idx) 1 : Fin 512) : Nat) = 0 + 1 * ((zc y 1 : Fin 512) : Nat) := rfl
theorem ov_emb2 (j : Fin 8) (y : S512x1024.Idx) :
    ((((ovM j).view.emb y : S8x512x1024.Idx) 2 : Fin 1024) : Nat) = 0 + 1 * ((zc y 2 : Fin 1024) : Nat) := rfl
theorem out_emb0 (j : Fin 8) (y : S512x1024.Idx) :
    ((((outM j).view.emb y : S4096x1024.Idx) 0 : Fin 4096) : Nat) = 512 * j.val + 1 * ((y 0 : Fin 512) : Nat) := rfl
theorem out_emb1 (j : Fin 8) (y : S512x1024.Idx) :
    ((((outM j).view.emb y : S4096x1024.Idx) 1 : Fin 1024) : Nat) = 0 + 1 * ((y 1 : Fin 1024) : Nat) := rfl

def oc (X : Dev nD → Vec F S4096x1024 .f32) (G : Dev nD → Vec F S1024 .f32) (p : Dev nD) (a b l : ℕ) (ha : a < 8) (hb : b < 512) (hl : l < 1024) : Elt F .bf16 :=
  Spec.outChunk X G p ⟨a, ha⟩ (ix3 (n0 := 1) (n1 := 512) (n2 := 1024) 0 ⟨b, hb⟩ ⟨l, hl⟩)
theorem oc_congr {X : Dev nD → Vec F S4096x1024 .f32} {G : Dev nD → Vec F S1024 .f32} {p : Dev nD} {a a' b b' l l' : ℕ}
    {ha : a < 8} {ha' : a' < 8} {hb : b < 512} {hb' : b' < 512} {hl : l < 1024} {hl' : l' < 1024}
    (ea : a = a') (eb : b = b') (el : l = l') : oc X G p a b l ha hb hl = oc X G p a' b' l' ha' hb' hl' := by
  subst ea eb el; rfl

theorem store_landed_eq (c : Dev nD) (j : Fin 8) (fo : Buf (Elt F) ((c : Thread nD τ).loc main_v1)) :
    ∀ i ∈ (outM j).view.set,
      ((outM j).view.writes (Elt F) fo [⟨Rect.whole S512x1024, ReadAs.same.apply ((ovM j).view.read (Elt F) (ovFin m c))⟩]) i
        = (Spec.outArr (Spec.Xof m) (Spec.Gof m) c : Buf (Elt F) ((c : Thread nD τ).loc main_v1)) i := by
  intro i hi
  obtain ⟨y, rfl⟩ := View.exists_emb_of_mem_set _ hi
  have hy : ((outM j).view.slice (Rect.whole S512x1024)).emb y = (outM j).view.emb y := by
    show (outM j).view.emb ((Rect.whole S512x1024).emb y) = _
    rw [Rect.emb_whole_apply]
  have key := View.write_emb_of_mem (v := (outM j).view.slice (Rect.whole S512x1024)) (Val := Elt F) fo
    (ReadAs.same.apply ((ovM j).view.read (Elt F) (ovFin m c))) (M := Finset.univ) (x := y) (Finset.mem_univ y)
  rw [hy] at key
  rw [View.writes_singleton, key, ReadAs.apply_same, View.read_apply]
  refine (cast_cast_self _ _ _).trans ?_
  have e0 := ov_emb0 j y; have e1 := ov_emb1 j y; have e2 := ov_emb2 j y
  have o0 := out_emb0 j y; have o1 := out_emb1 j y
  have z0 := zc0 y; have z1 := zc1 y; have z2 := zc2 y
  have hy0 : ((y 0 : Fin 512) : Nat) < 512 := (y 0).isLt
  show oc (Spec.Xof m) (Spec.Gof m) c ((((ovM j).view.emb y : S8x512x1024.Idx) 0 : Fin 8) : Nat) ((((ovM j).view.emb y : S8x512x1024.Idx) 1 : Fin 512) : Nat)
        ((((ovM j).view.emb y : S8x512x1024.Idx) 2 : Fin 1024) : Nat) (Fin.isLt _) (Fin.isLt _) (Fin.isLt _)
      = oc (Spec.Xof m) (Spec.Gof m) c (((((outM j).view.emb y : S4096x1024.Idx) 0 : Fin 4096) : Nat) / 512) (((((outM j).view.emb y : S4096x1024.Idx) 0 : Fin 4096) : Nat) % 512)
        ((((outM j).view.emb y : S4096x1024.Idx) 1 : Fin 1024) : Nat) (by omega) (Nat.mod_lt _ (by decide)) (Fin.isLt _)
  exact oc_congr (by omega) (by omega) (by omega)

theorem store_landed (c : Dev nD) (j : Fin 8) (fo : Buf (Elt F) ((c : Thread nD τ).loc main_v1)) :
    ((outM j).view.loc (c : Thread nD τ) ↦[(outM j).view.set]{fullShare}
        (outM j).view.writes (Elt F) fo [⟨Rect.whole S512x1024, ReadAs.same.apply ((ovM j).view.read (Elt F) (ovFin m c))⟩] : sProp 𝕄)
      ⊢ outPt c j (Spec.outArr (Spec.Xof m) (Spec.Gof m) c) := by
  rw [pointsTo_congr (store_landed_eq m c j fo)]

def part48_pre (K : GSem nD τ sig → ℕ) (c : Dev nD) (W : Waits sig Unit) (fo : Buf (Elt F) ((c : Thread nD τ).loc main_v1)) : sProp 𝕄 :=
  iprop(invs m K c ∗ owes (c : Thread nD τ) (Oat c 27) W ∗ swPre c 2 7
    ∗ storeFlight m c 0 fo ∗ storeFlight m c 1 fo ∗ storeFlight m c 2 fo ∗ storeFlight m c 3 fo)
def part48_post (c : Dev nD) : sProp 𝕄 :=
  iprop(owesAny c (Oat c 27) ∗ swPost m c 2 7
    ∗ ovPt c 0 (ovFin m c) ∗ sem0 c 8 ∗ outPt c 0 (Spec.outArr (Spec.Xof m) (Spec.Gof m) c)
    ∗ ovPt c 1 (ovFin m c) ∗ sem0 c 9 ∗ outPt c 1 (Spec.outArr (Spec.Xof m) (Spec.Gof m) c)
    ∗ ovPt c 2 (ovFin m c) ∗ sem0 c 10 ∗ outPt c 2 (Spec.outArr (Spec.Xof m) (Spec.Gof m) c)
    ∗ ovPt c 3 (ovFin m c) ∗ sem0 c 11 ∗ outPt c 3 (Spec.outArr (Spec.Xof m) (Spec.Gof m) c))

set_option maxHeartbeats 1600000 in
theorem part48_spec (K : GSem nD τ sig → ℕ) (c : Dev nD) (W : Waits sig Unit) (fo : Buf (Elt F) ((c : Thread nD τ).loc main_v1))
    (arg0 : Memref sig .tc .hbm S4096x1024 .f32) (harg0 : arg0.IsWhole) (arg1 : Memref sig .tc .vmem S1024 .f32) (harg1 : arg1.IsWhole)
    (harg2 : (Memref.whole main_v1 : Memref sig .tc .hbm S4096x1024 .bf16).IsWhole) (arg3 : Memref sig .tc .vmem S8x512x1024 .f32) (harg3 : arg3.IsWhole)
    (harg4 : (Memref.whole cc0_scratch1 : Memref sig .tc .vmem S8x512x1024 .bf16).IsWhole) (harg5 : (Memref.whole cc0_scratch2 : Memref sig .tc .vmem S4x32x128 .f32).IsWhole)
    (arg6 : DmaSems sig S8) (arg9 : DmaSems sig S3x8) :
    part48_pre m K c W fo
      ⊢ wp frame (wpE (defs₀ (F := F)) 𝒱₀ (c : Thread nD τ) none) Set.univ
          (k0_part48 (F := F) arg0 harg0 arg1 harg1 (Memref.whole main_v1) harg2 arg3 harg3 (Memref.whole cc0_scratch1) harg4 (Memref.whole cc0_scratch2) harg5 arg6 cc0_scratch4 cc0_scratch5 arg9)
          (fun _ => part48_post (F := F) m c) := by
  rw [k0_part48_eq_skeleton]
  unfold k0_part48_skel part48_pre part48_post
  simp only [Prog.lift, Prog.bind_op, Prog.bind_ret, Prog.pure_eq_ret]
  rw [Oat_last]
  iintro ⟨#Hinv, HO, S0, F0, F1, F2, F3⟩
  iapply (sendwait_step m K c 2 7 _ (piece_credit 3 7)) $$ Hinv HO S0
  iintro ⟨HO, P0⟩
  sl_exec
  rw [wp_ret]; imodintro
  isplitl [HO]; · iexists _; iexact HO
  isplitl [P0]; · iexact P0
  isplitl [F0_src]; · iexact F0_src
  isplitl [F0]; · iexact F0
  isplitl [F0_dst]; · iapply (store_landed m c 0 fo) $$ F0_dst
  isplitl [F1_src]; · iexact F1_src
  isplitl [F1]; · iexact F1
  isplitl [F1_dst]; · iapply (store_landed m c 1 fo) $$ F1_dst
  isplitl [F2_src]; · iexact F2_src
  isplitl [F2]; · iexact F2
  isplitl [F2_dst]; · iapply (store_landed m c 2 fo) $$ F2_dst
  isplitl [F3_src]; · iexact F3_src
  isplitl [F3]; · iexact F3
  iapply (store_landed m c 3 fo) $$ F3_dst

theorem eg_fin64 (Φ : Fin 64 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide) Φ

theorem eq_of_biEntails {P Q : sProp 𝕄} (h : P ⊣⊢ Q) : P = Q := equiv_iff.mp ⟨h.1, h.2⟩

theorem scratch_intro (c : Dev nD) (g0 : Buf (Elt F) ((c : Thread nD τ).loc cc0_scratch0)) (g1 : Buf (Elt F) ((c : Thread nD τ).loc cc0_scratch1))
    (g2 : Buf (Elt F) ((c : Thread nD τ).loc cc0_scratch2)) :
    iprop((((c : Thread nD τ).loc cc0_scratch0) ↦{fullShare} g0) ∗ (((c : Thread nD τ).loc cc0_scratch1) ↦{fullShare} g1)
        ∗ (((c : Thread nD τ).loc cc0_scratch2) ↦{fullShare} g2))
      ⊢ (scratch c : sProp 𝕄) := by
  unfold scratch
  iintro ⟨H0, H1, H2⟩
  isplitl [H0]; · iexists g0; iexact H0
  isplitl [H1]; · iexists g1; iexact H1
  iexists g2; iexact H2

theorem piece3_quarters_eq (c : Dev nD) (h : Fin 8) :
    (((pieceM 3 h).view.loc ((c : Dev nD) : Thread nD τ) ↦[(pieceM 3 h).view.set]{fullShare} commFinal m c) : sProp 𝕄)
      = iprop(piecePt c 3 h (qS 0) (commFinal m c) ∗ piecePt c 3 h (qS 1) (commFinal m c) ∗ piecePt c 3 h (qS 2) (commFinal m c)
          ∗ piecePt c 3 h qK (commFinal m c)) :=
  eq_of_biEntails (piece_quarters c 3 h (commFinal m c))

/-- info: 'Cert.Kernel.Proto.part41_spec' depends on axioms: [propext, Classical.choice, Quot.sound] -/
#guard_msgs in #print axioms part41_spec

/-- info: 'Cert.Kernel.Proto.part48_spec' depends on axioms: [propext, Classical.choice, Quot.sound] -/
#guard_msgs in #print axioms part48_spec

/-- info: 'Cert.Kernel.Proto.store_landed' depends on axioms: [propext, Classical.choice, Quot.sound] -/
#guard_msgs in #print axioms store_landed

end Cert.Kernel.Proto

end
-- ==== Proof.Parts3bKernel.lean ====
import proofs.«901004_g7700000000001005_dist_rmsnorm_colshard_i_m4096_n1024_v7x_i4_bf16_1_alg».proof.Proof.Parts3Kernel

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : GSem nD τ sig → ℕ) (c : Dev nD)
  (arg0 : Memref sig .tc .hbm S4096x1024 .f32) (harg0 : arg0.IsWhole) (arg1 : Memref sig .tc .vmem S1024 .f32) (harg1 : arg1.IsWhole)
  (arg2 : Memref sig .tc .hbm S4096x1024 .bf16) (harg2 : arg2.IsWhole) (arg3 : Memref sig .tc .vmem S8x512x1024 .f32) (harg3 : arg3.IsWhole)
  (arg4 : Memref sig .tc .vmem S8x512x1024 .bf16) (harg4 : arg4.IsWhole) (harg5 : (Memref.whole cc0_scratch2 : Memref sig .tc .vmem S4x32x128 .f32).IsWhole)
  (arg6 : DmaSems sig S8) (arg7 : DmaSems sig S8) (arg9 : DmaSems sig S3x8)

def part42_pre (W : Waits sig Unit) : sProp 𝕄 :=
  iprop(invs m K c ∗ owes (c : Thread nD τ) (Oat c 27) W ∗ swPre c 0 1 ∗ swPre c 1 1 ∗ swPre c 2 1)
def part42_post : sProp 𝕄 :=
  iprop(owesAny c (Oat c 27) ∗ swPost m c 0 1 ∗ swPost m c 1 1 ∗ swPost m c 2 1)

set_option maxHeartbeats 800000 in
theorem part42_spec (W : Waits sig Unit) :
    part42_pre m K c W
      ⊢ wp frame (wpE (defs₀ (F := F)) 𝒱₀ (c : Thread nD τ) none) Set.univ
          (k0_part42 (F := F) arg0 harg0 arg1 harg1 arg2 harg2 arg3 harg3 arg4 harg4 (Memref.whole cc0_scratch2) harg5 arg6 arg7 cc0_scratch5 arg9)
          (fun _ => part42_post (F := F) m c) := by
  rw [k0_part42_eq_skeleton]
  unfold k0_part42_skel part42_pre part42_post
  simp only [Prog.lift, Prog.bind_op, Prog.bind_ret, Prog.pure_eq_ret]
  rw [Oat_last]
  iintro ⟨#Hinv, HO, S0, S1, S2⟩
  iapply (sendwait_step m K c 0 1 _ (piece_credit 3 1)) $$ Hinv HO S0
  iintro ⟨HO, P0, ZP0⟩
  iapply (sendwait_step m K c 1 1 _ (piece_credit 3 1)) $$ Hinv HO S1
  iintro ⟨HO, P1, ZP1⟩
  iapply (sendwait_step m K c 2 1 _ (piece_credit 3 1)) $$ Hinv HO S2
  iintro ⟨HO, P2, ZP2⟩
  rw [wp_ret]; imodintro
  sl_close

def part43_pre (W : Waits sig Unit) : sProp 𝕄 :=
  iprop(invs m K c ∗ owes (c : Thread nD τ) (Oat c 27) W ∗ swPre c 0 2 ∗ swPre c 1 2 ∗ swPre c 2 2 ∗ swPre c 0 3)
def part43_post : sProp 𝕄 :=
  iprop(owesAny c (Oat c 27) ∗ swPost m c 0 2 ∗ swPost m c 1 2 ∗ swPost m c 2 2 ∗ swPost m c 0 3)

set_option maxHeartbeats 800000 in
theorem part43_spec (W : Waits sig Unit) :
    part43_pre m K c W
      ⊢ wp frame (wpE (defs₀ (F := F)) 𝒱₀ (c : Thread nD τ) none) Set.univ
          (k0_part43 (F := F) arg0 harg0 arg1 harg1 arg2 harg2 arg3 harg3 arg4 harg4 (Memref.whole cc0_scratch2) harg5 arg6 arg7 cc0_scratch5 arg9)
          (fun _ => part43_post (F := F) m c) := by
  rw [k0_part43_eq_skeleton]
  unfold k0_part43_skel part43_pre part43_post
  simp only [Prog.lift, Prog.bind_op, Prog.bind_ret, Prog.pure_eq_ret]
  rw [Oat_last]
  iintro ⟨#Hinv, HO, S0, S1, S2, S3⟩
  iapply (sendwait_step m K c 0 2 _ (piece_credit 3 2)) $$ Hinv HO S0
  iintro ⟨HO, P0, ZP0⟩
  iapply (sendwait_step m K c 1 2 _ (piece_credit 3 2)) $$ Hinv HO S1
  iintro ⟨HO, P1, ZP1⟩
  iapply (sendwait_step m K c 2 2 _ (piece_credit 3 2)) $$ Hinv HO S2
  iintro ⟨HO, P2, ZP2⟩
  iapply (sendwait_step m K c 0 3 _ (piece_credit 3 3)) $$ Hinv HO S3
  iintro ⟨HO, P3, ZP3⟩
  rw [wp_ret]; imodintro
  sl_close

def part44_pre (W : Waits sig Unit) : sProp 𝕄 :=
  iprop(invs m K c ∗ owes (c : Thread nD τ) (Oat c 27) W ∗ swPre c 1 3 ∗ swPre c 2 3 ∗ swPre c 0 4)
def part44_post : sProp 𝕄 :=
  iprop(owesAny c (Oat c 27) ∗ swPost m c 1 3 ∗ swPost m c 2 3 ∗ swPost m c 0 4)

set_option maxHeartbeats 800000 in
theorem part44_spec (W : Waits sig Unit) :
    part44_pre m K c W
      ⊢ wp frame (wpE (defs₀ (F := F)) 𝒱₀ (c : Thread nD τ) none) Set.univ
          (k0_part44 (F := F) arg0 harg0 arg1 harg1 arg2 harg2 arg3 harg3 arg4 harg4 (Memref.whole cc0_scratch2) harg5 arg6 arg7 cc0_scratch5 arg9)
          (fun _ => part44_post (F := F) m c) := by
  rw [k0_part44_eq_skeleton]
  unfold k0_part44_skel part44_pre part44_post
  simp only [Prog.lift, Prog.bind_op, Prog.bind_ret, Prog.pure_eq_ret]
  rw [Oat_last]
  iintro ⟨#Hinv, HO, S0, S1, S2⟩
  iapply (sendwait_step m K c 1 3 _ (piece_credit 3 3)) $$ Hinv HO S0
  iintro ⟨HO, P0, ZP0⟩
  iapply (sendwait_step m K c 2 3 _ (piece_credit 3 3)) $$ Hinv HO S1
  iintro ⟨HO, P1, ZP1⟩
  iapply (sendwait_step m K c 0 4 _ (piece_credit 3 4)) $$ Hinv HO S2
  iintro ⟨HO, P2, ZP2⟩
  rw [wp_ret]; imodintro
  sl_close

def part45_pre (W : Waits sig Unit) : sProp 𝕄 :=
  iprop(invs m K c ∗ owes (c : Thread nD τ) (Oat c 27) W ∗ swPre c 1 4 ∗ swPre c 2 4 ∗ swPre c 0 5)
def part45_post : sProp 𝕄 :=
  iprop(owesAny c (Oat c 27) ∗ swPost m c 1 4 ∗ swPost m c 2 4 ∗ swPost m c 0 5)

set_option maxHeartbeats 800000 in
theorem part45_spec (W : Waits sig Unit) :
    part45_pre m K c W
      ⊢ wp frame (wpE (defs₀ (F := F)) 𝒱₀ (c : Thread nD τ) none) Set.univ
          (k0_part45 (F := F) arg0 harg0 arg1 harg1 arg2 harg2 arg3 harg3 arg4 harg4 (Memref.whole cc0_scratch2) harg5 arg6 arg7 cc0_scratch5 arg9)
          (fun _ => part45_post (F := F) m c) := by
  rw [k0_part45_eq_skeleton]
  unfold k0_part45_skel part45_pre part45_post
  simp only [Prog.lift, Prog.bind_op, Prog.bind_ret, Prog.pure_eq_ret]
  rw [Oat_last]
  iintro ⟨#Hinv, HO, S0, S1, S2⟩
  iapply (sendwait_step m K c 1 4 _ (piece_credit 3 4)) $$ Hinv HO S0
  iintro ⟨HO, P0, ZP0⟩
  iapply (sendwait_step m K c 2 4 _ (piece_credit 3 4)) $$ Hinv HO S1
  iintro ⟨HO, P1, ZP1⟩
  iapply (sendwait_step m K c 0 5 _ (piece_credit 3 5)) $$ Hinv HO S2
  iintro ⟨HO, P2, ZP2⟩
  rw [wp_ret]; imodintro
  sl_close

def part46_pre (W : Waits sig Unit) : sProp 𝕄 :=
  iprop(invs m K c ∗ owes (c : Thread nD τ) (Oat c 27) W ∗ swPre c 1 5 ∗ swPre c 2 5 ∗ swPre c 0 6 ∗ swPre c 1 6)
def part46_post : sProp 𝕄 :=
  iprop(owesAny c (Oat c 27) ∗ swPost m c 1 5 ∗ swPost m c 2 5 ∗ swPost m c 0 6 ∗ swPost m c 1 6)

set_option maxHeartbeats 800000 in
theorem part46_spec (W : Waits sig Unit) :
    part46_pre m K c W
      ⊢ wp frame (wpE (defs₀ (F := F)) 𝒱₀ (c : Thread nD τ) none) Set.univ
          (k0_part46 (F := F) arg0 harg0 arg1 harg1 arg2 harg2 arg3 harg3 arg4 harg4 (Memref.whole cc0_scratch2) harg5 arg6 arg7 cc0_scratch5 arg9)
          (fun _ => part46_post (F := F) m c) := by
  rw [k0_part46_eq_skeleton]
  unfold k0_part46_skel part46_pre part46_post
  simp only [Prog.lift, Prog.bind_op, Prog.bind_ret, Prog.pure_eq_ret]
  rw [Oat_last]
  iintro ⟨#Hinv, HO, S0, S1, S2, S3⟩
  iapply (sendwait_step m K c 1 5 _ (piece_credit 3 5)) $$ Hinv HO S0
  iintro ⟨HO, P0, ZP0⟩
  iapply (sendwait_step m K c 2 5 _ (piece_credit 3 5)) $$ Hinv HO S1
  iintro ⟨HO, P1, ZP1⟩
  iapply (sendwait_step m K c 0 6 _ (piece_credit 3 6)) $$ Hinv HO S2
  iintro ⟨HO, P2, ZP2⟩
  iapply (sendwait_step m K c 1 6 _ (piece_credit 3 6)) $$ Hinv HO S3
  iintro ⟨HO, P3, ZP3⟩
  rw [wp_ret]; imodintro
  sl_close

def part47_pre (W : Waits sig Unit) : sProp 𝕄 :=
  iprop(invs m K c ∗ owes (c : Thread nD τ) (Oat c 27) W ∗ swPre c 2 6 ∗ swPre c 0 7 ∗ swPre c 1 7)
def part47_post : sProp 𝕄 :=
  iprop(owesAny c (Oat c 27) ∗ swPost m c 2 6 ∗ swPost m c 0 7 ∗ swPost m c 1 7)

set_option maxHeartbeats 800000 in
theorem part47_spec (W : Waits sig Unit) :
    part47_pre m K c W
      ⊢ wp frame (wpE (defs₀ (F := F)) 𝒱₀ (c : Thread nD τ) none) Set.univ
          (k0_part47 (F := F) arg0 harg0 arg1 harg1 arg2 harg2 arg3 harg3 arg4 harg4 (Memref.whole cc0_scratch2) harg5 arg6 arg7 cc0_scratch5 arg9)
          (fun _ => part47_post (F := F) m c) := by
  rw [k0_part47_eq_skeleton]
  unfold k0_part47_skel part47_pre part47_post
  simp only [Prog.lift, Prog.bind_op, Prog.bind_ret, Prog.pure_eq_ret]
  rw [Oat_last]
  iintro ⟨#Hinv, HO, S0, S1, S2⟩
  iapply (sendwait_step m K c 2 6 _ (piece_credit 3 6)) $$ Hinv HO S0
  iintro ⟨HO, P0, ZP0⟩
  iapply (sendwait_step m K c 0 7 _ (piece_credit 3 7)) $$ Hinv HO S1
  iintro ⟨HO, P1, ZP1⟩
  iapply (sendwait_step m K c 1 7 _ (piece_credit 3 7)) $$ Hinv HO S2
  iintro ⟨HO, P2, ZP2⟩
  rw [wp_ret]; imodintro
  sl_close

end Cert.Kernel.Proto

end
-- ==== Proof.BodyKernel.lean ====
import proofs.«901004_g7700000000001005_dist_rmsnorm_colshard_i_m4096_n1024_v7x_i4_bf16_1_alg».proof.Proof.ResKernel
import proofs.«901004_g7700000000001005_dist_rmsnorm_colshard_i_m4096_n1024_v7x_i4_bf16_1_alg».proof.Proof.Parts1Kernel
import proofs.«901004_g7700000000001005_dist_rmsnorm_colshard_i_m4096_n1024_v7x_i4_bf16_1_alg».proof.Proof.Parts2Kernel
import proofs.«901004_g7700000000001005_dist_rmsnorm_colshard_i_m4096_n1024_v7x_i4_bf16_1_alg».proof.Proof.Parts2bKernel
import proofs.«901004_g7700000000001005_dist_rmsnorm_colshard_i_m4096_n1024_v7x_i4_bf16_1_alg».proof.Proof.Parts3bKernel
import Idealize.ShloMosaic.Rules.PointsTo
import Idealize.ShloMosaic.Lib.Exec.Geometry

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

set_option maxHeartbeats 16000000 in
set_option maxRecDepth 65536 in
/-- From `Φ₀` (with the device's debt and gamma's staged block) to the atoms at the end: `Φ₀` opened into pieces, the 48 parts chained, the last four store copies waited for. -/
theorem root_run (c : Dev nD) (W : Waits sig Unit) :
    iprop(Φ₀ m c ∗ owes (c : Thread nD τ) (Oat c 0) W
        ∗ ((Memref.whole cc0_stg0_0 : Memref sig .tc _ _ _).view.loc (c : Thread nD τ) ↦{fullShare} gstg m c))
      ⊢ wp frame (wpE (defs₀ (F := F)) 𝒱₀ (c : Thread nD τ) none) Set.univ (bodyAt0 (F := F) t0_0)
        (fun _ => iprop((hbm₁ m c ∗ ((((c : Thread nD τ).loc cc0_scratch0) ↦{fullShare} xvFin m c) ∗ (((c : Thread nD τ).loc cc0_scratch1) ↦{fullShare} ovFin m c)
            ∗ (((c : Thread nD τ).loc cc0_scratch2) ↦{fullShare} commFinal m c)) ∗ Pipeline.ownSems0 osem c)
          ∗ owesAny c 0 ∗ ((Memref.whole cc0_stg0_0 : Memref sig .tc _ _ _).view.loc (c : Thread nD τ) ↦{fullShare} gstg m c))) := by
  unfold Φ₀ start ghost hbm₀ scratch lins
  simp only [chain_fin3, chain_3x8, chain_fin16]
  iintro ⟨⟨⟨⟨%K, #Hinv, HatB, ⟨HatS0_0, HatS0_1, HatS0_2, HatS0_3, HatS0_4, HatS0_5, HatS0_6, HatS0_7, HatS1_0, HatS1_1, HatS1_2, HatS1_3, HatS1_4, HatS1_5, HatS1_6, HatS1_7, HatS2_0, HatS2_1, HatS2_2, HatS2_3, HatS2_4, HatS2_5, HatS2_6, HatS2_7⟩, ⟨HatR0_0, HatR0_1, HatR0_2, HatR0_3, HatR0_4, HatR0_5, HatR0_6, HatR0_7, HatR1_0, HatR1_1, HatR1_2, HatR1_3, HatR1_4, HatR1_5, HatR1_6, HatR1_7, HatR2_0, HatR2_1, HatR2_2, HatR2_3, HatR2_4, HatR2_5, HatR2_6, HatR2_7⟩, ⟨HtB0, HtB1, HtB2⟩, ⟨HtS0_0, HtS0_1, HtS0_2, HtS0_3, HtS0_4, HtS0_5, HtS0_6, HtS0_7, HtS1_0, HtS1_1, HtS1_2, HtS1_3, HtS1_4, HtS1_5, HtS1_6, HtS1_7, HtS2_0, HtS2_1, HtS2_2, HtS2_3, HtS2_4, HtS2_5, HtS2_6, HtS2_7⟩, ⟨HtR0_0, HtR0_1, HtR0_2, HtR0_3, HtR0_4, HtR0_5, HtR0_6, HtR0_7, HtR1_0, HtR1_1, HtR1_2, HtR1_3, HtR1_4, HtR1_5, HtR1_6, HtR1_7, HtR2_0, HtR2_1, HtR2_2, HtR2_3, HtR2_4, HtR2_5, HtR2_6, HtR2_7⟩, HcB, ⟨HcR0_0, HcR0_1, HcR0_2, HcR0_3, HcR0_4, HcR0_5, HcR0_6, HcR0_7, HcR1_0, HcR1_1, HcR1_2, HcR1_3, HcR1_4, HcR1_5, HcR1_6, HcR1_7, HcR2_0, HcR2_1, HcR2_2, HcR2_3, HcR2_4, HcR2_5, HcR2_6, HcR2_7⟩, ⟨Hs0, Hs1, Hs2, Hs3, Hs4, Hs5, Hs6, Hs7, Hs8, Hs9, Hs10, Hs11, Hs12, Hs13, Hs14, Hs15⟩⟩, Hx, Ho⟩, ⟨%f0, H0⟩, ⟨%f1, H1⟩, ⟨%f2, H2⟩⟩, HO, Hg⟩
  ihave Hxs := ((xin_split c _).1.trans (Entails.of_eq (chain_fin8 _))) $$ Hx
  icases Hxs with ⟨Hxi0, Hxi1, Hxi2, Hxi3, Hxi4, Hxi5, Hxi6, Hxi7⟩
  ihave Hos := ((out_split c _).1.trans (Entails.of_eq (chain_fin8 _))) $$ Ho
  icases Hos with ⟨Hou0, Hou1, Hou2, Hou3, Hou4, Hou5, Hou6, Hou7⟩
  ihave H0s := ((xv_split c f0).1.trans (Entails.of_eq (chain_fin8 _))) $$ H0
  icases H0s with ⟨Hxv0, Hxv1, Hxv2, Hxv3, Hxv4, Hxv5, Hxv6, Hxv7⟩
  ihave H1s := ((ov_split c f1).1.trans (Entails.of_eq (chain_fin8 _))) $$ H1
  icases H1s with ⟨Hov0, Hov1, Hov2, Hov3, Hov4, Hov5, Hov6, Hov7⟩
  ihave H2s := ((comm_split c f2).1.trans (Entails.of_eq (chain_4x8 _))) $$ H2
  icases H2s with ⟨Hp0_0, Hp0_1, Hp0_2, Hp0_3, Hp0_4, Hp0_5, Hp0_6, Hp0_7, Hp1_0, Hp1_1, Hp1_2, Hp1_3, Hp1_4, Hp1_5, Hp1_6, Hp1_7, Hp2_0, Hp2_1, Hp2_2, Hp2_3, Hp2_4, Hp2_5, Hp2_6, Hp2_7, Hp3_0, Hp3_1, Hp3_2, Hp3_3, Hp3_4, Hp3_5, Hp3_6, Hp3_7⟩
  have h3 := part3_spec m K c
  have h4 := part4_spec m K c
  have h5 := part5_spec m K c
  have h6 := part6_spec m K c
  have h7 := part7_spec m K c
  have h8 := part8_spec m K c
  have h9 := part9_spec m K c
  have h10 := part10_spec m K c
  have h11 := part11_spec m K c
  have h12 := part12_spec m K c
  have h13 := part13_spec m K c
  have h14 := part14_spec m K c
  have h15 := part15_spec m K c
  have h16 := part16_spec m K c
  have h17 := part17_spec m K c
  have h18 := part18_spec m K c
  have h19 := part19_spec m K c
  have h20 := part20_spec m K c
  have h21 := part21_spec m K c
  have h22 := part22_spec m K c
  have h23 := part23_spec m K c
  have h24 := part24_spec m K c
  have h25 := part25_spec m K c
  have h26 := part26_spec m K c
  have h27 := part27_spec m K c
  have h28 := part28_spec m K c
  have h29 := part29_spec m K c
  have h30 := part30_spec m K c
  have h31 := part31_spec m K c
  have h32 := part32_spec m K c
  have h33 := part33_spec m K c
  have h34 := part34_spec m K c
  have h35 := part35_spec m K c
  have h36 := part36_spec m c
  have h37 := part37_spec m K c
  have h38 := part38_spec m c
  have h39 := part39_spec m K c
  have h40 := part40_spec m c
  have h41 := part41_spec m K c
  have h42 := part42_spec m K c
  have h43 := part43_spec m K c
  have h44 := part44_spec m K c
  have h45 := part45_spec m K c
  have h46 := part46_spec m K c
  have h47 := part47_spec m K c
  have h48 := part48_spec m K c
  unfold bodyAt0
  sl_unfold [cc0_body]
  sl_exec
  sl_step
  ihave Ho4 := (store_landed m c 4 _) $$ Hk0_part34_2_dst
  ihave Ho5 := (store_landed m c 5 _) $$ Hk0_part36_2_dst
  ihave Ho6 := (store_landed m c 6 _) $$ Hk0_part38_3_dst
  ihave Ho7 := (store_landed m c 7 _) $$ Hk0_part40_4_dst
  unfold hbm₁ Pipeline.ownSems0
  rw [Oat_last, eq_of_biEntails (xin_split c _), eq_of_biEntails (out_split c _), eq_of_biEntails (xv_split c _), eq_of_biEntails (ov_split c _),
    eq_of_biEntails (comm_split c _), eg_fin64]
  rw [chain_fin8, chain_fin8, chain_fin8, chain_fin8, chain_4x8]
  rw [piece3_quarters_eq m c 0, piece3_quarters_eq m c 1, piece3_quarters_eq m c 2, piece3_quarters_eq m c 3, piece3_quarters_eq m c 4, piece3_quarters_eq m c 5, piece3_quarters_eq m c 6, piece3_quarters_eq m c 7]
  sl_close

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(Φ₀ m c ∗ (dats m 0 c).owesAt () t0_0.castSucc ∗ (∃ d, stg c ((dats m 0 c).before (0 : Fin 1) t0_0 d)))
def bodyPost (c : Dev nD) : sProp 𝕄 :=
  iprop(Φ₁ m c ∗ (dats m 0 c).owesAt () t0_0.succ ∗ stg c (gstg m c))

theorem root_run_post (c : Dev nD) (W : Waits sig Unit) :
    iprop(Φ₀ m c ∗ owes (c : Thread nD τ) (Oat c 0) W
        ∗ ((Memref.whole cc0_stg0_0 : Memref sig .tc _ _ _).view.loc (c : Thread nD τ) ↦{fullShare} gstg m c))
      ⊢ wp frame (wpE (defs₀ (F := F)) 𝒱₀ (c : Thread nD τ) none) Set.univ (bodyAt0 (F := F) t0_0) (fun _ => bodyPost m c) :=
  (root_run m c W).trans (wp_mono frame _ _ fun _ => (sep_mono_left (sep_mono_right (sep_mono_left (scratch_intro c _ _ _)))).trans
    (show iprop(Φ₁ m c ∗ owesAny c 0 ∗ ((Memref.whole cc0_stg0_0 : Memref sig .tc _ _ _).view.loc (c : Thread nD τ) ↦{fullShare} gstg m c))
        ⊢ bodyPost m c from by
      unfold bodyPost Dat.owesAt Pipeline.owesWithin owesAny
      rw [show (dats m 0 c).owed t0_0.succ = 0 from rfl]
      iintro ⟨HΦ, ⟨%W', HO⟩, Hg⟩
      isplitl [HΦ]; · iexact HΦ
      isplitl [HO]
      · iexists W'
        isplitr; · ipureintro; exact fun _ _ => Or.inl trivial
        iexact HO
      iexists _; isplitr; · (ipureintro; rfl)
      iexact Hg))

theorem sound_body (c : Dev nD) :
    bodyPre m c ⊢ wp frame (wpE (defs₀ (F := F)) 𝒱₀ (c : Thread nD τ) none) Set.univ (bodyAt0 (F := F) t0_0) (fun _ => bodyPost m c) := by
  unfold bodyPre
  iintro ⟨HΦ, Ho, ⟨%d0, %g0, %hg0, Hg⟩⟩
  have hx : g0 = gstg m c := by
    rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl, O₀_eq_Oat]
  iapply (root_run_post m c W) $$ [HΦ HO Hg]
  isplitl [HΦ]; · iexact HΦ
  isplitl [HO]; · iexact HO
  iexact Hg

theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ (bodyAt0 (F := F) t0_0) (fun _ => bodyPost m c)
  exact sound_body m c

/-- info: 'Cert.Kernel.Proto.body_obligation' depends on axioms: [propext, Classical.choice, Quot.sound] -/
#guard_msgs in #print axioms body_obligation

end Cert.Kernel.Proto

end
-- ==== Proof.LaunchKernel.lean ====
import proofs.«901004_g7700000000001005_dist_rmsnorm_colshard_i_m4096_n1024_v7x_i4_bf16_1_alg».proof.Proof.BodyKernel

noncomputable section

namespace Cert.Kernel.Proto

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats (F := F) m 0 c).share w = fullShare := by unfold Dat.share; split <;> rfl

abbrev CI : Type := Unit ⊕ ((Fin 3 × Fin 8) ⊕ (Fin 3 × Fin 8))

abbrev csem : CI → SemLoc sig
  | .inl _ => .reg barS
  | .inr (.inl dh) => .dma (sendS dh.1 dh.2)
  | .inr (.inr kh) => .dma (recvS kh.1 kh.2)

abbrev ckOf : CI → CK
  | .inl _ => .bar
  | .inr (.inl dh) => .send dh.1 dh.2
  | .inr (.inr kh) => .recv kh.1 kh.2

theorem decode_csem (i : CI) : decode (csem i) = some (ckOf i) := by
  rcases i with _ | ⟨d, h⟩ | ⟨k, h⟩
  · exact decode_bar
  · exact decode_send d h
  · exact decode_recv k h

theorem ckOf_injective : Function.Injective ckOf := by
  intro i j h
  rcases i with _ | ⟨d, e⟩ | ⟨k, e⟩ <;> rcases j with _ | ⟨d', e'⟩ | ⟨k', e'⟩ <;> simp only [ckOf] at h <;> first | rfl | (cases h <;> rfl)

theorem csem_injective : Function.Injective csem := fun i j h =>
  ckOf_injective (Option.some.inj ((decode_csem i).symm.trans ((congrArg decode h).trans (decode_csem j))))

abbrev kcell (ci : Dev nD × CI) : GSem nD τ sig := ((ci.1 : Thread nD τ), csem ci.2)

theorem kcell_injective : Function.Injective (kcell : Dev nD × CI → GSem nD τ sig) := by
  rintro ⟨c, i⟩ ⟨c', i'⟩ h
  have h1 : c = c' := congrArg (fun g : GSem nD τ sig => g.1.1) h
  subst h1
  have h2 : i = i' := csem_injective (congrArg Prod.snd h)
  subst h2; rfl

def ringCells : Finset (GSem nD τ sig) := Finset.univ.map ⟨kcell, kcell_injective⟩

abbrev TI : Type := Fin 3 ⊕ ((Fin 3 × Fin 8) ⊕ (Fin 3 × Fin 8))

abbrev tokOf (cj : Dev nD × TI) : GSem nD τ sig × ℕ × Fin 3 := match cj.2 with
  | .inl e => (barCell cj.1, 0, e)
  | .inr (.inl dh) => (sendCell cj.1 dh.1 dh.2, 0, 0)
  | .inr (.inr kh) => (recvCell cj.1 kh.1 kh.2, 0, 0)

abbrev tiCell : TI → CI
  | .inl _ => .inl ()
  | .inr x => .inr x

theorem tokOf_cell (cj : Dev nD × TI) : (tokOf cj).1 = kcell (cj.1, tiCell cj.2) := by
  obtain ⟨c, j⟩ := cj
  rcases j with e | ⟨d, h⟩ | ⟨k, h⟩ <;> rfl

theorem tokOf_injective : Function.Injective (tokOf : Dev nD × TI → GSem nD τ sig × ℕ × Fin 3) := by
  rintro ⟨c, j⟩ ⟨c', j'⟩ h
  have hc := congrArg Prod.fst h
  rw [tokOf_cell, tokOf_cell] at hc
  have hk := kcell_injective hc
  have h1 : c = c' := congrArg Prod.fst hk
  subst h1
  have h2 : tiCell j = tiCell j' := congrArg Prod.snd hk
  rcases j with e | x <;> rcases j' with e' | x'
  · have : e = e' := congrArg (fun x : GSem nD τ sig × ℕ × Fin 3 => x.2.2) h
    subst this; rfl
  · cases h2
  · cases h2
  · have : x = x' := Sum.inr.inj h2
    subst this; rfl

def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, (1 : Counters)))

def toks (c : Dev nD) : sProp 𝕄 :=
  bigSep Finset.univ fun j : TI => dutyTok ER (tokOf (c, j)).1 (tokOf (c, j)).2.1 (tokOf (c, j)).2.2

def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ toks c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (F := F) (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb (embR : Emb (UB × Counters) 𝕄) (initOf ringCells ringToks) (1 : Counters)) $$ HX
  icases H2 with ⟨HR, -⟩
  imod (show BI.own (((Emb.inl : Emb UB (UB × Counters)).trans (embR : Emb (UB × Counters) 𝕄)) (initOf ringCells ringToks))
      ⊢ (|==> bigSep Finset.univ (G m) : sProp 𝕄) from fund_ring m) $$ HR with HG
  imodintro
  isplitl [HP] <;> iassumption

def semEquiv : (Fin 16 ⊕ ((Fin 3 × Fin 8) ⊕ (Fin 3 × Fin 8))) ≃ Fin 64 :=
  (Equiv.sumCongr (Equiv.refl (Fin 16)) ((Equiv.sumCongr finProdFinEquiv finProdFinEquiv).trans finSumFinEquiv)).trans finSumFinEquiv

theorem osem_local : ∀ i : Fin 16, osem (semEquiv (.inl i)) = .dma (locS i) := by decide
theorem osem_send : ∀ dh : Fin 3 × Fin 8, osem (semEquiv (.inr (.inl dh))) = .dma (sendS dh.1 dh.2) := by decide
theorem osem_recv : ∀ kh : Fin 3 × Fin 8, osem (semEquiv (.inr (.inr kh))) = .dma (recvS kh.1 kh.2) := by decide

def locals (c : Dev nD) : sProp 𝕄 := bigSep Finset.univ fun i : Fin 16 => semVal ((c : Thread nD τ), SemLoc.dma (locS i)) 0

theorem bigSep_CI (Φ : CI → sProp 𝕄) : bigSep Finset.univ Φ
    = iprop(Φ (.inl ()) ∗ (bigSep Finset.univ fun dh : Fin 3 × Fin 8 => Φ (.inr (.inl dh))) ∗ (bigSep Finset.univ fun kh : Fin 3 × Fin 8 => Φ (.inr (.inr kh)))) := by
  rw [bigSep_univ_sum, bigSep_univ_sum, bigSep_univ_of_subsingleton ()]; rfl

theorem bigSep_TI (Φ : TI → sProp 𝕄) : bigSep Finset.univ Φ
    = iprop((bigSep Finset.univ fun e : Fin 3 => Φ (.inl e)) ∗ (bigSep Finset.univ fun dh : Fin 3 × Fin 8 => Φ (.inr (.inl dh))) ∗ (bigSep Finset.univ fun kh : Fin 3 × Fin 8 => Φ (.inr (.inr kh)))) := by
  rw [bigSep_univ_sum, bigSep_univ_sum]; rfl

theorem ownSems0_split (c : Dev nD) : (Pipeline.ownSems0 (Ix := Unit) (Name := ℕ) (U := UU) (Lvl := ℕ) (Val := Elt F) (τ := τ) osem c : sProp 𝕄)
    = iprop(locals c ∗ (bigSep Finset.univ fun dh : Fin 3 × Fin 8 => semVal (sendCell c dh.1 dh.2) 0) ∗ (bigSep Finset.univ fun kh : Fin 3 × Fin 8 => semVal (recvCell c kh.1 kh.2) 0)) := by
  unfold Pipeline.ownSems0 locals
  rw [bigSep_univ_equiv semEquiv, bigSep_univ_sum, bigSep_univ_sum]
  exact congrArg₂ _ (bigSep_congr fun i _ => by rw [osem_local]) (congrArg₂ _ (bigSep_congr fun dh _ => by rw [osem_send]) (bigSep_congr fun kh _ => by rw [osem_recv]))

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun i : CI => semVal (kcell (c, i)) 0) ∗ locals c) : sProp 𝕄) := by
  rw [ownSems0_split, unscopedSems0_eq, bigSep_CI]
  iintro ⟨⟨Hl, HS, HV⟩, HB⟩
  isplitr [Hl]
  · isplitl [HB]; · iexact HB
    isplitl [HS] <;> iassumption
  · iexact Hl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c ∗ locals c) := by
  unfold G
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

abbrev ciOf : CK → CI
  | .bar => .inl ()
  | .send d h => .inr (.inl (d, h))
  | .recv k h => .inr (.inr (k, h))

def nameAt (K : Dev nD × CI → ℕ) (g : GSem nD τ sig) : ℕ := match decode g.2 with
  | some ck => K (g.1.1, ciOf ck)
  | none => 0

theorem nameAt_kcell (K : Dev nD × CI → ℕ) (ci : Dev nD × CI) : nameAt K (kcell ci) = K ci := by
  obtain ⟨c, i⟩ := ci
  unfold nameAt
  rw [show (kcell (c, i)).2 = csem i from rfl, decode_csem]
  rcases i with _ | ⟨d, h⟩ | ⟨k, h⟩ <;> rfl

def records (K : Dev nD × CI → ℕ) : sProp 𝕄 :=
  iprop((bigSep Finset.univ fun ci : Dev nD × CI => cellInv ER (Rd m) (K ci) (kcell ci))
    ∗ bigSep Finset.univ fun ci : Dev nD × CI => reached ER (kcell ci) 0)

instance records_persistent (K : Dev nD × CI → ℕ) : BI.Persistent (records m K) := by unfold records; infer_instance

theorem inv_at (K : Dev nD × CI → ℕ) (ci : Dev nD × CI) :
    records m K ⊢ cellInv ER (Rd m) (nameAt K (kcell ci)) (kcell ci) := by
  rw [nameAt_kcell]
  unfold records
  exact (BI.Entails.trans BI.sep_and BI.and_elimL).trans (bigSep_elim (Φ := fun ci : Dev nD × CI => (cellInv ER (Rd m) (K ci) (kcell ci) : sProp 𝕄)) (Finset.mem_univ ci))
theorem reached_at (K : Dev nD × CI → ℕ) (ci : Dev nD × CI) : records m K ⊢ reached ER (kcell ci) 0 := by
  unfold records
  exact (BI.Entails.trans BI.sep_and BI.and_elimR).trans (bigSep_elim (Φ := fun ci : Dev nD × CI => (reached ER (kcell ci) 0 : sProp 𝕄)) (Finset.mem_univ ci))

def invsP (K : GSem nD τ sig → ℕ) (c : Dev nD) : sProp 𝕄 :=
  iprop(cellInv ER (Rd m) (K (barCell c)) (barCell c)
    ∗ (bigSep Finset.univ fun d : Fin 3 => cellInv ER (Rd m) (K (barCell (pd c d))) (barCell (pd c d)))
    ∗ (bigSep Finset.univ fun dh : Fin 3 × Fin 8 => cellInv ER (Rd m) (K (sendCell c dh.1 dh.2)) (sendCell c dh.1 dh.2))
    ∗ (bigSep Finset.univ fun kh : Fin 3 × Fin 8 => cellInv ER (Rd m) (K (recvCell c kh.1 kh.2)) (recvCell c kh.1 kh.2))
    ∗ (bigSep Finset.univ fun dh : Fin 3 × Fin 8 => cellInv ER (Rd m) (K (recvCell (pd c dh.1) (opp dh.1) dh.2)) (recvCell (pd c dh.1) (opp dh.1) dh.2))
    ∗ (bigSep Finset.univ fun d : Fin 3 => reached ER (barCell (pd c d)) 0)
    ∗ (bigSep Finset.univ fun kh : Fin 3 × Fin 8 => reached ER (recvCell c kh.1 kh.2) 0)
    ∗ (bigSep Finset.univ fun dh : Fin 3 × Fin 8 => reached ER (sendCell c dh.1 dh.2) 0))

instance invsP_persistent (K : GSem nD τ sig → ℕ) (c : Dev nD) : BI.Persistent (invsP m K c) := by unfold invsP; infer_instance

theorem invsP_intro (K : Dev nD × CI → ℕ) (c : Dev nD) : records m K ⊢ invsP m (nameAt K) c := by
  unfold invsP
  iintro #H
  isplitr; · iapply (inv_at m K (c, .inl ())); iexact H
  isplitr; · iapply (bigSep_intro_persistent fun (d : Fin 3) _ => inv_at m K (pd c d, .inl ())); iexact H
  isplitr; · iapply (bigSep_intro_persistent fun (dh : Fin 3 × Fin 8) _ => inv_at m K (c, .inr (.inl dh))); iexact H
  isplitr; · iapply (bigSep_intro_persistent fun (kh : Fin 3 × Fin 8) _ => inv_at m K (c, .inr (.inr kh))); iexact H
  isplitr; · iapply (bigSep_intro_persistent fun (dh : Fin 3 × Fin 8) _ => inv_at m K (pd c dh.1, .inr (.inr (opp dh.1, dh.2)))); iexact H
  isplitr; · iapply (bigSep_intro_persistent fun (d : Fin 3) _ => reached_at m K (pd c d, .inl ())); iexact H
  isplitr; · iapply (bigSep_intro_persistent fun (kh : Fin 3 × Fin 8) _ => reached_at m K (c, .inr (.inr kh))); iexact H
  iapply (bigSep_intro_persistent fun (dh : Fin 3 × Fin 8) _ => reached_at m K (c, .inr (.inl dh))); iexact H

def payToks (c : Dev nD) : sProp 𝕄 :=
  iprop((bigSep Finset.univ fun d : Fin 3 => dutyTok ER (barCell (pd c d)) 0 d)
    ∗ (bigSep Finset.univ fun dh : Fin 3 × Fin 8 => dutyTok ER (sendCell c dh.1 dh.2) 0 0)
    ∗ (bigSep Finset.univ fun dh : Fin 3 × Fin 8 => dutyTok ER (recvCell (pd c dh.1) (opp dh.1) dh.2) 0 0))

def linsP (c : Dev nD) : sProp 𝕄 :=
  iprop((atPos ER (barCell c) 0 ∅ 0
      ∗ (bigSep Finset.univ fun dh : Fin 3 × Fin 8 => atPos ER (sendCell c dh.1 dh.2) 0 ∅ 0)
      ∗ (bigSep Finset.univ fun kh : Fin 3 × Fin 8 => atPos ER (recvCell c kh.1 kh.2) 0 ∅ 0))
    ∗ payToks c ∗ locals c)

def G' (c : Dev nD) : sProp 𝕄 := iprop(∃ K : GSem nD τ sig → ℕ, invsP m K c ∗ linsP c)

theorem ghost_intro (K : Dev nD × CI → ℕ) (c : Dev nD) : iprop(records m K ∗ linsP c) ⊢ G' m c := by
  unfold G'
  iintro ⟨#HR, HL⟩
  iexists (nameAt K)
  isplitr
  · iapply (invsP_intro m K c); iexact HR
  · iexact HL

def ringE (d : Fin 3) : Dev nD ≃ Dev nD := ⟨fun c => pd c d, fun c => ps c d, fun c => ps_pd c d, fun c => pd_ps c d⟩

def oppE : Fin 3 × Fin 8 ≃ Fin 3 × Fin 8 :=
  ⟨fun x => (opp x.1, x.2), fun x => (opp x.1, x.2), fun x => Prod.ext (opp_opp x.1) rfl, fun x => Prod.ext (opp_opp x.1) rfl⟩

theorem toks_around : (bigSep Finset.univ fun c : Dev nD => (toks c : sProp 𝕄)) ⊢ bigSep Finset.univ fun c : Dev nD => payToks c := by
  have hB : (bigSep Finset.univ fun c : Dev nD => bigSep Finset.univ fun e : Fin 3 => (dutyTok ER (barCell c) 0 e : sProp 𝕄))
      = bigSep Finset.univ fun c : Dev nD => bigSep Finset.univ fun e : Fin 3 => dutyTok ER (barCell (pd c e)) 0 e := by
    rw [bigSep_univ_comm, bigSep_univ_comm (fun (c : Dev nD) (e : Fin 3) => (dutyTok ER (barCell (pd c e)) 0 e : sProp 𝕄))]
    exact bigSep_congr fun e _ => bigSep_univ_equiv (ringE e) (fun c : Dev nD => (dutyTok ER (barCell c) 0 e : sProp 𝕄))
  have hV : (bigSep Finset.univ fun c : Dev nD => bigSep Finset.univ fun kh : Fin 3 × Fin 8 => (dutyTok ER (recvCell c kh.1 kh.2) 0 0 : sProp 𝕄))
      = bigSep Finset.univ fun c : Dev nD => bigSep Finset.univ fun dh : Fin 3 × Fin 8 => dutyTok ER (recvCell (pd c dh.1) (opp dh.1) dh.2) 0 0 := by
    rw [bigSep_univ_comm, bigSep_univ_comm (fun (c : Dev nD) (dh : Fin 3 × Fin 8) => (dutyTok ER (recvCell (pd c dh.1) (opp dh.1) dh.2) 0 0 : sProp 𝕄)),
      bigSep_univ_equiv oppE]
    exact bigSep_congr fun dh _ => bigSep_univ_equiv (ringE dh.1) (fun c : Dev nD => (dutyTok ER (recvCell c (opp dh.1) dh.2) 0 0 : sProp 𝕄))
  unfold toks payToks
  simp only [bigSep_TI, bigSep_sep']
  rw [hB, hV]

theorem regroup :
    (bigSep Finset.univ fun c : Dev nD => iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c ∗ locals c) : sProp 𝕄)
      ⊢ bigSep Finset.univ (G' m) := by
  rw [bigSep_sep', bigSep_sep', bigSep_sep', ← bigSep_univ_prod (fun ci : Dev nD × CI => iprop(∃ κ : ℕ, cellInv ER (Rd m) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok, Hloc⟩
  ihave HK := (BI.bigSep_exists_pi Finset.univ (fun (ci : Dev nD × CI) (κ : ℕ) => (cellInv ER (Rd m) κ (kcell ci) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linsP
    simp only [bigSep_sep']
    isplitl [Hat]
    · ihave Hat' := (Entails.of_eq (bigSep_congr (s := Finset.univ) fun (c : Dev nD) _ => bigSep_CI (fun i : CI => (atPos ER (kcell (c, i)) 0 ∅ 0 : sProp 𝕄)))) $$ Hat
      simp only [bigSep_sep'] at *
      iexact Hat'
    isplitl [Htk]; · iexact Htk
    iexact Hloc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem cred_bar (c : Dev nD) : (Pipeline.launchCred (fun d => Obar d) c : sProp 𝕄) ⊢ cred (tallyAt (barCell c) () 3) := by
  have e : (tallyAt (barCell c) () 1 + tallyAt (barCell c) () 1 + tallyAt (barCell c) () 1 : CellTallies nD τ sig Unit) = tallyAt (barCell c) () 3 := by
    rw [tallyAt_add, tallyAt_add]
  unfold Obar
  rw [Pipeline.launchCred_add, Pipeline.launchCred_add, ← e]
  iintro ⟨⟨H0, H1⟩, H2⟩
  iapply (cred_add _ _).2
  isplitr [H2]
  · iapply (cred_add _ _).2
    isplitl [H0]
    · iapply (Pipeline.launchCred_tallyAt (SemLoc.reg barS) (fun d => pd d 0) (fun d => ps d 0) (fun c => pd_ps c 0) (fun d => ps_pd d 0) () 1 c); iexact H0
    · iapply (Pipeline.launchCred_tallyAt (SemLoc.reg barS) (fun d => pd d 1) (fun d => ps d 1) (fun c => pd_ps c 1) (fun d => ps_pd d 1) () 1 c); iexact H1
  · iapply (Pipeline.launchCred_tallyAt (SemLoc.reg barS) (fun d => pd d 2) (fun d => ps d 2) (fun c => pd_ps c 2) (fun d => ps_pd d 2) () 1 c); iexact H2

theorem cred_recv (c : Dev nD) (h : Fin 8) :
    (Pipeline.launchCred (fun d => Orecv d h) c : sProp 𝕄) ⊢ bigSep Finset.univ fun k : Fin 3 => cred (tallyAt (recvCell c k h) () N) := by
  unfold Orecv
  rw [Pipeline.launchCred_add, Pipeline.launchCred_add, chain_fin3]
  iintro ⟨⟨H0, H1⟩, H2⟩
  isplitl [H2]
  · iapply (Pipeline.launchCred_tallyAt (SemLoc.dma (recvS 0 h)) (fun d => pd d 2) (fun d => ps d 2) (fun c => pd_ps c 2) (fun d => ps_pd d 2) () N c); iexact H2
  isplitl [H1]
  · iapply (Pipeline.launchCred_tallyAt (SemLoc.dma (recvS 1 h)) (fun d => pd d 1) (fun d => ps d 1) (fun c => pd_ps c 1) (fun d => ps_pd d 1) () N c); iexact H1
  · iapply (Pipeline.launchCred_tallyAt (SemLoc.dma (recvS 2 h)) (fun d => pd d 0) (fun d => ps d 0) (fun c => pd_ps c 0) (fun d => ps_pd d 0) () N c); iexact H0

theorem creds (c : Dev nD) :
    (Pipeline.launchCred O₀ c : sProp 𝕄)
      ⊢ iprop(cred (tallyAt (barCell c) () 3) ∗ bigSep Finset.univ fun kh : Fin 3 × Fin 8 => cred (tallyAt (recvCell c kh.1 kh.2) () N)) := by
  have e : (bigSep Finset.univ fun kh : Fin 3 × Fin 8 => (cred (tallyAt (recvCell c kh.1 kh.2) () N) : sProp 𝕄))
      = bigSep Finset.univ fun h : Fin 8 => bigSep Finset.univ fun k : Fin 3 => cred (tallyAt (recvCell c k h) () N) := by
    rw [bigSep_univ_prod, bigSep_univ_comm]
  have hO : (O₀ : Dev nD → CellTallies nD τ sig Unit)
      = fun d => Obar d + (Orecv d 0 + (Orecv d 1 + (Orecv d 2 + (Orecv d 3 + (Orecv d 4 + (Orecv d 5 + (Orecv d 6 + Orecv d 7))))))) := rfl
  rw [e, chain_fin8, hO, Pipeline.launchCred_add, Pipeline.launchCred_add, Pipeline.launchCred_add, Pipeline.launchCred_add,
    Pipeline.launchCred_add, Pipeline.launchCred_add, Pipeline.launchCred_add, Pipeline.launchCred_add]
  iintro ⟨Hb, H0, H1, H2, H3, H4, H5, H6, H7⟩
  isplitl [Hb]; · iapply (cred_bar (F := F) c); iexact Hb
  isplitl [H0]; · iapply (cred_recv (F := F) c 0); iexact H0
  isplitl [H1]; · iapply (cred_recv (F := F) c 1); iexact H1
  isplitl [H2]; · iapply (cred_recv (F := F) c 2); iexact H2
  isplitl [H3]; · iapply (cred_recv (F := F) c 3); iexact H3
  isplitl [H4]; · iapply (cred_recv (F := F) c 4); iexact H4
  isplitl [H5]; · iapply (cred_recv (F := F) c 5); iexact H5
  isplitl [H6]; · iapply (cred_recv (F := F) c 6); iexact H6
  iapply (cred_recv (F := F) c 7); iexact H7

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, #Hlev, Hcr, -, HG⟩
  ihave Hc := (creds (F := F) c) $$ Hcr
  icases Hc with ⟨Hcb, Hcv⟩
  unfold G' invsP linsP payToks
  icases HG with ⟨%K, ⟨#I1, #I2, #I3, #I4, #I5, #R1, #R2, #R3⟩, ⟨A1, A2, A3⟩, ⟨T1, T2, T3⟩, Hloc⟩
  imodintro
  unfold start ghost invs lins hbm₀
  isplitl
  · isplitr [Ha Hv]
    · iexists K
      isplitr
      · isplitr; · iexact I1
        isplitr; · iexact I2
        isplitr; · iexact I3
        isplitr; · iexact I4
        isplitr; · iexact I5
        isplitr; · iexact Hlev
        isplitr; · iexact R1
        isplitr; · iexact R2
        iexact R3
      · isplitl [A1]; · iexact A1
        isplitl [A2]; · iexact A2
        isplitl [A3]; · iexact A3
        isplitl [T1]; · iexact T1
        isplitl [T2]; · iexact T2
        isplitl [T3]; · iexact T3
        isplitl [Hcb]; · iexact Hcb
        isplitl [Hcv]; · iexact Hcv
        unfold locals; iexact Hloc
    · isplitl [Ha] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀ scratch
  iintro ⟨Hs, -, Hr⟩
  isplitl [Hs] <;> iassumption

theorem phi1_exit (c : Dev nD) :
    (dats (F := F) m 0 c).Φ (Fin.last cfg0.N) ⊢ iprop(hbm₁ m c ∗ Pipeline.ownSems0 osem c ∗ Pipeline.scopedRest cfg0.spec c) := by
  rw [show (dats (F := F) m 0 c).Φ (Fin.last cfg0.N) = Φ₁ m c from rfl, scopedRest0_eq]
  unfold Φ₁ scratch
  iintro ⟨Hh, Hr, Hs⟩
  isplitl [Hh]; · iexact Hh
  isplitl [Hs] <;> iassumption

theorem above_O₀ (c : Dev nD) : Above 0 (O₀ c) := O₀_eq_Oat c ▸ above_Oat c 0

theorem decode_stage : decode (SemLoc.dma (cc0_sem0_0 : DmaSem sig)) = none := by decide

theorem waits (c : Dev nD) : (levAts L lv : sProp 𝕄) ⊢ Pipeline.cellsWaits cfgs (dats (F := F) m) () 0 c :=
  Pipeline.cellsWaits_intro cfgs (dats m) () 0 c fun w s t =>
    mayWait_of c _ 0 (by
        fin_cases w; fin_cases s
        show lv ((c : Thread nD τ), SemLoc.dma cc0_sem0_0) () ≤ 0
        dsimp only [lv]; rw [decode_stage]) _ (by
      rcases t with ⟨_ | _, ht⟩
      · exact above_O₀ c
      · exact Above.zero 0)

theorem run_main :
    θ_run defs (onTc (τ := τ) (main (F := F))) ⟨m, fun _ => 0, ρ⟩ (fun r => ∀ c : Dev nD,
      r.2.mem ((c.tc : Thread nD τ).loc main_v1) = (Spec.outArr (Spec.Xof m) (Spec.Gof m) c : Buf (Elt F) ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := hbm₁ m) (Z := fun _ => iprop(emp))
    (hX := start_intro m ρ) (hin := phi0_intro m) (hout := phi1_exit m)
    (QY := fun c s => s.mem ((c.tc : Thread nD τ).loc main_v1) = (Spec.outArr (Spec.Xof m) (Spec.Gof m) c : Buf (Elt F) ((c.tc : Thread nD τ).loc main_v1))
      ∧ s.mem ((c.tc : Thread nD τ).loc main_arg0) = m ((c.tc : Thread nD τ).loc main_arg0))
    (hY := fun c s' => by
      unfold hbm₁
      iintro ⟨⟨Ha, Hv⟩, -, HSI⟩
      icombine HSI Ha gives %ha
      icombine HSI Hv gives %hv
      imodintro
      isplitr
      · ipureintro; exact ⟨Buf.eq_of_forall_mem_univ hv, Buf.eq_of_forall_mem_univ ha⟩
      iexact HSI)
    (hQ := fun s h c => ⟨(h c).2.2.1, (h c).2.2.2, ((h c).1 0).trans ((dats (F := F) m 0 c).arrAt_in 0 rfl _)⟩)

/-- info: 'Cert.Kernel.Proto.glob' depends on axioms: [propext, Classical.choice, Quot.sound] -/
#guard_msgs in #print axioms glob

/-- info: 'Cert.Kernel.Proto.creds' depends on axioms: [propext, Classical.choice, Quot.sound] -/
#guard_msgs in #print axioms creds

/-- info: 'Cert.Kernel.Proto.start_intro' depends on axioms: [propext, Classical.choice, Quot.sound] -/
#guard_msgs in #print axioms start_intro

/-- info: 'Cert.Kernel.Proto.run_main' depends on axioms: [propext, Classical.choice, Quot.sound] -/
#guard_msgs in #print axioms run_main

end Cert.Kernel.Proto

end
-- ==== Proof.RefValue.lean ====
import proofs.«901004_g7700000000001005_dist_rmsnorm_colshard_i_m4096_n1024_v7x_i4_bf16_1_alg».proof.Defs
import proofs.«901004_g7700000000001005_dist_rmsnorm_colshard_i_m4096_n1024_v7x_i4_bf16_1_alg».proof.Proof.Gen.ReferenceIdeal
import proofs.«901004_g7700000000001005_dist_rmsnorm_colshard_i_m4096_n1024_v7x_i4_bf16_1_alg».proof.Proof.Gen.ReferenceIdeal.Run
import proofs.«901004_g7700000000001005_dist_rmsnorm_colshard_i_m4096_n1024_v7x_i4_bf16_1_alg».proof.Proof.Gen.ReferenceIdeal.Read
import proofs.«901004_g7700000000001005_dist_rmsnorm_colshard_i_m4096_n1024_v7x_i4_bf16_1_alg».proof.Proof.Gen.Pre_finite_inputs_Kernel
import proofs.«901004_g7700000000001005_dist_rmsnorm_colshard_i_m4096_n1024_v7x_i4_bf16_1_alg».proof.Proof.Gen.Pre_finite_inputs_ReferenceIdeal
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Idealize.SL.Sem
open Cert.ReferenceIdeal Cert.ReferenceIdeal.Read
open scoped BigOperators

def refOut (x0 : (⟨S4096x4096, .f32⟩ : BufTy).Contents (Elt Ideal)) (x1 : (⟨S4096, .f32⟩ : BufTy).Contents (Elt Ideal)) :
    (⟨S4096x4096, .bf16⟩ : BufTy).Contents (Elt Ideal) :=
  Cert.ReferenceIdeal.Read.val_main_v13 (F := Ideal) x0 x1

theorem gamma_idx (r col : Fin 4096) :
    idx_main_v8 (idx_main_v9 (ix2 (n0 := 4096) (n1 := 4096) r col)) = ix1 (n := 4096) col :=
  funext fun a => Fin.ext (by match a with | ⟨0, _⟩ => rfl)

theorem row_idx (r col k : Fin 4096) :
    idx_main_v1 (idx_main_v2 (idx_main_v11 (ix2 (n0 := 4096) (n1 := 4096) r col))) k = ix2 (n0 := 4096) (n1 := 4096) r k :=
  funext fun a => Fin.ext (by match a with | ⟨0, _⟩ => rfl | ⟨1, _⟩ => rfl)

theorem refOut_apply (x0 : (⟨S4096x4096, .f32⟩ : BufTy).Contents (Elt Ideal)) (x1 : (⟨S4096, .f32⟩ : BufTy).Contents (Elt Ideal))
    (r col : Fin 4096) :
    refOut x0 x1 (ix2 (n0 := 4096) (n1 := 4096) r col)
      = Ideal.div (x1 (ix1 (n := 4096) col) * x0 (ix2 (n0 := 4096) (n1 := 4096) r col))
          (Ideal.sqrt (Ideal.div (Ideal.ofBits .f32 0x00000000#32
              + ∑ k : Fin 4096, x0 (ix2 (n0 := 4096) (n1 := 4096) r k) * x0 (ix2 (n0 := 4096) (n1 := 4096) r k))
            (Ideal.ofBits .f32 0x45800000#32) + Ideal.ofBits .f32 0x3727C5AC#32)) := by
  unfold refOut
  rw [val_main_v13_apply, val_main_v12_apply, val_main_v10_apply, val_main_v9_apply, val_main_v8_apply,
    val_main_v11_apply, val_main_v7_apply, val_main_v6_apply, val_main_v4_apply, val_main_v2_apply,
    val_main_v1_apply, val_main_v3_apply, val_main_v5_apply, val_main_cst_apply, val_main_cst_0_apply,
    val_main_cst_1_apply, gamma_idx]
  simp only [row_idx, val_main_v0_apply, Ideal.truncf_def, Ideal.hostDivf_def, Ideal.mulf_def, Ideal.addf_def,
    Ideal.hostUnary_sqrt_def, Ideal.ofBits_def]

/-- info: 'Cert.ReferenceIdeal.RefValue.refOut_apply' depends on axioms: [propext, Classical.choice, Quot.sound] -/
#guard_msgs in #print axioms refOut_apply

end Cert.ReferenceIdeal.RefValue

namespace Cert.Proof.Claims

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

/-- info: 'Cert.Proof.Claims.frame_ri' depends on axioms: [propext, Classical.choice, Quot.sound] -/
#guard_msgs in #print axioms frame_ri

end Cert.Proof.Claims

end
-- ==== Proof.KernelValue.lean ====
import proofs.«901004_g7700000000001005_dist_rmsnorm_colshard_i_m4096_n1024_v7x_i4_bf16_1_alg».proof.Proof.Spec
import Idealize.ShloMosaic.Lib.ValueIdx
import Idealize.ShloMosaic.Lib.Pipeline.Value
import Idealize.ShloMosaic.PureOps.Ideal.Laws

noncomputable section

namespace Cert.KernelIdeal.KernelValue

open Idealize.ShloMosaic Idealize.ShloMosaic.ValueIdx Idealize.SL.Sem
open Cert.KernelIdeal Cert.KernelIdeal.Gen Cert.KernelIdeal.Spec
open scoped BigOperators

abbrev rowOf (a : Fin 4) (b : Fin 128) : Fin 512 := ⟨128 * a.val + b.val, by have := a.isLt; have := b.isLt; omega⟩

section Layout
variable {α : Type}

theorem cast_chunk_apply (v : S1x512x1024.Idx → α) (h1 : S1x512x1024.ShapeCasts S512x1024) (h2 : S512x1024.ShapeCasts S4x128x1024)
    (a : Fin 4) (b : Fin 128) (l : Fin 1024) :
    shapeCast S4x128x1024 (shapeCast S512x1024 v h1) h2 (ix3 (n0 := 4) (n1 := 128) (n2 := 1024) a b l)
      = v (ix3 (n0 := 1) (n1 := 512) (n2 := 1024) 0 (rowOf a b) l) := by
  refine (shapeCast_apply _ h2 _ (ix2 (n0 := 512) (n1 := 1024) (rowOf a b) l) ?_).trans ?_
  · rw [Shape.rowMajor_val_two, Shape.rowMajor_val_three]
    show (128 * a.val + b.val) * 1024 + l.val = (a.val * 128 + b.val) * 1024 + l.val
    omega
  · refine shapeCast_apply _ h1 _ _ ?_
    rw [Shape.rowMajor_val_two, Shape.rowMajor_val_three]
    show (0 * 512 + (128 * a.val + b.val)) * 1024 + l.val = (128 * a.val + b.val) * 1024 + l.val
    omega

theorem cast_stat_apply (s : S1x4x128.Idx → α) (h : S1x4x128.ShapeCasts S4x128) (a : Fin 4) (b : Fin 128) :
    shapeCast S4x128 s h (ix2 (n0 := 4) (n1 := 128) a b) = s (ix3 (n0 := 1) (n1 := 4) (n2 := 128) 0 a b) := by
  refine shapeCast_apply _ h _ _ ?_
  rw [Shape.rowMajor_val_two, Shape.rowMajor_val_three]
  show (0 * 4 + a.val) * 128 + b.val = a.val * 128 + b.val
  omega

theorem spread_stat_apply (v : S4x128.Idx → α) (h : S4x128.ShapeCasts S4x128x1) (hb : S4x128x1.Broadcasts S4x128x1024)
    (a : Fin 4) (b : Fin 128) (l : Fin 1024) :
    broadcastTo S4x128x1024 (shapeCast S4x128x1 v h) hb (ix3 (n0 := 4) (n1 := 128) (n2 := 1024) a b l)
      = v (ix2 (n0 := 4) (n1 := 128) a b) := by
  refine (broadcastTo_apply _ hb _ (ix3 (n0 := 4) (n1 := 128) (n2 := 1) a b 0) ?_).trans ?_
  · intro c
    match c with
    | ⟨0, _⟩ => rfl
    | ⟨1, _⟩ => rfl
    | ⟨2, _⟩ => rfl
  · refine shapeCast_apply _ h _ _ ?_
    rw [Shape.rowMajor_val_two, Shape.rowMajor_val_three]
    show a.val * 128 + b.val = (a.val * 128 + b.val) * 1 + 0
    omega

theorem spread_gamma_apply (g : S1024.Idx → α) (h : S1024.ShapeCasts S1x1x1024) (hb : S1x1x1024.Broadcasts S4x128x1024)
    (a : Fin 4) (b : Fin 128) (l : Fin 1024) :
    broadcastTo S4x128x1024 (shapeCast S1x1x1024 g h) hb (ix3 (n0 := 4) (n1 := 128) (n2 := 1024) a b l)
      = g (ix1 (n := 1024) l) := by
  refine (broadcastTo_apply _ hb _ (ix3 (n0 := 1) (n1 := 1) (n2 := 1024) 0 0 l) ?_).trans ?_
  · intro c
    match c with
    | ⟨0, _⟩ => rfl
    | ⟨1, _⟩ => rfl
    | ⟨2, _⟩ => rfl
  · refine shapeCast_apply _ h _ _ ?_
    rw [Shape.rowMajor_val_one, Shape.rowMajor_val_three]
    show l.val = (0 * 1 + 0) * 1024 + l.val
    omega

theorem cast_unit_apply (u : S512x1024.Idx → α) (h : S512x1024.ShapeCasts S1x512x1024) (r : Fin 512) (l : Fin 1024) :
    shapeCast S1x512x1024 u h (ix3 (n0 := 1) (n1 := 512) (n2 := 1024) 0 r l) = u (ix2 (n0 := 512) (n1 := 1024) r l) := by
  refine shapeCast_apply _ h _ _ ?_
  rw [Shape.rowMajor_val_two, Shape.rowMajor_val_three]
  show r.val * 1024 + l.val = (0 * 512 + r.val) * 1024 + l.val
  omega

theorem cast_rows_apply (w : S4x128x1024.Idx → α) (h : S4x128x1024.ShapeCasts S512x1024) (a : Fin 4) (b : Fin 128) (l : Fin 1024) :
    shapeCast S512x1024 w h (ix2 (n0 := 512) (n1 := 1024) (rowOf a b) l) = w (ix3 (n0 := 4) (n1 := 128) (n2 := 1024) a b l) := by
  refine shapeCast_apply _ h _ _ ?_
  rw [Shape.rowMajor_val_two, Shape.rowMajor_val_three]
  show (a.val * 128 + b.val) * 1024 + l.val = (128 * a.val + b.val) * 1024 + l.val
  omega

end Layout

theorem rsqrt_apply {s : Shape} {φ : FTy} (v : FVec Ideal s φ) (i : s.Idx) : rsqrt v i = Ideal.rsqrt (v i) := rfl

theorem part_apply (xc : Vec Ideal S1x512x1024 .f32) (a : Fin 4) (b : Fin 128) :
    part (F := Ideal) xc (ix3 (n0 := 1) (n1 := 4) (n2 := 128) 0 a b)
      = ∑ l : Fin 1024, xc (ix3 (n0 := 1) (n1 := 512) (n2 := 1024) 0 (rowOf a b) l)
          * xc (ix3 (n0 := 1) (n1 := 512) (n2 := 1024) 0 (rowOf a b) l) := by
  unfold part k0_pay1
  refine (shapeCast_apply _ _ _ (ix2 (n0 := 4) (n1 := 128) a b) ?_).trans ?_
  · rw [Shape.rowMajor_val_two, Shape.rowMajor_val_three]
    show a.val * 128 + b.val = (0 * 4 + a.val) * 128 + b.val
    omega
  refine (Ideal.multiReduction_add_single _ _ _ _ _ (ix2 (n0 := 4) (n1 := 128) a b)).trans ?_
  refine Finset.sum_congr rfl fun (l : Fin 1024) _ => ?_
  have hl : reduces_S4x128x1024_S4x128.lift (ix2 (n0 := 4) (n1 := 128) a b) l = ix3 (n0 := 4) (n1 := 128) (n2 := 1024) a b l :=
    funext fun c => Fin.ext (by match c with | ⟨0, _⟩ => rfl | ⟨1, _⟩ => rfl | ⟨2, _⟩ => rfl)
  rw [mulf_apply, hl, cast_chunk_apply xc _ _ a b l]

theorem outc_apply (g : FVec Ideal S1024 .f32) (s0 s1 s2 s3 : Vec Ideal S1x4x128 .f32) (xc : Vec Ideal S1x512x1024 .f32)
    (a : Fin 4) (b : Fin 128) (col : Fin 1024) :
    outc (F := Ideal) g s0 s1 s2 s3 xc (ix3 (n0 := 1) (n1 := 512) (n2 := 1024) 0 (rowOf a b) col)
      = xc (ix3 (n0 := 1) (n1 := 512) (n2 := 1024) 0 (rowOf a b) col)
          * Ideal.rsqrt ((s0 (ix3 (n0 := 1) (n1 := 4) (n2 := 128) 0 a b) + s1 (ix3 (n0 := 1) (n1 := 4) (n2 := 128) 0 a b)
                + s2 (ix3 (n0 := 1) (n1 := 4) (n2 := 128) 0 a b) + s3 (ix3 (n0 := 1) (n1 := 4) (n2 := 128) 0 a b))
              * Ideal.ofBits .f32 0x39800000#32 + Ideal.ofBits .f32 0x3727C5AC#32)
          * g (ix1 (n := 1024) col) := by
  unfold outc k0_pay12 k0_pay11
  dsimp only
  refine (cast_unit_apply _ _ (rowOf a b) col).trans ?_
  refine (truncf_apply (φ := .f32) (ψ := .bf16) _ bitsLt_bf16_f32 _).trans ?_
  refine (cast_rows_apply _ _ a b col).trans ?_
  rw [mulf_apply, mulf_apply, cast_chunk_apply xc _ _ a b col, spread_stat_apply _ _ _ a b col, spread_gamma_apply g _ _ a b col,
    rsqrt_apply, addf_apply, mulf_apply, addf_apply, addf_apply, addf_apply, broadcast_apply, broadcast_apply,
    cast_stat_apply s0 _ a b, cast_stat_apply s1 _ a b, cast_stat_apply s2 _ a b, cast_stat_apply s3 _ a b,
    Ideal.ofBits_def, Ideal.ofBits_def]

abbrev chunkOf (r : Fin 4096) : Fin 8 := ⟨r.val / 512, by have := r.isLt; omega⟩
abbrev hiOf (r : Fin 4096) : Fin 4 := ⟨r.val % 512 / 128, by have := r.isLt; omega⟩
abbrev loOf (r : Fin 4096) : Fin 128 := ⟨r.val % 512 % 128, Nat.mod_lt _ (by decide)⟩

def rowSq (Xd : Vec Ideal S4096x1024 .f32) (r : Fin 4096) : EReal :=
  ∑ l : Fin 1024, Xd (ix2 (n0 := 4096) (n1 := 1024) r l) * Xd (ix2 (n0 := 4096) (n1 := 1024) r l)

theorem xch_row (Xd : Vec Ideal S4096x1024 .f32) (r : Fin 4096) (l : Fin 1024) :
    xch Xd (chunkOf r) (ix3 (n0 := 1) (n1 := 512) (n2 := 1024) 0 (rowOf (hiOf r) (loOf r)) l)
      = Xd (ix2 (n0 := 4096) (n1 := 1024) r l) :=
  congrArg Xd (funext fun d => by
    match d with
    | ⟨0, _⟩ =>
      exact Fin.ext (by
        show 512 * (r.val / 512) + (128 * (r.val % 512 / 128) + r.val % 512 % 128) = r.val
        omega)
    | ⟨1, _⟩ => rfl)

theorem slot_row (X : Dev nD → Vec Ideal S4096x1024 .f32) (c : Dev nD) (k : Fin 4) (r : Fin 4096) :
    slot X c k (chunkOf r) (ix3 (n0 := 1) (n1 := 4) (n2 := 128) 0 (hiOf r) (loOf r)) = rowSq (X (srcDev c k)) r := by
  unfold slot
  rw [part_apply]
  exact Finset.sum_congr rfl fun l _ => by rw [xch_row]

theorem gammaBlock_apply (gm : Vec Ideal S1024 .f32) (l : Fin 1024) :
    k0_pay10 (F := Ideal) gm (ix1 (n := 1024) l) = gm (ix1 (n := 1024) l) := by
  unfold k0_pay10
  rw [shapeCast_self]

theorem outArr_apply (X : Dev nD → Vec Ideal S4096x1024 .f32) (Gm : Dev nD → Vec Ideal S1024 .f32) (c : Dev nD)
    (r : Fin 4096) (col : Fin 1024) :
    outArr (F := Ideal) X Gm c (ix2 (n0 := 4096) (n1 := 1024) r col)
      = X c (ix2 (n0 := 4096) (n1 := 1024) r col)
          * Ideal.rsqrt ((rowSq (X (srcDev c 0)) r + rowSq (X (srcDev c 1)) r + rowSq (X (srcDev c 2)) r + rowSq (X (srcDev c 3)) r)
              * Ideal.ofBits .f32 0x39800000#32 + Ideal.ofBits .f32 0x3727C5AC#32)
          * Gm c (ix1 (n := 1024) col) := by
  have hidx : ix3 (n0 := 1) (n1 := 512) (n2 := 1024) 0 ⟨r.val % 512, Nat.mod_lt _ (by decide)⟩ ⟨col.val, col.isLt⟩
      = ix3 (n0 := 1) (n1 := 512) (n2 := 1024) 0 (rowOf (hiOf r) (loOf r)) col :=
    funext fun d => by
      match d with
      | ⟨0, _⟩ => rfl
      | ⟨1, _⟩ =>
        exact Fin.ext (by
          show r.val % 512 = 128 * (r.val % 512 / 128) + r.val % 512 % 128
          omega)
      | ⟨2, _⟩ => rfl
  refine (congrArg (outChunk (F := Ideal) X Gm c (chunkOf r)) hidx).trans ?_
  unfold outChunk
  rw [outc_apply, xch_row, slot_row, slot_row, slot_row, slot_row, gammaBlock_apply]

/-- info: 'Cert.KernelIdeal.KernelValue.outArr_apply' depends on axioms: [propext, Classical.choice, Quot.sound] -/
#guard_msgs in #print axioms outArr_apply

end Cert.KernelIdeal.KernelValue

end
-- ==== Proof.Algebra.lean ====
import Idealize.ShloMosaic.PureOps.Ideal.Laws

noncomputable section

namespace Cert.Proof.Algebra

open Idealize.ShloMosaic
open scoped BigOperators

theorem ofBits_4096 : Ideal.ofBits .f32 0x45800000#32 = ((4096 : ℝ) : EReal) := by
  simp [Ideal.ofBits, Ideal.ieee, -EReal.coe_mul]; norm_num

theorem ofBits_inv4096 : Ideal.ofBits .f32 0x39800000#32 = ((1 / 4096 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_blocks {M : Type*} [AddCommMonoid M] (f : Fin 4096 → M) :
    ∑ k, f k = ∑ d : Fin 4, ∑ l : Fin 1024, f ⟨d.val * 1024 + l.val, by have := d.isLt; have := l.isLt; omega⟩ := by
  rw [← Fintype.sum_prod_type' (f := fun (d : Fin 4) (l : Fin 1024) => f ⟨d.val * 1024 + l.val, by have := d.isLt; have := l.isLt; omega⟩)]
  refine (Equiv.sum_comp (finProdFinEquiv (m := 4) (n := 1024)) f).symm.trans ?_
  refine Finset.sum_congr rfl fun p _ => congrArg f (Fin.ext ?_)
  show p.2.val + 1024 * p.1.val = p.1.val * 1024 + p.2.val
  omega

theorem rms_law (x g T e : ℝ) (hT : 0 ≤ T) (he : 0 < e) :
    (x : EReal) * Ideal.rsqrt ((T : EReal) * ((1 / 4096 : ℝ) : EReal) + (e : EReal)) * (g : EReal)
      = Ideal.div ((g : EReal) * (x : EReal))
          (Ideal.sqrt (Ideal.div (0 + (T : EReal)) ((4096 : ℝ) : EReal) + (e : EReal))) := by
  have hs : 0 < T * (1 / 4096) + e := by positivity
  have hq : Real.sqrt (T * (1 / 4096) + e) ≠ 0 := (Real.sqrt_pos.mpr hs).ne'
  rw [zero_add, Ideal.div_coe (by norm_num : (4096 : ℝ) ≠ 0), ← EReal.coe_mul, ← EReal.coe_add,
    Ideal.rsqrt_coe, Ideal.sqrt_coe, if_neg (not_lt.mpr hs.le), if_neg hs.ne', if_neg (not_lt.mpr hs.le),
    Ideal.div_coe hq, ← EReal.coe_mul, ← EReal.coe_mul, ← EReal.coe_mul, ← EReal.coe_mul]
  congr 1
  rw [one_div]
  ring

/-- info: 'Cert.Proof.Algebra.rms_law' depends on axioms: [propext, Classical.choice, Quot.sound] -/
#guard_msgs in #print axioms rms_law

end Cert.Proof.Algebra

end
-- ==== Proof.Bridge.lean ====
import proofs.«901004_g7700000000001005_dist_rmsnorm_colshard_i_m4096_n1024_v7x_i4_bf16_1_alg».proof.Defs
import proofs.«901004_g7700000000001005_dist_rmsnorm_colshard_i_m4096_n1024_v7x_i4_bf16_1_alg».proof.Proof.RefValue
import proofs.«901004_g7700000000001005_dist_rmsnorm_colshard_i_m4096_n1024_v7x_i4_bf16_1_alg».proof.Proof.KernelValue
import proofs.«901004_g7700000000001005_dist_rmsnorm_colshard_i_m4096_n1024_v7x_i4_bf16_1_alg».proof.Proof.Algebra
import Idealize.ShloMosaic.Lib.ReduceAll
import Idealize.ShloMosaic.Lib.Layout

noncomputable section

namespace Cert.Proof.Bridge

open Idealize.ShloMosaic Idealize.ShloMosaic.ValueIdx Idealize.SL.Sem
open Cert.KernelIdeal Cert.KernelIdeal.Spec Cert.KernelIdeal.KernelValue
open Cert.ReferenceIdeal.RefValue Cert.Proof.Algebra
open scoped BigOperators

instance : Subsingleton Cert.Pre_finite_inputs_Kernel.S_.Idx := ⟨fun a b => funext fun d => d.elim0⟩

theorem real_of_abs_lt (x : EReal) (h : Ideal.cmp .olt (max x (-x)) (Ideal.ofBits .f32 0x7F800000#32) = 1#1) :
    ∃ r : ℝ, x = (r : EReal) := by
  induction x using EReal.rec with
  | bot => simp [Ideal.cmp, Ideal.ofBits, Ideal.ieee] at h
  | coe r => exact ⟨r, rfl⟩
  | top => simp [Ideal.cmp, Ideal.ofBits, Ideal.ieee] at h

theorem finite_of_pre (m : (ℓ : Loc nD τ sig) → Buf (Elt Ideal) ℓ) (hpre : Cert.Pre_KernelIdeal m) (d : Dev nD) :
    (∀ i : S4096x1024.Idx, ∃ x : ℝ, Xof m d i = (x : EReal)) ∧ (∀ i : S1024.Idx, ∃ g : ℝ, Gof m d i = (g : EReal)) := by
  have h := congrFun (hpre d) ValueIdx.ix0
  dsimp only [Cert.Pre_finite_inputs_Kernel.fn] at h
  obtain ⟨h1, h2⟩ := IntOp.andi_eq_one.1 h
  refine ⟨fun i => real_of_abs_lt _ ?_, fun i => real_of_abs_lt _ ?_⟩
  · exact Host.reduce_andi_all _ _ _ _ _ h1 i
  · exact Host.reduce_andi_all _ _ _ _ _ h2 i

abbrev colOf (d : Fin 4) (l : Fin 1024) : Fin 4096 := ⟨d.val * 1024 + l.val, by have := d.isLt; have := l.isLt; omega⟩

theorem block_x_idx (h : Layout.Tiles ⟨2, ![4096, 1024]⟩ ⟨2, ![4096, 4096]⟩ 1 4) (d : Fin 4) (r : Fin 4096) (l : Fin 1024) :
    h.idx d (ix2 (n0 := 4096) (n1 := 1024) r l) = ix2 (n0 := 4096) (n1 := 4096) r (colOf d l) :=
  funext fun a => Fin.ext (by match a with | ⟨0, _⟩ => rfl | ⟨1, _⟩ => rfl)

theorem block_g_idx (h : Layout.Tiles ⟨1, ![1024]⟩ ⟨1, ![4096]⟩ 0 4) (d : Fin 4) (l : Fin 1024) :
    h.idx d (ix1 (n := 1024) l) = ix1 (n := 4096) (colOf d l) :=
  funext fun a => Fin.ext (by match a with | ⟨0, _⟩ => rfl)

theorem ring_total (P : Fin 4 → ℝ) (c : Fin 4) :
    P (srcDev c 0) + P (srcDev c 1) + P (srcDev c 2) + P (srcDev c 3) = ∑ d, P d := by
  rw [Fin.sum_univ_four]
  fin_cases c
  · show P 1 + P 2 + P 3 + P 0 = _; ring
  · show P 2 + P 3 + P 0 + P 1 = _; ring
  · show P 3 + P 0 + P 1 + P 2 = _; ring
  · show P 0 + P 1 + P 2 + P 3 = _; ring

theorem core (x0 : (⟨2, ![4096, 4096]⟩ : Shape).Idx → EReal) (x1 : (⟨1, ![4096]⟩ : Shape).Idx → EReal)
    (X : Dev nD → Vec Ideal S4096x1024 .f32) (Gm : Dev nD → Vec Ideal S1024 .f32)
    (hX : ∀ d, X d = Layout.block ⟨2, ![4096, 1024]⟩ ⟨2, ![4096, 4096]⟩ 1 4 d x0)
    (hG : ∀ d, Gm d = Layout.block ⟨1, ![1024]⟩ ⟨1, ![4096]⟩ 0 4 d x1)
    (hfX : ∀ d i, ∃ x : ℝ, X d i = (x : EReal)) (hfG : ∀ d i, ∃ g : ℝ, Gm d i = (g : EReal)) (c : Dev nD) :
    outArr (F := Ideal) X Gm c = Layout.block ⟨2, ![4096, 1024]⟩ ⟨2, ![4096, 4096]⟩ 1 4 c (refOut x0 x1) := by
  funext i
  obtain ⟨r, col, rfl⟩ : ∃ (r : Fin 4096) (col : Fin 1024), i = ix2 r col := ⟨i 0, i 1, eq_ix2 i⟩

  have eX : ∀ (d : Fin 4) (l : Fin 1024), x0 (ix2 (n0 := 4096) (n1 := 4096) r (colOf d l)) = X d (ix2 (n0 := 4096) (n1 := 1024) r l) := by
    intro d l
    rw [hX d, Layout.block_apply, block_x_idx]
  have eG : x1 (ix1 (n := 4096) (colOf c col)) = Gm c (ix1 (n := 1024) col) := by
    rw [hG c, Layout.block_apply, block_g_idx]

  choose xr hxr using hfX
  choose gr hgr using hfG

  obtain ⟨P, hPdef⟩ : ∃ P : Fin 4 → ℝ, ∀ d, P d
      = ∑ l : Fin 1024, xr d (ix2 (n0 := 4096) (n1 := 1024) r l) * xr d (ix2 (n0 := 4096) (n1 := 1024) r l) :=
    ⟨_, fun _ => rfl⟩
  have hP : ∀ d : Fin 4, rowSq (X d) r = ((P d : ℝ) : EReal) := by
    intro d
    unfold rowSq
    rw [hPdef, coe_sum]
    exact Finset.sum_congr rfl fun l _ => by rw [hxr, EReal.coe_mul]
  have hT : 0 ≤ ∑ d, P d :=
    Finset.sum_nonneg fun d _ => by rw [hPdef]; exact Finset.sum_nonneg fun l _ => mul_self_nonneg _

  have hK : rowSq (X (srcDev c 0)) r + rowSq (X (srcDev c 1)) r + rowSq (X (srcDev c 2)) r + rowSq (X (srcDev c 3)) r
      = ((∑ d, P d : ℝ) : EReal) := by
    rw [hP, hP, hP, hP, ← EReal.coe_add, ← EReal.coe_add, ← EReal.coe_add]
    exact congrArg _ (ring_total P c)

  have hR : ∑ k : Fin 4096, x0 (ix2 (n0 := 4096) (n1 := 4096) r k) * x0 (ix2 (n0 := 4096) (n1 := 4096) r k)
      = ((∑ d, P d : ℝ) : EReal) := by
    rw [sum_blocks, coe_sum]
    refine Finset.sum_congr rfl fun d _ => ?_
    rw [← hP d]
    unfold rowSq
    exact Finset.sum_congr rfl fun l _ => by rw [← eX d l]
  obtain ⟨e, he, hE⟩ := ofBits_eps
  rw [outArr_apply, Layout.block_apply, block_x_idx, refOut_apply, hK, hR, eG, eX c col, hxr, hgr,
    ofBits_inv4096, ofBits_4096, Ideal.ofBits_zero_f32, hE]
  exact rms_law _ _ _ e hT he

/-- info: 'Cert.Proof.Bridge.core' depends on axioms: [propext, Classical.choice, Quot.sound] -/
#guard_msgs in #print axioms core

end Cert.Proof.Bridge

namespace Cert.Proof

open Idealize.ShloMosaic Idealize.SL.Sem

theorem bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![4096]⟩ 0 4 c (m' (((0 : Dev Cert.ReferenceIdeal.nD).tc : Thread Cert.ReferenceIdeal.nD Cert.ReferenceIdeal.τ).loc Cert.ReferenceIdeal.main_arg1)))
    (c : Dev Cert.KernelIdeal.nD) :
    Cert.KernelIdeal.Spec.outArr (F := Ideal) (Cert.KernelIdeal.Spec.Xof m) (Cert.KernelIdeal.Spec.Gof m) c
      = Layout.block ⟨2, ![4096, 1024]⟩ ⟨2, ![4096, 4096]⟩ 1 4 c
          (Cert.ReferenceIdeal.RefValue.refOut
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) :=
  Cert.Proof.Bridge.core _ _ (Cert.KernelIdeal.Spec.Xof m) (Cert.KernelIdeal.Spec.Gof m)
    (fun d => (hagree d).1) (fun d => (hagree d).2)
    (fun d => (Cert.Proof.Bridge.finite_of_pre m hpre d).1) (fun d => (Cert.Proof.Bridge.finite_of_pre m hpre d).2) c

/-- info: 'Cert.Proof.bridge' depends on axioms: [propext, Classical.choice, Quot.sound] -/
#guard_msgs in #print axioms bridge

end Cert.Proof

end
-- ==== Proof.lean ====
import proofs.«901004_g7700000000001005_dist_rmsnorm_colshard_i_m4096_n1024_v7x_i4_bf16_1_alg».proof.Defs
import proofs.«901004_g7700000000001005_dist_rmsnorm_colshard_i_m4096_n1024_v7x_i4_bf16_1_alg».proof.Proof.Gen.Kernel
import proofs.«901004_g7700000000001005_dist_rmsnorm_colshard_i_m4096_n1024_v7x_i4_bf16_1_alg».proof.Proof.Gen.Kernel.Skeleton
import proofs.«901004_g7700000000001005_dist_rmsnorm_colshard_i_m4096_n1024_v7x_i4_bf16_1_alg».proof.Proof.Gen.Kernel.Launch
import proofs.«901004_g7700000000001005_dist_rmsnorm_colshard_i_m4096_n1024_v7x_i4_bf16_1_alg».proof.Proof.Gen.Kernel.Points
import proofs.«901004_g7700000000001005_dist_rmsnorm_colshard_i_m4096_n1024_v7x_i4_bf16_1_alg».proof.Proof.Gen.Kernel.Frame
import proofs.«901004_g7700000000001005_dist_rmsnorm_colshard_i_m4096_n1024_v7x_i4_bf16_1_alg».proof.Proof.Gen.KernelIdeal
import proofs.«901004_g7700000000001005_dist_rmsnorm_colshard_i_m4096_n1024_v7x_i4_bf16_1_alg».proof.Proof.Gen.KernelIdeal.Skeleton
import proofs.«901004_g7700000000001005_dist_rmsnorm_colshard_i_m4096_n1024_v7x_i4_bf16_1_alg».proof.Proof.Gen.KernelIdeal.Launch
import proofs.«901004_g7700000000001005_dist_rmsnorm_colshard_i_m4096_n1024_v7x_i4_bf16_1_alg».proof.Proof.Gen.KernelIdeal.Points
import proofs.«901004_g7700000000001005_dist_rmsnorm_colshard_i_m4096_n1024_v7x_i4_bf16_1_alg».proof.Proof.Gen.KernelIdeal.Frame
import proofs.«901004_g7700000000001005_dist_rmsnorm_colshard_i_m4096_n1024_v7x_i4_bf16_1_alg».proof.Proof.Gen.ReferenceIdeal
import proofs.«901004_g7700000000001005_dist_rmsnorm_colshard_i_m4096_n1024_v7x_i4_bf16_1_alg».proof.Proof.Gen.Pre_finite_inputs_Kernel
import proofs.«901004_g7700000000001005_dist_rmsnorm_colshard_i_m4096_n1024_v7x_i4_bf16_1_alg».proof.Proof.Gen.Pre_finite_inputs_ReferenceIdeal
import proofs.«901004_g7700000000001005_dist_rmsnorm_colshard_i_m4096_n1024_v7x_i4_bf16_1_alg».proof.Proof.Launch
import proofs.«901004_g7700000000001005_dist_rmsnorm_colshard_i_m4096_n1024_v7x_i4_bf16_1_alg».proof.Proof.LaunchKernel
import proofs.«901004_g7700000000001005_dist_rmsnorm_colshard_i_m4096_n1024_v7x_i4_bf16_1_alg».proof.Proof.Bridge
import Idealize.ShloMosaic.Adequacy
import Idealize.ShloMosaic.Init

noncomputable section

namespace Cert.Proof

open Idealize.ShloMosaic Idealize.SL.Sem

theorem frame_p : Cert.frame_Kernel := fun m ρ _ =>
  (θ_run Cert.Kernel.defs _ _).mono (fun _ h c => ⟨(h c).2.1, (h c).2.2⟩) (Cert.Kernel.Proto.run_main (F := Bits) m ρ)

theorem frame_pi : Cert.frame_KernelIdeal := fun m ρ _ =>
  (θ_run Cert.KernelIdeal.defs _ _).mono (fun _ h c => ⟨(h c).2.1, (h c).2.2⟩) (Cert.KernelIdeal.Proto.run_main (F := Ideal) m ρ)

theorem frame_ri : Cert.frame_ReferenceIdeal := Cert.Proof.Claims.frame_ri

theorem preserves : Cert.preserves_Kernel_KernelIdeal := trivial

theorem algebraic : Cert.algebraic_KernelIdeal_ReferenceIdeal := by
  intro m ρ m' ρ' hpre hagree
  refine ⟨Cert.ReferenceIdeal.RefValue.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h c).1.trans (Cert.Proof.bridge m m' hpre hagree c), (h c).2⟩)
      (Cert.KernelIdeal.Proto.run_main (F := Ideal) m ρ)
  · exact (θ_run Cert.ReferenceIdeal.defs _ _).mono
      (fun _ h => ⟨(h 0).1.trans (Cert.ReferenceIdeal.Read.val_main_v13_eq _ _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, frame_ri, preserves, algebraic⟩

/-- info: 'Cert.Proof.claim' depends on axioms: [propext, Classical.choice, Quot.sound] -/
#guard_msgs in #print axioms claim

end Cert.Proof

end
